-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v281)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v281) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v338) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1 : Shape := ⟨2, ![131072, 1]⟩
abbrev S131072x3 : Shape := ⟨2, ![131072, 3]⟩
abbrev S131072x4 : Shape := ⟨2, ![131072, 4]⟩
abbrev S32768x1 : Shape := ⟨2, ![32768, 1]⟩
abbrev S32768x3 : Shape := ⟨2, ![32768, 3]⟩
abbrev S32768x4 : Shape := ⟨2, ![32768, 4]⟩
abbrev S2048x3 : Shape := ⟨2, ![2048, 3]⟩
abbrev S8 : Shape := ⟨1, ![8]⟩
abbrev S2097152 : Shape := ⟨1, ![2097152]⟩
abbrev S32768 : Shape := ⟨1, ![32768]⟩
abbrev S262144 : Shape := ⟨1, ![262144]⟩
abbrev S_ : Shape := ⟨0, ![]⟩

class Facts : Prop where
  bcast_S_S131072x1 : S_.BroadcastsInDim S131072x1 (![] : Fin 0 → Fin S131072x1.rank)
  reducesTo_S131072x1_S_d0_1 : S131072x1.ReducesTo [0, 1] S_
  h_S_ : 0 < S_.numel
  bcast_S_S131072x3 : S_.BroadcastsInDim S131072x3 (![] : Fin 0 → Fin S131072x3.rank)
  reducesTo_S131072x3_S_d0_1 : S131072x3.ReducesTo [0, 1] S_
  bcast_S_S131072x4 : S_.BroadcastsInDim S131072x4 (![] : Fin 0 → Fin S131072x4.rank)
  reducesTo_S131072x4_S_d0_1 : S131072x4.ReducesTo [0, 1] S_
  bcast_S_S32768x1 : S_.BroadcastsInDim S32768x1 (![] : Fin 0 → Fin S32768x1.rank)
  reducesTo_S32768x1_S_d0_1 : S32768x1.ReducesTo [0, 1] S_
  bcast_S_S32768x3 : S_.BroadcastsInDim S32768x3 (![] : Fin 0 → Fin S32768x3.rank)
  reducesTo_S32768x3_S_d0_1 : S32768x3.ReducesTo [0, 1] S_
  bcast_S_S32768x4 : S_.BroadcastsInDim S32768x4 (![] : Fin 0 → Fin S32768x4.rank)
  reducesTo_S32768x4_S_d0_1 : S32768x4.ReducesTo [0, 1] S_
  bcast_S_S2048x3 : S_.BroadcastsInDim S2048x3 (![] : Fin 0 → Fin S2048x3.rank)
  reducesTo_S2048x3_S_d0_1 : S2048x3.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg7 : FVec F S32768x3 .f32) (main_arg8 : FVec F S32768x4 .f32) (main_arg9 : FVec F S2048x3 .f32) (main_arg10 : FVec F S8 .f32) (main_v33 : IVec S_ 1) : IVec S_ 1 :=
  let main_v34 : FVec F S32768x3 .f32 := Host.absf main_arg7
  let main_cst_12 : FVec F S_ .f32 := constant S_ .f32 0x7F800000#32
  let main_v35 : FVec F S32768x3 .f32 := broadcastInDim S32768x3 ![] bcast_S_S32768x3 main_cst_12
  let main_v36 : IVec S32768x3 1 := cmpf .olt main_v34 main_v35
  let main_c_13 : IVec S_ 1 := constantI S_ 1 1#1
  let main_v37 : IVec S_ 1 := (fun x v => Host.reduce IntOp.andi x v reducesTo_S32768x3_S_d0_1 h_S_) main_v36 main_c_13
  let main_v38 : IVec S_ 1 := andi main_v33 main_v37
  let main_v39 : FVec F S32768x4 .f32 := Host.absf main_arg8
  let main_cst_14 : FVec F S_ .f32 := constant S_ .f32 0x7F800000#32
  let main_v40 : FVec F S32768x4 .f32 := broadcastInDim S32768x4 ![] bcast_S_S32768x4 main_cst_14
  let main_v41 : IVec S32768x4 1 := cmpf .olt main_v39 main_v40
  let main_c_15 : IVec S_ 1 := constantI S_ 1 1#1
  let main_v42 : IVec S_ 1 := (fun x v => Host.reduce IntOp.andi x v reducesTo_S32768x4_S_d0_1 h_S_) main_v41 main_c_15
  let main_v43 : IVec S_ 1 := andi main_v38 main_v42
  let main_v44 : FVec F S2048x3 .f32 := Host.absf main_arg9
  let main_cst_16 : FVec F S_ .f32 := constant S_ .f32 0x7F800000#32
  let main_v45 : FVec F S2048x3 .f32 := broadcastInDim S2048x3 ![] bcast_S_S2048x3 main_cst_16
  let main_v46 : IVec S2048x3 1 := cmpf .olt main_v44 main_v45
  let main_c_17 : IVec S_ 1 := constantI S_ 1 1#1
  let main_v47 : IVec S_ 1 := (fun x v => Host.reduce IntOp.andi x v reducesTo_S2048x3_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg4 : FVec F S32768x3 .f32) (main_arg5 : FVec F S32768x4 .f32) (main_arg6 : FVec F S32768x1 .f32) (main_arg7 : FVec F S32768x3 .f32) (main_arg8 : FVec F S32768x4 .f32) (main_arg9 : FVec F S2048x3 .f32) (main_arg10 : FVec F S8 .f32) (main_v13 : IVec S_ 1) (main_v16 : IVec S32768x1 1) : IVec S_ 1 :=
  let main_c_5 : IVec S_ 1 := constantI S_ 1 1#1
  let main_v17 : IVec S_ 1 := (fun x v => Host.reduce IntOp.andi x v reducesTo_S32768x1_S_d0_1 h_S_) main_v16 main_c_5
  let main_v18 : IVec S_ 1 := andi main_v13 main_v17
  let main_v19 : FVec F S32768x3 .f32 := Host.absf main_arg4
  let main_cst_6 : FVec F S_ .f32 := constant S_ .f32 0x7F800000#32
  let main_v20 : FVec F S32768x3 .f32 := broadcastInDim S32768x3 ![] bcast_S_S32768x3 main_cst_6
  let main_v21 : IVec S32768x3 1 := cmpf .olt main_v19 main_v20
  let main_c_7 : IVec S_ 1 := constantI S_ 1 1#1
  let main_v22 : IVec S_ 1 := (fun x v => Host.reduce IntOp.andi x v reducesTo_S32768x3_S_d0_1 h_S_) main_v21 main_c_7
  let main_v23 : IVec S_ 1 := andi main_v18 main_v22
  let main_v24 : FVec F S32768x4 .f32 := Host.absf main_arg5
  let main_cst_8 : FVec F S_ .f32 := constant S_ .f32 0x7F800000#32
  let main_v25 : FVec F S32768x4 .f32 := broadcastInDim S32768x4 ![] bcast_S_S32768x4 main_cst_8
  let main_v26 : IVec S32768x4 1 := cmpf .olt main_v24 main_v25
  let main_c_9 : IVec S_ 1 := constantI S_ 1 1#1
  let main_v27 : IVec S_ 1 := (fun x v => Host.reduce IntOp.andi x v reducesTo_S32768x4_S_d0_1 h_S_) main_v26 main_c_9
  let main_v28 : IVec S_ 1 := andi main_v23 main_v27
  let main_v29 : FVec F S32768x1 .f32 := Host.absf main_arg6
  let main_cst_10 : FVec F S_ .f32 := constant S_ .f32 0x7F800000#32
  let main_v30 : FVec F S32768x1 .f32 := broadcastInDim S32768x1 ![] bcast_S_S32768x1 main_cst_10
  let main_v31 : IVec S32768x1 1 := cmpf .olt main_v29 main_v30
  let main_c_11 : IVec S_ 1 := constantI S_ 1 1#1
  let main_v32 : IVec S_ 1 := (fun x v => Host.reduce IntOp.andi x v reducesTo_S32768x1_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S131072x1 .f32) (main_arg1 : FVec F S131072x3 .f32) (main_arg2 : FVec F S131072x4 .f32) (main_arg3 : FVec F S32768x1 .f32) (main_arg4 : FVec F S32768x3 .f32) (main_arg5 : FVec F S32768x4 .f32) (main_arg6 : FVec F S32768x1 .f32) (main_arg7 : FVec F S32768x3 .f32) (main_arg8 : FVec F S32768x4 .f32) (main_arg9 : FVec F S2048x3 .f32) (main_arg10 : FVec F S8 .f32) (main_arg11 : IVec S2097152 32) (main_arg12 : IVec S2097152 32) (main_arg13 : IVec S32768 32) (main_arg14 : IVec S32768 32) (main_arg15 : IVec S32768 32) (main_arg16 : IVec S262144 32) (main_arg17 : IVec S262144 32) (main_arg18 : IVec S32768 32) (main_arg19 : IVec S32768 32) (main_arg20 : IVec S32768 32) (main_arg21 : IVec S262144 32) (main_arg22 : IVec S262144 32) : IVec S_ 1 :=
  let main_v0 : FVec F S131072x1 .f32 := Host.absf main_arg0
  let main_cst : FVec F S_ .f32 := constant S_ .f32 0x7F800000#32
  let main_v1 : FVec F S131072x1 .f32 := broadcastInDim S131072x1 ![] bcast_S_S131072x1 main_cst
  let main_v2 : IVec S131072x1 1 := cmpf .olt main_v0 main_v1
  let main_c : IVec S_ 1 := constantI S_ 1 1#1
  let main_v3 : IVec S_ 1 := (fun x v => Host.reduce IntOp.andi x v reducesTo_S131072x1_S_d0_1 h_S_) main_v2 main_c
  let main_v4 : FVec F S131072x3 .f32 := Host.absf main_arg1
  let main_cst_0 : FVec F S_ .f32 := constant S_ .f32 0x7F800000#32
  let main_v5 : FVec F S131072x3 .f32 := broadcastInDim S131072x3 ![] bcast_S_S131072x3 main_cst_0
  let main_v6 : IVec S131072x3 1 := cmpf .olt main_v4 main_v5
  let main_c_1 : IVec S_ 1 := constantI S_ 1 1#1
  let main_v7 : IVec S_ 1 := (fun x v => Host.reduce IntOp.andi x v reducesTo_S131072x3_S_d0_1 h_S_) main_v6 main_c_1
  let main_v8 : IVec S_ 1 := andi main_v3 main_v7
  let main_v9 : FVec F S131072x4 .f32 := Host.absf main_arg2
  let main_cst_2 : FVec F S_ .f32 := constant S_ .f32 0x7F800000#32
  let main_v10 : FVec F S131072x4 .f32 := broadcastInDim S131072x4 ![] bcast_S_S131072x4 main_cst_2
  let main_v11 : IVec S131072x4 1 := cmpf .olt main_v9 main_v10
  let main_c_3 : IVec S_ 1 := constantI S_ 1 1#1
  let main_v12 : IVec S_ 1 := (fun x v => Host.reduce IntOp.andi x v reducesTo_S131072x4_S_d0_1 h_S_) main_v11 main_c_3
  let main_v13 : IVec S_ 1 := andi main_v8 main_v12
  let main_v14 : FVec F S32768x1 .f32 := Host.absf main_arg3
  let main_cst_4 : FVec F S_ .f32 := constant S_ .f32 0x7F800000#32
  let main_v15 : FVec F S32768x1 .f32 := broadcastInDim S32768x1 ![] bcast_S_S32768x1 main_cst_4
  let main_v16 : IVec S32768x1 1 := cmpf .olt main_v14 main_v15
  fn_part1 (F := F) main_arg4 main_arg5 main_arg6 main_arg7 main_arg8 main_arg9 main_arg10 main_v13 main_v16
-- ==== Kernel.lean ====
abbrev S131072x1 : Shape := ⟨2, ![131072, 1]⟩
abbrev S131072x3 : Shape := ⟨2, ![131072, 3]⟩
abbrev S131072x4 : Shape := ⟨2, ![131072, 4]⟩
abbrev S32768x1 : Shape := ⟨2, ![32768, 1]⟩
abbrev S32768x3 : Shape := ⟨2, ![32768, 3]⟩
abbrev S32768x4 : Shape := ⟨2, ![32768, 4]⟩
abbrev S2048x3 : Shape := ⟨2, ![2048, 3]⟩
abbrev S8 : Shape := ⟨1, ![8]⟩
abbrev S2097152 : Shape := ⟨1, ![2097152]⟩
abbrev S32768 : Shape := ⟨1, ![32768]⟩
abbrev S262144 : Shape := ⟨1, ![262144]⟩
abbrev S_ : Shape := ⟨0, ![]⟩
abbrev S131072 : Shape := ⟨1, ![131072]⟩
abbrev S2097152x1 : Shape := ⟨2, ![2097152, 1]⟩
abbrev S2097152x3 : Shape := ⟨2, ![2097152, 3]⟩
abbrev S131072x9 : Shape := ⟨2, ![131072, 9]⟩
abbrev S1x3 : Shape := ⟨2, ![1, 3]⟩
abbrev S8192x9 : Shape := ⟨2, ![8192, 9]⟩
abbrev S8192x1 : Shape := ⟨2, ![8192, 1]⟩
abbrev S8192x3 : Shape := ⟨2, ![8192, 3]⟩
abbrev S8192 : Shape := ⟨1, ![8192]⟩
abbrev S1 : Shape := ⟨1, ![1]⟩
abbrev S1x1 : Shape := ⟨2, ![1, 1]⟩
abbrev S3 : Shape := ⟨1, ![3]⟩
abbrev S32768x2 : Shape := ⟨2, ![32768, 2]⟩
abbrev S1024x3 : Shape := ⟨2, ![1024, 3]⟩
abbrev S1024x1 : Shape := ⟨2, ![1024, 1]⟩
abbrev S3x2048 : Shape := ⟨2, ![3, 2048]⟩
abbrev S1024 : Shape := ⟨1, ![1024]⟩
abbrev S2048 : Shape := ⟨1, ![2048]⟩
abbrev S1x2048 : Shape := ⟨2, ![1, 2048]⟩
abbrev S1024x2048 : Shape := ⟨2, ![1024, 2048]⟩
abbrev S262144x1 : Shape := ⟨2, ![262144, 1]⟩
abbrev S262144x3 : Shape := ⟨2, ![262144, 3]⟩
abbrev S8192x4 : Shape := ⟨2, ![8192, 4]⟩

abbrev nBuf : Space → Nat
  | .hbm => 406
  | .vmem => 19
  | .smem => 0
  | _ => 0

abbrev hbmTy0_0 (i : Nat) : BufTy := match i % 128 with
  | 0 => ⟨S131072x1, .f32⟩
  | 1 => ⟨S131072x3, .f32⟩
  | 2 => ⟨S131072x4, .f32⟩
  | 3 => ⟨S32768x1, .f32⟩
  | 4 => ⟨S32768x3, .f32⟩
  | 5 => ⟨S32768x4, .f32⟩
  | 6 => ⟨S32768x1, .f32⟩
  | 7 => ⟨S32768x3, .f32⟩
  | 8 => ⟨S32768x4, .f32⟩
  | 9 => ⟨S2048x3, .f32⟩
  | 10 => ⟨S8, .f32⟩
  | 11 => ⟨S2097152, .i32⟩
  | 12 => ⟨S2097152, .i32⟩
  | 13 => ⟨S32768, .i32⟩
  | 14 => ⟨S32768, .i32⟩
  | 15 => ⟨S32768, .i32⟩
  | 16 => ⟨S262144, .i32⟩
  | 17 => ⟨S262144, .i32⟩
  | 18 => ⟨S32768, .i32⟩
  | 19 => ⟨S32768, .i32⟩
  | 20 => ⟨S32768, .i32⟩
  | 21 => ⟨S262144, .i32⟩
  | 22 => ⟨S262144, .i32⟩
  | 23 => ⟨S_, .f32⟩
  | 24 => ⟨S2097152, .f32⟩
  | 25 => ⟨S_, .f32⟩
  | 26 => ⟨S131072, .f32⟩
  | 27 => ⟨S2097152x1, .i32⟩
  | 28 => ⟨S131072, .f32⟩
  | 29 => ⟨S_, .f32⟩
  | 30 => ⟨S131072, .f32⟩
  | 31 => ⟨S131072, .f32⟩
  | 32 => ⟨S131072x1, .f32⟩
  | 33 => ⟨S_, .i32⟩
  | 34 => ⟨S2097152, .i32⟩
  | 35 => ⟨S2097152, .i1⟩
  | 36 => ⟨S_, .i32⟩
  | 37 => ⟨S2097152, .i32⟩
  | 38 => ⟨S2097152, .i32⟩
  | 39 => ⟨S2097152, .i32⟩
  | 40 => ⟨S2097152x1, .i32⟩
  | 41 => ⟨S2097152x3, .f32⟩
  | 42 => ⟨S_, .f32⟩
  | 43 => ⟨S131072x3, .f32⟩
  | 44 => ⟨S2097152x1, .i32⟩
  | 45 => ⟨S131072x3, .f32⟩
  | 46 => ⟨S131072x3, .f32⟩
  | 47 => ⟨S131072x3, .f32⟩
  | 48 => ⟨S131072x1, .f32⟩
  | 49 => ⟨S_, .i32⟩
  | 50 => ⟨S2097152, .i32⟩
  | 51 => ⟨S2097152, .i1⟩
  | 52 => ⟨S_, .i32⟩
  | 53 => ⟨S2097152, .i32⟩
  | 54 => ⟨S2097152, .i32⟩
  | 55 => ⟨S2097152, .i32⟩
  | 56 => ⟨S2097152x1, .i32⟩
  | 57 => ⟨S2097152x1, .f32⟩
  | 58 => ⟨S_, .f32⟩
  | 59 => ⟨S131072x1, .f32⟩
  | 60 => ⟨S2097152x1, .i32⟩
  | 61 => ⟨S131072x1, .f32⟩
  | 62 => ⟨S131072x1, .f32⟩
  | 63 => ⟨S131072x9, .f32⟩
  | 64 => ⟨S1x3, .f32⟩
  | 65 => ⟨S3, .f32⟩
  | 66 => ⟨S1, .f32⟩
  | 67 => ⟨S_, .f32⟩
  | 68 => ⟨S_, .f32⟩
  | 69 => ⟨S_, .f32⟩
  | 70 => ⟨S1, .f32⟩
  | 71 => ⟨S_, .f32⟩
  | 72 => ⟨S_, .f32⟩
  | 73 => ⟨S_, .f32⟩
  | 74 => ⟨S1, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .i32⟩
  | 87 => ⟨S32768, .i32⟩
  | 88 => ⟨S32768, .i1⟩
  | 89 => ⟨S_, .i32⟩
  | 90 => ⟨S32768, .i32⟩
  | 91 => ⟨S32768, .i32⟩
  | 92 => ⟨S32768, .i32⟩
  | 93 => ⟨S32768x1, .i32⟩
  | 94 => ⟨S32768, .f32⟩
  | 95 => ⟨S_, .f32⟩
  | 96 => ⟨S_, .f32⟩
  | 97 => ⟨S32768, .f32⟩
  | 98 => ⟨S32768, .f32⟩
  | 99 => ⟨S32768x1, .f32⟩
  | 100 => ⟨S_, .i32⟩
  | 101 => ⟨S32768, .i32⟩
  | 102 => ⟨S32768, .i1⟩
  | 103 => ⟨S_, .i32⟩
  | 104 => ⟨S32768, .i32⟩
  | 105 => ⟨S32768, .i32⟩
  | 106 => ⟨S32768, .i32⟩
  | 107 => ⟨S32768x1, .i32⟩
  | 108 => ⟨S32768x3, .f32⟩
  | 109 => ⟨S_, .i32⟩
  | 110 => ⟨S32768, .i32⟩
  | 111 => ⟨S32768, .i1⟩
  | 112 => ⟨S_, .i32⟩
  | 113 => ⟨S32768, .i32⟩
  | 114 => ⟨S32768, .i32⟩
  | 115 => ⟨S32768, .i32⟩
  | 116 => ⟨S32768x1, .i32⟩
  | 117 => ⟨S32768x3, .f32⟩
  | 118 => ⟨S32768x3, .f32⟩
  | 119 => ⟨S32768x3, .f32⟩
  | 120 => ⟨S_, .f32⟩
  | 121 => ⟨S32768, .f32⟩
  | 122 => ⟨S32768x1, .f32⟩
  | 123 => ⟨S32768x1, .f32⟩
  | 124 => ⟨S_, .f32⟩
  | 125 => ⟨S32768x1, .f32⟩
  | 126 => ⟨S32768x1, .f32⟩
  | 127 => ⟨S32768x3, .f32⟩
  | _ => ⟨S131072x1, .f32⟩

abbrev hbmTy0_1 (i : Nat) : BufTy := match i % 128 with
  | 0 => ⟨S32768x3, .f32⟩
  | 1 => ⟨S_, .i32⟩
  | 2 => ⟨S32768, .i32⟩
  | 3 => ⟨S32768, .i1⟩
  | 4 => ⟨S_, .i32⟩
  | 5 => ⟨S32768, .i32⟩
  | 6 => ⟨S32768, .i32⟩
  | 7 => ⟨S32768, .i32⟩
  | 8 => ⟨S32768x1, .i32⟩
  | 9 => ⟨S_, .i32⟩
  | 10 => ⟨S32768x1, .i32⟩
  | 11 => ⟨S32768x2, .i32⟩
  | 12 => ⟨S32768x1, .f32⟩
  | 13 => ⟨S32768x1, .f32⟩
  | 14 => ⟨S_, .i32⟩
  | 15 => ⟨S32768, .i32⟩
  | 16 => ⟨S32768, .i1⟩
  | 17 => ⟨S_, .i32⟩
  | 18 => ⟨S32768, .i32⟩
  | 19 => ⟨S32768, .i32⟩
  | 20 => ⟨S32768, .i32⟩
  | 21 => ⟨S32768x1, .i32⟩
  | 22 => ⟨S32768x3, .f32⟩
  | 23 => ⟨S32768x3, .f32⟩
  | 24 => ⟨S32768x3, .f32⟩
  | 25 => ⟨S_, .i32⟩
  | 26 => ⟨S32768, .i32⟩
  | 27 => ⟨S32768, .i1⟩
  | 28 => ⟨S_, .i32⟩
  | 29 => ⟨S32768, .i32⟩
  | 30 => ⟨S32768, .i32⟩
  | 31 => ⟨S32768, .i32⟩
  | 32 => ⟨S32768x1, .i32⟩
  | 33 => ⟨S32768x1, .f32⟩
  | 34 => ⟨S32768x3, .f32⟩
  | 35 => ⟨S32768x3, .f32⟩
  | 36 => ⟨S32768x3, .f32⟩
  | 37 => ⟨S32768x1, .f32⟩
  | 38 => ⟨S_, .f32⟩
  | 39 => ⟨S32768x1, .f32⟩
  | 40 => ⟨S_, .i32⟩
  | 41 => ⟨S32768, .i32⟩
  | 42 => ⟨S32768, .i1⟩
  | 43 => ⟨S_, .i32⟩
  | 44 => ⟨S32768, .i32⟩
  | 45 => ⟨S32768, .i32⟩
  | 46 => ⟨S32768, .i32⟩
  | 47 => ⟨S32768x1, .i32⟩
  | 48 => ⟨S32768x1, .f32⟩
  | 49 => ⟨S_, .i32⟩
  | 50 => ⟨S262144, .i32⟩
  | 51 => ⟨S262144, .i1⟩
  | 52 => ⟨S_, .i32⟩
  | 53 => ⟨S262144, .i32⟩
  | 54 => ⟨S262144, .i32⟩
  | 55 => ⟨S262144, .i32⟩
  | 56 => ⟨S262144x1, .i32⟩
  | 57 => ⟨S262144x3, .f32⟩
  | 58 => ⟨S_, .i32⟩
  | 59 => ⟨S262144, .i32⟩
  | 60 => ⟨S262144, .i1⟩
  | 61 => ⟨S_, .i32⟩
  | 62 => ⟨S262144, .i32⟩
  | 63 => ⟨S262144, .i32⟩
  | 64 => ⟨S262144, .i32⟩
  | 65 => ⟨S262144x1, .i32⟩
  | 66 => ⟨S262144x3, .f32⟩
  | 67 => ⟨S262144x3, .f32⟩
  | 68 => ⟨S262144x3, .f32⟩
  | 69 => ⟨S_, .f32⟩
  | 70 => ⟨S262144, .f32⟩
  | 71 => ⟨S_, .f32⟩
  | 72 => ⟨S32768, .f32⟩
  | 73 => ⟨S262144x1, .i32⟩
  | 74 => ⟨S32768, .f32⟩
  | 75 => ⟨S_, .f32⟩
  | 76 => ⟨S262144, .f32⟩
  | 77 => ⟨S_, .f32⟩
  | 78 => ⟨S32768, .f32⟩
  | 79 => ⟨S262144x1, .i32⟩
  | 80 => ⟨S32768, .f32⟩
  | 81 => ⟨S_, .f32⟩
  | 82 => ⟨S32768, .f32⟩
  | 83 => ⟨S32768, .i1⟩
  | 84 => ⟨S_, .f32⟩
  | 85 => ⟨S32768, .f32⟩
  | 86 => ⟨S32768, .f32⟩
  | 87 => ⟨S32768, .f32⟩
  | 88 => ⟨S32768, .f32⟩
  | 89 => ⟨S_, .f32⟩
  | 90 => ⟨S_, .f32⟩
  | 91 => ⟨S32768, .f32⟩
  | 92 => ⟨S32768, .f32⟩
  | 93 => ⟨S32768x1, .f32⟩
  | 94 => ⟨S32768x4, .f32⟩
  | 95 => ⟨S1x3, .f32⟩
  | 96 => ⟨S3, .f32⟩
  | 97 => ⟨S1, .f32⟩
  | 98 => ⟨S_, .f32⟩
  | 99 => ⟨S_, .f32⟩
  | 100 => ⟨S_, .f32⟩
  | 101 => ⟨S1, .f32⟩
  | 102 => ⟨S_, .f32⟩
  | 103 => ⟨S_, .f32⟩
  | 104 => ⟨S_, .f32⟩
  | 105 => ⟨S1, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .i32⟩
  | 119 => ⟨S32768, .i32⟩
  | 120 => ⟨S32768, .i1⟩
  | 121 => ⟨S_, .i32⟩
  | 122 => ⟨S32768, .i32⟩
  | 123 => ⟨S32768, .i32⟩
  | 124 => ⟨S32768, .i32⟩
  | 125 => ⟨S32768x1, .i32⟩
  | 126 => ⟨S32768, .f32⟩
  | 127 => ⟨S_, .f32⟩
  | _ => ⟨S131072x1, .f32⟩

abbrev hbmTy0_2 (i : Nat) : BufTy := match i % 128 with
  | 0 => ⟨S_, .f32⟩
  | 1 => ⟨S32768, .f32⟩
  | 2 => ⟨S32768, .f32⟩
  | 3 => ⟨S32768x1, .f32⟩
  | 4 => ⟨S_, .i32⟩
  | 5 => ⟨S32768, .i32⟩
  | 6 => ⟨S32768, .i1⟩
  | 7 => ⟨S_, .i32⟩
  | 8 => ⟨S32768, .i32⟩
  | 9 => ⟨S32768, .i32⟩
  | 10 => ⟨S32768, .i32⟩
  | 11 => ⟨S32768x1, .i32⟩
  | 12 => ⟨S32768x3, .f32⟩
  | 13 => ⟨S_, .i32⟩
  | 14 => ⟨S32768, .i32⟩
  | 15 => ⟨S32768, .i1⟩
  | 16 => ⟨S_, .i32⟩
  | 17 => ⟨S32768, .i32⟩
  | 18 => ⟨S32768, .i32⟩
  | 19 => ⟨S32768, .i32⟩
  | 20 => ⟨S32768x1, .i32⟩
  | 21 => ⟨S32768x3, .f32⟩
  | 22 => ⟨S32768x3, .f32⟩
  | 23 => ⟨S32768x3, .f32⟩
  | 24 => ⟨S_, .f32⟩
  | 25 => ⟨S32768, .f32⟩
  | 26 => ⟨S32768x1, .f32⟩
  | 27 => ⟨S32768x1, .f32⟩
  | 28 => ⟨S_, .f32⟩
  | 29 => ⟨S32768x1, .f32⟩
  | 30 => ⟨S32768x1, .f32⟩
  | 31 => ⟨S32768x3, .f32⟩
  | 32 => ⟨S32768x3, .f32⟩
  | 33 => ⟨S_, .i32⟩
  | 34 => ⟨S32768, .i32⟩
  | 35 => ⟨S32768, .i1⟩
  | 36 => ⟨S_, .i32⟩
  | 37 => ⟨S32768, .i32⟩
  | 38 => ⟨S32768, .i32⟩
  | 39 => ⟨S32768, .i32⟩
  | 40 => ⟨S32768x1, .i32⟩
  | 41 => ⟨S_, .i32⟩
  | 42 => ⟨S32768x1, .i32⟩
  | 43 => ⟨S32768x2, .i32⟩
  | 44 => ⟨S32768x1, .f32⟩
  | 45 => ⟨S32768x1, .f32⟩
  | 46 => ⟨S_, .i32⟩
  | 47 => ⟨S32768, .i32⟩
  | 48 => ⟨S32768, .i1⟩
  | 49 => ⟨S_, .i32⟩
  | 50 => ⟨S32768, .i32⟩
  | 51 => ⟨S32768, .i32⟩
  | 52 => ⟨S32768, .i32⟩
  | 53 => ⟨S32768x1, .i32⟩
  | 54 => ⟨S32768x3, .f32⟩
  | 55 => ⟨S32768x3, .f32⟩
  | 56 => ⟨S32768x3, .f32⟩
  | 57 => ⟨S_, .i32⟩
  | 58 => ⟨S32768, .i32⟩
  | 59 => ⟨S32768, .i1⟩
  | 60 => ⟨S_, .i32⟩
  | 61 => ⟨S32768, .i32⟩
  | 62 => ⟨S32768, .i32⟩
  | 63 => ⟨S32768, .i32⟩
  | 64 => ⟨S32768x1, .i32⟩
  | 65 => ⟨S32768x1, .f32⟩
  | 66 => ⟨S32768x3, .f32⟩
  | 67 => ⟨S32768x3, .f32⟩
  | 68 => ⟨S32768x3, .f32⟩
  | 69 => ⟨S32768x1, .f32⟩
  | 70 => ⟨S_, .f32⟩
  | 71 => ⟨S32768x1, .f32⟩
  | 72 => ⟨S_, .i32⟩
  | 73 => ⟨S32768, .i32⟩
  | 74 => ⟨S32768, .i1⟩
  | 75 => ⟨S_, .i32⟩
  | 76 => ⟨S32768, .i32⟩
  | 77 => ⟨S32768, .i32⟩
  | 78 => ⟨S32768, .i32⟩
  | 79 => ⟨S32768x1, .i32⟩
  | 80 => ⟨S32768x1, .f32⟩
  | 81 => ⟨S_, .i32⟩
  | 82 => ⟨S262144, .i32⟩
  | 83 => ⟨S262144, .i1⟩
  | 84 => ⟨S_, .i32⟩
  | 85 => ⟨S262144, .i32⟩
  | 86 => ⟨S262144, .i32⟩
  | 87 => ⟨S262144, .i32⟩
  | 88 => ⟨S262144x1, .i32⟩
  | 89 => ⟨S262144x3, .f32⟩
  | 90 => ⟨S_, .i32⟩
  | 91 => ⟨S262144, .i32⟩
  | 92 => ⟨S262144, .i1⟩
  | 93 => ⟨S_, .i32⟩
  | 94 => ⟨S262144, .i32⟩
  | 95 => ⟨S262144, .i32⟩
  | 96 => ⟨S262144, .i32⟩
  | 97 => ⟨S262144x1, .i32⟩
  | 98 => ⟨S262144x3, .f32⟩
  | 99 => ⟨S262144x3, .f32⟩
  | 100 => ⟨S262144x3, .f32⟩
  | 101 => ⟨S_, .f32⟩
  | 102 => ⟨S262144, .f32⟩
  | 103 => ⟨S_, .f32⟩
  | 104 => ⟨S32768, .f32⟩
  | 105 => ⟨S262144x1, .i32⟩
  | 106 => ⟨S32768, .f32⟩
  | 107 => ⟨S_, .f32⟩
  | 108 => ⟨S262144, .f32⟩
  | 109 => ⟨S_, .f32⟩
  | 110 => ⟨S32768, .f32⟩
  | 111 => ⟨S262144x1, .i32⟩
  | 112 => ⟨S32768, .f32⟩
  | 113 => ⟨S_, .f32⟩
  | 114 => ⟨S32768, .f32⟩
  | 115 => ⟨S32768, .i1⟩
  | 116 => ⟨S_, .f32⟩
  | 117 => ⟨S32768, .f32⟩
  | 118 => ⟨S32768, .f32⟩
  | 119 => ⟨S32768, .f32⟩
  | 120 => ⟨S32768, .f32⟩
  | 121 => ⟨S_, .f32⟩
  | 122 => ⟨S_, .f32⟩
  | 123 => ⟨S32768, .f32⟩
  | 124 => ⟨S32768, .f32⟩
  | 125 => ⟨S32768x1, .f32⟩
  | 126 => ⟨S32768x4, .f32⟩
  | 127 => ⟨S1x3, .f32⟩
  | _ => ⟨S131072x1, .f32⟩

abbrev hbmTy0_3 (i : Nat) : BufTy := match i % 128 with
  | 0 => ⟨S3, .f32⟩
  | 1 => ⟨S1, .f32⟩
  | 2 => ⟨S_, .f32⟩
  | 3 => ⟨S_, .f32⟩
  | 4 => ⟨S_, .f32⟩
  | 5 => ⟨S1, .f32⟩
  | 6 => ⟨S_, .f32⟩
  | 7 => ⟨S_, .f32⟩
  | 8 => ⟨S_, .f32⟩
  | 9 => ⟨S1, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | _ => ⟨S131072x1, .f32⟩

abbrev hbmTy (i : Nat) : BufTy := match i / 128 with
  | 0 => hbmTy0_0 i
  | 1 => hbmTy0_1 i
  | 2 => hbmTy0_2 i
  | 3 => hbmTy0_3 i
  | _ => ⟨S131072x1, .f32⟩

abbrev bufTy : (tb : Table) → Fin (tcTables nBuf tb) → BufTy
  | .hbm, ⟨i, _⟩ => hbmTy i
  | .local _ .vmem, ⟨0, _⟩ => ⟨S8192x9, .f32⟩
  | .local _ .vmem, ⟨1, _⟩ => ⟨S8192x9, .f32⟩
  | .local _ .vmem, ⟨2, _⟩ => ⟨S1x3, .f32⟩
  | .local _ .vmem, ⟨3, _⟩ => ⟨S1024x3, .f32⟩
  | .local _ .vmem, ⟨4, _⟩ => ⟨S1024x3, .f32⟩
  | .local _ .vmem, ⟨5, _⟩ => ⟨S2048x3, .f32⟩
  | .local _ .vmem, ⟨6, _⟩ => ⟨S1024x1, .f32⟩
  | .local _ .vmem, ⟨7, _⟩ => ⟨S1024x1, .f32⟩
  | .local _ .vmem, ⟨8, _⟩ => ⟨S8192x4, .f32⟩
  | .local _ .vmem, ⟨9, _⟩ => ⟨S8192x4, .f32⟩
  | .local _ .vmem, ⟨10, _⟩ => ⟨S1x3, .f32⟩
  | .local _ .vmem, ⟨11, _⟩ => ⟨S1024x3, .f32⟩
  | .local _ .vmem, ⟨12, _⟩ => ⟨S1024x3, .f32⟩
  | .local _ .vmem, ⟨13, _⟩ => ⟨S2048x3, .f32⟩
  | .local _ .vmem, ⟨14, _⟩ => ⟨S1024x1, .f32⟩
  | .local _ .vmem, ⟨15, _⟩ => ⟨S1024x1, .f32⟩
  | .local _ .vmem, ⟨16, _⟩ => ⟨S8192x4, .f32⟩
  | .local _ .vmem, ⟨17, _⟩ => ⟨S8192x4, .f32⟩
  | .local _ .vmem, ⟨18, _⟩ => ⟨S1x3, .f32⟩
  | _, _ => ⟨S131072x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_cst_0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst_1 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_c_5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_6 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_7 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_8 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_9 : Ref sig .tc := ⟨.hbm, 76, rfl⟩
abbrev main_v42 : Ref sig .tc := ⟨.hbm, 77, rfl⟩
abbrev main_cst_10 : Ref sig .tc := ⟨.hbm, 78, rfl⟩
abbrev main_v43 : Ref sig .tc := ⟨.hbm, 79, rfl⟩
abbrev main_cst_11 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_12 : Ref sig .tc := ⟨.hbm, 84, rfl⟩
abbrev main_v47 : Ref sig .tc := ⟨.hbm, 85, rfl⟩
abbrev main_c_13 : Ref sig .tc := ⟨.hbm, 86, rfl⟩
abbrev main_v48 : Ref sig .tc := ⟨.hbm, 87, rfl⟩
abbrev main_v49 : Ref sig .tc := ⟨.hbm, 88, rfl⟩
abbrev main_c_14 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_15 : Ref sig .tc := ⟨.hbm, 95, rfl⟩
abbrev main_call0_v0 : Ref sig .tc := ⟨.hbm, 96, rfl⟩
abbrev main_call0_v1 : Ref sig .tc := ⟨.hbm, 97, rfl⟩
abbrev main_v55 : Ref sig .tc := ⟨.hbm, 98, rfl⟩
abbrev main_v56 : Ref sig .tc := ⟨.hbm, 99, rfl⟩
abbrev main_c_16 : Ref sig .tc := ⟨.hbm, 100, rfl⟩
abbrev main_v57 : Ref sig .tc := ⟨.hbm, 101, rfl⟩
abbrev main_v58 : Ref sig .tc := ⟨.hbm, 102, rfl⟩
abbrev main_c_17 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_c_18 : Ref sig .tc := ⟨.hbm, 109, rfl⟩
abbrev main_v64 : Ref sig .tc := ⟨.hbm, 110, rfl⟩
abbrev main_v65 : Ref sig .tc := ⟨.hbm, 111, rfl⟩
abbrev main_c_19 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_call1_v0 : Ref sig .tc := ⟨.hbm, 119, rfl⟩
abbrev main_call1_cst : Ref sig .tc := ⟨.hbm, 120, rfl⟩
abbrev main_call1_v1 : Ref sig .tc := ⟨.hbm, 121, rfl⟩
abbrev main_call1_v2 : Ref sig .tc := ⟨.hbm, 122, rfl⟩
abbrev main_v72 : Ref sig .tc := ⟨.hbm, 123, rfl⟩
abbrev main_cst_20 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_21 : Ref sig .tc := ⟨.hbm, 129, rfl⟩
abbrev main_v77 : Ref sig .tc := ⟨.hbm, 130, rfl⟩
abbrev main_v78 : Ref sig .tc := ⟨.hbm, 131, rfl⟩
abbrev main_c_22 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_c_23 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_c_24 : Ref sig .tc := ⟨.hbm, 142, rfl⟩
abbrev main_v87 : Ref sig .tc := ⟨.hbm, 143, rfl⟩
abbrev main_v88 : Ref sig .tc := ⟨.hbm, 144, rfl⟩
abbrev main_c_25 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_c_26 : Ref sig .tc := ⟨.hbm, 153, rfl⟩
abbrev main_v96 : Ref sig .tc := ⟨.hbm, 154, rfl⟩
abbrev main_v97 : Ref sig .tc := ⟨.hbm, 155, rfl⟩
abbrev main_c_27 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_cst_28 : Ref sig .tc := ⟨.hbm, 166, rfl⟩
abbrev main_v107 : Ref sig .tc := ⟨.hbm, 167, rfl⟩
abbrev main_c_29 : Ref sig .tc := ⟨.hbm, 168, rfl⟩
abbrev main_v108 : Ref sig .tc := ⟨.hbm, 169, rfl⟩
abbrev main_v109 : Ref sig .tc := ⟨.hbm, 170, rfl⟩
abbrev main_c_30 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_c_31 : Ref sig .tc := ⟨.hbm, 177, rfl⟩
abbrev main_v115 : Ref sig .tc := ⟨.hbm, 178, rfl⟩
abbrev main_v116 : Ref sig .tc := ⟨.hbm, 179, rfl⟩
abbrev main_c_32 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_c_33 : Ref sig .tc := ⟨.hbm, 186, rfl⟩
abbrev main_v122 : Ref sig .tc := ⟨.hbm, 187, rfl⟩
abbrev main_v123 : Ref sig .tc := ⟨.hbm, 188, rfl⟩
abbrev main_c_34 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_cst_35 : Ref sig .tc := ⟨.hbm, 197, rfl⟩
abbrev main_v131 : Ref sig .tc := ⟨.hbm, 198, rfl⟩
abbrev main_cst_36 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_cst_37 : Ref sig .tc := ⟨.hbm, 203, rfl⟩
abbrev main_v135 : Ref sig .tc := ⟨.hbm, 204, rfl⟩
abbrev main_cst_38 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_cst_39 : Ref sig .tc := ⟨.hbm, 209, rfl⟩
abbrev main_v139 : Ref sig .tc := ⟨.hbm, 210, rfl⟩
abbrev main_v140 : Ref sig .tc := ⟨.hbm, 211, rfl⟩
abbrev main_cst_40 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_cst_41 : Ref sig .tc := ⟨.hbm, 217, rfl⟩
abbrev main_call2_v0 : Ref sig .tc := ⟨.hbm, 218, rfl⟩
abbrev main_call2_v1 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_cst_42 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_cst_43 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_cst_44 : Ref sig .tc := ⟨.hbm, 235, rfl⟩
abbrev main_v158 : Ref sig .tc := ⟨.hbm, 236, rfl⟩
abbrev main_cst_45 : Ref sig .tc := ⟨.hbm, 237, rfl⟩
abbrev main_v159 : Ref sig .tc := ⟨.hbm, 238, rfl⟩
abbrev main_cst_46 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_cst_47 : Ref sig .tc := ⟨.hbm, 243, rfl⟩
abbrev main_v163 : Ref sig .tc := ⟨.hbm, 244, rfl⟩
abbrev main_v164 : Ref sig .tc := ⟨.hbm, 245, rfl⟩
abbrev main_c_48 : Ref sig .tc := ⟨.hbm, 246, rfl⟩
abbrev main_v165 : Ref sig .tc := ⟨.hbm, 247, rfl⟩
abbrev main_v166 : Ref sig .tc := ⟨.hbm, 248, rfl⟩
abbrev main_c_49 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_cst_50 : Ref sig .tc := ⟨.hbm, 255, rfl⟩
abbrev main_call3_v0 : Ref sig .tc := ⟨.hbm, 256, rfl⟩
abbrev main_call3_v1 : Ref sig .tc := ⟨.hbm, 257, rfl⟩
abbrev main_v172 : Ref sig .tc := ⟨.hbm, 258, rfl⟩
abbrev main_v173 : Ref sig .tc := ⟨.hbm, 259, rfl⟩
abbrev main_c_51 : Ref sig .tc := ⟨.hbm, 260, rfl⟩
abbrev main_v174 : Ref sig .tc := ⟨.hbm, 261, rfl⟩
abbrev main_v175 : Ref sig .tc := ⟨.hbm, 262, rfl⟩
abbrev main_c_52 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_v180 : Ref sig .tc := ⟨.hbm, 268, rfl⟩
abbrev main_c_53 : Ref sig .tc := ⟨.hbm, 269, rfl⟩
abbrev main_v181 : Ref sig .tc := ⟨.hbm, 270, rfl⟩
abbrev main_v182 : Ref sig .tc := ⟨.hbm, 271, rfl⟩
abbrev main_c_54 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_call4_v0 : Ref sig .tc := ⟨.hbm, 279, rfl⟩
abbrev main_call4_cst : Ref sig .tc := ⟨.hbm, 280, rfl⟩
abbrev main_call4_v1 : Ref sig .tc := ⟨.hbm, 281, rfl⟩
abbrev main_call4_v2 : Ref sig .tc := ⟨.hbm, 282, rfl⟩
abbrev main_v189 : Ref sig .tc := ⟨.hbm, 283, rfl⟩
abbrev main_cst_55 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_c_56 : Ref sig .tc := ⟨.hbm, 289, rfl⟩
abbrev main_v194 : Ref sig .tc := ⟨.hbm, 290, rfl⟩
abbrev main_v195 : Ref sig .tc := ⟨.hbm, 291, rfl⟩
abbrev main_c_57 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_c_58 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_c_59 : Ref sig .tc := ⟨.hbm, 302, rfl⟩
abbrev main_v204 : Ref sig .tc := ⟨.hbm, 303, rfl⟩
abbrev main_v205 : Ref sig .tc := ⟨.hbm, 304, rfl⟩
abbrev main_c_60 : Ref sig .tc := ⟨.hbm, 305, rfl⟩
abbrev main_v206 : Ref sig .tc := ⟨.hbm, 306, rfl⟩
abbrev main_v207 : Ref sig .tc := ⟨.hbm, 307, rfl⟩
abbrev main_v208 : Ref sig .tc := ⟨.hbm, 308, rfl⟩
abbrev main_v209 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_c_61 : Ref sig .tc := ⟨.hbm, 313, rfl⟩
abbrev main_v213 : Ref sig .tc := ⟨.hbm, 314, rfl⟩
abbrev main_v214 : Ref sig .tc := ⟨.hbm, 315, rfl⟩
abbrev main_c_62 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_v222 : Ref sig .tc := ⟨.hbm, 324, rfl⟩
abbrev main_v223 : Ref sig .tc := ⟨.hbm, 325, rfl⟩
abbrev main_cst_63 : Ref sig .tc := ⟨.hbm, 326, rfl⟩
abbrev main_v224 : Ref sig .tc := ⟨.hbm, 327, rfl⟩
abbrev main_c_64 : Ref sig .tc := ⟨.hbm, 328, rfl⟩
abbrev main_v225 : Ref sig .tc := ⟨.hbm, 329, rfl⟩
abbrev main_v226 : Ref sig .tc := ⟨.hbm, 330, rfl⟩
abbrev main_c_65 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_v230 : Ref sig .tc := ⟨.hbm, 335, rfl⟩
abbrev main_v231 : Ref sig .tc := ⟨.hbm, 336, rfl⟩
abbrev main_c_66 : Ref sig .tc := ⟨.hbm, 337, rfl⟩
abbrev main_v232 : Ref sig .tc := ⟨.hbm, 338, rfl⟩
abbrev main_v233 : Ref sig .tc := ⟨.hbm, 339, rfl⟩
abbrev main_c_67 : Ref sig .tc := ⟨.hbm, 340, rfl⟩
abbrev main_v234 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_v238 : Ref sig .tc := ⟨.hbm, 345, rfl⟩
abbrev main_c_68 : Ref sig .tc := ⟨.hbm, 346, rfl⟩
abbrev main_v239 : Ref sig .tc := ⟨.hbm, 347, rfl⟩
abbrev main_v240 : Ref sig .tc := ⟨.hbm, 348, rfl⟩
abbrev main_c_69 : Ref sig .tc := ⟨.hbm, 349, rfl⟩
abbrev main_v241 : Ref sig .tc := ⟨.hbm, 350, rfl⟩
abbrev main_v242 : Ref sig .tc := ⟨.hbm, 351, rfl⟩
abbrev main_v243 : Ref sig .tc := ⟨.hbm, 352, rfl⟩
abbrev main_v244 : Ref sig .tc := ⟨.hbm, 353, rfl⟩
abbrev main_v245 : Ref sig .tc := ⟨.hbm, 354, rfl⟩
abbrev main_v246 : Ref sig .tc := ⟨.hbm, 355, rfl⟩
abbrev main_v247 : Ref sig .tc := ⟨.hbm, 356, rfl⟩
abbrev main_cst_70 : Ref sig .tc := ⟨.hbm, 357, rfl⟩
abbrev main_v248 : Ref sig .tc := ⟨.hbm, 358, rfl⟩
abbrev main_cst_71 : Ref sig .tc := ⟨.hbm, 359, rfl⟩
abbrev main_v249 : Ref sig .tc := ⟨.hbm, 360, rfl⟩
abbrev main_v250 : Ref sig .tc := ⟨.hbm, 361, rfl⟩
abbrev main_v251 : Ref sig .tc := ⟨.hbm, 362, rfl⟩
abbrev main_cst_72 : Ref sig .tc := ⟨.hbm, 363, rfl⟩
abbrev main_v252 : Ref sig .tc := ⟨.hbm, 364, rfl⟩
abbrev main_cst_73 : Ref sig .tc := ⟨.hbm, 365, rfl⟩
abbrev main_v253 : Ref sig .tc := ⟨.hbm, 366, rfl⟩
abbrev main_v254 : Ref sig .tc := ⟨.hbm, 367, rfl⟩
abbrev main_v255 : Ref sig .tc := ⟨.hbm, 368, rfl⟩
abbrev main_cst_74 : Ref sig .tc := ⟨.hbm, 369, rfl⟩
abbrev main_v256 : Ref sig .tc := ⟨.hbm, 370, rfl⟩
abbrev main_v257 : Ref sig .tc := ⟨.hbm, 371, rfl⟩
abbrev main_cst_75 : Ref sig .tc := ⟨.hbm, 372, rfl⟩
abbrev main_v258 : Ref sig .tc := ⟨.hbm, 373, rfl⟩
abbrev main_v259 : Ref sig .tc := ⟨.hbm, 374, rfl⟩
abbrev main_v260 : Ref sig .tc := ⟨.hbm, 375, rfl⟩
abbrev main_v261 : Ref sig .tc := ⟨.hbm, 376, rfl⟩
abbrev main_cst_76 : Ref sig .tc := ⟨.hbm, 377, rfl⟩
abbrev main_call5_v0 : Ref sig .tc := ⟨.hbm, 378, rfl⟩
abbrev main_call5_v1 : Ref sig .tc := ⟨.hbm, 379, rfl⟩
abbrev main_v262 : Ref sig .tc := ⟨.hbm, 380, rfl⟩
abbrev main_v263 : Ref sig .tc := ⟨.hbm, 381, rfl⟩
abbrev main_v264 : Ref sig .tc := ⟨.hbm, 382, rfl⟩
abbrev main_v265 : Ref sig .tc := ⟨.hbm, 383, rfl⟩
abbrev main_v266 : Ref sig .tc := ⟨.hbm, 384, rfl⟩
abbrev main_v267 : Ref sig .tc := ⟨.hbm, 385, rfl⟩
abbrev main_v268 : Ref sig .tc := ⟨.hbm, 386, rfl⟩
abbrev main_cst_77 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_cst_78 : Ref sig .tc := ⟨.hbm, 391, rfl⟩
abbrev main_v272 : Ref sig .tc := ⟨.hbm, 392, rfl⟩
abbrev main_v273 : Ref sig .tc := ⟨.hbm, 393, rfl⟩
abbrev main_v274 : Ref sig .tc := ⟨.hbm, 394, rfl⟩
abbrev main_cst_79 : Ref sig .tc := ⟨.hbm, 395, rfl⟩
abbrev main_v275 : Ref sig .tc := ⟨.hbm, 396, rfl⟩
abbrev main_cst_80 : Ref sig .tc := ⟨.hbm, 397, rfl⟩
abbrev main_v276 : Ref sig .tc := ⟨.hbm, 398, rfl⟩
abbrev main_cst_81 : Ref sig .tc := ⟨.hbm, 399, rfl⟩
abbrev main_v277 : Ref sig .tc := ⟨.hbm, 400, rfl⟩
abbrev main_v278 : Ref sig .tc := ⟨.hbm, 401, rfl⟩
abbrev main_v279 : Ref sig .tc := ⟨.hbm, 402, rfl⟩
abbrev main_cst_82 : Ref sig .tc := ⟨.hbm, 403, rfl⟩
abbrev main_v280 : Ref sig .tc := ⟨.hbm, 404, rfl⟩
abbrev main_v281 : Ref sig .tc := ⟨.hbm, 405, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg2_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc3_sem0_0 : DmaSem sig := 11
abbrev cc3_sem0_1 : DmaSem sig := 12
abbrev cc3_sem1_0 : DmaSem sig := 13
abbrev cc3_sem2_0 : DmaSem sig := 14
abbrev cc3_sem2_1 : DmaSem sig := 15
abbrev cc4_sem0_0 : DmaSem sig := 16
abbrev cc4_sem0_1 : DmaSem sig := 17
abbrev cc4_sem1_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8192x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S8192x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x3 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

class Facts₀ : Prop where
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S131072_S131072x1_0 : S131072.BroadcastsInDim S131072x1 (![0] : Fin 1 → Fin S131072x1.rank)
  bcast_S_S131072x3 : S_.BroadcastsInDim S131072x3 (![] : Fin 0 → Fin S131072x3.rank)
  bcast_S131072x1_S131072x3_0_1 : S131072x1.BroadcastsInDim S131072x3 (![0, 1] : Fin 2 → Fin S131072x3.rank)
  slices_S131072x4_S131072x1_0_2 : S131072x4.Slices ![0, 2] S131072x1
  bcast_S_S131072x1 : S_.BroadcastsInDim S131072x1 (![] : Fin 0 → Fin S131072x1.rank)
  concatenates_S131072x1_S131072x3_S131072x3_S131072x1_S131072x1_S131072x9_d1 : Shape.Concatenates [S131072x1, S131072x3, S131072x3, S131072x1, S131072x1] S131072x9 1
  inb_S1x3_S1x3_0_0 : ∀ a, (![0, 0] : Fin 2 → Nat) a + S1x3.size a ≤ S1x3.size a
  h_S1x3 : 0 < S1x3.numel
  inb_S8192x9_S8192x9_0_0 : ∀ a, (![0, 0] : Fin 2 → Nat) a + S8192x9.size a ≤ S8192x9.size a
  h_S8192x9 : 0 < S8192x9.numel
  shapeCasts_S8192x9_S8192x9 : S8192x9.ShapeCasts S8192x9
  slices_S8192x9_o0_0_S8192x1 : S8192x9.Slices ![0, 0] S8192x1
  slices_S8192x9_o0_1_S8192x3 : S8192x9.Slices ![0, 1] S8192x3
  slices_S8192x9_o0_4_S8192x3 : S8192x9.Slices ![0, 4] S8192x3
  slices_S8192x9_o0_7_S8192x1 : S8192x9.Slices ![0, 7] S8192x1
  slices_S8192x9_o0_8_S8192x1 : S8192x9.Slices ![0, 8] S8192x1
  reduces_S8192x3_S8192 : S8192x3.Reduces [1] S8192
  shapeCasts_S8192_S8192x1 : S8192.ShapeCasts S8192x1
  reduces_S8192x1_S1 : S8192x1.Reduces [0] S1
  shapeCasts_S1_S1x1 : S1.ShapeCasts S1x1
  shapeCasts_S1x3_S1x3 : S1x3.ShapeCasts S1x3
  concatenates_S1x1_S1x1_S1x1_S1x3_d1 : Shape.Concatenates [S1x1, S1x1, S1x1] S1x3 1
  shapeCasts_S1x3_S3 : S1x3.ShapeCasts S3
  slices_S3_S1_0 : S3.Slices ![0] S1
  shapeCasts_S1_S_ : S1.ShapeCasts S_
  slices_S3_S1_1 : S3.Slices ![1] S1
  slices_S3_S1_2 : S3.Slices ![2] S1
  bcast_S_S32768 : S_.BroadcastsInDim S32768 (![] : Fin 0 → Fin S32768.rank)
  bcast_S32768_S32768x1_0 : S32768.BroadcastsInDim S32768x1 (![0] : Fin 1 → Fin S32768x1.rank)
  reducesTo_S32768x3_S32768_d1 : S32768x3.ReducesTo [1] S32768
  h_S_ : 0 < S_.numel
  bcast_S_S32768x1 : S_.BroadcastsInDim S32768x1 (![] : Fin 0 → Fin S32768x1.rank)
  bcast_S32768x1_S32768x3_0_1 : S32768x1.BroadcastsInDim S32768x3 (![0, 1] : Fin 2 → Fin S32768x3.rank)
  concatenates_S32768x1_S32768x1_S32768x2_d1 : Shape.Concatenates [S32768x1, S32768x1] S32768x2 1
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S2048x3_S2048x3_0_0 : ∀ a, (![0, 0] : Fin 2 → Nat) a + S2048x3.size a ≤ S2048x3.size a
  h_S2048x3 : 0 < S2048x3.numel
  transposes_S2048x3_p1_0_S3x2048 : S2048x3.Transposes [1, 0] S3x2048
  reduces_S1024x3_S1024 : S1024x3.Reduces [1] S1024
  shapeCasts_S1024_S1024x1 : S1024.ShapeCasts S1024x1
  reduces_S3x2048_S2048 : S3x2048.Reduces [0] S2048
  shapeCasts_S2048_S1x2048 : S2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  inb_S1024x1_S1024x1_0_0 : ∀ a, (![0, 0] : Fin 2 → Nat) a + S1024x1.size a ≤ S1024x1.size a
  h_S1024x1 : 0 < S1024x1.numel
  bcast_S_S262144 : S_.BroadcastsInDim S262144 (![] : Fin 0 → Fin S262144.rank)
  bcast_S262144_S262144x1_0 : S262144.BroadcastsInDim S262144x1 (![0] : Fin 1 → Fin S262144x1.rank)
  reducesTo_S262144x3_S262144_d1 : S262144x3.ReducesTo [1] S262144
  concatenates_S32768x1_S32768x1_S32768x1_S32768x1_S32768x4_d1 : Shape.Concatenates [S32768x1, S32768x1, S32768x1, S32768x1] S32768x4 1
  inb_S8192x4_S8192x4_0_0 : ∀ a, (![0, 0] : Fin 2 → Nat) a + S8192x4.size a ≤ S8192x4.size a
  h_S8192x4 : 0 < S8192x4.numel
  shapeCasts_S8192x4_S8192x4 : S8192x4.ShapeCasts S8192x4
  slices_S8192x4_o0_0_S8192x1 : S8192x4.Slices ![0, 0] S8192x1
  slices_S8192x4_o0_1_S8192x1 : S8192x4.Slices ![0, 1] S8192x1
  slices_S8192x4_o0_2_S8192x1 : S8192x4.Slices ![0, 2] S8192x1
  slices_S8192x4_o0_3_S8192x1 : S8192x4.Slices ![0, 3] S8192x1
  scatter_S131072_S2097152x1_S2097152_n_0_0_1_wf : ScatterDims.WF S131072 S2097152x1 S2097152 [] [0] [0] 1
  gather_S131072x3_S2097152x1_S2097152x3_1_0_n_n_0_1_13_wf : GatherDims.WF S131072x3 S2097152x1 S2097152x3 [1] [0] [] [0] [] 1 ![1, 3]
  scatter_S131072x3_S2097152x1_S2097152x3_1_0_0_1_wf : ScatterDims.WF S131072x3 S2097152x1 S2097152x3 [1] [0] [0] 1
  gather_S131072x1_S2097152x1_S2097152x1_1_0_n_n_0_1_11_wf : GatherDims.WF S131072x1 S2097152x1 S2097152x1 [1] [0] [] [0] [] 1 ![1, 1]
  scatter_S131072x1_S2097152x1_S2097152x1_1_0_0_1_wf : ScatterDims.WF S131072x1 S2097152x1 S2097152x1 [1] [0] [0] 1
  gather_S8_S32768x1_S32768_n_0_n_n_0_1_1_wf : GatherDims.WF S8 S32768x1 S32768 [] [0] [] [0] [] 1 ![1]
  gather_S32768x3_S32768x1_S32768x3_1_0_n_n_0_1_13_wf : GatherDims.WF S32768x3 S32768x1 S32768x3 [1] [0] [] [0] [] 1 ![1, 3]
  gather_S32768x4_S32768x2_S32768x1_1_0_n_n_01_1_11_wf : GatherDims.WF S32768x4 S32768x2 S32768x1 [1] [0] [] [0, 1] [] 1 ![1, 1]
  gather_S32768x1_S32768x1_S32768x1_1_0_n_n_0_1_11_wf : GatherDims.WF S32768x1 S32768x1 S32768x1 [1] [0] [] [0] [] 1 ![1, 1]
  dot_S1024x3_S3x2048_S1024x2048_1_0_0_1_n_n_wf : DotDims.WF S1024x3 S3x2048 S1024x2048 [1] [0] [0] [1] [] []
  scatter_S32768x1_S32768x1_S32768x1_1_0_0_1_wf : ScatterDims.WF S32768x1 S32768x1 S32768x1 [1] [0] [0] 1
  gather_S32768x3_S262144x1_S262144x3_1_0_n_n_0_1_13_wf : GatherDims.WF S32768x3 S262144x1 S262144x3 [1] [0] [] [0] [] 1 ![1, 3]
  gather_S131072x3_S262144x1_S262144x3_1_0_n_n_0_1_13_wf : GatherDims.WF S131072x3 S262144x1 S262144x3 [1] [0] [] [0] [] 1 ![1, 3]
  scatter_S32768_S262144x1_S262144_n_0_0_1_wf : ScatterDims.WF S32768 S262144x1 S262144 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x9.size a ≤ S131072x9.size a
  hwx0_0 : ∀ i : grid0.Coords, EltTy.bits .f32 = 32 ∨ (Rect.block (s := S131072x9) S8192x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3.size a ≤ S1x3.size a
  hwx0_1 : ∀ i : grid0.Coords, EltTy.bits .f32 = 32 ∨ (Rect.block (s := S1x3) S1x3.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3.size a ≤ S32768x3.size a
  hwx1_0 : ∀ i : grid1.Coords, EltTy.bits .f32 = 32 ∨ (Rect.block (s := S32768x3) S1024x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x3.size a ≤ S2048x3.size a
  hwx1_1 : ∀ i : grid1.Coords, EltTy.bits .f32 = 32 ∨ (Rect.block (s := S2048x3) S2048x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S32768x1.size a
  hwx1_2 : ∀ i : grid1.Coords, EltTy.bits .f32 = 32 ∨ (Rect.block (s := S32768x1) S1024x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x4.size a ≤ S32768x4.size a
  hwx2_0 : ∀ i : grid2.Coords, EltTy.bits .f32 = 32 ∨ (Rect.block (s := S32768x4) S8192x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x3.size a ≤ S1x3.size a
  hwx2_1 : ∀ i : grid2.Coords, EltTy.bits .f32 = 32 ∨ (Rect.block (s := S1x3) S1x3.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x3.size a ≤ S32768x3.size a
  hwx3_0 : ∀ i : grid3.Coords, EltTy.bits .f32 = 32 ∨ (Rect.block (s := S32768x3) S1024x3.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x3.size a ≤ S2048x3.size a
  hwx3_1 : ∀ i : grid3.Coords, EltTy.bits .f32 = 32 ∨ (Rect.block (s := S2048x3) S2048x3.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S32768x1.size a
  hwx3_2 : ∀ i : grid3.Coords, EltTy.bits .f32 = 32 ∨ (Rect.block (s := S32768x1) S1024x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x4.size a ≤ S32768x4.size a
  hwx4_0 : ∀ i : grid4.Coords, EltTy.bits .f32 = 32 ∨ (Rect.block (s := S32768x4) S8192x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x3.size a ≤ S1x3.size a
  hwx4_1 : ∀ i : grid4.Coords, EltTy.bits .f32 = 32 ∨ (Rect.block (s := S1x3) S1x3.size (cc4_transform_1 i) (hinb4_1 i)).WholeWords (EltTy.packing .f32)

variable [Facts₀]

def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def gather_S131072x3_S2097152x1_S2097152x3_1_0_n_n_0_1_13 : GatherDims S131072x3 S2097152x1 S2097152x3 where
  offsetDims := [1]
  collapsedSliceDims := [0]
  operandBatchingDims := []
  startIndicesBatchingDims := []
  startIndexMap := [0]
  indexVectorDim := 1
  sliceSizes := ![1, 3]
  wf := gather_S131072x3_S2097152x1_S2097152x3_1_0_n_n_0_1_13_wf
def scatter_S131072x3_S2097152x1_S2097152x3_1_0_0_1 : ScatterDims S131072x3 S2097152x1 S2097152x3 where
  updateWindowDims := [1]
  insertedWindowDims := [0]
  scatterDimsToOperandDims := [0]
  indexVectorDim := 1
  wf := scatter_S131072x3_S2097152x1_S2097152x3_1_0_0_1_wf
def gather_S131072x1_S2097152x1_S2097152x1_1_0_n_n_0_1_11 : GatherDims S131072x1 S2097152x1 S2097152x1 where
  offsetDims := [1]
  collapsedSliceDims := [0]
  operandBatchingDims := []
  startIndicesBatchingDims := []
  startIndexMap := [0]
  indexVectorDim := 1
  sliceSizes := ![1, 1]
  wf := gather_S131072x1_S2097152x1_S2097152x1_1_0_n_n_0_1_11_wf
def scatter_S131072x1_S2097152x1_S2097152x1_1_0_0_1 : ScatterDims S131072x1 S2097152x1 S2097152x1 where
  updateWindowDims := [1]
  insertedWindowDims := [0]
  scatterDimsToOperandDims := [0]
  indexVectorDim := 1
  wf := scatter_S131072x1_S2097152x1_S2097152x1_1_0_0_1_wf
def gather_S8_S32768x1_S32768_n_0_n_n_0_1_1 : GatherDims S8 S32768x1 S32768 where
  offsetDims := []
  collapsedSliceDims := [0]
  operandBatchingDims := []
  startIndicesBatchingDims := []
  startIndexMap := [0]
  indexVectorDim := 1
  sliceSizes := ![1]
  wf := gather_S8_S32768x1_S32768_n_0_n_n_0_1_1_wf
def gather_S32768x3_S32768x1_S32768x3_1_0_n_n_0_1_13 : GatherDims S32768x3 S32768x1 S32768x3 where
  offsetDims := [1]
  collapsedSliceDims := [0]
  operandBatchingDims := []
  startIndicesBatchingDims := []
  startIndexMap := [0]
  indexVectorDim := 1
  sliceSizes := ![1, 3]
  wf := gather_S32768x3_S32768x1_S32768x3_1_0_n_n_0_1_13_wf
def gather_S32768x4_S32768x2_S32768x1_1_0_n_n_01_1_11 : GatherDims S32768x4 S32768x2 S32768x1 where
  offsetDims := [1]
  collapsedSliceDims := [0]
  operandBatchingDims := []
  startIndicesBatchingDims := []
  startIndexMap := [0, 1]
  indexVectorDim := 1
  sliceSizes := ![1, 1]
  wf := gather_S32768x4_S32768x2_S32768x1_1_0_n_n_01_1_11_wf
def gather_S32768x1_S32768x1_S32768x1_1_0_n_n_0_1_11 : GatherDims S32768x1 S32768x1 S32768x1 where
  offsetDims := [1]
  collapsedSliceDims := [0]
  operandBatchingDims := []
  startIndicesBatchingDims := []
  startIndexMap := [0]
  indexVectorDim := 1
  sliceSizes := ![1, 1]
  wf := gather_S32768x1_S32768x1_S32768x1_1_0_n_n_0_1_11_wf
def dot_S1024x3_S3x2048_S1024x2048_1_0_0_1_n_n : DotDims S1024x3 S3x2048 S1024x2048 where
  lhsContracting := [1]
  rhsContracting := [0]
  lhsNonContracting := [0]
  rhsNonContracting := [1]
  lhsBatch := []
  rhsBatch := []
  wf := dot_S1024x3_S3x2048_S1024x2048_1_0_0_1_n_n_wf
def scatter_S32768x1_S32768x1_S32768x1_1_0_0_1 : ScatterDims S32768x1 S32768x1 S32768x1 where
  updateWindowDims := [1]
  insertedWindowDims := [0]
  scatterDimsToOperandDims := [0]
  indexVectorDim := 1
  wf := scatter_S32768x1_S32768x1_S32768x1_1_0_0_1_wf
def gather_S32768x3_S262144x1_S262144x3_1_0_n_n_0_1_13 : GatherDims S32768x3 S262144x1 S262144x3 where
  offsetDims := [1]
  collapsedSliceDims := [0]
  operandBatchingDims := []
  startIndicesBatchingDims := []
  startIndexMap := [0]
  indexVectorDim := 1
  sliceSizes := ![1, 3]
  wf := gather_S32768x3_S262144x1_S262144x3_1_0_n_n_0_1_13_wf
def gather_S131072x3_S262144x1_S262144x3_1_0_n_n_0_1_13 : GatherDims S131072x3 S262144x1 S262144x3 where
  offsetDims := [1]
  collapsedSliceDims := [0]
  operandBatchingDims := []
  startIndicesBatchingDims := []
  startIndexMap := [0]
  indexVectorDim := 1
  sliceSizes := ![1, 3]
  wf := gather_S131072x3_S262144x1_S262144x3_1_0_n_n_0_1_13_wf
def scatter_S32768_S262144x1_S262144_n_0_0_1 : ScatterDims S32768 S262144x1 S262144 where
  updateWindowDims := []
  insertedWindowDims := [0]
  scatterDimsToOperandDims := [0]
  indexVectorDim := 1
  wf := scatter_S32768_S262144x1_S262144_n_0_0_1_wf

abbrev win0_0 : Pipeline.Window sig grid0 :=
  Pipeline.Window.ofSpec (Memref.whole main_v31) S8192x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x3.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v105) S1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S2048x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v106) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v147) S8192x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v148) S1x3.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v222) S1024x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S2048x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v223) S1024x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v264) S8192x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v265) S1x3.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S131072x1 : Shape := ⟨2, ![131072, 1]⟩
abbrev S131072x3 : Shape := ⟨2, ![131072, 3]⟩
abbrev S131072x4 : Shape := ⟨2, ![131072, 4]⟩
abbrev S32768x1 : Shape := ⟨2, ![32768, 1]⟩
abbrev S32768x3 : Shape := ⟨2, ![32768, 3]⟩
abbrev S32768x4 : Shape := ⟨2, ![32768, 4]⟩
abbrev S2048x3 : Shape := ⟨2, ![2048, 3]⟩
abbrev S8 : Shape := ⟨1, ![8]⟩
abbrev S2097152 : Shape := ⟨1, ![2097152]⟩
abbrev S32768 : Shape := ⟨1, ![32768]⟩
abbrev S262144 : Shape := ⟨1, ![262144]⟩
abbrev S_ : Shape := ⟨0, ![]⟩
abbrev S131072 : Shape := ⟨1, ![131072]⟩
abbrev S2097152x1 : Shape := ⟨2, ![2097152, 1]⟩
abbrev S2097152x3 : Shape := ⟨2, ![2097152, 3]⟩
abbrev S32768x2 : Shape := ⟨2, ![32768, 2]⟩
abbrev S2048 : Shape := ⟨1, ![2048]⟩
abbrev S1x2048 : Shape := ⟨2, ![1, 2048]⟩
abbrev S32768x2048 : Shape := ⟨2, ![32768, 2048]⟩
abbrev S3x2048 : Shape := ⟨2, ![3, 2048]⟩
abbrev S262144x1 : Shape := ⟨2, ![262144, 1]⟩
abbrev S262144x3 : Shape := ⟨2, ![262144, 3]⟩

abbrev nBuf : Space → Nat
  | .hbm => 513
  | .vmem => 0
  | .smem => 0
  | _ => 0

abbrev hbmTy0_0 (i : Nat) : BufTy := match i % 128 with
  | 0 => ⟨S131072x1, .f32⟩
  | 1 => ⟨S131072x3, .f32⟩
  | 2 => ⟨S131072x4, .f32⟩
  | 3 => ⟨S32768x1, .f32⟩
  | 4 => ⟨S32768x3, .f32⟩
  | 5 => ⟨S32768x4, .f32⟩
  | 6 => ⟨S32768x1, .f32⟩
  | 7 => ⟨S32768x3, .f32⟩
  | 8 => ⟨S32768x4, .f32⟩
  | 9 => ⟨S2048x3, .f32⟩
  | 10 => ⟨S8, .f32⟩
  | 11 => ⟨S2097152, .i32⟩
  | 12 => ⟨S2097152, .i32⟩
  | 13 => ⟨S32768, .i32⟩
  | 14 => ⟨S32768, .i32⟩
  | 15 => ⟨S32768, .i32⟩
  | 16 => ⟨S262144, .i32⟩
  | 17 => ⟨S262144, .i32⟩
  | 18 => ⟨S32768, .i32⟩
  | 19 => ⟨S32768, .i32⟩
  | 20 => ⟨S32768, .i32⟩
  | 21 => ⟨S262144, .i32⟩
  | 22 => ⟨S262144, .i32⟩
  | 23 => ⟨S_, .f32⟩
  | 24 => ⟨S_, .f32⟩
  | 25 => ⟨S_, .f32⟩
  | 26 => ⟨S131072x1, .f32⟩
  | 27 => ⟨S131072x1, .f32⟩
  | 28 => ⟨S_, .f32⟩
  | 29 => ⟨S131072x1, .f32⟩
  | 30 => ⟨S131072x1, .f32⟩
  | 31 => ⟨S_, .f32⟩
  | 32 => ⟨S2097152, .f32⟩
  | 33 => ⟨S_, .f32⟩
  | 34 => ⟨S131072, .f32⟩
  | 35 => ⟨S2097152x1, .i32⟩
  | 36 => ⟨S131072, .f32⟩
  | 37 => ⟨S_, .f32⟩
  | 38 => ⟨S131072, .f32⟩
  | 39 => ⟨S131072, .f32⟩
  | 40 => ⟨S131072x1, .f32⟩
  | 41 => ⟨S_, .i32⟩
  | 42 => ⟨S2097152, .i32⟩
  | 43 => ⟨S2097152, .i1⟩
  | 44 => ⟨S_, .i32⟩
  | 45 => ⟨S2097152, .i32⟩
  | 46 => ⟨S2097152, .i32⟩
  | 47 => ⟨S2097152, .i32⟩
  | 48 => ⟨S2097152x1, .i32⟩
  | 49 => ⟨S2097152x3, .f32⟩
  | 50 => ⟨S_, .f32⟩
  | 51 => ⟨S131072x3, .f32⟩
  | 52 => ⟨S2097152x1, .i32⟩
  | 53 => ⟨S131072x3, .f32⟩
  | 54 => ⟨S131072x3, .f32⟩
  | 55 => ⟨S131072x3, .f32⟩
  | 56 => ⟨S131072x1, .f32⟩
  | 57 => ⟨S_, .i32⟩
  | 58 => ⟨S2097152, .i32⟩
  | 59 => ⟨S2097152, .i1⟩
  | 60 => ⟨S_, .i32⟩
  | 61 => ⟨S2097152, .i32⟩
  | 62 => ⟨S2097152, .i32⟩
  | 63 => ⟨S2097152, .i32⟩
  | 64 => ⟨S2097152x1, .i32⟩
  | 65 => ⟨S2097152x1, .f32⟩
  | 66 => ⟨S_, .f32⟩
  | 67 => ⟨S131072x1, .f32⟩
  | 68 => ⟨S2097152x1, .i32⟩
  | 69 => ⟨S131072x1, .f32⟩
  | 70 => ⟨S131072x1, .f32⟩
  | 71 => ⟨S131072x3, .f32⟩
  | 72 => ⟨S131072x3, .f32⟩
  | 73 => ⟨S_, .f32⟩
  | 74 => ⟨S131072, .f32⟩
  | 75 => ⟨S131072x1, .f32⟩
  | 76 => ⟨S131072x1, .f32⟩
  | 77 => ⟨S131072x1, .f32⟩
  | 78 => ⟨S131072x1, .f32⟩
  | 79 => ⟨S131072x1, .f32⟩
  | 80 => ⟨S_, .f32⟩
  | 81 => ⟨S131072x1, .f32⟩
  | 82 => ⟨S131072x1, .f32⟩
  | 83 => ⟨S131072x1, .f32⟩
  | 84 => ⟨S_, .f32⟩
  | 85 => ⟨S_, .f32⟩
  | 86 => ⟨S_, .f32⟩
  | 87 => ⟨S_, .f32⟩
  | 88 => ⟨S_, .f32⟩
  | 89 => ⟨S131072x1, .f32⟩
  | 90 => ⟨S131072x1, .f32⟩
  | 91 => ⟨S131072x1, .f32⟩
  | 92 => ⟨S_, .f32⟩
  | 93 => ⟨S_, .f32⟩
  | 94 => ⟨S_, .f32⟩
  | 95 => ⟨S_, .f32⟩
  | 96 => ⟨S_, .f32⟩
  | 97 => ⟨S131072x1, .f32⟩
  | 98 => ⟨S131072x1, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S_, .i32⟩
  | 120 => ⟨S32768, .i32⟩
  | 121 => ⟨S32768, .i1⟩
  | 122 => ⟨S_, .i32⟩
  | 123 => ⟨S32768, .i32⟩
  | 124 => ⟨S32768, .i32⟩
  | 125 => ⟨S32768, .i32⟩
  | 126 => ⟨S32768x1, .i32⟩
  | 127 => ⟨S32768, .f32⟩
  | _ => ⟨S131072x1, .f32⟩

abbrev hbmTy0_1 (i : Nat) : BufTy := match i % 128 with
  | 0 => ⟨S_, .f32⟩
  | 1 => ⟨S_, .f32⟩
  | 2 => ⟨S32768, .f32⟩
  | 3 => ⟨S32768, .f32⟩
  | 4 => ⟨S32768x1, .f32⟩
  | 5 => ⟨S_, .i32⟩
  | 6 => ⟨S32768, .i32⟩
  | 7 => ⟨S32768, .i1⟩
  | 8 => ⟨S_, .i32⟩
  | 9 => ⟨S32768, .i32⟩
  | 10 => ⟨S32768, .i32⟩
  | 11 => ⟨S32768, .i32⟩
  | 12 => ⟨S32768x1, .i32⟩
  | 13 => ⟨S32768x3, .f32⟩
  | 14 => ⟨S_, .i32⟩
  | 15 => ⟨S32768, .i32⟩
  | 16 => ⟨S32768, .i1⟩
  | 17 => ⟨S_, .i32⟩
  | 18 => ⟨S32768, .i32⟩
  | 19 => ⟨S32768, .i32⟩
  | 20 => ⟨S32768, .i32⟩
  | 21 => ⟨S32768x1, .i32⟩
  | 22 => ⟨S32768x3, .f32⟩
  | 23 => ⟨S32768x3, .f32⟩
  | 24 => ⟨S32768x3, .f32⟩
  | 25 => ⟨S_, .f32⟩
  | 26 => ⟨S32768, .f32⟩
  | 27 => ⟨S32768x1, .f32⟩
  | 28 => ⟨S32768x1, .f32⟩
  | 29 => ⟨S_, .f32⟩
  | 30 => ⟨S32768x1, .f32⟩
  | 31 => ⟨S32768x1, .f32⟩
  | 32 => ⟨S32768x3, .f32⟩
  | 33 => ⟨S32768x3, .f32⟩
  | 34 => ⟨S_, .i32⟩
  | 35 => ⟨S32768, .i32⟩
  | 36 => ⟨S32768, .i1⟩
  | 37 => ⟨S_, .i32⟩
  | 38 => ⟨S32768, .i32⟩
  | 39 => ⟨S32768, .i32⟩
  | 40 => ⟨S32768, .i32⟩
  | 41 => ⟨S32768x1, .i32⟩
  | 42 => ⟨S_, .i32⟩
  | 43 => ⟨S32768x1, .i32⟩
  | 44 => ⟨S32768x2, .i32⟩
  | 45 => ⟨S32768x1, .f32⟩
  | 46 => ⟨S32768x1, .f32⟩
  | 47 => ⟨S_, .i32⟩
  | 48 => ⟨S32768, .i32⟩
  | 49 => ⟨S32768, .i1⟩
  | 50 => ⟨S_, .i32⟩
  | 51 => ⟨S32768, .i32⟩
  | 52 => ⟨S32768, .i32⟩
  | 53 => ⟨S32768, .i32⟩
  | 54 => ⟨S32768x1, .i32⟩
  | 55 => ⟨S32768x3, .f32⟩
  | 56 => ⟨S32768x3, .f32⟩
  | 57 => ⟨S32768x3, .f32⟩
  | 58 => ⟨S_, .i32⟩
  | 59 => ⟨S32768, .i32⟩
  | 60 => ⟨S32768, .i1⟩
  | 61 => ⟨S_, .i32⟩
  | 62 => ⟨S32768, .i32⟩
  | 63 => ⟨S32768, .i32⟩
  | 64 => ⟨S32768, .i32⟩
  | 65 => ⟨S32768x1, .i32⟩
  | 66 => ⟨S32768x1, .f32⟩
  | 67 => ⟨S32768x3, .f32⟩
  | 68 => ⟨S32768x3, .f32⟩
  | 69 => ⟨S32768x3, .f32⟩
  | 70 => ⟨S32768x3, .f32⟩
  | 71 => ⟨S_, .f32⟩
  | 72 => ⟨S32768, .f32⟩
  | 73 => ⟨S2048x3, .f32⟩
  | 74 => ⟨S_, .f32⟩
  | 75 => ⟨S2048, .f32⟩
  | 76 => ⟨S32768x1, .f32⟩
  | 77 => ⟨S1x2048, .f32⟩
  | 78 => ⟨S32768x2048, .f32⟩
  | 79 => ⟨S32768x2048, .f32⟩
  | 80 => ⟨S32768x2048, .f32⟩
  | 81 => ⟨S_, .f32⟩
  | 82 => ⟨S32768x3, .f32⟩
  | 83 => ⟨S32768x3, .f32⟩
  | 84 => ⟨S3x2048, .f32⟩
  | 85 => ⟨S32768x2048, .f32⟩
  | 86 => ⟨S32768x2048, .f32⟩
  | 87 => ⟨S_, .f32⟩
  | 88 => ⟨S32768x2048, .f32⟩
  | 89 => ⟨S32768x2048, .f32⟩
  | 90 => ⟨S_, .f32⟩
  | 91 => ⟨S32768, .f32⟩
  | 92 => ⟨S32768x1, .f32⟩
  | 93 => ⟨S_, .f32⟩
  | 94 => ⟨S32768x1, .f32⟩
  | 95 => ⟨S_, .i32⟩
  | 96 => ⟨S32768, .i32⟩
  | 97 => ⟨S32768, .i1⟩
  | 98 => ⟨S_, .i32⟩
  | 99 => ⟨S32768, .i32⟩
  | 100 => ⟨S32768, .i32⟩
  | 101 => ⟨S32768, .i32⟩
  | 102 => ⟨S32768x1, .i32⟩
  | 103 => ⟨S32768x1, .f32⟩
  | 104 => ⟨S_, .i32⟩
  | 105 => ⟨S262144, .i32⟩
  | 106 => ⟨S262144, .i1⟩
  | 107 => ⟨S_, .i32⟩
  | 108 => ⟨S262144, .i32⟩
  | 109 => ⟨S262144, .i32⟩
  | 110 => ⟨S262144, .i32⟩
  | 111 => ⟨S262144x1, .i32⟩
  | 112 => ⟨S262144x3, .f32⟩
  | 113 => ⟨S_, .i32⟩
  | 114 => ⟨S262144, .i32⟩
  | 115 => ⟨S262144, .i1⟩
  | 116 => ⟨S_, .i32⟩
  | 117 => ⟨S262144, .i32⟩
  | 118 => ⟨S262144, .i32⟩
  | 119 => ⟨S262144, .i32⟩
  | 120 => ⟨S262144x1, .i32⟩
  | 121 => ⟨S262144x3, .f32⟩
  | 122 => ⟨S262144x3, .f32⟩
  | 123 => ⟨S262144x3, .f32⟩
  | 124 => ⟨S_, .f32⟩
  | 125 => ⟨S262144, .f32⟩
  | 126 => ⟨S_, .f32⟩
  | 127 => ⟨S32768, .f32⟩
  | _ => ⟨S131072x1, .f32⟩

abbrev hbmTy0_2 (i : Nat) : BufTy := match i % 128 with
  | 0 => ⟨S262144x1, .i32⟩
  | 1 => ⟨S32768, .f32⟩
  | 2 => ⟨S_, .f32⟩
  | 3 => ⟨S262144, .f32⟩
  | 4 => ⟨S_, .f32⟩
  | 5 => ⟨S32768, .f32⟩
  | 6 => ⟨S262144x1, .i32⟩
  | 7 => ⟨S32768, .f32⟩
  | 8 => ⟨S_, .f32⟩
  | 9 => ⟨S32768, .f32⟩
  | 10 => ⟨S32768, .i1⟩
  | 11 => ⟨S_, .f32⟩
  | 12 => ⟨S32768, .f32⟩
  | 13 => ⟨S32768, .f32⟩
  | 14 => ⟨S32768, .f32⟩
  | 15 => ⟨S32768, .f32⟩
  | 16 => ⟨S_, .f32⟩
  | 17 => ⟨S_, .f32⟩
  | 18 => ⟨S32768, .f32⟩
  | 19 => ⟨S32768, .f32⟩
  | 20 => ⟨S32768x1, .f32⟩
  | 21 => ⟨S32768x1, .f32⟩
  | 22 => ⟨S_, .f32⟩
  | 23 => ⟨S32768x1, .f32⟩
  | 24 => ⟨S32768x1, .f32⟩
  | 25 => ⟨S32768x1, .f32⟩
  | 26 => ⟨S32768x1, .f32⟩
  | 27 => ⟨S_, .f32⟩
  | 28 => ⟨S32768x1, .f32⟩
  | 29 => ⟨S32768x1, .f32⟩
  | 30 => ⟨S32768x1, .f32⟩
  | 31 => ⟨S_, .f32⟩
  | 32 => ⟨S_, .f32⟩
  | 33 => ⟨S_, .f32⟩
  | 34 => ⟨S_, .f32⟩
  | 35 => ⟨S32768x1, .f32⟩
  | 36 => ⟨S_, .f32⟩
  | 37 => ⟨S_, .f32⟩
  | 38 => ⟨S_, .f32⟩
  | 39 => ⟨S_, .f32⟩
  | 40 => ⟨S_, .f32⟩
  | 41 => ⟨S32768x1, .f32⟩
  | 42 => ⟨S32768x1, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S32768x1, .f32⟩
  | 60 => ⟨S32768x1, .f32⟩
  | 61 => ⟨S_, .f32⟩
  | 62 => ⟨S32768x1, .f32⟩
  | 63 => ⟨S32768x1, .f32⟩
  | 64 => ⟨S_, .i32⟩
  | 65 => ⟨S32768, .i32⟩
  | 66 => ⟨S32768, .i1⟩
  | 67 => ⟨S_, .i32⟩
  | 68 => ⟨S32768, .i32⟩
  | 69 => ⟨S32768, .i32⟩
  | 70 => ⟨S32768, .i32⟩
  | 71 => ⟨S32768x1, .i32⟩
  | 72 => ⟨S32768, .f32⟩
  | 73 => ⟨S_, .f32⟩
  | 74 => ⟨S_, .f32⟩
  | 75 => ⟨S32768, .f32⟩
  | 76 => ⟨S32768, .f32⟩
  | 77 => ⟨S32768x1, .f32⟩
  | 78 => ⟨S_, .i32⟩
  | 79 => ⟨S32768, .i32⟩
  | 80 => ⟨S32768, .i1⟩
  | 81 => ⟨S_, .i32⟩
  | 82 => ⟨S32768, .i32⟩
  | 83 => ⟨S32768, .i32⟩
  | 84 => ⟨S32768, .i32⟩
  | 85 => ⟨S32768x1, .i32⟩
  | 86 => ⟨S32768x3, .f32⟩
  | 87 => ⟨S_, .i32⟩
  | 88 => ⟨S32768, .i32⟩
  | 89 => ⟨S32768, .i1⟩
  | 90 => ⟨S_, .i32⟩
  | 91 => ⟨S32768, .i32⟩
  | 92 => ⟨S32768, .i32⟩
  | 93 => ⟨S32768, .i32⟩
  | 94 => ⟨S32768x1, .i32⟩
  | 95 => ⟨S32768x3, .f32⟩
  | 96 => ⟨S32768x3, .f32⟩
  | 97 => ⟨S32768x3, .f32⟩
  | 98 => ⟨S_, .f32⟩
  | 99 => ⟨S32768, .f32⟩
  | 100 => ⟨S32768x1, .f32⟩
  | 101 => ⟨S32768x1, .f32⟩
  | 102 => ⟨S_, .f32⟩
  | 103 => ⟨S32768x1, .f32⟩
  | 104 => ⟨S32768x1, .f32⟩
  | 105 => ⟨S32768x3, .f32⟩
  | 106 => ⟨S32768x3, .f32⟩
  | 107 => ⟨S_, .i32⟩
  | 108 => ⟨S32768, .i32⟩
  | 109 => ⟨S32768, .i1⟩
  | 110 => ⟨S_, .i32⟩
  | 111 => ⟨S32768, .i32⟩
  | 112 => ⟨S32768, .i32⟩
  | 113 => ⟨S32768, .i32⟩
  | 114 => ⟨S32768x1, .i32⟩
  | 115 => ⟨S_, .i32⟩
  | 116 => ⟨S32768x1, .i32⟩
  | 117 => ⟨S32768x2, .i32⟩
  | 118 => ⟨S32768x1, .f32⟩
  | 119 => ⟨S32768x1, .f32⟩
  | 120 => ⟨S_, .i32⟩
  | 121 => ⟨S32768, .i32⟩
  | 122 => ⟨S32768, .i1⟩
  | 123 => ⟨S_, .i32⟩
  | 124 => ⟨S32768, .i32⟩
  | 125 => ⟨S32768, .i32⟩
  | 126 => ⟨S32768, .i32⟩
  | 127 => ⟨S32768x1, .i32⟩
  | _ => ⟨S131072x1, .f32⟩

abbrev hbmTy0_3 (i : Nat) : BufTy := match i % 128 with
  | 0 => ⟨S32768x3, .f32⟩
  | 1 => ⟨S32768x3, .f32⟩
  | 2 => ⟨S32768x3, .f32⟩
  | 3 => ⟨S_, .i32⟩
  | 4 => ⟨S32768, .i32⟩
  | 5 => ⟨S32768, .i1⟩
  | 6 => ⟨S_, .i32⟩
  | 7 => ⟨S32768, .i32⟩
  | 8 => ⟨S32768, .i32⟩
  | 9 => ⟨S32768, .i32⟩
  | 10 => ⟨S32768x1, .i32⟩
  | 11 => ⟨S32768x1, .f32⟩
  | 12 => ⟨S32768x3, .f32⟩
  | 13 => ⟨S32768x3, .f32⟩
  | 14 => ⟨S32768x3, .f32⟩
  | 15 => ⟨S32768x3, .f32⟩
  | 16 => ⟨S_, .f32⟩
  | 17 => ⟨S32768, .f32⟩
  | 18 => ⟨S2048x3, .f32⟩
  | 19 => ⟨S_, .f32⟩
  | 20 => ⟨S2048, .f32⟩
  | 21 => ⟨S32768x1, .f32⟩
  | 22 => ⟨S1x2048, .f32⟩
  | 23 => ⟨S32768x2048, .f32⟩
  | 24 => ⟨S32768x2048, .f32⟩
  | 25 => ⟨S32768x2048, .f32⟩
  | 26 => ⟨S_, .f32⟩
  | 27 => ⟨S32768x3, .f32⟩
  | 28 => ⟨S32768x3, .f32⟩
  | 29 => ⟨S3x2048, .f32⟩
  | 30 => ⟨S32768x2048, .f32⟩
  | 31 => ⟨S32768x2048, .f32⟩
  | 32 => ⟨S_, .f32⟩
  | 33 => ⟨S32768x2048, .f32⟩
  | 34 => ⟨S32768x2048, .f32⟩
  | 35 => ⟨S_, .f32⟩
  | 36 => ⟨S32768, .f32⟩
  | 37 => ⟨S32768x1, .f32⟩
  | 38 => ⟨S_, .f32⟩
  | 39 => ⟨S32768x1, .f32⟩
  | 40 => ⟨S_, .i32⟩
  | 41 => ⟨S32768, .i32⟩
  | 42 => ⟨S32768, .i1⟩
  | 43 => ⟨S_, .i32⟩
  | 44 => ⟨S32768, .i32⟩
  | 45 => ⟨S32768, .i32⟩
  | 46 => ⟨S32768, .i32⟩
  | 47 => ⟨S32768x1, .i32⟩
  | 48 => ⟨S32768x1, .f32⟩
  | 49 => ⟨S_, .i32⟩
  | 50 => ⟨S262144, .i32⟩
  | 51 => ⟨S262144, .i1⟩
  | 52 => ⟨S_, .i32⟩
  | 53 => ⟨S262144, .i32⟩
  | 54 => ⟨S262144, .i32⟩
  | 55 => ⟨S262144, .i32⟩
  | 56 => ⟨S262144x1, .i32⟩
  | 57 => ⟨S262144x3, .f32⟩
  | 58 => ⟨S_, .i32⟩
  | 59 => ⟨S262144, .i32⟩
  | 60 => ⟨S262144, .i1⟩
  | 61 => ⟨S_, .i32⟩
  | 62 => ⟨S262144, .i32⟩
  | 63 => ⟨S262144, .i32⟩
  | 64 => ⟨S262144, .i32⟩
  | 65 => ⟨S262144x1, .i32⟩
  | 66 => ⟨S262144x3, .f32⟩
  | 67 => ⟨S262144x3, .f32⟩
  | 68 => ⟨S262144x3, .f32⟩
  | 69 => ⟨S_, .f32⟩
  | 70 => ⟨S262144, .f32⟩
  | 71 => ⟨S_, .f32⟩
  | 72 => ⟨S32768, .f32⟩
  | 73 => ⟨S262144x1, .i32⟩
  | 74 => ⟨S32768, .f32⟩
  | 75 => ⟨S_, .f32⟩
  | 76 => ⟨S262144, .f32⟩
  | 77 => ⟨S_, .f32⟩
  | 78 => ⟨S32768, .f32⟩
  | 79 => ⟨S262144x1, .i32⟩
  | 80 => ⟨S32768, .f32⟩
  | 81 => ⟨S_, .f32⟩
  | 82 => ⟨S32768, .f32⟩
  | 83 => ⟨S32768, .i1⟩
  | 84 => ⟨S_, .f32⟩
  | 85 => ⟨S32768, .f32⟩
  | 86 => ⟨S32768, .f32⟩
  | 87 => ⟨S32768, .f32⟩
  | 88 => ⟨S32768, .f32⟩
  | 89 => ⟨S_, .f32⟩
  | 90 => ⟨S_, .f32⟩
  | 91 => ⟨S32768, .f32⟩
  | 92 => ⟨S32768, .f32⟩
  | 93 => ⟨S32768x1, .f32⟩
  | 94 => ⟨S32768x1, .f32⟩
  | 95 => ⟨S_, .f32⟩
  | 96 => ⟨S32768x1, .f32⟩
  | 97 => ⟨S32768x1, .f32⟩
  | 98 => ⟨S32768x1, .f32⟩
  | 99 => ⟨S32768x1, .f32⟩
  | 100 => ⟨S_, .f32⟩
  | 101 => ⟨S32768x1, .f32⟩
  | 102 => ⟨S32768x1, .f32⟩
  | 103 => ⟨S32768x1, .f32⟩
  | 104 => ⟨S_, .f32⟩
  | 105 => ⟨S_, .f32⟩
  | 106 => ⟨S_, .f32⟩
  | 107 => ⟨S_, .f32⟩
  | 108 => ⟨S32768x1, .f32⟩
  | 109 => ⟨S_, .f32⟩
  | 110 => ⟨S_, .f32⟩
  | 111 => ⟨S_, .f32⟩
  | 112 => ⟨S_, .f32⟩
  | 113 => ⟨S_, .f32⟩
  | 114 => ⟨S32768x1, .f32⟩
  | 115 => ⟨S32768x1, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S131072x1, .f32⟩

abbrev hbmTy0_4 (i : Nat) : BufTy := match i % 128 with
  | 0 => ⟨S_, .f32⟩
  | _ => ⟨S131072x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S131072x1, .f32⟩

abbrev bufTy : (tb : Table) → Fin (tcTables nBuf tb) → BufTy
  | .hbm, ⟨i, _⟩ => hbmTy i
  | _, _ => ⟨S131072x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v0 : Ref sig .tc := ⟨.hbm, 30, rfl⟩
abbrev main_cst_1 : Ref sig .tc := ⟨.hbm, 31, rfl⟩
abbrev main_v1 : Ref sig .tc := ⟨.hbm, 32, rfl⟩
abbrev main_cst_2 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst_3 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_c : Ref sig .tc := ⟨.hbm, 41, rfl⟩
abbrev main_v8 : Ref sig .tc := ⟨.hbm, 42, rfl⟩
abbrev main_v9 : Ref sig .tc := ⟨.hbm, 43, rfl⟩
abbrev main_c_4 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_5 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_6 : Ref sig .tc := ⟨.hbm, 57, rfl⟩
abbrev main_v21 : Ref sig .tc := ⟨.hbm, 58, rfl⟩
abbrev main_v22 : Ref sig .tc := ⟨.hbm, 59, rfl⟩
abbrev main_c_7 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_8 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_9 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_10 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_11 : Ref sig .tc := ⟨.hbm, 84, rfl⟩
abbrev main_v43 : Ref sig .tc := ⟨.hbm, 85, rfl⟩
abbrev main_cst_12 : Ref sig .tc := ⟨.hbm, 86, rfl⟩
abbrev main_v44 : Ref sig .tc := ⟨.hbm, 87, rfl⟩
abbrev main_cst_13 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_14 : Ref sig .tc := ⟨.hbm, 92, rfl⟩
abbrev main_v48 : Ref sig .tc := ⟨.hbm, 93, rfl⟩
abbrev main_cst_15 : Ref sig .tc := ⟨.hbm, 94, rfl⟩
abbrev main_v49 : Ref sig .tc := ⟨.hbm, 95, rfl⟩
abbrev main_cst_16 : Ref sig .tc := ⟨.hbm, 96, rfl⟩
abbrev main_v50 : Ref sig .tc := ⟨.hbm, 97, rfl⟩
abbrev main_v51 : Ref sig .tc := ⟨.hbm, 98, rfl⟩
abbrev main_cst_17 : Ref sig .tc := ⟨.hbm, 99, rfl⟩
abbrev main_v52 : Ref sig .tc := ⟨.hbm, 100, rfl⟩
abbrev main_cst_18 : Ref sig .tc := ⟨.hbm, 101, rfl⟩
abbrev main_v53 : Ref sig .tc := ⟨.hbm, 102, rfl⟩
abbrev main_cst_19 : Ref sig .tc := ⟨.hbm, 103, rfl⟩
abbrev main_v54 : Ref sig .tc := ⟨.hbm, 104, rfl⟩
abbrev main_cst_20 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_21 : Ref sig .tc := ⟨.hbm, 109, rfl⟩
abbrev main_v58 : Ref sig .tc := ⟨.hbm, 110, rfl⟩
abbrev main_cst_22 : Ref sig .tc := ⟨.hbm, 111, rfl⟩
abbrev main_cst_23 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_v59 : Ref sig .tc := ⟨.hbm, 118, rfl⟩
abbrev main_c_24 : Ref sig .tc := ⟨.hbm, 119, rfl⟩
abbrev main_v60 : Ref sig .tc := ⟨.hbm, 120, rfl⟩
abbrev main_v61 : Ref sig .tc := ⟨.hbm, 121, rfl⟩
abbrev main_c_25 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_26 : Ref sig .tc := ⟨.hbm, 128, rfl⟩
abbrev main_call2_v0 : Ref sig .tc := ⟨.hbm, 129, rfl⟩
abbrev main_call2_v1 : Ref sig .tc := ⟨.hbm, 130, rfl⟩
abbrev main_v67 : Ref sig .tc := ⟨.hbm, 131, rfl⟩
abbrev main_v68 : Ref sig .tc := ⟨.hbm, 132, rfl⟩
abbrev main_c_27 : Ref sig .tc := ⟨.hbm, 133, rfl⟩
abbrev main_v69 : Ref sig .tc := ⟨.hbm, 134, rfl⟩
abbrev main_v70 : Ref sig .tc := ⟨.hbm, 135, rfl⟩
abbrev main_c_28 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_c_29 : Ref sig .tc := ⟨.hbm, 142, rfl⟩
abbrev main_v76 : Ref sig .tc := ⟨.hbm, 143, rfl⟩
abbrev main_v77 : Ref sig .tc := ⟨.hbm, 144, rfl⟩
abbrev main_c_30 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_call3_v0 : Ref sig .tc := ⟨.hbm, 152, rfl⟩
abbrev main_call3_cst : Ref sig .tc := ⟨.hbm, 153, rfl⟩
abbrev main_call3_v1 : Ref sig .tc := ⟨.hbm, 154, rfl⟩
abbrev main_call3_v2 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_c_32 : Ref sig .tc := ⟨.hbm, 162, rfl⟩
abbrev main_v89 : Ref sig .tc := ⟨.hbm, 163, rfl⟩
abbrev main_v90 : Ref sig .tc := ⟨.hbm, 164, rfl⟩
abbrev main_c_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_c_34 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_c_35 : Ref sig .tc := ⟨.hbm, 175, rfl⟩
abbrev main_v99 : Ref sig .tc := ⟨.hbm, 176, rfl⟩
abbrev main_v100 : Ref sig .tc := ⟨.hbm, 177, rfl⟩
abbrev main_c_36 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_c_37 : Ref sig .tc := ⟨.hbm, 186, rfl⟩
abbrev main_v108 : Ref sig .tc := ⟨.hbm, 187, rfl⟩
abbrev main_v109 : Ref sig .tc := ⟨.hbm, 188, rfl⟩
abbrev main_c_38 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_cst_39 : Ref sig .tc := ⟨.hbm, 199, rfl⟩
abbrev main_v119 : Ref sig .tc := ⟨.hbm, 200, rfl⟩
abbrev main_v120 : Ref sig .tc := ⟨.hbm, 201, rfl⟩
abbrev main_cst_40 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_cst_41 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_cst_42 : Ref sig .tc := ⟨.hbm, 215, rfl⟩
abbrev main_v132 : Ref sig .tc := ⟨.hbm, 216, rfl⟩
abbrev main_v133 : Ref sig .tc := ⟨.hbm, 217, rfl⟩
abbrev main_cst_43 : Ref sig .tc := ⟨.hbm, 218, rfl⟩
abbrev main_v134 : Ref sig .tc := ⟨.hbm, 219, rfl⟩
abbrev main_v135 : Ref sig .tc := ⟨.hbm, 220, rfl⟩
abbrev main_cst_44 : Ref sig .tc := ⟨.hbm, 221, rfl⟩
abbrev main_v136 : Ref sig .tc := ⟨.hbm, 222, rfl⟩
abbrev main_c_45 : Ref sig .tc := ⟨.hbm, 223, rfl⟩
abbrev main_v137 : Ref sig .tc := ⟨.hbm, 224, rfl⟩
abbrev main_v138 : Ref sig .tc := ⟨.hbm, 225, rfl⟩
abbrev main_c_46 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_c_47 : Ref sig .tc := ⟨.hbm, 232, rfl⟩
abbrev main_v144 : Ref sig .tc := ⟨.hbm, 233, rfl⟩
abbrev main_v145 : Ref sig .tc := ⟨.hbm, 234, rfl⟩
abbrev main_c_48 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_c_49 : Ref sig .tc := ⟨.hbm, 241, rfl⟩
abbrev main_v151 : Ref sig .tc := ⟨.hbm, 242, rfl⟩
abbrev main_v152 : Ref sig .tc := ⟨.hbm, 243, rfl⟩
abbrev main_c_50 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_51 : Ref sig .tc := ⟨.hbm, 252, rfl⟩
abbrev main_v160 : Ref sig .tc := ⟨.hbm, 253, rfl⟩
abbrev main_cst_52 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_cst_53 : Ref sig .tc := ⟨.hbm, 258, rfl⟩
abbrev main_v164 : Ref sig .tc := ⟨.hbm, 259, rfl⟩
abbrev main_cst_54 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_cst_55 : Ref sig .tc := ⟨.hbm, 264, rfl⟩
abbrev main_v168 : Ref sig .tc := ⟨.hbm, 265, rfl⟩
abbrev main_v169 : Ref sig .tc := ⟨.hbm, 266, rfl⟩
abbrev main_cst_56 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_cst_57 : Ref sig .tc := ⟨.hbm, 272, rfl⟩
abbrev main_call4_v0 : Ref sig .tc := ⟨.hbm, 273, rfl⟩
abbrev main_call4_v1 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_cst_58 : Ref sig .tc := ⟨.hbm, 278, rfl⟩
abbrev main_v177 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_cst_59 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_cst_60 : Ref sig .tc := ⟨.hbm, 287, rfl⟩
abbrev main_v184 : Ref sig .tc := ⟨.hbm, 288, rfl⟩
abbrev main_cst_61 : Ref sig .tc := ⟨.hbm, 289, rfl⟩
abbrev main_v185 : Ref sig .tc := ⟨.hbm, 290, rfl⟩
abbrev main_v186 : Ref sig .tc := ⟨.hbm, 291, rfl⟩
abbrev main_cst_62 : Ref sig .tc := ⟨.hbm, 292, rfl⟩
abbrev main_v187 : Ref sig .tc := ⟨.hbm, 293, rfl⟩
abbrev main_cst_63 : Ref sig .tc := ⟨.hbm, 294, rfl⟩
abbrev main_v188 : Ref sig .tc := ⟨.hbm, 295, rfl⟩
abbrev main_cst_64 : Ref sig .tc := ⟨.hbm, 296, rfl⟩
abbrev main_v189 : Ref sig .tc := ⟨.hbm, 297, rfl⟩
abbrev main_v190 : Ref sig .tc := ⟨.hbm, 298, rfl⟩
abbrev main_cst_65 : Ref sig .tc := ⟨.hbm, 299, rfl⟩
abbrev main_v191 : Ref sig .tc := ⟨.hbm, 300, rfl⟩
abbrev main_cst_66 : Ref sig .tc := ⟨.hbm, 301, rfl⟩
abbrev main_v192 : Ref sig .tc := ⟨.hbm, 302, rfl⟩
abbrev main_cst_67 : Ref sig .tc := ⟨.hbm, 303, rfl⟩
abbrev main_v193 : Ref sig .tc := ⟨.hbm, 304, rfl⟩
abbrev main_cst_68 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_cst_69 : Ref sig .tc := ⟨.hbm, 309, rfl⟩
abbrev main_v197 : Ref sig .tc := ⟨.hbm, 310, rfl⟩
abbrev main_v198 : Ref sig .tc := ⟨.hbm, 311, rfl⟩
abbrev main_cst_70 : Ref sig .tc := ⟨.hbm, 312, rfl⟩
abbrev main_cst_71 : Ref sig .tc := ⟨.hbm, 313, rfl⟩
abbrev main_call5_v0 : Ref sig .tc := ⟨.hbm, 314, rfl⟩
abbrev main_call5_v1 : Ref sig .tc := ⟨.hbm, 315, rfl⟩
abbrev main_call5_v2 : Ref sig .tc := ⟨.hbm, 316, rfl⟩
abbrev main_call5_v3 : Ref sig .tc := ⟨.hbm, 317, rfl⟩
abbrev main_call5_v4 : Ref sig .tc := ⟨.hbm, 318, rfl⟩
abbrev main_v199 : Ref sig .tc := ⟨.hbm, 319, rfl⟩
abbrev main_c_72 : Ref sig .tc := ⟨.hbm, 320, rfl⟩
abbrev main_v200 : Ref sig .tc := ⟨.hbm, 321, rfl⟩
abbrev main_v201 : Ref sig .tc := ⟨.hbm, 322, rfl⟩
abbrev main_c_73 : Ref sig .tc := ⟨.hbm, 323, rfl⟩
abbrev main_v202 : Ref sig .tc := ⟨.hbm, 324, rfl⟩
abbrev main_v203 : Ref sig .tc := ⟨.hbm, 325, rfl⟩
abbrev main_v204 : Ref sig .tc := ⟨.hbm, 326, rfl⟩
abbrev main_v205 : Ref sig .tc := ⟨.hbm, 327, rfl⟩
abbrev main_v206 : Ref sig .tc := ⟨.hbm, 328, rfl⟩
abbrev main_cst_74 : Ref sig .tc := ⟨.hbm, 329, rfl⟩
abbrev main_call6_v0 : Ref sig .tc := ⟨.hbm, 330, rfl⟩
abbrev main_call6_v1 : Ref sig .tc := ⟨.hbm, 331, rfl⟩
abbrev main_v207 : Ref sig .tc := ⟨.hbm, 332, rfl⟩
abbrev main_v208 : Ref sig .tc := ⟨.hbm, 333, rfl⟩
abbrev main_c_75 : Ref sig .tc := ⟨.hbm, 334, rfl⟩
abbrev main_v209 : Ref sig .tc := ⟨.hbm, 335, rfl⟩
abbrev main_v210 : Ref sig .tc := ⟨.hbm, 336, rfl⟩
abbrev main_c_76 : Ref sig .tc := ⟨.hbm, 337, rfl⟩
abbrev main_v211 : Ref sig .tc := ⟨.hbm, 338, rfl⟩
abbrev main_v212 : Ref sig .tc := ⟨.hbm, 339, rfl⟩
abbrev main_v213 : Ref sig .tc := ⟨.hbm, 340, rfl⟩
abbrev main_v214 : Ref sig .tc := ⟨.hbm, 341, rfl⟩
abbrev main_v215 : Ref sig .tc := ⟨.hbm, 342, rfl⟩
abbrev main_c_77 : Ref sig .tc := ⟨.hbm, 343, rfl⟩
abbrev main_v216 : Ref sig .tc := ⟨.hbm, 344, rfl⟩
abbrev main_v217 : Ref sig .tc := ⟨.hbm, 345, rfl⟩
abbrev main_c_78 : Ref sig .tc := ⟨.hbm, 346, rfl⟩
abbrev main_v218 : Ref sig .tc := ⟨.hbm, 347, rfl⟩
abbrev main_v219 : Ref sig .tc := ⟨.hbm, 348, rfl⟩
abbrev main_v220 : Ref sig .tc := ⟨.hbm, 349, rfl⟩
abbrev main_v221 : Ref sig .tc := ⟨.hbm, 350, rfl⟩
abbrev main_v222 : Ref sig .tc := ⟨.hbm, 351, rfl⟩
abbrev main_v223 : Ref sig .tc := ⟨.hbm, 352, rfl⟩
abbrev main_call7_v0 : Ref sig .tc := ⟨.hbm, 353, rfl⟩
abbrev main_call7_cst : Ref sig .tc := ⟨.hbm, 354, rfl⟩
abbrev main_call7_v1 : Ref sig .tc := ⟨.hbm, 355, rfl⟩
abbrev main_call7_v2 : Ref sig .tc := ⟨.hbm, 356, rfl⟩
abbrev main_v224 : Ref sig .tc := ⟨.hbm, 357, rfl⟩
abbrev main_cst_79 : Ref sig .tc := ⟨.hbm, 358, rfl⟩
abbrev main_v225 : Ref sig .tc := ⟨.hbm, 359, rfl⟩
abbrev main_v226 : Ref sig .tc := ⟨.hbm, 360, rfl⟩
abbrev main_v227 : Ref sig .tc := ⟨.hbm, 361, rfl⟩
abbrev main_v228 : Ref sig .tc := ⟨.hbm, 362, rfl⟩
abbrev main_c_80 : Ref sig .tc := ⟨.hbm, 363, rfl⟩
abbrev main_v229 : Ref sig .tc := ⟨.hbm, 364, rfl⟩
abbrev main_v230 : Ref sig .tc := ⟨.hbm, 365, rfl⟩
abbrev main_c_81 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_c_82 : Ref sig .tc := ⟨.hbm, 371, rfl⟩
abbrev main_v235 : Ref sig .tc := ⟨.hbm, 372, rfl⟩
abbrev main_v236 : Ref sig .tc := ⟨.hbm, 373, rfl⟩
abbrev main_v237 : Ref sig .tc := ⟨.hbm, 374, rfl⟩
abbrev main_v238 : Ref sig .tc := ⟨.hbm, 375, rfl⟩
abbrev main_c_83 : Ref sig .tc := ⟨.hbm, 376, rfl⟩
abbrev main_v239 : Ref sig .tc := ⟨.hbm, 377, rfl⟩
abbrev main_v240 : Ref sig .tc := ⟨.hbm, 378, rfl⟩
abbrev main_c_84 : Ref sig .tc := ⟨.hbm, 379, rfl⟩
abbrev main_v241 : Ref sig .tc := ⟨.hbm, 380, rfl⟩
abbrev main_v242 : Ref sig .tc := ⟨.hbm, 381, rfl⟩
abbrev main_v243 : Ref sig .tc := ⟨.hbm, 382, rfl⟩
abbrev main_v244 : Ref sig .tc := ⟨.hbm, 383, rfl⟩
abbrev main_v245 : Ref sig .tc := ⟨.hbm, 384, rfl⟩
abbrev main_v246 : Ref sig .tc := ⟨.hbm, 385, rfl⟩
abbrev main_v247 : Ref sig .tc := ⟨.hbm, 386, rfl⟩
abbrev main_c_85 : Ref sig .tc := ⟨.hbm, 387, rfl⟩
abbrev main_v248 : Ref sig .tc := ⟨.hbm, 388, rfl⟩
abbrev main_v249 : Ref sig .tc := ⟨.hbm, 389, rfl⟩
abbrev main_c_86 : Ref sig .tc := ⟨.hbm, 390, rfl⟩
abbrev main_v250 : Ref sig .tc := ⟨.hbm, 391, rfl⟩
abbrev main_v251 : Ref sig .tc := ⟨.hbm, 392, rfl⟩
abbrev main_v252 : Ref sig .tc := ⟨.hbm, 393, rfl⟩
abbrev main_v253 : Ref sig .tc := ⟨.hbm, 394, rfl⟩
abbrev main_v254 : Ref sig .tc := ⟨.hbm, 395, rfl⟩
abbrev main_v255 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_87 : Ref sig .tc := ⟨.hbm, 400, rfl⟩
abbrev main_v259 : Ref sig .tc := ⟨.hbm, 401, rfl⟩
abbrev main_v260 : Ref sig .tc := ⟨.hbm, 402, rfl⟩
abbrev main_cst_88 : Ref sig .tc := ⟨.hbm, 403, rfl⟩
abbrev main_v261 : Ref sig .tc := ⟨.hbm, 404, rfl⟩
abbrev main_v262 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_cst_89 : Ref sig .tc := ⟨.hbm, 410, rfl⟩
abbrev main_v267 : Ref sig .tc := ⟨.hbm, 411, rfl⟩
abbrev main_v268 : Ref sig .tc := ⟨.hbm, 412, rfl⟩
abbrev main_v269 : Ref sig .tc := ⟨.hbm, 413, rfl⟩
abbrev main_v270 : Ref sig .tc := ⟨.hbm, 414, rfl⟩
abbrev main_v271 : Ref sig .tc := ⟨.hbm, 415, rfl⟩
abbrev main_cst_90 : Ref sig .tc := ⟨.hbm, 416, rfl⟩
abbrev main_v272 : Ref sig .tc := ⟨.hbm, 417, rfl⟩
abbrev main_v273 : Ref sig .tc := ⟨.hbm, 418, rfl⟩
abbrev main_cst_91 : Ref sig .tc := ⟨.hbm, 419, rfl⟩
abbrev main_v274 : Ref sig .tc := ⟨.hbm, 420, rfl⟩
abbrev main_v275 : Ref sig .tc := ⟨.hbm, 421, rfl⟩
abbrev main_cst_92 : Ref sig .tc := ⟨.hbm, 422, rfl⟩
abbrev main_v276 : Ref sig .tc := ⟨.hbm, 423, rfl⟩
abbrev main_c_93 : Ref sig .tc := ⟨.hbm, 424, rfl⟩
abbrev main_v277 : Ref sig .tc := ⟨.hbm, 425, rfl⟩
abbrev main_v278 : Ref sig .tc := ⟨.hbm, 426, rfl⟩
abbrev main_c_94 : Ref sig .tc := ⟨.hbm, 427, rfl⟩
abbrev main_v279 : Ref sig .tc := ⟨.hbm, 428, rfl⟩
abbrev main_v280 : Ref sig .tc := ⟨.hbm, 429, rfl⟩
abbrev main_v281 : Ref sig .tc := ⟨.hbm, 430, rfl⟩
abbrev main_v282 : Ref sig .tc := ⟨.hbm, 431, rfl⟩
abbrev main_v283 : Ref sig .tc := ⟨.hbm, 432, rfl⟩
abbrev main_c_95 : Ref sig .tc := ⟨.hbm, 433, rfl⟩
abbrev main_v284 : Ref sig .tc := ⟨.hbm, 434, rfl⟩
abbrev main_v285 : Ref sig .tc := ⟨.hbm, 435, rfl⟩
abbrev main_c_96 : Ref sig .tc := ⟨.hbm, 436, rfl⟩
abbrev main_v286 : Ref sig .tc := ⟨.hbm, 437, rfl⟩
abbrev main_v287 : Ref sig .tc := ⟨.hbm, 438, rfl⟩
abbrev main_v288 : Ref sig .tc := ⟨.hbm, 439, rfl⟩
abbrev main_v289 : Ref sig .tc := ⟨.hbm, 440, rfl⟩
abbrev main_v290 : Ref sig .tc := ⟨.hbm, 441, rfl⟩
abbrev main_c_97 : Ref sig .tc := ⟨.hbm, 442, rfl⟩
abbrev main_v291 : Ref sig .tc := ⟨.hbm, 443, rfl⟩
abbrev main_v292 : Ref sig .tc := ⟨.hbm, 444, rfl⟩
abbrev main_c_98 : Ref sig .tc := ⟨.hbm, 445, rfl⟩
abbrev main_v293 : Ref sig .tc := ⟨.hbm, 446, rfl⟩
abbrev main_v294 : Ref sig .tc := ⟨.hbm, 447, rfl⟩
abbrev main_v295 : Ref sig .tc := ⟨.hbm, 448, rfl⟩
abbrev main_v296 : Ref sig .tc := ⟨.hbm, 449, rfl⟩
abbrev main_v297 : Ref sig .tc := ⟨.hbm, 450, rfl⟩
abbrev main_v298 : Ref sig .tc := ⟨.hbm, 451, rfl⟩
abbrev main_v299 : Ref sig .tc := ⟨.hbm, 452, rfl⟩
abbrev main_cst_99 : Ref sig .tc := ⟨.hbm, 453, rfl⟩
abbrev main_v300 : Ref sig .tc := ⟨.hbm, 454, rfl⟩
abbrev main_cst_100 : Ref sig .tc := ⟨.hbm, 455, rfl⟩
abbrev main_v301 : Ref sig .tc := ⟨.hbm, 456, rfl⟩
abbrev main_v302 : Ref sig .tc := ⟨.hbm, 457, rfl⟩
abbrev main_v303 : Ref sig .tc := ⟨.hbm, 458, rfl⟩
abbrev main_cst_101 : Ref sig .tc := ⟨.hbm, 459, rfl⟩
abbrev main_v304 : Ref sig .tc := ⟨.hbm, 460, rfl⟩
abbrev main_cst_102 : Ref sig .tc := ⟨.hbm, 461, rfl⟩
abbrev main_v305 : Ref sig .tc := ⟨.hbm, 462, rfl⟩
abbrev main_v306 : Ref sig .tc := ⟨.hbm, 463, rfl⟩
abbrev main_v307 : Ref sig .tc := ⟨.hbm, 464, rfl⟩
abbrev main_cst_103 : Ref sig .tc := ⟨.hbm, 465, rfl⟩
abbrev main_v308 : Ref sig .tc := ⟨.hbm, 466, rfl⟩
abbrev main_v309 : Ref sig .tc := ⟨.hbm, 467, rfl⟩
abbrev main_cst_104 : Ref sig .tc := ⟨.hbm, 468, rfl⟩
abbrev main_v310 : Ref sig .tc := ⟨.hbm, 469, rfl⟩
abbrev main_v311 : Ref sig .tc := ⟨.hbm, 470, rfl⟩
abbrev main_v312 : Ref sig .tc := ⟨.hbm, 471, rfl⟩
abbrev main_v313 : Ref sig .tc := ⟨.hbm, 472, rfl⟩
abbrev main_cst_105 : Ref sig .tc := ⟨.hbm, 473, rfl⟩
abbrev main_call8_v0 : Ref sig .tc := ⟨.hbm, 474, rfl⟩
abbrev main_call8_v1 : Ref sig .tc := ⟨.hbm, 475, rfl⟩
abbrev main_v314 : Ref sig .tc := ⟨.hbm, 476, rfl⟩
abbrev main_v315 : Ref sig .tc := ⟨.hbm, 477, rfl⟩
abbrev main_v316 : Ref sig .tc := ⟨.hbm, 478, rfl⟩
abbrev main_cst_106 : Ref sig .tc := ⟨.hbm, 479, rfl⟩
abbrev main_v317 : Ref sig .tc := ⟨.hbm, 480, rfl⟩
abbrev main_v318 : Ref sig .tc := ⟨.hbm, 481, rfl⟩
abbrev main_v319 : Ref sig .tc := ⟨.hbm, 482, rfl⟩
abbrev main_v320 : Ref sig .tc := ⟨.hbm, 483, rfl⟩
abbrev main_cst_107 : Ref sig .tc := ⟨.hbm, 484, rfl⟩
abbrev main_v321 : Ref sig .tc := ⟨.hbm, 485, rfl⟩
abbrev main_v322 : Ref sig .tc := ⟨.hbm, 486, rfl⟩
abbrev main_v323 : Ref sig .tc := ⟨.hbm, 487, rfl⟩
abbrev main_cst_108 : Ref sig .tc := ⟨.hbm, 488, rfl⟩
abbrev main_v324 : Ref sig .tc := ⟨.hbm, 489, rfl⟩
abbrev main_cst_109 : Ref sig .tc := ⟨.hbm, 490, rfl⟩
abbrev main_v325 : Ref sig .tc := ⟨.hbm, 491, rfl⟩
abbrev main_v326 : Ref sig .tc := ⟨.hbm, 492, rfl⟩
abbrev main_cst_110 : Ref sig .tc := ⟨.hbm, 493, rfl⟩
abbrev main_v327 : Ref sig .tc := ⟨.hbm, 494, rfl⟩
abbrev main_cst_111 : Ref sig .tc := ⟨.hbm, 495, rfl⟩
abbrev main_v328 : Ref sig .tc := ⟨.hbm, 496, rfl⟩
abbrev main_cst_112 : Ref sig .tc := ⟨.hbm, 497, rfl⟩
abbrev main_v329 : Ref sig .tc := ⟨.hbm, 498, rfl⟩
abbrev main_v330 : Ref sig .tc := ⟨.hbm, 499, rfl⟩
abbrev main_cst_113 : Ref sig .tc := ⟨.hbm, 500, rfl⟩
abbrev main_v331 : Ref sig .tc := ⟨.hbm, 501, rfl⟩
abbrev main_cst_114 : Ref sig .tc := ⟨.hbm, 502, rfl⟩
abbrev main_v332 : Ref sig .tc := ⟨.hbm, 503, rfl⟩
abbrev main_cst_115 : Ref sig .tc := ⟨.hbm, 504, rfl⟩
abbrev main_v333 : Ref sig .tc := ⟨.hbm, 505, rfl⟩
abbrev main_cst_116 : Ref sig .tc := ⟨.hbm, 506, rfl⟩
abbrev main_v334 : Ref sig .tc := ⟨.hbm, 507, rfl⟩
abbrev main_v335 : Ref sig .tc := ⟨.hbm, 508, rfl⟩
abbrev main_v336 : Ref sig .tc := ⟨.hbm, 509, rfl⟩
abbrev main_cst_117 : Ref sig .tc := ⟨.hbm, 510, rfl⟩
abbrev main_v337 : Ref sig .tc := ⟨.hbm, 511, rfl⟩
abbrev main_v338 : Ref sig .tc := ⟨.hbm, 512, rfl⟩

abbrev nD : Nat := 1
abbrev τ : Topo := Topo.v7x

variable {F : FTy → Type} [FloatOps F]

class Facts₀ : Prop where
  bcast_S_S131072x1 : S_.BroadcastsInDim S131072x1 (![] : Fin 0 → Fin S131072x1.rank)
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S131072_S131072x1_0 : S131072.BroadcastsInDim S131072x1 (![0] : Fin 1 → Fin S131072x1.rank)
  bcast_S_S131072x3 : S_.BroadcastsInDim S131072x3 (![] : Fin 0 → Fin S131072x3.rank)
  bcast_S131072x1_S131072x3_0_1 : S131072x1.BroadcastsInDim S131072x3 (![0, 1] : Fin 2 → Fin S131072x3.rank)
  slices_S131072x4_S131072x1_0_2 : S131072x4.Slices ![0, 2] S131072x1
  reducesTo_S131072x3_S131072_d1 : S131072x3.ReducesTo [1] S131072
  h_S_ : 0 < S_.numel
  reducesTo_S131072x1_S_d0_1 : S131072x1.ReducesTo [0, 1] S_
  bcast_S_S32768x1 : S_.BroadcastsInDim S32768x1 (![] : Fin 0 → Fin S32768x1.rank)
  bcast_S_S32768 : S_.BroadcastsInDim S32768 (![] : Fin 0 → Fin S32768.rank)
  bcast_S32768_S32768x1_0 : S32768.BroadcastsInDim S32768x1 (![0] : Fin 1 → Fin S32768x1.rank)
  reducesTo_S32768x3_S32768_d1 : S32768x3.ReducesTo [1] S32768
  bcast_S32768x1_S32768x3_0_1 : S32768x1.BroadcastsInDim S32768x3 (![0, 1] : Fin 2 → Fin S32768x3.rank)
  concatenates_S32768x1_S32768x1_S32768x2_d1 : Shape.Concatenates [S32768x1, S32768x1] S32768x2 1
  reducesTo_S2048x3_S2048_d1 : S2048x3.ReducesTo [1] S2048
  bcast_S2048_S1x2048_1 : S2048.BroadcastsInDim S1x2048 (![1] : Fin 1 → Fin S1x2048.rank)
  bcast_S32768x1_S32768x2048_0_1 : S32768x1.BroadcastsInDim S32768x2048 (![0, 1] : Fin 2 → Fin S32768x2048.rank)
  bcast_S1x2048_S32768x2048_0_1 : S1x2048.BroadcastsInDim S32768x2048 (![0, 1] : Fin 2 → Fin S32768x2048.rank)
  bcast_S_S32768x3 : S_.BroadcastsInDim S32768x3 (![] : Fin 0 → Fin S32768x3.rank)
  transposes_S2048x3_S3x2048_1_0 : S2048x3.Transposes [1, 0] S3x2048
  bcast_S_S32768x2048 : S_.BroadcastsInDim S32768x2048 (![] : Fin 0 → Fin S32768x2048.rank)
  reducesTo_S32768x2048_S32768_d1 : S32768x2048.ReducesTo [1] S32768
  bcast_S_S262144 : S_.BroadcastsInDim S262144 (![] : Fin 0 → Fin S262144.rank)
  bcast_S262144_S262144x1_0 : S262144.BroadcastsInDim S262144x1 (![0] : Fin 1 → Fin S262144x1.rank)
  reducesTo_S262144x3_S262144_d1 : S262144x3.ReducesTo [1] S262144
  reducesTo_S32768x1_S_d0_1 : S32768x1.ReducesTo [0, 1] S_
  scatter_S131072_S2097152x1_S2097152_n_0_0_1_wf : ScatterDims.WF S131072 S2097152x1 S2097152 [] [0] [0] 1
  gather_S131072x3_S2097152x1_S2097152x3_1_0_n_n_0_1_13_wf : GatherDims.WF S131072x3 S2097152x1 S2097152x3 [1] [0] [] [0] [] 1 ![1, 3]
  scatter_S131072x3_S2097152x1_S2097152x3_1_0_0_1_wf : ScatterDims.WF S131072x3 S2097152x1 S2097152x3 [1] [0] [0] 1
  gather_S131072x1_S2097152x1_S2097152x1_1_0_n_n_0_1_11_wf : GatherDims.WF S131072x1 S2097152x1 S2097152x1 [1] [0] [] [0] [] 1 ![1, 1]
  scatter_S131072x1_S2097152x1_S2097152x1_1_0_0_1_wf : ScatterDims.WF S131072x1 S2097152x1 S2097152x1 [1] [0] [0] 1
  gather_S8_S32768x1_S32768_n_0_n_n_0_1_1_wf : GatherDims.WF S8 S32768x1 S32768 [] [0] [] [0] [] 1 ![1]
  gather_S32768x3_S32768x1_S32768x3_1_0_n_n_0_1_13_wf : GatherDims.WF S32768x3 S32768x1 S32768x3 [1] [0] [] [0] [] 1 ![1, 3]
  gather_S32768x4_S32768x2_S32768x1_1_0_n_n_01_1_11_wf : GatherDims.WF S32768x4 S32768x2 S32768x1 [1] [0] [] [0, 1] [] 1 ![1, 1]
  gather_S32768x1_S32768x1_S32768x1_1_0_n_n_0_1_11_wf : GatherDims.WF S32768x1 S32768x1 S32768x1 [1] [0] [] [0] [] 1 ![1, 1]
  dot_S32768x3_S3x2048_S32768x2048_1_0_0_1_n_n_wf : DotDims.WF S32768x3 S3x2048 S32768x2048 [1] [0] [0] [1] [] []
  scatter_S32768x1_S32768x1_S32768x1_1_0_0_1_wf : ScatterDims.WF S32768x1 S32768x1 S32768x1 [1] [0] [0] 1
  gather_S32768x3_S262144x1_S262144x3_1_0_n_n_0_1_13_wf : GatherDims.WF S32768x3 S262144x1 S262144x3 [1] [0] [] [0] [] 1 ![1, 3]
  gather_S131072x3_S262144x1_S262144x3_1_0_n_n_0_1_13_wf : GatherDims.WF S131072x3 S262144x1 S262144x3 [1] [0] [] [0] [] 1 ![1, 3]
  scatter_S32768_S262144x1_S262144_n_0_0_1_wf : ScatterDims.WF S32768 S262144x1 S262144 [] [0] [0] 1

variable [Facts₀]

def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def gather_S131072x3_S2097152x1_S2097152x3_1_0_n_n_0_1_13 : GatherDims S131072x3 S2097152x1 S2097152x3 where
  offsetDims := [1]
  collapsedSliceDims := [0]
  operandBatchingDims := []
  startIndicesBatchingDims := []
  startIndexMap := [0]
  indexVectorDim := 1
  sliceSizes := ![1, 3]
  wf := gather_S131072x3_S2097152x1_S2097152x3_1_0_n_n_0_1_13_wf
def scatter_S131072x3_S2097152x1_S2097152x3_1_0_0_1 : ScatterDims S131072x3 S2097152x1 S2097152x3 where
  updateWindowDims := [1]
  insertedWindowDims := [0]
  scatterDimsToOperandDims := [0]
  indexVectorDim := 1
  wf := scatter_S131072x3_S2097152x1_S2097152x3_1_0_0_1_wf
def gather_S131072x1_S2097152x1_S2097152x1_1_0_n_n_0_1_11 : GatherDims S131072x1 S2097152x1 S2097152x1 where
  offsetDims := [1]
  collapsedSliceDims := [0]
  operandBatchingDims := []
  startIndicesBatchingDims := []
  startIndexMap := [0]
  indexVectorDim := 1
  sliceSizes := ![1, 1]
  wf := gather_S131072x1_S2097152x1_S2097152x1_1_0_n_n_0_1_11_wf
def scatter_S131072x1_S2097152x1_S2097152x1_1_0_0_1 : ScatterDims S131072x1 S2097152x1 S2097152x1 where
  updateWindowDims := [1]
  insertedWindowDims := [0]
  scatterDimsToOperandDims := [0]
  indexVectorDim := 1
  wf := scatter_S131072x1_S2097152x1_S2097152x1_1_0_0_1_wf
def gather_S8_S32768x1_S32768_n_0_n_n_0_1_1 : GatherDims S8 S32768x1 S32768 where
  offsetDims := []
  collapsedSliceDims := [0]
  operandBatchingDims := []
  startIndicesBatchingDims := []
  startIndexMap := [0]
  indexVectorDim := 1
  sliceSizes := ![1]
  wf := gather_S8_S32768x1_S32768_n_0_n_n_0_1_1_wf
def gather_S32768x3_S32768x1_S32768x3_1_0_n_n_0_1_13 : GatherDims S32768x3 S32768x1 S32768x3 where
  offsetDims := [1]
  collapsedSliceDims := [0]
  operandBatchingDims := []
  startIndicesBatchingDims := []
  startIndexMap := [0]
  indexVectorDim := 1
  sliceSizes := ![1, 3]
  wf := gather_S32768x3_S32768x1_S32768x3_1_0_n_n_0_1_13_wf
def gather_S32768x4_S32768x2_S32768x1_1_0_n_n_01_1_11 : GatherDims S32768x4 S32768x2 S32768x1 where
  offsetDims := [1]
  collapsedSliceDims := [0]
  operandBatchingDims := []
  startIndicesBatchingDims := []
  startIndexMap := [0, 1]
  indexVectorDim := 1
  sliceSizes := ![1, 1]
  wf := gather_S32768x4_S32768x2_S32768x1_1_0_n_n_01_1_11_wf
def gather_S32768x1_S32768x1_S32768x1_1_0_n_n_0_1_11 : GatherDims S32768x1 S32768x1 S32768x1 where
  offsetDims := [1]
  collapsedSliceDims := [0]
  operandBatchingDims := []
  startIndicesBatchingDims := []
  startIndexMap := [0]
  indexVectorDim := 1
  sliceSizes := ![1, 1]
  wf := gather_S32768x1_S32768x1_S32768x1_1_0_n_n_0_1_11_wf
def dot_S32768x3_S3x2048_S32768x2048_1_0_0_1_n_n : DotDims S32768x3 S3x2048 S32768x2048 where
  lhsContracting := [1]
  rhsContracting := [0]
  lhsNonContracting := [0]
  rhsNonContracting := [1]
  lhsBatch := []
  rhsBatch := []
  wf := dot_S32768x3_S3x2048_S32768x2048_1_0_0_1_n_n_wf
def scatter_S32768x1_S32768x1_S32768x1_1_0_0_1 : ScatterDims S32768x1 S32768x1 S32768x1 where
  updateWindowDims := [1]
  insertedWindowDims := [0]
  scatterDimsToOperandDims := [0]
  indexVectorDim := 1
  wf := scatter_S32768x1_S32768x1_S32768x1_1_0_0_1_wf
def gather_S32768x3_S262144x1_S262144x3_1_0_n_n_0_1_13 : GatherDims S32768x3 S262144x1 S262144x3 where
  offsetDims := [1]
  collapsedSliceDims := [0]
  operandBatchingDims := []
  startIndicesBatchingDims := []
  startIndexMap := [0]
  indexVectorDim := 1
  sliceSizes := ![1, 3]
  wf := gather_S32768x3_S262144x1_S262144x3_1_0_n_n_0_1_13_wf
def gather_S131072x3_S262144x1_S262144x3_1_0_n_n_0_1_13 : GatherDims S131072x3 S262144x1 S262144x3 where
  offsetDims := [1]
  collapsedSliceDims := [0]
  operandBatchingDims := []
  startIndicesBatchingDims := []
  startIndexMap := [0]
  indexVectorDim := 1
  sliceSizes := ![1, 3]
  wf := gather_S131072x3_S262144x1_S262144x3_1_0_n_n_0_1_13_wf
def scatter_S32768_S262144x1_S262144_n_0_0_1 : ScatterDims S32768 S262144x1 S262144 where
  updateWindowDims := []
  insertedWindowDims := [0]
  scatterDimsToOperandDims := [0]
  indexVectorDim := 1
  wf := scatter_S32768_S262144x1_S262144_n_0_0_1_wf

class Facts : Prop extends Facts₀ where

variable [Facts]
-- ==== Proof.KI.LidarSumData.lean ====
/- The lidar sum as data: `blk0 t` is block `t` of the input rows and `acc0 n` the partial sum over blocks `0 … n`,
   that is, the left fold of the step function `k0_pay2` over the blocks, started from `k0_pay1`. -/
import proofs.«132617_j16140487098675_1_alg».proof.Proof.Gen.KernelIdeal.Launch
import proofs.«132617_j16140487098675_1_alg».proof.Proof.Gen.KernelIdeal.Skeleton
import proofs.«132617_j16140487098675_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0 (c : Dev nD) : (n : ℕ) → n < cfg0.N → Vec F S1x3 .f32
  | 0, hn => k0_pay2 (blk0 V c 0 ⟨0, hn⟩) (k0_pay1 (F := F))
  | n + 1, hn => k0_pay2 (blk0 V c 0 ⟨n + 1, hn⟩) (acc0 c n (Nat.lt_of_succ_lt hn))

/-- After step `t` the input block is as before and the output holds the partial sum `acc0 t`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => acc0 V c t.val t.isLt
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_in (c : Dev nD) (t : Fin cfg0.N) : (dat0 V c).after 0 t = blk0 V c 0 t := by dsimp only [dat0]
theorem dat0_after_out (c : Dev nD) (t : Fin cfg0.N) : (dat0 V c).after 1 t = acc0 V c t.val t.isLt := by dsimp only [dat0]

end Cert.KernelIdeal.Hand

end
-- ==== Proof.KI.NearestAData.lean ====
/- The first nearest-point search as data: step `t` sends block `t` of the query points and the whole table of
   reference points to block `t` of the output, by `k1_pay1`; both inputs stay as they are. -/
import proofs.«132617_j16140487098675_1_alg».proof.Proof.Gen.KernelIdeal.Launch
import proofs.«132617_j16140487098675_1_alg».proof.Proof.Gen.KernelIdeal.Skeleton
import proofs.«132617_j16140487098675_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay1 (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_pred (c : Dev nD) (t : Fin cfg1.N) : (dat1 V c).after 0 t = blk1 V c 0 t := by dsimp only [dat1]
theorem dat1_after_table (c : Dev nD) (t : Fin cfg1.N) : (dat1 V c).after 1 t = blk1 V c 1 t := by dsimp only [dat1]
theorem dat1_after_out (c : Dev nD) (t : Fin cfg1.N) :
    (dat1 V c).after 2 t = k1_pay1 (blk1 V c 0 t) (blk1 V c 1 t) := by dsimp only [dat1]

end Cert.KernelIdeal.Hand

end
-- ==== Proof.KI.RadarSumAData.lean ====
/- The first radar sum as data: `blk2 t` is block `t` of the input rows and `acc2 n` the partial sum over blocks `0 … n`,
   the left fold of the step function `k2_pay2` over the blocks, started from `k2_pay1`. -/
import proofs.«132617_j16140487098675_1_alg».proof.Proof.Gen.KernelIdeal.Launch
import proofs.«132617_j16140487098675_1_alg».proof.Proof.Gen.KernelIdeal.Skeleton
import proofs.«132617_j16140487098675_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S1x3 .f32
  | 0, hn => k2_pay2 (blk2 V c 0 ⟨0, hn⟩) (k2_pay1 (F := F))
  | n + 1, hn => k2_pay2 (blk2 V c 0 ⟨n + 1, hn⟩) (acc2 c n (Nat.lt_of_succ_lt hn))

/-- After step `t` the input block is as before and the output holds the partial sum `acc2 t`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => acc2 V c t.val t.isLt
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_in (c : Dev nD) (t : Fin cfg2.N) : (dat2 V c).after 0 t = blk2 V c 0 t := by dsimp only [dat2]
theorem dat2_after_out (c : Dev nD) (t : Fin cfg2.N) : (dat2 V c).after 1 t = acc2 V c t.val t.isLt := by dsimp only [dat2]

end Cert.KernelIdeal.Hand

end
-- ==== Proof.KI.NearestBData.lean ====
/- The second nearest-point search as data: step `t` sends block `t` of the query points and the whole table of
   reference points to block `t` of the output, by `k3_pay1`; both inputs stay as they are. -/
import proofs.«132617_j16140487098675_1_alg».proof.Proof.Gen.KernelIdeal.Launch
import proofs.«132617_j16140487098675_1_alg».proof.Proof.Gen.KernelIdeal.Skeleton
import proofs.«132617_j16140487098675_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => k3_pay1 (blk3 V c 0 t) (blk3 V c 1 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem dat3_after_pred (c : Dev nD) (t : Fin cfg3.N) : (dat3 V c).after 0 t = blk3 V c 0 t := by dsimp only [dat3]
theorem dat3_after_table (c : Dev nD) (t : Fin cfg3.N) : (dat3 V c).after 1 t = blk3 V c 1 t := by dsimp only [dat3]
theorem dat3_after_out (c : Dev nD) (t : Fin cfg3.N) :
    (dat3 V c).after 2 t = k3_pay1 (blk3 V c 0 t) (blk3 V c 1 t) := by dsimp only [dat3]

end Cert.KernelIdeal.Hand

end
-- ==== Proof.KI.RadarSumBData.lean ====
/- The second radar sum as data: `blk4 t` is block `t` of the input rows and `acc4 n` the partial sum over blocks `0 … n`,
   the left fold of the step function `k4_pay2` over the blocks, started from `k4_pay1`. -/
import proofs.«132617_j16140487098675_1_alg».proof.Proof.Gen.KernelIdeal.Launch
import proofs.«132617_j16140487098675_1_alg».proof.Proof.Gen.KernelIdeal.Skeleton
import proofs.«132617_j16140487098675_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S1x3 .f32
  | 0, hn => k4_pay2 (blk4 V c 0 ⟨0, hn⟩) (k4_pay1 (F := F))
  | n + 1, hn => k4_pay2 (blk4 V c 0 ⟨n + 1, hn⟩) (acc4 c n (Nat.lt_of_succ_lt hn))

/-- After step `t` the input block is as before and the output holds the partial sum `acc4 t`. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => acc4 V c t.val t.isLt
  Φ _ := Pipeline.ΦA spec4 c
  q _ := fullShare
  owed _ := 0

theorem dat4_A (c : Dev nD) (w : Fin cfg4.W) : (dat4 V c).A w = V c (Pipeline.arrRef spec4 w) := by
  dsimp only [dat4]

theorem dat4_after_in (c : Dev nD) (t : Fin cfg4.N) : (dat4 V c).after 0 t = blk4 V c 0 t := by dsimp only [dat4]
theorem dat4_after_out (c : Dev nD) (t : Fin cfg4.N) : (dat4 V c).after 1 t = acc4 V c t.val t.isLt := by dsimp only [dat4]

end Cert.KernelIdeal.Hand

end
-- ==== Proof.KI.Run.lean ====
/- The whole program on one core: @main's 23 items in a row, what every buffer holds between them, and that each argument ends as launched. -/
import proofs.«132617_j16140487098675_1_alg».proof.Proof.KI.LidarSumData
import proofs.«132617_j16140487098675_1_alg».proof.Proof.KI.NearestAData
import proofs.«132617_j16140487098675_1_alg».proof.Proof.KI.RadarSumAData
import proofs.«132617_j16140487098675_1_alg».proof.Proof.KI.NearestBData
import proofs.«132617_j16140487098675_1_alg».proof.Proof.KI.RadarSumBData
import proofs.«132617_j16140487098675_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `W0`: core `c`'s buffers at launch; `Wk`: the same after item k (a stretch applies its operations; a kernel call leaves its arrays as its grid does, all else as entered)
abbrev W0 : Dev nD → Valuation τ sig (Elt F) := fun c b => (s₀ m ρ).mem ((c : Dev nD), b)
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev E7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (E7 m ρ) c).arrAt w cfg1.N
theorem W8_arr (c : Dev nD) (w : Fin cfg1.W) :
    W8 m ρ c (Proc.devRef .tc (Pipeline.arrRef spec1 w)) = (dat1 (E7 m ρ) c).arrAt w cfg1.N :=
  Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) :=
  Pipeline.withArrays_of_ne spec1 c _ _ b hb
abbrev W9 : Dev nD → Valuation τ sig (Elt F) := fun c => StableHlo.after hostOps2 (W8 m ρ c)
abbrev W10 : Dev nD → Valuation τ sig (Elt F) := fun c => StableHlo.after hostOps2_1 (W9 m ρ c)
abbrev W11 : Dev nD → Valuation τ sig (Elt F) := fun c => StableHlo.after hostOps2_2 (W10 m ρ c)
abbrev E11 : (c : Dev nD) → (b : Ref sig .tc) → Buf (Elt F) ((c : Thread nD τ).loc b) := fun c b => W11 m ρ c b
def W12 (c : Dev nD) : Valuation τ sig (Elt F) :=
  Pipeline.withArrays spec2 c (W11 m ρ c) fun w => (dat2 (E11 m ρ) c).arrAt w cfg2.N
theorem W12_arr (c : Dev nD) (w : Fin cfg2.W) :
    W12 m ρ c (Proc.devRef .tc (Pipeline.arrRef spec2 w)) = (dat2 (E11 m ρ) c).arrAt w cfg2.N :=
  Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) :=
  Pipeline.withArrays_of_ne spec2 c _ _ b hb
abbrev W13 : Dev nD → Valuation τ sig (Elt F) := fun c => StableHlo.after hostOps3 (W12 m ρ c)
abbrev W14 : Dev nD → Valuation τ sig (Elt F) := fun c => StableHlo.after hostOps3_1 (W13 m ρ c)
abbrev W15 : Dev nD → Valuation τ sig (Elt F) := fun c => StableHlo.after hostOps3_2 (W14 m ρ c)
abbrev W16 : Dev nD → Valuation τ sig (Elt F) := fun c => StableHlo.after hostOps3_3 (W15 m ρ c)
abbrev W17 : Dev nD → Valuation τ sig (Elt F) := fun c => StableHlo.after hostOps3_4 (W16 m ρ c)
abbrev E17 : (c : Dev nD) → (b : Ref sig .tc) → Buf (Elt F) ((c : Thread nD τ).loc b) := fun c b => W17 m ρ c b
def W18 (c : Dev nD) : Valuation τ sig (Elt F) :=
  Pipeline.withArrays spec3 c (W17 m ρ c) fun w => (dat3 (E17 m ρ) c).arrAt w cfg3.N
theorem W18_arr (c : Dev nD) (w : Fin cfg3.W) :
    W18 m ρ c (Proc.devRef .tc (Pipeline.arrRef spec3 w)) = (dat3 (E17 m ρ) c).arrAt w cfg3.N :=
  Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) :=
  Pipeline.withArrays_of_ne spec3 c _ _ b hb
abbrev W19 : Dev nD → Valuation τ sig (Elt F) := fun c => StableHlo.after hostOps4 (W18 m ρ c)
abbrev W20 : Dev nD → Valuation τ sig (Elt F) := fun c => StableHlo.after hostOps4_1 (W19 m ρ c)
abbrev W21 : Dev nD → Valuation τ sig (Elt F) := fun c => StableHlo.after hostOps4_2 (W20 m ρ c)
abbrev E21 : (c : Dev nD) → (b : Ref sig .tc) → Buf (Elt F) ((c : Thread nD τ).loc b) := fun c b => W21 m ρ c b
def W22 (c : Dev nD) : Valuation τ sig (Elt F) :=
  Pipeline.withArrays spec4 c (W21 m ρ c) fun w => (dat4 (E21 m ρ) c).arrAt w cfg4.N
theorem W22_arr (c : Dev nD) (w : Fin cfg4.W) :
    W22 m ρ c (Proc.devRef .tc (Pipeline.arrRef spec4 w)) = (dat4 (E21 m ρ) c).arrAt w cfg4.N :=
  Pipeline.withArrays_arr spec4 launch4.win.arr_inj c _ _ w
theorem W22_of_ne (c : Dev nD) (b : Ref sig .tc) (hb : ∀ w, Pipeline.arrRef spec4 w ≠ b) :
    W22 m ρ c (Proc.devRef .tc b) = W21 m ρ c (Proc.devRef .tc b) :=
  Pipeline.withArrays_of_ne spec4 c _ _ b hb
abbrev W23 : Dev nD → Valuation τ sig (Elt F) := fun c => StableHlo.after hostOps5 (W22 m ρ c)

def pdats : (p : Fin 5) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E7 m ρ) c
  | ⟨2, _⟩ => fun c => dat2 (E11 m ρ) c
  | ⟨3, _⟩ => fun c => dat3 (E17 m ρ) c
  | ⟨4, _⟩ => fun c => dat4 (E21 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable
  (hbody0 : ∀ (V : (c : Dev nD) → (b : Ref sig .tc) → Buf (Elt F) ((c : Thread nD τ).loc b)) (c : Dev nD),
    BodyObligation (dat0 (F := F) V c) (defs₀ (F := F)) Variants.none () Set.univ)
  (hbody1 : ∀ (V : (c : Dev nD) → (b : Ref sig .tc) → Buf (Elt F) ((c : Thread nD τ).loc b)) (c : Dev nD),
    BodyObligation (dat1 (F := F) V c) (defs₀ (F := F)) Variants.none () Set.univ)
  (hbody2 : ∀ (V : (c : Dev nD) → (b : Ref sig .tc) → Buf (Elt F) ((c : Thread nD τ).loc b)) (c : Dev nD),
    BodyObligation (dat2 (F := F) V c) (defs₀ (F := F)) Variants.none () Set.univ)
  (hbody3 : ∀ (V : (c : Dev nD) → (b : Ref sig .tc) → Buf (Elt F) ((c : Thread nD τ).loc b)) (c : Dev nD),
    BodyObligation (dat3 (F := F) V c) (defs₀ (F := F)) Variants.none () Set.univ)
  (hbody4 : ∀ (V : (c : Dev nD) → (b : Ref sig .tc) → Buf (Elt F) ((c : Thread nD τ).loc b)) (c : Dev nD),
    BodyObligation (dat4 (F := F) V c) (defs₀ (F := F)) Variants.none () Set.univ)

set_option backward.isDefEq.respectTransparency.types false in
/-- Kernel call `p` as an item entered with every buffer at `V`: it leaves its arrays as its grid does and every other buffer as entered, and owes nothing. -/
def reg (p : Fin 5) (lf : Pipeline.LaunchFacts (nD := nD) (τ := τ) cfgs p) (V : Dev nD → Valuation τ sig (Elt F))
    (hbody : ∀ c, BodyObligation (pdats m ρ p c) (defs₀ (F := F)) Variants.none () Set.univ)
    (hA : ∀ c w, (pdats m ρ p c).A w = V c (Pipeline.arrRef (cfgs p).spec w) := by intros; rfl)
    (hΦ : ∀ c t, (pdats m ρ p c).Φ t = Pipeline.ΦA (cfgs p).spec c := by intros; rfl)
    (hq : ∀ c w, (pdats m ρ p c).q w = fullShare := by intros; rfl)
    (hO : ∀ c t, (pdats m ρ p c).owed t = 0 := by intros; rfl)
    (hrec : ∀ c t, (pdats m ρ p c).recorded t = Set.univ := by intros; rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p hO
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => V c b) (hA c)
    rw [Pipeline.unscopedBufs_held] at hsplit
    unfold Pipeline.Dat.owesAt Pipeline.owesWithin Pipeline.Dat.bound
    rw [hO c, hrec c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => V c b)
      (fun b => Pipeline.withArrays (cfgs p).spec c (V c) (fun w => (pdats m ρ p c).arrAt w (cfgs p).N) b) _
      (fun w => (Pipeline.withArrays_arr (cfgs p).spec lf.win.arr_inj c _ _ w).symm)
      fun b hb => Pipeline.withArrays_of_ne (cfgs p).spec c _ _ b fun w e => hb (Finset.mem_image.mpr ⟨w, Finset.mem_univ _, e⟩)
    rw [Pipeline.unscopedBufs_held] at hjoin
    unfold Pipeline.Dat.owesAt Pipeline.owesWithin
    rw [hO c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (hbody0 (E1 m ρ))),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg m ρ 1 launch1 (W7 m ρ) (hbody1 (E7 m ρ))),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (reg m ρ 2 launch2 (W11 m ρ) (hbody2 (E11 m ρ))),
    .host (hseg hostOps3 hostOps3_sub hostOps3_fresh (W12 m ρ)),
    .host (hseg hostOps3_1 hostOps3_1_sub hostOps3_1_fresh (W13 m ρ)),
    .host (hseg hostOps3_2 hostOps3_2_sub hostOps3_2_fresh (W14 m ρ)),
    .host (hseg hostOps3_3 hostOps3_3_sub hostOps3_3_fresh (W15 m ρ)),
    .host (hseg hostOps3_4 hostOps3_4_sub hostOps3_4_fresh (W16 m ρ)),
    .region (reg m ρ 3 launch3 (W17 m ρ) (hbody3 (E17 m ρ))),
    .host (hseg hostOps4 hostOps4_sub hostOps4_fresh (W18 m ρ)),
    .host (hseg hostOps4_1 hostOps4_1_sub hostOps4_1_fresh (W19 m ρ)),
    .host (hseg hostOps4_2 hostOps4_2_sub hostOps4_2_fresh (W20 m ρ)),
    .region (reg m ρ 4 launch4 (W21 m ρ) (hbody4 (E21 m ρ))),
    .host (hseg hostOps5 hostOps5_sub hostOps5_fresh (W22 m ρ)) ]

theorem main_run (c : Dev nD) : main (F := F) c = Pipeline.Seg.run (segs m ρ hbody0 hbody1 hbody2 hbody3 hbody4) := by
  rw [main_chain c, Pipeline.Seg.run_eq_chain]
  rfl

include hbody0 hbody1 hbody2 hbody3 hbody4 in
set_option backward.isDefEq.respectTransparency.types false in
/-- Every weakly fair execution of @main from zero counters terminates, nothing faulting, with every buffer of every core at `W23`: each item starts from what the one before it left. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W23 m ρ c b) :=
  Pipeline.θ_run_regions_kit (pcfgs (F := F)) adm (pdats m ρ) () cellOf_inj emb₁ defs₀ 𝒱₀ L lv m ρ main (segs m ρ hbody0 hbody1 hbody2 hbody3 hbody4)
    (fun c Q => by rw [main_run m ρ hbody0 hbody1 hbody2 hbody3 hbody4 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W23 m ρ c) ∗ ∃ r, prngReg c r))
    (hch := by
      repeat' refine And.intro ?_ ?_
      all_goals intro c
      on_goal 24 => exact sep_assoc.2
      all_goals exact .rfl)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c => h c)

section Kept
variable (c : Dev nD) (r : Ref sig .tc) (h0 : r ∉ hostOps0_W) (h1 : W2 m ρ c (Proc.devRef .tc r) = W1 m ρ c (Proc.devRef .tc r)) (h2 : r ∉ hostOps1_W) (h3 : r ∉ hostOps1_1_W) (h4 : r ∉ hostOps1_2_W) (h5 : r ∉ hostOps1_3_W) (h6 : r ∉ hostOps1_4_W) (h7 : W8 m ρ c (Proc.devRef .tc r) = W7 m ρ c (Proc.devRef .tc r)) (h8 : r ∉ hostOps2_W) (h9 : r ∉ hostOps2_1_W) (h10 : r ∉ hostOps2_2_W) (h11 : W12 m ρ c (Proc.devRef .tc r) = W11 m ρ c (Proc.devRef .tc r)) (h12 : r ∉ hostOps3_W) (h13 : r ∉ hostOps3_1_W) (h14 : r ∉ hostOps3_2_W) (h15 : r ∉ hostOps3_3_W) (h16 : r ∉ hostOps3_4_W) (h17 : W18 m ρ c (Proc.devRef .tc r) = W17 m ρ c (Proc.devRef .tc r))

-- a buffer no item so far has changed (no stretch writes it, each kernel call leaves it) still holds its launch contents
include h0 h1 in
theorem W2_keep : W2 m ρ c (Proc.devRef .tc r) = m ((c : Thread nD τ).loc r) :=
  h1.trans (StableHlo.after_of_writes_sub hostOps0 _ hostOps0_writes h0)
include h0 h1 h2 h3 h4 h5 h6 in
theorem W7_keep : W7 m ρ c (Proc.devRef .tc r) = m ((c : Thread nD τ).loc r) :=
  (StableHlo.after_of_writes_sub hostOps1_4 _ hostOps1_4_writes h6).trans <| (StableHlo.after_of_writes_sub hostOps1_3 _ hostOps1_3_writes h5).trans <| (StableHlo.after_of_writes_sub hostOps1_2 _ hostOps1_2_writes h4).trans <|
    (StableHlo.after_of_writes_sub hostOps1_1 _ hostOps1_1_writes h3).trans <| (StableHlo.after_of_writes_sub hostOps1 _ hostOps1_writes h2).trans (W2_keep m ρ c r h0 h1)
include h0 h1 h2 h3 h4 h5 h6 h7 in
theorem W8_keep : W8 m ρ c (Proc.devRef .tc r) = m ((c : Thread nD τ).loc r) :=
  h7.trans (W7_keep m ρ c r h0 h1 h2 h3 h4 h5 h6)
include h0 h1 h2 h3 h4 h5 h6 h7 h8 h9 h10 h11 in
theorem W12_keep : W12 m ρ c (Proc.devRef .tc r) = m ((c : Thread nD τ).loc r) :=
  h11.trans <| (StableHlo.after_of_writes_sub hostOps2_2 _ hostOps2_2_writes h10).trans <| (StableHlo.after_of_writes_sub hostOps2_1 _ hostOps2_1_writes h9).trans <| (StableHlo.after_of_writes_sub hostOps2 _ hostOps2_writes h8).trans
    (W8_keep m ρ c r h0 h1 h2 h3 h4 h5 h6 h7)
include h0 h1 h2 h3 h4 h5 h6 h7 h8 h9 h10 h11 h12 h13 h14 h15 h16 in
theorem W17_keep : W17 m ρ c (Proc.devRef .tc r) = m ((c : Thread nD τ).loc r) :=
  (StableHlo.after_of_writes_sub hostOps3_4 _ hostOps3_4_writes h16).trans <| (StableHlo.after_of_writes_sub hostOps3_3 _ hostOps3_3_writes h15).trans <| (StableHlo.after_of_writes_sub hostOps3_2 _ hostOps3_2_writes h14).trans <|
    (StableHlo.after_of_writes_sub hostOps3_1 _ hostOps3_1_writes h13).trans <| (StableHlo.after_of_writes_sub hostOps3 _ hostOps3_writes h12).trans (W12_keep m ρ c r h0 h1 h2 h3 h4 h5 h6 h7 h8 h9 h10 h11)
include h0 h1 h2 h3 h4 h5 h6 h7 h8 h9 h10 h11 h12 h13 h14 h15 h16 h17 in
theorem W18_keep : W18 m ρ c (Proc.devRef .tc r) = m ((c : Thread nD τ).loc r) :=
  h17.trans (W17_keep m ρ c r h0 h1 h2 h3 h4 h5 h6 h7 h8 h9 h10 h11 h12 h13 h14 h15 h16)
end Kept

-- the reference positions are an input of both nearest-neighbour calls, and an input's array is given back as found
theorem W8_in (c : Dev nD) {r : Ref sig .tc} (h : r = main_arg9 ∨ ∀ w, Pipeline.arrRef spec1 w ≠ r) : W8 m ρ c (Proc.devRef .tc r) = W7 m ρ c (Proc.devRef .tc r) := by
  obtain rfl | h := h
  · exact (W8_arr m ρ c 1).trans (((dat1 (E7 m ρ) c).arrAt_in 1 rfl _).trans (dat1_A (E7 m ρ) c 1))
  · exact W8_of_ne m ρ c r h
theorem W18_in (c : Dev nD) {r : Ref sig .tc} (h : r = main_arg9 ∨ ∀ w, Pipeline.arrRef spec3 w ≠ r) : W18 m ρ c (Proc.devRef .tc r) = W17 m ρ c (Proc.devRef .tc r) := by
  obtain rfl | h := h
  · exact (W18_arr m ρ c 1).trans (((dat3 (E17 m ρ) c).arrAt_in 1 rfl _).trans (dat3_A (E17 m ρ) c 1))
  · exact W18_of_ne m ρ c r h

-- a buffer that no stretch writes and no kernel call has as an array (the reference positions aside) ends as launched
theorem ends (c : Dev nD) (s : MemSt nD τ sig (Elt F)) (h : ∀ b ∈ Pipeline.ucRefs τ sig, s.mem (((c : Thread nD τ)).1, b) = W23 m ρ c b) (r : Ref sig .tc)
    (hr : ¬ (Proc.devRef .tc r : DevRef τ sig).isScoped ∧ r ∉ hostOps0_W ∧ (∀ w, Pipeline.arrRef spec0 w ≠ r) ∧ r ∉ hostOps1_W ∧ r ∉ hostOps1_1_W
      ∧ r ∉ hostOps1_2_W ∧ r ∉ hostOps1_3_W ∧ r ∉ hostOps1_4_W ∧ (r = main_arg9 ∨ ∀ w, Pipeline.arrRef spec1 w ≠ r) ∧ r ∉ hostOps2_W ∧ r ∉ hostOps2_1_W
      ∧ r ∉ hostOps2_2_W ∧ (∀ w, Pipeline.arrRef spec2 w ≠ r) ∧ r ∉ hostOps3_W ∧ r ∉ hostOps3_1_W ∧ r ∉ hostOps3_2_W ∧ r ∉ hostOps3_3_W ∧ r ∉ hostOps3_4_W
      ∧ (r = main_arg9 ∨ ∀ w, Pipeline.arrRef spec3 w ≠ r) ∧ r ∉ hostOps4_W ∧ r ∉ hostOps4_1_W ∧ r ∉ hostOps4_2_W ∧ (∀ w, Pipeline.arrRef spec4 w ≠ r) ∧ r ∉ hostOps5_W) :
    s.mem ((c.tc : Thread nD τ).loc r) = m ((c.tc : Thread nD τ).loc r) := by
  obtain ⟨hs, h0, a0, h2, h3, h4, h5, h6, a1, h8, h9, h10, a2, h12, h13, h14, h15, h16, a3, h18, h19, h20, a4, h22⟩ := hr
  exact (h _ (mem_uc r hs)).trans <| (StableHlo.after_of_writes_sub hostOps5 _ hostOps5_writes h22).trans <| (W22_of_ne m ρ c r a4).trans <| (StableHlo.after_of_writes_sub hostOps4_2 _ hostOps4_2_writes h20).trans <|
    (StableHlo.after_of_writes_sub hostOps4_1 _ hostOps4_1_writes h19).trans <| (StableHlo.after_of_writes_sub hostOps4 _ hostOps4_writes h18).trans <|
    W18_keep m ρ c r h0 (W2_of_ne m ρ c r a0) h2 h3 h4 h5 h6 (W8_in m ρ c a1) h8 h9 h10 (W12_of_ne m ρ c r a2) h12 h13 h14 h15 h16 (W18_in m ρ c a3)

include hbody0 hbody1 hbody2 hbody3 hbody4 in
theorem run_result : θ_run defs (onTc (τ := τ) (main (F := F))) ⟨m, fun _ => 0, ρ⟩ (fun r => ∀ c : Dev nD,
      r.2.mem ((c.tc : Thread nD τ).loc main_v281) = W23 m ρ c (Proc.devRef .tc main_v281)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => by
    refine ⟨h c _ (mem_uc main_v281 (by decide)), ?_⟩
    and_intros <;> exact ends m ρ c r.2 (h c) _ (by and_intros <;> decide)) (run_all m ρ hbody0 hbody1 hbody2 hbody3 hbody4)

include hbody0 hbody1 hbody2 hbody3 hbody4 in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => (h c).2) (run_result m ρ hbody0 hbody1 hbody2 hbody3 hbody4)

end Cert.KernelIdeal.Hand

end
-- ==== Proof.KI.LidarSum.lean ====
/- One step of the lidar sum keeps the invariant of `dat0`: a step whose index is divisible by 16 starts the sum afresh,
   every other step adds its block to the sum so far. -/
import proofs.«132617_j16140487098675_1_alg».proof.Proof.KI.LidarSumData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev isFirst (i : grid0.Coords) : Prop :=
  (Scalar.cmpi .ne (Scalar.extui (Scalar.cmpi .eq (BitVec.ofNat 32 (i 0).val) 0#32)) 0#32) = 1#1

/-- The step's own test for a fresh start holds exactly at the indices divisible by 16. -/
theorem isFirst_iff : ∀ t : Fin cfg0.N, isFirst (grid0.coords t) ↔ t.val % 16 = 0 :=
  (by decide +kernel : ∀ t : Fin grid0.N, isFirst (grid0.coords t) ↔ t.val % 16 = 0)

theorem off2_zero : (![0, 0] : Fin 2 → Nat) = fun _ => 0 :=
  funext fun a => by match a with | ⟨0, _⟩ => rfl | ⟨1, _⟩ => rfl

set_option maxHeartbeats 1000000 in
/-- At a fresh start the output becomes `k0_pay2 x0 k0_pay1`, whatever it held before. -/
theorem run0_first (c : Dev nD) (i : grid0.Coords) (arg1 : Memref sig .tc .vmem S8192x9 .f32) (harg1 : arg1.IsWhole)
    (arg2 : Memref sig .tc .vmem S1x3 .f32) (harg2 : arg2.IsWhole) (hc : isFirst i)
    (x0 : Vec F S8192x9 .f32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0
            ∗ owns (c : Thread nD τ) arg2 fullShare (k0_pay2 x0 (k0_pay1 (F := F)))) -∗ K ⟨⟩))
      ⊢ wp frame (wpE (defs₀ (F := F)) Variants.none c none) E (cc0__lidar_reduce_kernel i arg1 harg1 arg2 harg2) K := by
  simp only [cc0__lidar_reduce_kernel_eq_skeleton]; unfold cc0__lidar_reduce_kernel_skel
  simp only [k0_part1_eq_skeleton]
  unfold owns
  iintro ⟨⟨%f0, %hf0, H0⟩, ⟨%d1, %f1, -, H1⟩, Hk⟩
  obtain rfl := harg1.eq_unread hf0
  sl_exec (disch := first | exact hc)
  sl_step
  iapply Hk
  isplitl [H0]
  · iexists _; isplitr; · ipureintro; exact harg1.read_unread _
    iexact H0
  iexists _; isplitr
  swap; · iexact H1
  ipureintro
  sl_unfold_words
  rw [View.read_writes_eq_canon _ _ _ (fun y => ⟨_, List.Mem.head _, View.mem_set_unit_zero (S := S1x3) off2_zero inb_S1x3_S1x3_0_0 y⟩),
    View.canon_cons_unit_zero (S := S1x3) off2_zero, View.readCov_unit_zero (S := S1x3) _ off2_zero]
  simp only [View.readAt_eq_ld, harg1.read_unread, View.ld_unit_zero (S := S8192x9) off2_zero]

set_option maxHeartbeats 1000000 in
/-- At any other step the output `xo` becomes `k0_pay2 x0 xo`: the block folded into the sum so far. -/
theorem run0_later (c : Dev nD) (i : grid0.Coords) (arg1 : Memref sig .tc .vmem S8192x9 .f32) (harg1 : arg1.IsWhole)
    (arg2 : Memref sig .tc .vmem S1x3 .f32) (harg2 : arg2.IsWhole) (hc : ¬isFirst i)
    (x0 : Vec F S8192x9 .f32) (xo : Vec F S1x3 .f32) (E : Set ℕ) (K : PUnit → sProp 𝕄) :
    iprop(owns (c : Thread nD τ) arg1 fullShare x0 ∗ owns (c : Thread nD τ) arg2 fullShare xo
        ∗ (iprop(owns (c : Thread nD τ) arg1 fullShare x0
            ∗ owns (c : Thread nD τ) arg2 fullShare (k0_pay2 x0 xo)) -∗ K ⟨⟩))
      ⊢ wp frame (wpE (defs₀ (F := F)) Variants.none c none) E (cc0__lidar_reduce_kernel i arg1 harg1 arg2 harg2) K := by
  simp only [cc0__lidar_reduce_kernel_eq_skeleton]; unfold cc0__lidar_reduce_kernel_skel
  simp only [k0_part1_eq_skeleton]
  unfold owns
  iintro ⟨⟨%f0, %hf0, H0⟩, ⟨%f1, %hf1, H1⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  iexists _; isplitr
  swap; · iexact H1
  ipureintro
  sl_unfold_words
  rw [View.read_writes_eq_canon _ _ _ (fun y => ⟨_, List.Mem.head _, View.mem_set_unit_zero (S := S1x3) off2_zero inb_S1x3_S1x3_0_0 y⟩),
    View.canon_unit_zero (S := S1x3) off2_zero]
  simp only [View.readAt_eq_ld, harg1.read_unread, harg2.read_unread, View.ld_unit_zero (S := S8192x9) off2_zero,
    View.ld_unit_zero (S := S1x3) off2_zero]

theorem acc0_first (c : Dev nD) (t : Fin cfg0.N) (h0 : t.val % 16 = 0) :
    acc0 V c t.val t.isLt = k0_pay2 (blk0 V c 0 t) (k0_pay1 (F := F)) := by
  have hN : cfg0.N = 16 := N_0
  obtain ⟨n, hn⟩ := t
  cases n with
  | zero => rfl
  | succ n => exact absurd h0 (by dsimp only; omega)

theorem acc0_later (c : Dev nD) (t : Fin cfg0.N) (h0 : ¬t.val % 16 = 0) :
    acc0 V c t.val t.isLt
      = k0_pay2 (blk0 V c 0 t) (acc0 V c (t.val - 1) (Nat.lt_of_le_of_lt (Nat.sub_le _ _) t.isLt)) := by
  obtain ⟨n, hn⟩ := t
  cases n with
  | zero => exact absurd (Nat.zero_mod _) h0
  | succ n => rfl

theorem before_in (c : Dev nD) (t : Fin cfg0.N) (d) : (dat0 V c).before 0 t d = blk0 V c 0 t :=
  ((dat0 V c).before_in_eq_fetched 0 rfl (fun _ => rfl) (fun _ _ _ => rfl)
    (fun t => by rw [dat0_after_in]; unfold Dat.blockOf blk0; rw [dat0_A]; try rfl) t d).trans
    (by unfold Dat.fetched Dat.blockOf blk0; rw [dat0_A]; try rfl)

theorem before_out_later (c : Dev nD) (t : Fin cfg0.N) (h0 : ¬t.val % 16 = 0) (d) :
    (dat0 V c).before 1 t d = acc0 V c (t.val - 1) (Nat.lt_of_le_of_lt (Nat.sub_le _ _) t.isLt) := by
  have hN : t.val < 16 := lt_of_lt_of_eq t.isLt (show cfg0.N = 16 from N_0)
  rw [Dat.before_out_kept _ 1 rfl t (by omega)
    (Bool.eq_false_iff.mpr fun h => by have := (flush0_1 _).mp h; dsimp only at this; omega)
    (fun _ => rfl) (fun _ _ => rfl)]
  dsimp only [dat0]

def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- In both cases the new output is `acc0 t`, by the unfolding equations `acc0_first` and `acc0_later`. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before_in]
  rw [show (dat0 V c).Φ t.succ = (dat0 V c).Φ t.castSucc from rfl,
    show (dat0 V c).owesAt () t.succ = (dat0 V c).owesAt () t.castSucc from rfl,
    dat0_after_in, dat0_after_out]
  by_cases h0 : t.val % 16 = 0
  · rw [acc0_first V c t h0]
    iintro ⟨HΦ, Ho, ⟨%d0, H0⟩, ⟨%d1, H1⟩⟩
    iapply (run0_first c (grid0.coords t) _ _ _ _ ((isFirst_iff t).mpr h0) (blk0 V c 0 t) Set.univ _)
    iframe H0
    isplitl [H1]; · iexists _; iexact H1
    iintro ⟨H0, H1⟩
    iframe
  · rw [acc0_later V c t h0]
    simp only [before_out_later V c t h0]
    iintro ⟨HΦ, Ho, ⟨%d0, H0⟩, ⟨%d1, H1⟩⟩
    iapply (run0_later c (grid0.coords t) _ _ _ _ (fun h => h0 ((isFirst_iff t).mp h)) (blk0 V c 0 t)
      (acc0 V c (t.val - 1) (Nat.lt_of_le_of_lt (Nat.sub_le _ _) t.isLt)) Set.univ _)
    iframe H0 H1
    iintro ⟨H0, H1⟩
    iframe

theorem body0 (c : Dev nD) : BodyObligation (dat0 (F := F) V c) (defs₀ (F := F)) Variants.none () Set.univ := fun t => by
  rw [bigSep_W0, bigSep_W0]
  exact sound0 V c t

end Cert.KernelIdeal.Hand

end
-- ==== Proof.KI.NearestA.lean ====
/- One step of the nearest-point search keeps the invariant of `dat1`: it leaves its two inputs alone
   and overwrites its output block with `k1_pay1` of them. -/
import proofs.«132617_j16140487098675_1_alg».proof.Proof.KI.NearestAData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem before_pred (c : Dev nD) (t : Fin cfg1.N) (d) : (dat1 V c).before 0 t d = blk1 V c 0 t := by
  have keep : ∀ s, (cfg1.win 0).cut (cfg1.grid.coords s) ((dat1 V c).after 0 s) = (dat1 V c).blockOf 0 s := by
    intro s
    rw [dat1_after_pred]; unfold Dat.blockOf blk1; rw [dat1_A]; try rfl
  rw [(dat1 V c).before_in_eq_fetched 0 rfl (fun _ => rfl) (fun _ _ _ => rfl) keep t d]
  unfold Dat.fetched Dat.blockOf blk1; rw [dat1_A]; try rfl

private theorem before_table (c : Dev nD) (t : Fin cfg1.N) (d) : (dat1 V c).before 1 t d = blk1 V c 1 t := by
  have keep : ∀ s, (cfg1.win 1).cut (cfg1.grid.coords s) ((dat1 V c).after 1 s) = (dat1 V c).blockOf 1 s := by
    intro s
    rw [dat1_after_table]; unfold Dat.blockOf blk1; rw [dat1_A]; try rfl
  rw [(dat1 V c).before_in_eq_fetched 1 rfl (fun _ => rfl) (fun _ _ _ => rfl) keep t d]
  unfold Dat.fetched Dat.blockOf blk1; rw [dat1_A]; try rfl

private theorem offs_zero : (![0, 0] : Fin 2 → Nat) = fun _ => 0 := funext fun a => by fin_cases a <;> rfl

private abbrev outRect : Rect S1024x1 := Rect.unit (s := S1024x1) ![0, 0] S1024x1.size inb_S1024x1_S1024x1_0_0

private theorem cover_out (p : Vec F S1024x1 .f32) (y : S1024x1.Idx) :
    ∃ pc ∈ ([⟨outRect, p⟩] : List (View.Piece (Elt F) S1024x1 .f32)), y ∈ pc.1.set :=
  ⟨_, List.mem_singleton_self _, View.mem_set_unit_zero offs_zero inb_S1024x1_S1024x1_0_0 y⟩

set_option maxHeartbeats 1000000 in
/-- On any inputs `xp`, `xg` the step writes `k1_pay1 xp xg` over the whole output block and changes nothing else. -/
private theorem sound_kernel (c : Dev nD) (E : Set ℕ) (i : grid1.Coords)
    (mp : Memref sig .tc .vmem S1024x3 .f32) (hmp : mp.IsWhole)
    (mg : Memref sig .tc .vmem S2048x3 .f32) (hmg : mg.IsWhole)
    (mo : Memref sig .tc .vmem S1024x1 .f32) (hmo : mo.IsWhole)
    (xp : Vec F S1024x3 .f32) (xg : Vec F S2048x3 .f32) (K : PUnit → sProp 𝕄) :
    iprop(owns (c : Thread nD τ) mp fullShare xp ∗ owns (c : Thread nD τ) mg fullShare xg
        ∗ (∃ d, owns (c : Thread nD τ) mo fullShare d)
        ∗ (iprop(owns (c : Thread nD τ) mp fullShare xp ∗ owns (c : Thread nD τ) mg fullShare xg
            ∗ owns (c : Thread nD τ) mo fullShare (k1_pay1 xp xg)) -∗ K ⟨⟩))
      ⊢ wp frame (wpE (defs₀ (F := F)) Variants.none c none) E (cc1__min_sqdist_kernel i mp hmp mg hmg mo hmo) K := by
  simp only [cc1__min_sqdist_kernel_eq_skeleton]; unfold cc1__min_sqdist_kernel_skel
  unfold owns
  iintro ⟨⟨%fp, %hfp, Hp⟩, ⟨%fg, %hfg, Hg⟩, ⟨%dq, %fq, -, Hq⟩, Hk⟩
  subst hfp; subst hfg
  sl_exec
  sl_step
  iapply Hk
  isplitl [Hp]
  · iexists fp; isplitr; · ipureintro; rfl
    iexact Hp
  isplitl [Hg]
  · iexists fg; isplitr; · ipureintro; rfl
    iexact Hg
  iexists _; isplitr
  swap; · iexact Hq
  ipureintro
  rw [View.read_writes_eq_canon _ _ _ (cover_out _), View.canon_unit_zero offs_zero]
  simp only [View.readAt_eq_ld, View.ld_unit_zero (S := S1024x3) offs_zero, View.ld_unit_zero (S := S2048x3) offs_zero]

private def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

private def bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At step `t` the inputs are `blk1 0 t` and `blk1 1 t`, so the step produces exactly what `dat1` records. -/
private theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_pred, before_table]
  rw [show (dat1 V c).Φ t.succ = (dat1 V c).Φ t.castSucc from rfl,
    show (dat1 V c).owesAt () t.succ = (dat1 V c).owesAt () t.castSucc from rfl,
    dat1_after_pred, dat1_after_table, dat1_after_out]
  iintro ⟨HΦ, Hw, ⟨%dp, Hp⟩, ⟨%dg, Hg⟩, ⟨%dq, Hq⟩⟩
  iapply (sound_kernel c Set.univ _ _ _ _ _ _ _ (blk1 V c 0 t) (blk1 V c 1 t) _)
  iframe Hp Hg
  isplitl [Hq]; · iexists _; iexact Hq
  iintro ⟨Hp, Hg, Hq⟩
  iframe

theorem body1 (c : Dev nD) : BodyObligation (dat1 (F := F) V c) (defs₀ (F := F)) Variants.none () Set.univ := fun t => by
  rw [bigSep_W1, bigSep_W1]
  exact sound_body V c t

end Cert.KernelIdeal.Hand

end
-- ==== Proof.KI.RadarSumA.lean ====
/- One step of the radar sum keeps the invariant of `dat2`: a step whose index is divisible by 4 starts the sum afresh,
   every other step adds its block to the sum so far. -/
import proofs.«132617_j16140487098675_1_alg».proof.Proof.KI.RadarSumAData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem acc2_first (c : Dev nD) (t : Fin cfg2.N) (h0 : t.val % 4 = 0) :
    acc2 V c t.val t.isLt = k2_pay2 (blk2 V c 0 t) (k2_pay1 (F := F)) := by
  have hN : t.val < 4 := lt_of_lt_of_eq t.isLt (show cfg2.N = 4 from N_2)
  obtain ⟨n, hn⟩ := t
  cases n with
  | zero => rfl
  | succ n => exfalso; dsimp only at h0 hN; omega

private theorem acc2_later (c : Dev nD) (t : Fin cfg2.N) (h0 : ¬t.val % 4 = 0) :
    acc2 V c t.val t.isLt
      = k2_pay2 (blk2 V c 0 t) (acc2 V c (t.val - 1) (Nat.lt_of_le_of_lt (Nat.sub_le _ _) t.isLt)) := by
  obtain ⟨n, hn⟩ := t
  cases n with
  | zero => exact absurd (Nat.zero_mod _) h0
  | succ n => rfl

private theorem before2_in (c : Dev nD) (t : Fin cfg2.N) (d) : (dat2 V c).before 0 t d = blk2 V c 0 t :=
  ((dat2 V c).before_in_eq_fetched 0 rfl (fun _ => rfl) (fun _ _ _ => rfl)
      (fun t => by rw [dat2_after_in]; unfold Dat.blockOf blk2; rw [dat2_A]; try rfl) t d).trans
    (by unfold Dat.fetched Dat.blockOf blk2; rw [dat2_A]; try rfl)

private theorem before2_out_later (c : Dev nD) (t : Fin cfg2.N) (h0 : ¬t.val % 4 = 0) (d) :
    (dat2 V c).before 1 t d = acc2 V c (t.val - 1) (Nat.lt_of_le_of_lt (Nat.sub_le _ _) t.isLt) := by
  have hN : t.val < 4 := lt_of_lt_of_eq t.isLt (show cfg2.N = 4 from N_2)
  rw [Dat.before_out_kept _ 1 rfl t (by omega)
    (Bool.eq_false_iff.mpr fun h => by have := (flush2_1 _).mp h; dsimp only at this; omega)
    (fun _ => rfl) (fun _ _ => rfl)]
  dsimp only [dat2]

private abbrev isFirst2 (i : grid2.Coords) : Prop :=
  (Scalar.cmpi .ne (Scalar.extui (Scalar.cmpi .eq (BitVec.ofNat 32 (i 0).val) 0#32)) 0#32) = 1#1

/-- The step's own test for a fresh start holds exactly at the indices divisible by 4. -/
private theorem isFirst2_iff : ∀ t : Fin cfg2.N, isFirst2 (grid2.coords t) ↔ t.val % 4 = 0 :=
  (by decide +kernel : ∀ t : Fin grid2.N, isFirst2 (grid2.coords t) ↔ t.val % 4 = 0)

private theorem off_zero2 : (![0, 0] : Fin 2 → Nat) = fun _ => 0 := funext fun a => by fin_cases a <;> rfl

private theorem cover2 (p : Vec F S1x3 .f32) (L : List (View.Piece (Elt F) S1x3 .f32)) (y : S1x3.Idx) :
    ∃ pc ∈ ((⟨Rect.unit (s := S1x3) ![0, 0] S1x3.size Gen.inb_S1x3_S1x3_0_0, p⟩ : View.Piece (Elt F) S1x3 .f32) :: L),
      y ∈ pc.1.set :=
  ⟨_, List.Mem.head _, View.mem_set_unit_zero off_zero2 Gen.inb_S1x3_S1x3_0_0 y⟩

set_option maxHeartbeats 1000000 in
/-- At a fresh start the output becomes `k2_pay2 x0 k2_pay1`, whatever it held before. -/
private theorem kernel2_first (c : Dev nD) (E : Set ℕ) (i : grid2.Coords)
    (arg1 : Memref sig .tc .vmem S8192x4 .f32) (harg1 : arg1.IsWhole)
    (arg2 : Memref sig .tc .vmem S1x3 .f32) (harg2 : arg2.IsWhole) (hc : isFirst2 i)
    (x0 : Vec F S8192x4 .f32) (K : PUnit → sProp 𝕄) :
    iprop(owns (c : Thread nD τ) arg1 fullShare x0 ∗ (∃ d, owns (c : Thread nD τ) arg2 fullShare d)
        ∗ (iprop(owns (c : Thread nD τ) arg1 fullShare x0
            ∗ owns (c : Thread nD τ) arg2 fullShare (k2_pay2 x0 (k2_pay1 (F := F)))) -∗ K ⟨⟩))
      ⊢ wp frame (wpE (defs₀ (F := F)) Variants.none c none) E (cc2__radar_reduce_kernel i arg1 harg1 arg2 harg2) K := by
  simp only [cc2__radar_reduce_kernel_eq_skeleton]; unfold cc2__radar_reduce_kernel_skel
  unfold owns
  iintro ⟨⟨%f0, %hf0, H0⟩, ⟨%d1, %f1, -, H1⟩, Hk⟩
  obtain rfl := harg1.eq_unread hf0
  sl_exec (disch := exact hc)
  sl_step
  iapply Hk
  isplitl [H0]
  · iexists _; isplitr; · ipureintro; exact harg1.read_unread _
    iexact H0
  iexists _; isplitr
  swap; · iexact H1
  ipureintro
  sl_unfold_words
  rw [View.read_writes_eq_canon _ _ _ (cover2 _ _),
    View.canon_cons_unit_zero off_zero2]
  simp only [View.readAt_eq_ld, harg1.read_unread, View.ld_unit_zero (S := S8192x4) off_zero2,
    View.readCov_unit_zero (S := S1x3) _ off_zero2]

set_option maxHeartbeats 1000000 in
/-- At any other step the output `xo` becomes `k2_pay2 x0 xo`: the block folded into the sum so far. -/
private theorem kernel2_later (c : Dev nD) (E : Set ℕ) (i : grid2.Coords)
    (arg1 : Memref sig .tc .vmem S8192x4 .f32) (harg1 : arg1.IsWhole)
    (arg2 : Memref sig .tc .vmem S1x3 .f32) (harg2 : arg2.IsWhole) (hc : ¬isFirst2 i)
    (x0 : Vec F S8192x4 .f32) (xo : Vec F S1x3 .f32) (K : PUnit → sProp 𝕄) :
    iprop(owns (c : Thread nD τ) arg1 fullShare x0 ∗ owns (c : Thread nD τ) arg2 fullShare xo
        ∗ (iprop(owns (c : Thread nD τ) arg1 fullShare x0
            ∗ owns (c : Thread nD τ) arg2 fullShare (k2_pay2 x0 xo)) -∗ K ⟨⟩))
      ⊢ wp frame (wpE (defs₀ (F := F)) Variants.none c none) E (cc2__radar_reduce_kernel i arg1 harg1 arg2 harg2) K := by
  simp only [cc2__radar_reduce_kernel_eq_skeleton]; unfold cc2__radar_reduce_kernel_skel
  unfold owns
  iintro ⟨⟨%f0, %hf0, H0⟩, ⟨%f1, %hf1, H1⟩, Hk⟩
  obtain rfl := harg1.eq_unread hf0; obtain rfl := harg2.eq_unread hf1
  sl_exec (disch := exact hc)
  sl_step
  iapply Hk
  isplitl [H0]
  · iexists _; isplitr; · ipureintro; exact harg1.read_unread _
    iexact H0
  iexists _; isplitr
  swap; · iexact H1
  ipureintro
  sl_unfold_words
  rw [View.read_writes_eq_canon _ _ _ (cover2 _ _),
    View.canon_unit_zero off_zero2]
  simp only [View.readAt_eq_ld, harg1.read_unread, harg2.read_unread, View.ld_unit_zero (S := S8192x4) off_zero2,
    View.ld_unit_zero (S := S1x3) off_zero2]

private def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

private def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

set_option maxHeartbeats 800000 in
/-- In both cases the new output is `acc2 t`, by the unfolding equations `acc2_first` and `acc2_later`. -/
private theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_in]
  rw [show (dat2 V c).Φ t.succ = (dat2 V c).Φ t.castSucc from rfl,
    show (dat2 V c).owesAt () t.succ = (dat2 V c).owesAt () t.castSucc from rfl,
    dat2_after_in, dat2_after_out]
  by_cases h0 : t.val % 4 = 0
  · rw [acc2_first V c t h0]
    iintro ⟨HΦ, Ho, ⟨%d0, H0⟩, ⟨%d1, H1⟩⟩
    iapply (kernel2_first c Set.univ (grid2.coords t) _ _ _ _ ((isFirst2_iff t).mpr h0) (blk2 V c 0 t) _)
    iframe H0
    isplitl [H1]; · iexists _; iexact H1
    iintro ⟨H0, H1⟩
    iframe
  · rw [acc2_later V c t h0]
    simp only [before2_out_later V c t h0]
    iintro ⟨HΦ, Ho, ⟨%d0, H0⟩, ⟨%d1, H1⟩⟩
    iapply (kernel2_later c Set.univ (grid2.coords t) _ _ _ _ (fun h => h0 ((isFirst2_iff t).mp h)) (blk2 V c 0 t)
      (acc2 V c (t.val - 1) (Nat.lt_of_le_of_lt (Nat.sub_le _ _) t.isLt)) _)
    iframe H0 H1
    iintro ⟨H0, H1⟩
    iframe

theorem body2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.NearestB.lean ====
/- One step of the nearest-point search keeps the invariant of `dat3`: it leaves its two inputs alone
   and overwrites its output block with `k3_pay1` of them. -/
import proofs.«132617_j16140487098675_1_alg».proof.Proof.KI.NearestBData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem before_pred (c : Dev nD) (t : Fin cfg3.N) (d) : (dat3 V c).before 0 t d = blk3 V c 0 t := by
  have keep : ∀ s, (cfg3.win 0).cut (cfg3.grid.coords s) ((dat3 V c).after 0 s) = (dat3 V c).blockOf 0 s := by
    intro s
    rw [dat3_after_pred]; unfold Dat.blockOf blk3; rw [dat3_A]; try rfl
  rw [(dat3 V c).before_in_eq_fetched 0 rfl (fun _ => rfl) (fun _ _ _ => rfl) keep t d]
  unfold Dat.fetched Dat.blockOf blk3; rw [dat3_A]; try rfl

private theorem before_table (c : Dev nD) (t : Fin cfg3.N) (d) : (dat3 V c).before 1 t d = blk3 V c 1 t := by
  have keep : ∀ s, (cfg3.win 1).cut (cfg3.grid.coords s) ((dat3 V c).after 1 s) = (dat3 V c).blockOf 1 s := by
    intro s
    rw [dat3_after_table]; unfold Dat.blockOf blk3; rw [dat3_A]; try rfl
  rw [(dat3 V c).before_in_eq_fetched 1 rfl (fun _ => rfl) (fun _ _ _ => rfl) keep t d]
  unfold Dat.fetched Dat.blockOf blk3; rw [dat3_A]; try rfl

private theorem offs_zero : (![0, 0] : Fin 2 → Nat) = fun _ => 0 := funext fun a => by fin_cases a <;> rfl

private abbrev outRect : Rect S1024x1 := Rect.unit (s := S1024x1) ![0, 0] S1024x1.size inb_S1024x1_S1024x1_0_0

private theorem cover_out (p : Vec F S1024x1 .f32) (y : S1024x1.Idx) :
    ∃ pc ∈ ([⟨outRect, p⟩] : List (View.Piece (Elt F) S1024x1 .f32)), y ∈ pc.1.set :=
  ⟨_, List.mem_singleton_self _, View.mem_set_unit_zero offs_zero inb_S1024x1_S1024x1_0_0 y⟩

set_option maxHeartbeats 1000000 in
/-- On any inputs `xp`, `xg` the step writes `k3_pay1 xp xg` over the whole output block and changes nothing else. -/
private theorem sound_kernel (c : Dev nD) (E : Set ℕ) (i : grid3.Coords)
    (mp : Memref sig .tc .vmem S1024x3 .f32) (hmp : mp.IsWhole)
    (mg : Memref sig .tc .vmem S2048x3 .f32) (hmg : mg.IsWhole)
    (mo : Memref sig .tc .vmem S1024x1 .f32) (hmo : mo.IsWhole)
    (xp : Vec F S1024x3 .f32) (xg : Vec F S2048x3 .f32) (K : PUnit → sProp 𝕄) :
    iprop(owns (c : Thread nD τ) mp fullShare xp ∗ owns (c : Thread nD τ) mg fullShare xg
        ∗ (∃ d, owns (c : Thread nD τ) mo fullShare d)
        ∗ (iprop(owns (c : Thread nD τ) mp fullShare xp ∗ owns (c : Thread nD τ) mg fullShare xg
            ∗ owns (c : Thread nD τ) mo fullShare (k3_pay1 xp xg)) -∗ K ⟨⟩))
      ⊢ wp frame (wpE (defs₀ (F := F)) Variants.none c none) E (cc3__min_sqdist_kernel i mp hmp mg hmg mo hmo) K := by
  simp only [cc3__min_sqdist_kernel_eq_skeleton]; unfold cc3__min_sqdist_kernel_skel
  unfold owns
  iintro ⟨⟨%fp, %hfp, Hp⟩, ⟨%fg, %hfg, Hg⟩, ⟨%dq, %fq, -, Hq⟩, Hk⟩
  subst hfp; subst hfg
  sl_exec
  sl_step
  iapply Hk
  isplitl [Hp]
  · iexists fp; isplitr; · ipureintro; rfl
    iexact Hp
  isplitl [Hg]
  · iexists fg; isplitr; · ipureintro; rfl
    iexact Hg
  iexists _; isplitr
  swap; · iexact Hq
  ipureintro
  rw [View.read_writes_eq_canon _ _ _ (cover_out _), View.canon_unit_zero offs_zero]
  simp only [View.readAt_eq_ld, View.ld_unit_zero (S := S1024x3) offs_zero, View.ld_unit_zero (S := S2048x3) offs_zero]

private def bodyPre (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

private def bodyPost (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- At step `t` the inputs are `blk3 0 t` and `blk3 1 t`, so the step produces exactly what `dat3` records. -/
private theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_pred, before_table]
  rw [show (dat3 V c).Φ t.succ = (dat3 V c).Φ t.castSucc from rfl,
    show (dat3 V c).owesAt () t.succ = (dat3 V c).owesAt () t.castSucc from rfl,
    dat3_after_pred, dat3_after_table, dat3_after_out]
  iintro ⟨HΦ, Hw, ⟨%dp, Hp⟩, ⟨%dg, Hg⟩, ⟨%dq, Hq⟩⟩
  iapply (sound_kernel c Set.univ _ _ _ _ _ _ _ (blk3 V c 0 t) (blk3 V c 1 t) _)
  iframe Hp Hg
  isplitl [Hq]; · iexists _; iexact Hq
  iintro ⟨Hp, Hg, Hq⟩
  iframe

theorem body3 (c : Dev nD) : BodyObligation (dat3 (F := F) V c) (defs₀ (F := F)) Variants.none () Set.univ := fun t => by
  rw [bigSep_W3, bigSep_W3]
  exact sound_body V c t

end Cert.KernelIdeal.Hand

end
-- ==== Proof.KI.RadarSumB.lean ====
/- One step of the radar sum keeps the invariant of `dat4`: a step whose index is divisible by 4 starts the sum afresh,
   every other step adds its block to the sum so far. -/
import proofs.«132617_j16140487098675_1_alg».proof.Proof.KI.RadarSumBData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem acc4_first (c : Dev nD) (t : Fin cfg4.N) (h0 : t.val % 4 = 0) :
    acc4 V c t.val t.isLt = k4_pay2 (blk4 V c 0 t) (k4_pay1 (F := F)) := by
  have hN : t.val < 4 := lt_of_lt_of_eq t.isLt (show cfg4.N = 4 from N_4)
  obtain ⟨n, hn⟩ := t
  cases n with
  | zero => rfl
  | succ n => exfalso; dsimp only at h0 hN; omega

private theorem acc4_later (c : Dev nD) (t : Fin cfg4.N) (h0 : ¬t.val % 4 = 0) :
    acc4 V c t.val t.isLt
      = k4_pay2 (blk4 V c 0 t) (acc4 V c (t.val - 1) (Nat.lt_of_le_of_lt (Nat.sub_le _ _) t.isLt)) := by
  obtain ⟨n, hn⟩ := t
  cases n with
  | zero => exact absurd (Nat.zero_mod _) h0
  | succ n => rfl

private theorem before4_in (c : Dev nD) (t : Fin cfg4.N) (d) : (dat4 V c).before 0 t d = blk4 V c 0 t :=
  ((dat4 V c).before_in_eq_fetched 0 rfl (fun _ => rfl) (fun _ _ _ => rfl)
      (fun t => by rw [dat4_after_in]; unfold Dat.blockOf blk4; rw [dat4_A]; try rfl) t d).trans
    (by unfold Dat.fetched Dat.blockOf blk4; rw [dat4_A]; try rfl)

private theorem before4_out_later (c : Dev nD) (t : Fin cfg4.N) (h0 : ¬t.val % 4 = 0) (d) :
    (dat4 V c).before 1 t d = acc4 V c (t.val - 1) (Nat.lt_of_le_of_lt (Nat.sub_le _ _) t.isLt) := by
  have hN : t.val < 4 := lt_of_lt_of_eq t.isLt (show cfg4.N = 4 from N_4)
  rw [Dat.before_out_kept _ 1 rfl t (by omega)
    (Bool.eq_false_iff.mpr fun h => by have := (flush4_1 _).mp h; dsimp only at this; omega)
    (fun _ => rfl) (fun _ _ => rfl)]
  dsimp only [dat4]

private abbrev isFirst4 (i : grid4.Coords) : Prop :=
  (Scalar.cmpi .ne (Scalar.extui (Scalar.cmpi .eq (BitVec.ofNat 32 (i 0).val) 0#32)) 0#32) = 1#1

/-- The step's own test for a fresh start holds exactly at the indices divisible by 4. -/
private theorem isFirst4_iff : ∀ t : Fin cfg4.N, isFirst4 (grid4.coords t) ↔ t.val % 4 = 0 :=
  (by decide +kernel : ∀ t : Fin grid4.N, isFirst4 (grid4.coords t) ↔ t.val % 4 = 0)

private theorem off_zero4 : (![0, 0] : Fin 2 → Nat) = fun _ => 0 := funext fun a => by fin_cases a <;> rfl

private theorem cover4 (p : Vec F S1x3 .f32) (L : List (View.Piece (Elt F) S1x3 .f32)) (y : S1x3.Idx) :
    ∃ pc ∈ ((⟨Rect.unit (s := S1x3) ![0, 0] S1x3.size Gen.inb_S1x3_S1x3_0_0, p⟩ : View.Piece (Elt F) S1x3 .f32) :: L),
      y ∈ pc.1.set :=
  ⟨_, List.Mem.head _, View.mem_set_unit_zero off_zero4 Gen.inb_S1x3_S1x3_0_0 y⟩

set_option maxHeartbeats 1000000 in
/-- At a fresh start the output becomes `k4_pay2 x0 k4_pay1`, whatever it held before. -/
private theorem kernel4_first (c : Dev nD) (E : Set ℕ) (i : grid4.Coords)
    (arg1 : Memref sig .tc .vmem S8192x4 .f32) (harg1 : arg1.IsWhole)
    (arg2 : Memref sig .tc .vmem S1x3 .f32) (harg2 : arg2.IsWhole) (hc : isFirst4 i)
    (x0 : Vec F S8192x4 .f32) (K : PUnit → sProp 𝕄) :
    iprop(owns (c : Thread nD τ) arg1 fullShare x0 ∗ (∃ d, owns (c : Thread nD τ) arg2 fullShare d)
        ∗ (iprop(owns (c : Thread nD τ) arg1 fullShare x0
            ∗ owns (c : Thread nD τ) arg2 fullShare (k4_pay2 x0 (k4_pay1 (F := F)))) -∗ K ⟨⟩))
      ⊢ wp frame (wpE (defs₀ (F := F)) Variants.none c none) E (cc4__radar_reduce_kernel i arg1 harg1 arg2 harg2) K := by
  simp only [cc4__radar_reduce_kernel_eq_skeleton]; unfold cc4__radar_reduce_kernel_skel
  unfold owns
  iintro ⟨⟨%f0, %hf0, H0⟩, ⟨%d1, %f1, -, H1⟩, Hk⟩
  obtain rfl := harg1.eq_unread hf0
  sl_exec (disch := exact hc)
  sl_step
  iapply Hk
  isplitl [H0]
  · iexists _; isplitr; · ipureintro; exact harg1.read_unread _
    iexact H0
  iexists _; isplitr
  swap; · iexact H1
  ipureintro
  sl_unfold_words
  rw [View.read_writes_eq_canon _ _ _ (cover4 _ _),
    View.canon_cons_unit_zero off_zero4]
  simp only [View.readAt_eq_ld, harg1.read_unread, View.ld_unit_zero (S := S8192x4) off_zero4,
    View.readCov_unit_zero (S := S1x3) _ off_zero4]

set_option maxHeartbeats 1000000 in
/-- At any other step the output `xo` becomes `k4_pay2 x0 xo`: the block folded into the sum so far. -/
private theorem kernel4_later (c : Dev nD) (E : Set ℕ) (i : grid4.Coords)
    (arg1 : Memref sig .tc .vmem S8192x4 .f32) (harg1 : arg1.IsWhole)
    (arg2 : Memref sig .tc .vmem S1x3 .f32) (harg2 : arg2.IsWhole) (hc : ¬isFirst4 i)
    (x0 : Vec F S8192x4 .f32) (xo : Vec F S1x3 .f32) (K : PUnit → sProp 𝕄) :
    iprop(owns (c : Thread nD τ) arg1 fullShare x0 ∗ owns (c : Thread nD τ) arg2 fullShare xo
        ∗ (iprop(owns (c : Thread nD τ) arg1 fullShare x0
            ∗ owns (c : Thread nD τ) arg2 fullShare (k4_pay2 x0 xo)) -∗ K ⟨⟩))
      ⊢ wp frame (wpE (defs₀ (F := F)) Variants.none c none) E (cc4__radar_reduce_kernel i arg1 harg1 arg2 harg2) K := by
  simp only [cc4__radar_reduce_kernel_eq_skeleton]; unfold cc4__radar_reduce_kernel_skel
  unfold owns
  iintro ⟨⟨%f0, %hf0, H0⟩, ⟨%f1, %hf1, H1⟩, Hk⟩
  obtain rfl := harg1.eq_unread hf0; obtain rfl := harg2.eq_unread hf1
  sl_exec (disch := exact hc)
  sl_step
  iapply Hk
  isplitl [H0]
  · iexists _; isplitr; · ipureintro; exact harg1.read_unread _
    iexact H0
  iexists _; isplitr
  swap; · iexact H1
  ipureintro
  sl_unfold_words
  rw [View.read_writes_eq_canon _ _ _ (cover4 _ _),
    View.canon_unit_zero off_zero4]
  simp only [View.readAt_eq_ld, harg1.read_unread, harg2.read_unread, View.ld_unit_zero (S := S8192x4) off_zero4,
    View.ld_unit_zero (S := S1x3) off_zero4]

private def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

private def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

set_option maxHeartbeats 800000 in
/-- In both cases the new output is `acc4 t`, by the unfolding equations `acc4_first` and `acc4_later`. -/
private theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_in]
  rw [show (dat4 V c).Φ t.succ = (dat4 V c).Φ t.castSucc from rfl,
    show (dat4 V c).owesAt () t.succ = (dat4 V c).owesAt () t.castSucc from rfl,
    dat4_after_in, dat4_after_out]
  by_cases h0 : t.val % 4 = 0
  · rw [acc4_first V c t h0]
    iintro ⟨HΦ, Ho, ⟨%d0, H0⟩, ⟨%d1, H1⟩⟩
    iapply (kernel4_first c Set.univ (grid4.coords t) _ _ _ _ ((isFirst4_iff t).mpr h0) (blk4 V c 0 t) _)
    iframe H0
    isplitl [H1]; · iexists _; iexact H1
    iintro ⟨H0, H1⟩
    iframe
  · rw [acc4_later V c t h0]
    simp only [before4_out_later V c t h0]
    iintro ⟨HΦ, Ho, ⟨%d0, H0⟩, ⟨%d1, H1⟩⟩
    iapply (kernel4_later c Set.univ (grid4.coords t) _ _ _ _ (fun h => h0 ((isFirst4_iff t).mp h)) (blk4 V c 0 t)
      (acc4 V c (t.val - 1) (Nat.lt_of_le_of_lt (Nat.sub_le _ _) t.isLt)) _)
    iframe H0 H1
    iintro ⟨H0, H1⟩
    iframe

theorem body4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Frame.lean ====
/- The whole run, assembled from its five loops: once every loop's step keeps that loop's invariant,
   the run is safe, hands every argument back as given, and ends with the value `W23` built up stage by stage. -/
import proofs.«132617_j16140487098675_1_alg».proof.Proof.KI.Run
import proofs.«132617_j16140487098675_1_alg».proof.Proof.KI.LidarSum
import proofs.«132617_j16140487098675_1_alg».proof.Proof.KI.NearestA
import proofs.«132617_j16140487098675_1_alg».proof.Proof.KI.RadarSumA
import proofs.«132617_j16140487098675_1_alg».proof.Proof.KI.NearestB
import proofs.«132617_j16140487098675_1_alg».proof.Proof.KI.RadarSumB

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Safety and unchanged arguments need only the five step invariants `body0` … `body4`. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame (F := F) m ρ (fun V c => body0 V c) (fun V c => body1 V c) (fun V c => body2 V c) (fun V c => body3 V c) (fun V c => body4 V c)

/-- The same five invariants also determine the result: it is `W23`. -/
theorem result_main : θ_run defs (onTc (τ := τ) (main (F := F))) ⟨m, fun _ => 0, ρ⟩ (fun r => ∀ c : Dev nD,
      r.2.mem ((c.tc : Thread nD τ).loc main_v281) = W23 m ρ c (Proc.devRef .tc main_v281)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  run_result (F := F) m ρ (fun V c => body0 V c) (fun V c => body1 V c) (fun V c => body2 V c) (fun V c => body3 V c) (fun V c => body4 V c)

end Cert.KernelIdeal.Hand

end
-- ==== Proof.K.LidarSumData.lean ====
/- The lidar sum as data: `blk0 t` is block `t` of the input rows and `acc0 n` the partial sum over blocks `0 … n`,
   that is, the left fold of the step function `k0_pay2` over the blocks, started from `k0_pay1`. -/
import proofs.«132617_j16140487098675_1_alg».proof.Proof.Gen.Kernel.Launch
import proofs.«132617_j16140487098675_1_alg».proof.Proof.Gen.Kernel.Skeleton
import proofs.«132617_j16140487098675_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0 (c : Dev nD) : (n : ℕ) → n < cfg0.N → Vec F S1x3 .f32
  | 0, hn => k0_pay2 (blk0 V c 0 ⟨0, hn⟩) (k0_pay1 (F := F))
  | n + 1, hn => k0_pay2 (blk0 V c 0 ⟨n + 1, hn⟩) (acc0 c n (Nat.lt_of_succ_lt hn))

/-- After step `t` the input block is as before and the output holds the partial sum `acc0 t`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => acc0 V c t.val t.isLt
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_in (c : Dev nD) (t : Fin cfg0.N) : (dat0 V c).after 0 t = blk0 V c 0 t := by dsimp only [dat0]
theorem dat0_after_out (c : Dev nD) (t : Fin cfg0.N) : (dat0 V c).after 1 t = acc0 V c t.val t.isLt := by dsimp only [dat0]

end Cert.Kernel.Hand

end
-- ==== Proof.K.NearestAData.lean ====
/- The first nearest-point search as data: step `t` sends block `t` of the query points and the whole table of
   reference points to block `t` of the output, by `k1_pay1`; both inputs stay as they are. -/
import proofs.«132617_j16140487098675_1_alg».proof.Proof.Gen.Kernel.Launch
import proofs.«132617_j16140487098675_1_alg».proof.Proof.Gen.Kernel.Skeleton
import proofs.«132617_j16140487098675_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => k1_pay1 (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_pred (c : Dev nD) (t : Fin cfg1.N) : (dat1 V c).after 0 t = blk1 V c 0 t := by dsimp only [dat1]
theorem dat1_after_table (c : Dev nD) (t : Fin cfg1.N) : (dat1 V c).after 1 t = blk1 V c 1 t := by dsimp only [dat1]
theorem dat1_after_out (c : Dev nD) (t : Fin cfg1.N) :
    (dat1 V c).after 2 t = k1_pay1 (blk1 V c 0 t) (blk1 V c 1 t) := by dsimp only [dat1]

end Cert.Kernel.Hand

end
-- ==== Proof.K.RadarSumAData.lean ====
/- The first radar sum as data: `blk2 t` is block `t` of the input rows and `acc2 n` the partial sum over blocks `0 … n`,
   the left fold of the step function `k2_pay2` over the blocks, started from `k2_pay1`. -/
import proofs.«132617_j16140487098675_1_alg».proof.Proof.Gen.Kernel.Launch
import proofs.«132617_j16140487098675_1_alg».proof.Proof.Gen.Kernel.Skeleton
import proofs.«132617_j16140487098675_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 (c : Dev nD) : (n : ℕ) → n < cfg2.N → Vec F S1x3 .f32
  | 0, hn => k2_pay2 (blk2 V c 0 ⟨0, hn⟩) (k2_pay1 (F := F))
  | n + 1, hn => k2_pay2 (blk2 V c 0 ⟨n + 1, hn⟩) (acc2 c n (Nat.lt_of_succ_lt hn))

/-- After step `t` the input block is as before and the output holds the partial sum `acc2 t`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => acc2 V c t.val t.isLt
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_in (c : Dev nD) (t : Fin cfg2.N) : (dat2 V c).after 0 t = blk2 V c 0 t := by dsimp only [dat2]
theorem dat2_after_out (c : Dev nD) (t : Fin cfg2.N) : (dat2 V c).after 1 t = acc2 V c t.val t.isLt := by dsimp only [dat2]

end Cert.Kernel.Hand

end
-- ==== Proof.K.NearestBData.lean ====
/- The second nearest-point search as data: step `t` sends block `t` of the query points and the whole table of
   reference points to block `t` of the output, by `k3_pay1`; both inputs stay as they are. -/
import proofs.«132617_j16140487098675_1_alg».proof.Proof.Gen.Kernel.Launch
import proofs.«132617_j16140487098675_1_alg».proof.Proof.Gen.Kernel.Skeleton
import proofs.«132617_j16140487098675_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => k3_pay1 (blk3 V c 0 t) (blk3 V c 1 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem dat3_after_pred (c : Dev nD) (t : Fin cfg3.N) : (dat3 V c).after 0 t = blk3 V c 0 t := by dsimp only [dat3]
theorem dat3_after_table (c : Dev nD) (t : Fin cfg3.N) : (dat3 V c).after 1 t = blk3 V c 1 t := by dsimp only [dat3]
theorem dat3_after_out (c : Dev nD) (t : Fin cfg3.N) :
    (dat3 V c).after 2 t = k3_pay1 (blk3 V c 0 t) (blk3 V c 1 t) := by dsimp only [dat3]

end Cert.Kernel.Hand

end
-- ==== Proof.K.RadarSumBData.lean ====
/- The second radar sum as data: `blk4 t` is block `t` of the input rows and `acc4 n` the partial sum over blocks `0 … n`,
   the left fold of the step function `k4_pay2` over the blocks, started from `k4_pay1`. -/
import proofs.«132617_j16140487098675_1_alg».proof.Proof.Gen.Kernel.Launch
import proofs.«132617_j16140487098675_1_alg».proof.Proof.Gen.Kernel.Skeleton
import proofs.«132617_j16140487098675_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S1x3 .f32
  | 0, hn => k4_pay2 (blk4 V c 0 ⟨0, hn⟩) (k4_pay1 (F := F))
  | n + 1, hn => k4_pay2 (blk4 V c 0 ⟨n + 1, hn⟩) (acc4 c n (Nat.lt_of_succ_lt hn))

/-- After step `t` the input block is as before and the output holds the partial sum `acc4 t`. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => acc4 V c t.val t.isLt
  Φ _ := Pipeline.ΦA spec4 c
  q _ := fullShare
  owed _ := 0

theorem dat4_A (c : Dev nD) (w : Fin cfg4.W) : (dat4 V c).A w = V c (Pipeline.arrRef spec4 w) := by
  dsimp only [dat4]

theorem dat4_after_in (c : Dev nD) (t : Fin cfg4.N) : (dat4 V c).after 0 t = blk4 V c 0 t := by dsimp only [dat4]
theorem dat4_after_out (c : Dev nD) (t : Fin cfg4.N) : (dat4 V c).after 1 t = acc4 V c t.val t.isLt := by dsimp only [dat4]

end Cert.Kernel.Hand

end
-- ==== Proof.K.Run.lean ====
/- The whole program on one core: @main's 23 items in a row, what every buffer holds between them, and that each argument ends as launched. -/
import proofs.«132617_j16140487098675_1_alg».proof.Proof.K.LidarSumData
import proofs.«132617_j16140487098675_1_alg».proof.Proof.K.NearestAData
import proofs.«132617_j16140487098675_1_alg».proof.Proof.K.RadarSumAData
import proofs.«132617_j16140487098675_1_alg».proof.Proof.K.NearestBData
import proofs.«132617_j16140487098675_1_alg».proof.Proof.K.RadarSumBData
import proofs.«132617_j16140487098675_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `W0`: core `c`'s buffers at launch; `Wk`: the same after item k (a stretch applies its operations; a kernel call leaves its arrays as its grid does, all else as entered)
abbrev W0 : Dev nD → Valuation τ sig (Elt F) := fun c b => (s₀ m ρ).mem ((c : Dev nD), b)
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev E7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (E7 m ρ) c).arrAt w cfg1.N
theorem W8_arr (c : Dev nD) (w : Fin cfg1.W) :
    W8 m ρ c (Proc.devRef .tc (Pipeline.arrRef spec1 w)) = (dat1 (E7 m ρ) c).arrAt w cfg1.N :=
  Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) :=
  Pipeline.withArrays_of_ne spec1 c _ _ b hb
abbrev W9 : Dev nD → Valuation τ sig (Elt F) := fun c => StableHlo.after hostOps2 (W8 m ρ c)
abbrev W10 : Dev nD → Valuation τ sig (Elt F) := fun c => StableHlo.after hostOps2_1 (W9 m ρ c)
abbrev W11 : Dev nD → Valuation τ sig (Elt F) := fun c => StableHlo.after hostOps2_2 (W10 m ρ c)
abbrev E11 : (c : Dev nD) → (b : Ref sig .tc) → Buf (Elt F) ((c : Thread nD τ).loc b) := fun c b => W11 m ρ c b
def W12 (c : Dev nD) : Valuation τ sig (Elt F) :=
  Pipeline.withArrays spec2 c (W11 m ρ c) fun w => (dat2 (E11 m ρ) c).arrAt w cfg2.N
theorem W12_arr (c : Dev nD) (w : Fin cfg2.W) :
    W12 m ρ c (Proc.devRef .tc (Pipeline.arrRef spec2 w)) = (dat2 (E11 m ρ) c).arrAt w cfg2.N :=
  Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) :=
  Pipeline.withArrays_of_ne spec2 c _ _ b hb
abbrev W13 : Dev nD → Valuation τ sig (Elt F) := fun c => StableHlo.after hostOps3 (W12 m ρ c)
abbrev W14 : Dev nD → Valuation τ sig (Elt F) := fun c => StableHlo.after hostOps3_1 (W13 m ρ c)
abbrev W15 : Dev nD → Valuation τ sig (Elt F) := fun c => StableHlo.after hostOps3_2 (W14 m ρ c)
abbrev W16 : Dev nD → Valuation τ sig (Elt F) := fun c => StableHlo.after hostOps3_3 (W15 m ρ c)
abbrev W17 : Dev nD → Valuation τ sig (Elt F) := fun c => StableHlo.after hostOps3_4 (W16 m ρ c)
abbrev E17 : (c : Dev nD) → (b : Ref sig .tc) → Buf (Elt F) ((c : Thread nD τ).loc b) := fun c b => W17 m ρ c b
def W18 (c : Dev nD) : Valuation τ sig (Elt F) :=
  Pipeline.withArrays spec3 c (W17 m ρ c) fun w => (dat3 (E17 m ρ) c).arrAt w cfg3.N
theorem W18_arr (c : Dev nD) (w : Fin cfg3.W) :
    W18 m ρ c (Proc.devRef .tc (Pipeline.arrRef spec3 w)) = (dat3 (E17 m ρ) c).arrAt w cfg3.N :=
  Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) :=
  Pipeline.withArrays_of_ne spec3 c _ _ b hb
abbrev W19 : Dev nD → Valuation τ sig (Elt F) := fun c => StableHlo.after hostOps4 (W18 m ρ c)
abbrev W20 : Dev nD → Valuation τ sig (Elt F) := fun c => StableHlo.after hostOps4_1 (W19 m ρ c)
abbrev W21 : Dev nD → Valuation τ sig (Elt F) := fun c => StableHlo.after hostOps4_2 (W20 m ρ c)
abbrev E21 : (c : Dev nD) → (b : Ref sig .tc) → Buf (Elt F) ((c : Thread nD τ).loc b) := fun c b => W21 m ρ c b
def W22 (c : Dev nD) : Valuation τ sig (Elt F) :=
  Pipeline.withArrays spec4 c (W21 m ρ c) fun w => (dat4 (E21 m ρ) c).arrAt w cfg4.N
theorem W22_arr (c : Dev nD) (w : Fin cfg4.W) :
    W22 m ρ c (Proc.devRef .tc (Pipeline.arrRef spec4 w)) = (dat4 (E21 m ρ) c).arrAt w cfg4.N :=
  Pipeline.withArrays_arr spec4 launch4.win.arr_inj c _ _ w
theorem W22_of_ne (c : Dev nD) (b : Ref sig .tc) (hb : ∀ w, Pipeline.arrRef spec4 w ≠ b) :
    W22 m ρ c (Proc.devRef .tc b) = W21 m ρ c (Proc.devRef .tc b) :=
  Pipeline.withArrays_of_ne spec4 c _ _ b hb
abbrev W23 : Dev nD → Valuation τ sig (Elt F) := fun c => StableHlo.after hostOps5 (W22 m ρ c)

def pdats : (p : Fin 5) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E7 m ρ) c
  | ⟨2, _⟩ => fun c => dat2 (E11 m ρ) c
  | ⟨3, _⟩ => fun c => dat3 (E17 m ρ) c
  | ⟨4, _⟩ => fun c => dat4 (E21 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable
  (hbody0 : ∀ (V : (c : Dev nD) → (b : Ref sig .tc) → Buf (Elt F) ((c : Thread nD τ).loc b)) (c : Dev nD),
    BodyObligation (dat0 (F := F) V c) (defs₀ (F := F)) Variants.none () Set.univ)
  (hbody1 : ∀ (V : (c : Dev nD) → (b : Ref sig .tc) → Buf (Elt F) ((c : Thread nD τ).loc b)) (c : Dev nD),
    BodyObligation (dat1 (F := F) V c) (defs₀ (F := F)) Variants.none () Set.univ)
  (hbody2 : ∀ (V : (c : Dev nD) → (b : Ref sig .tc) → Buf (Elt F) ((c : Thread nD τ).loc b)) (c : Dev nD),
    BodyObligation (dat2 (F := F) V c) (defs₀ (F := F)) Variants.none () Set.univ)
  (hbody3 : ∀ (V : (c : Dev nD) → (b : Ref sig .tc) → Buf (Elt F) ((c : Thread nD τ).loc b)) (c : Dev nD),
    BodyObligation (dat3 (F := F) V c) (defs₀ (F := F)) Variants.none () Set.univ)
  (hbody4 : ∀ (V : (c : Dev nD) → (b : Ref sig .tc) → Buf (Elt F) ((c : Thread nD τ).loc b)) (c : Dev nD),
    BodyObligation (dat4 (F := F) V c) (defs₀ (F := F)) Variants.none () Set.univ)

set_option backward.isDefEq.respectTransparency.types false in
/-- Kernel call `p` as an item entered with every buffer at `V`: it leaves its arrays as its grid does and every other buffer as entered, and owes nothing. -/
def reg (p : Fin 5) (lf : Pipeline.LaunchFacts (nD := nD) (τ := τ) cfgs p) (V : Dev nD → Valuation τ sig (Elt F))
    (hbody : ∀ c, BodyObligation (pdats m ρ p c) (defs₀ (F := F)) Variants.none () Set.univ)
    (hA : ∀ c w, (pdats m ρ p c).A w = V c (Pipeline.arrRef (cfgs p).spec w) := by intros; rfl)
    (hΦ : ∀ c t, (pdats m ρ p c).Φ t = Pipeline.ΦA (cfgs p).spec c := by intros; rfl)
    (hq : ∀ c w, (pdats m ρ p c).q w = fullShare := by intros; rfl)
    (hO : ∀ c t, (pdats m ρ p c).owed t = 0 := by intros; rfl)
    (hrec : ∀ c t, (pdats m ρ p c).recorded t = Set.univ := by intros; rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p hO
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => V c b) (hA c)
    rw [Pipeline.unscopedBufs_held] at hsplit
    unfold Pipeline.Dat.owesAt Pipeline.owesWithin Pipeline.Dat.bound
    rw [hO c, hrec c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => V c b)
      (fun b => Pipeline.withArrays (cfgs p).spec c (V c) (fun w => (pdats m ρ p c).arrAt w (cfgs p).N) b) _
      (fun w => (Pipeline.withArrays_arr (cfgs p).spec lf.win.arr_inj c _ _ w).symm)
      fun b hb => Pipeline.withArrays_of_ne (cfgs p).spec c _ _ b fun w e => hb (Finset.mem_image.mpr ⟨w, Finset.mem_univ _, e⟩)
    rw [Pipeline.unscopedBufs_held] at hjoin
    unfold Pipeline.Dat.owesAt Pipeline.owesWithin
    rw [hO c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg m ρ 0 launch0 (W1 m ρ) (hbody0 (E1 m ρ))),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg m ρ 1 launch1 (W7 m ρ) (hbody1 (E7 m ρ))),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (reg m ρ 2 launch2 (W11 m ρ) (hbody2 (E11 m ρ))),
    .host (hseg hostOps3 hostOps3_sub hostOps3_fresh (W12 m ρ)),
    .host (hseg hostOps3_1 hostOps3_1_sub hostOps3_1_fresh (W13 m ρ)),
    .host (hseg hostOps3_2 hostOps3_2_sub hostOps3_2_fresh (W14 m ρ)),
    .host (hseg hostOps3_3 hostOps3_3_sub hostOps3_3_fresh (W15 m ρ)),
    .host (hseg hostOps3_4 hostOps3_4_sub hostOps3_4_fresh (W16 m ρ)),
    .region (reg m ρ 3 launch3 (W17 m ρ) (hbody3 (E17 m ρ))),
    .host (hseg hostOps4 hostOps4_sub hostOps4_fresh (W18 m ρ)),
    .host (hseg hostOps4_1 hostOps4_1_sub hostOps4_1_fresh (W19 m ρ)),
    .host (hseg hostOps4_2 hostOps4_2_sub hostOps4_2_fresh (W20 m ρ)),
    .region (reg m ρ 4 launch4 (W21 m ρ) (hbody4 (E21 m ρ))),
    .host (hseg hostOps5 hostOps5_sub hostOps5_fresh (W22 m ρ)) ]

theorem main_run (c : Dev nD) : main (F := F) c = Pipeline.Seg.run (segs m ρ hbody0 hbody1 hbody2 hbody3 hbody4) := by
  rw [main_chain c, Pipeline.Seg.run_eq_chain]
  rfl

include hbody0 hbody1 hbody2 hbody3 hbody4 in
set_option backward.isDefEq.respectTransparency.types false in
/-- Every weakly fair execution of @main from zero counters terminates, nothing faulting, with every buffer of every core at `W23`: each item starts from what the one before it left. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W23 m ρ c b) :=
  Pipeline.θ_run_regions_kit (pcfgs (F := F)) adm (pdats m ρ) () cellOf_inj emb₁ defs₀ 𝒱₀ L lv m ρ main (segs m ρ hbody0 hbody1 hbody2 hbody3 hbody4)
    (fun c Q => by rw [main_run m ρ hbody0 hbody1 hbody2 hbody3 hbody4 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W23 m ρ c) ∗ ∃ r, prngReg c r))
    (hch := by
      repeat' refine And.intro ?_ ?_
      all_goals intro c
      on_goal 24 => exact sep_assoc.2
      all_goals exact .rfl)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c => h c)

section Kept
variable (c : Dev nD) (r : Ref sig .tc) (h0 : r ∉ hostOps0_W) (h1 : W2 m ρ c (Proc.devRef .tc r) = W1 m ρ c (Proc.devRef .tc r)) (h2 : r ∉ hostOps1_W) (h3 : r ∉ hostOps1_1_W) (h4 : r ∉ hostOps1_2_W) (h5 : r ∉ hostOps1_3_W) (h6 : r ∉ hostOps1_4_W) (h7 : W8 m ρ c (Proc.devRef .tc r) = W7 m ρ c (Proc.devRef .tc r)) (h8 : r ∉ hostOps2_W) (h9 : r ∉ hostOps2_1_W) (h10 : r ∉ hostOps2_2_W) (h11 : W12 m ρ c (Proc.devRef .tc r) = W11 m ρ c (Proc.devRef .tc r)) (h12 : r ∉ hostOps3_W) (h13 : r ∉ hostOps3_1_W) (h14 : r ∉ hostOps3_2_W) (h15 : r ∉ hostOps3_3_W) (h16 : r ∉ hostOps3_4_W) (h17 : W18 m ρ c (Proc.devRef .tc r) = W17 m ρ c (Proc.devRef .tc r))

-- a buffer no item so far has changed (no stretch writes it, each kernel call leaves it) still holds its launch contents
include h0 h1 in
theorem W2_keep : W2 m ρ c (Proc.devRef .tc r) = m ((c : Thread nD τ).loc r) :=
  h1.trans (StableHlo.after_of_writes_sub hostOps0 _ hostOps0_writes h0)
include h0 h1 h2 h3 h4 h5 h6 in
theorem W7_keep : W7 m ρ c (Proc.devRef .tc r) = m ((c : Thread nD τ).loc r) :=
  (StableHlo.after_of_writes_sub hostOps1_4 _ hostOps1_4_writes h6).trans <| (StableHlo.after_of_writes_sub hostOps1_3 _ hostOps1_3_writes h5).trans <| (StableHlo.after_of_writes_sub hostOps1_2 _ hostOps1_2_writes h4).trans <|
    (StableHlo.after_of_writes_sub hostOps1_1 _ hostOps1_1_writes h3).trans <| (StableHlo.after_of_writes_sub hostOps1 _ hostOps1_writes h2).trans (W2_keep m ρ c r h0 h1)
include h0 h1 h2 h3 h4 h5 h6 h7 in
theorem W8_keep : W8 m ρ c (Proc.devRef .tc r) = m ((c : Thread nD τ).loc r) :=
  h7.trans (W7_keep m ρ c r h0 h1 h2 h3 h4 h5 h6)
include h0 h1 h2 h3 h4 h5 h6 h7 h8 h9 h10 h11 in
theorem W12_keep : W12 m ρ c (Proc.devRef .tc r) = m ((c : Thread nD τ).loc r) :=
  h11.trans <| (StableHlo.after_of_writes_sub hostOps2_2 _ hostOps2_2_writes h10).trans <| (StableHlo.after_of_writes_sub hostOps2_1 _ hostOps2_1_writes h9).trans <| (StableHlo.after_of_writes_sub hostOps2 _ hostOps2_writes h8).trans
    (W8_keep m ρ c r h0 h1 h2 h3 h4 h5 h6 h7)
include h0 h1 h2 h3 h4 h5 h6 h7 h8 h9 h10 h11 h12 h13 h14 h15 h16 in
theorem W17_keep : W17 m ρ c (Proc.devRef .tc r) = m ((c : Thread nD τ).loc r) :=
  (StableHlo.after_of_writes_sub hostOps3_4 _ hostOps3_4_writes h16).trans <| (StableHlo.after_of_writes_sub hostOps3_3 _ hostOps3_3_writes h15).trans <| (StableHlo.after_of_writes_sub hostOps3_2 _ hostOps3_2_writes h14).trans <|
    (StableHlo.after_of_writes_sub hostOps3_1 _ hostOps3_1_writes h13).trans <| (StableHlo.after_of_writes_sub hostOps3 _ hostOps3_writes h12).trans (W12_keep m ρ c r h0 h1 h2 h3 h4 h5 h6 h7 h8 h9 h10 h11)
include h0 h1 h2 h3 h4 h5 h6 h7 h8 h9 h10 h11 h12 h13 h14 h15 h16 h17 in
theorem W18_keep : W18 m ρ c (Proc.devRef .tc r) = m ((c : Thread nD τ).loc r) :=
  h17.trans (W17_keep m ρ c r h0 h1 h2 h3 h4 h5 h6 h7 h8 h9 h10 h11 h12 h13 h14 h15 h16)
end Kept

-- the reference positions are an input of both nearest-neighbour calls, and an input's array is given back as found
theorem W8_in (c : Dev nD) {r : Ref sig .tc} (h : r = main_arg9 ∨ ∀ w, Pipeline.arrRef spec1 w ≠ r) : W8 m ρ c (Proc.devRef .tc r) = W7 m ρ c (Proc.devRef .tc r) := by
  obtain rfl | h := h
  · exact (W8_arr m ρ c 1).trans (((dat1 (E7 m ρ) c).arrAt_in 1 rfl _).trans (dat1_A (E7 m ρ) c 1))
  · exact W8_of_ne m ρ c r h
theorem W18_in (c : Dev nD) {r : Ref sig .tc} (h : r = main_arg9 ∨ ∀ w, Pipeline.arrRef spec3 w ≠ r) : W18 m ρ c (Proc.devRef .tc r) = W17 m ρ c (Proc.devRef .tc r) := by
  obtain rfl | h := h
  · exact (W18_arr m ρ c 1).trans (((dat3 (E17 m ρ) c).arrAt_in 1 rfl _).trans (dat3_A (E17 m ρ) c 1))
  · exact W18_of_ne m ρ c r h

-- a buffer that no stretch writes and no kernel call has as an array (the reference positions aside) ends as launched
theorem ends (c : Dev nD) (s : MemSt nD τ sig (Elt F)) (h : ∀ b ∈ Pipeline.ucRefs τ sig, s.mem (((c : Thread nD τ)).1, b) = W23 m ρ c b) (r : Ref sig .tc)
    (hr : ¬ (Proc.devRef .tc r : DevRef τ sig).isScoped ∧ r ∉ hostOps0_W ∧ (∀ w, Pipeline.arrRef spec0 w ≠ r) ∧ r ∉ hostOps1_W ∧ r ∉ hostOps1_1_W
      ∧ r ∉ hostOps1_2_W ∧ r ∉ hostOps1_3_W ∧ r ∉ hostOps1_4_W ∧ (r = main_arg9 ∨ ∀ w, Pipeline.arrRef spec1 w ≠ r) ∧ r ∉ hostOps2_W ∧ r ∉ hostOps2_1_W
      ∧ r ∉ hostOps2_2_W ∧ (∀ w, Pipeline.arrRef spec2 w ≠ r) ∧ r ∉ hostOps3_W ∧ r ∉ hostOps3_1_W ∧ r ∉ hostOps3_2_W ∧ r ∉ hostOps3_3_W ∧ r ∉ hostOps3_4_W
      ∧ (r = main_arg9 ∨ ∀ w, Pipeline.arrRef spec3 w ≠ r) ∧ r ∉ hostOps4_W ∧ r ∉ hostOps4_1_W ∧ r ∉ hostOps4_2_W ∧ (∀ w, Pipeline.arrRef spec4 w ≠ r) ∧ r ∉ hostOps5_W) :
    s.mem ((c.tc : Thread nD τ).loc r) = m ((c.tc : Thread nD τ).loc r) := by
  obtain ⟨hs, h0, a0, h2, h3, h4, h5, h6, a1, h8, h9, h10, a2, h12, h13, h14, h15, h16, a3, h18, h19, h20, a4, h22⟩ := hr
  exact (h _ (mem_uc r hs)).trans <| (StableHlo.after_of_writes_sub hostOps5 _ hostOps5_writes h22).trans <| (W22_of_ne m ρ c r a4).trans <| (StableHlo.after_of_writes_sub hostOps4_2 _ hostOps4_2_writes h20).trans <|
    (StableHlo.after_of_writes_sub hostOps4_1 _ hostOps4_1_writes h19).trans <| (StableHlo.after_of_writes_sub hostOps4 _ hostOps4_writes h18).trans <|
    W18_keep m ρ c r h0 (W2_of_ne m ρ c r a0) h2 h3 h4 h5 h6 (W8_in m ρ c a1) h8 h9 h10 (W12_of_ne m ρ c r a2) h12 h13 h14 h15 h16 (W18_in m ρ c a3)

include hbody0 hbody1 hbody2 hbody3 hbody4 in
theorem run_result : θ_run defs (onTc (τ := τ) (main (F := F))) ⟨m, fun _ => 0, ρ⟩ (fun r => ∀ c : Dev nD,
      r.2.mem ((c.tc : Thread nD τ).loc main_v281) = W23 m ρ c (Proc.devRef .tc main_v281)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => by
    refine ⟨h c _ (mem_uc main_v281 (by decide)), ?_⟩
    and_intros <;> exact ends m ρ c r.2 (h c) _ (by and_intros <;> decide)) (run_all m ρ hbody0 hbody1 hbody2 hbody3 hbody4)

include hbody0 hbody1 hbody2 hbody3 hbody4 in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => (h c).2) (run_result m ρ hbody0 hbody1 hbody2 hbody3 hbody4)

end Cert.Kernel.Hand

end
-- ==== Proof.K.LidarSum.lean ====
/- One step of the lidar sum keeps the invariant of `dat0`: a step whose index is divisible by 16 starts the sum afresh,
   every other step adds its block to the sum so far. -/
import proofs.«132617_j16140487098675_1_alg».proof.Proof.K.LidarSumData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev isFirst (i : grid0.Coords) : Prop :=
  (Scalar.cmpi .ne (Scalar.extui (Scalar.cmpi .eq (BitVec.ofNat 32 (i 0).val) 0#32)) 0#32) = 1#1

/-- The step's own test for a fresh start holds exactly at the indices divisible by 16. -/
theorem isFirst_iff : ∀ t : Fin cfg0.N, isFirst (grid0.coords t) ↔ t.val % 16 = 0 :=
  (by decide +kernel : ∀ t : Fin grid0.N, isFirst (grid0.coords t) ↔ t.val % 16 = 0)

theorem off2_zero : (![0, 0] : Fin 2 → Nat) = fun _ => 0 :=
  funext fun a => by match a with | ⟨0, _⟩ => rfl | ⟨1, _⟩ => rfl

set_option maxHeartbeats 1000000 in
/-- At a fresh start the output becomes `k0_pay2 x0 k0_pay1`, whatever it held before. -/
theorem run0_first (c : Dev nD) (i : grid0.Coords) (arg1 : Memref sig .tc .vmem S8192x9 .f32) (harg1 : arg1.IsWhole)
    (arg2 : Memref sig .tc .vmem S1x3 .f32) (harg2 : arg2.IsWhole) (hc : isFirst i)
    (x0 : Vec F S8192x9 .f32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0
            ∗ owns (c : Thread nD τ) arg2 fullShare (k0_pay2 x0 (k0_pay1 (F := F)))) -∗ K ⟨⟩))
      ⊢ wp frame (wpE (defs₀ (F := F)) Variants.none c none) E (cc0__lidar_reduce_kernel i arg1 harg1 arg2 harg2) K := by
  simp only [cc0__lidar_reduce_kernel_eq_skeleton]; unfold cc0__lidar_reduce_kernel_skel
  simp only [k0_part1_eq_skeleton]
  unfold owns
  iintro ⟨⟨%f0, %hf0, H0⟩, ⟨%d1, %f1, -, H1⟩, Hk⟩
  obtain rfl := harg1.eq_unread hf0
  sl_exec (disch := first | exact hc)
  sl_step
  iapply Hk
  isplitl [H0]
  · iexists _; isplitr; · ipureintro; exact harg1.read_unread _
    iexact H0
  iexists _; isplitr
  swap; · iexact H1
  ipureintro
  sl_unfold_words
  rw [View.read_writes_eq_canon _ _ _ (fun y => ⟨_, List.Mem.head _, View.mem_set_unit_zero (S := S1x3) off2_zero inb_S1x3_S1x3_0_0 y⟩),
    View.canon_cons_unit_zero (S := S1x3) off2_zero, View.readCov_unit_zero (S := S1x3) _ off2_zero]
  simp only [View.readAt_eq_ld, harg1.read_unread, View.ld_unit_zero (S := S8192x9) off2_zero]

set_option maxHeartbeats 1000000 in
/-- At any other step the output `xo` becomes `k0_pay2 x0 xo`: the block folded into the sum so far. -/
theorem run0_later (c : Dev nD) (i : grid0.Coords) (arg1 : Memref sig .tc .vmem S8192x9 .f32) (harg1 : arg1.IsWhole)
    (arg2 : Memref sig .tc .vmem S1x3 .f32) (harg2 : arg2.IsWhole) (hc : ¬isFirst i)
    (x0 : Vec F S8192x9 .f32) (xo : Vec F S1x3 .f32) (E : Set ℕ) (K : PUnit → sProp 𝕄) :
    iprop(owns (c : Thread nD τ) arg1 fullShare x0 ∗ owns (c : Thread nD τ) arg2 fullShare xo
        ∗ (iprop(owns (c : Thread nD τ) arg1 fullShare x0
            ∗ owns (c : Thread nD τ) arg2 fullShare (k0_pay2 x0 xo)) -∗ K ⟨⟩))
      ⊢ wp frame (wpE (defs₀ (F := F)) Variants.none c none) E (cc0__lidar_reduce_kernel i arg1 harg1 arg2 harg2) K := by
  simp only [cc0__lidar_reduce_kernel_eq_skeleton]; unfold cc0__lidar_reduce_kernel_skel
  simp only [k0_part1_eq_skeleton]
  unfold owns
  iintro ⟨⟨%f0, %hf0, H0⟩, ⟨%f1, %hf1, H1⟩, Hk⟩
  obtain rfl := harg1.eq_unread hf0; obtain rfl := harg2.eq_unread hf1
  sl_exec (disch := first | exact hc)
  sl_step
  iapply Hk
  isplitl [H0]
  · iexists _; isplitr; · ipureintro; exact harg1.read_unread _
    iexact H0
  iexists _; isplitr
  swap; · iexact H1
  ipureintro
  sl_unfold_words
  rw [View.read_writes_eq_canon _ _ _ (fun y => ⟨_, List.Mem.head _, View.mem_set_unit_zero (S := S1x3) off2_zero inb_S1x3_S1x3_0_0 y⟩),
    View.canon_unit_zero (S := S1x3) off2_zero]
  simp only [View.readAt_eq_ld, harg1.read_unread, harg2.read_unread, View.ld_unit_zero (S := S8192x9) off2_zero,
    View.ld_unit_zero (S := S1x3) off2_zero]

theorem acc0_first (c : Dev nD) (t : Fin cfg0.N) (h0 : t.val % 16 = 0) :
    acc0 V c t.val t.isLt = k0_pay2 (blk0 V c 0 t) (k0_pay1 (F := F)) := by
  have hN : cfg0.N = 16 := N_0
  obtain ⟨n, hn⟩ := t
  cases n with
  | zero => rfl
  | succ n => exact absurd h0 (by dsimp only; omega)

theorem acc0_later (c : Dev nD) (t : Fin cfg0.N) (h0 : ¬t.val % 16 = 0) :
    acc0 V c t.val t.isLt
      = k0_pay2 (blk0 V c 0 t) (acc0 V c (t.val - 1) (Nat.lt_of_le_of_lt (Nat.sub_le _ _) t.isLt)) := by
  obtain ⟨n, hn⟩ := t
  cases n with
  | zero => exact absurd (Nat.zero_mod _) h0
  | succ n => rfl

theorem before_in (c : Dev nD) (t : Fin cfg0.N) (d) : (dat0 V c).before 0 t d = blk0 V c 0 t :=
  ((dat0 V c).before_in_eq_fetched 0 rfl (fun _ => rfl) (fun _ _ _ => rfl)
    (fun t => by rw [dat0_after_in]; unfold Dat.blockOf blk0; rw [dat0_A]; try rfl) t d).trans
    (by unfold Dat.fetched Dat.blockOf blk0; rw [dat0_A]; try rfl)

theorem before_out_later (c : Dev nD) (t : Fin cfg0.N) (h0 : ¬t.val % 16 = 0) (d) :
    (dat0 V c).before 1 t d = acc0 V c (t.val - 1) (Nat.lt_of_le_of_lt (Nat.sub_le _ _) t.isLt) := by
  have hN : t.val < 16 := lt_of_lt_of_eq t.isLt (show cfg0.N = 16 from N_0)
  rw [Dat.before_out_kept _ 1 rfl t (by omega)
    (Bool.eq_false_iff.mpr fun h => by have := (flush0_1 _).mp h; dsimp only at this; omega)
    (fun _ => rfl) (fun _ _ => rfl)]
  dsimp only [dat0]

def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

set_option maxHeartbeats 800000 in
/-- In both cases the new output is `acc0 t`, by the unfolding equations `acc0_first` and `acc0_later`. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before_in]
  rw [show (dat0 V c).Φ t.succ = (dat0 V c).Φ t.castSucc from rfl,
    show (dat0 V c).owesAt () t.succ = (dat0 V c).owesAt () t.castSucc from rfl,
    dat0_after_in, dat0_after_out]
  by_cases h0 : t.val % 16 = 0
  · rw [acc0_first V c t h0]
    iintro ⟨HΦ, Ho, ⟨%d0, H0⟩, ⟨%d1, H1⟩⟩
    iapply (run0_first c (grid0.coords t) _ _ _ _ ((isFirst_iff t).mpr h0) (blk0 V c 0 t) Set.univ _)
    iframe H0
    isplitl [H1]; · iexists _; iexact H1
    iintro ⟨H0, H1⟩
    iframe
  · rw [acc0_later V c t h0]
    simp only [before_out_later V c t h0]
    iintro ⟨HΦ, Ho, ⟨%d0, H0⟩, ⟨%d1, H1⟩⟩
    iapply (run0_later c (grid0.coords t) _ _ _ _ (fun h => h0 ((isFirst_iff t).mp h)) (blk0 V c 0 t)
      (acc0 V c (t.val - 1) (Nat.lt_of_le_of_lt (Nat.sub_le _ _) t.isLt)) Set.univ _)
    iframe H0 H1
    iintro ⟨H0, H1⟩
    iframe

theorem body0 (c : Dev nD) : BodyObligation (dat0 (F := F) V c) (defs₀ (F := F)) Variants.none () Set.univ := fun t => by
  rw [bigSep_W0, bigSep_W0]
  exact sound0 V c t

end Cert.Kernel.Hand

end
-- ==== Proof.K.NearestA.lean ====
/- One step of the nearest-point search keeps the invariant of `dat1`: it leaves its two inputs alone
   and overwrites its output block with `k1_pay1` of them. -/
import proofs.«132617_j16140487098675_1_alg».proof.Proof.K.NearestAData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem before_pred (c : Dev nD) (t : Fin cfg1.N) (d) : (dat1 V c).before 0 t d = blk1 V c 0 t := by
  have keep : ∀ s, (cfg1.win 0).cut (cfg1.grid.coords s) ((dat1 V c).after 0 s) = (dat1 V c).blockOf 0 s := by
    intro s
    rw [dat1_after_pred]; unfold Dat.blockOf blk1; rw [dat1_A]; try rfl
  rw [(dat1 V c).before_in_eq_fetched 0 rfl (fun _ => rfl) (fun _ _ _ => rfl) keep t d]
  unfold Dat.fetched Dat.blockOf blk1; rw [dat1_A]; try rfl

private theorem before_table (c : Dev nD) (t : Fin cfg1.N) (d) : (dat1 V c).before 1 t d = blk1 V c 1 t := by
  have keep : ∀ s, (cfg1.win 1).cut (cfg1.grid.coords s) ((dat1 V c).after 1 s) = (dat1 V c).blockOf 1 s := by
    intro s
    rw [dat1_after_table]; unfold Dat.blockOf blk1; rw [dat1_A]; try rfl
  rw [(dat1 V c).before_in_eq_fetched 1 rfl (fun _ => rfl) (fun _ _ _ => rfl) keep t d]
  unfold Dat.fetched Dat.blockOf blk1; rw [dat1_A]; try rfl

private theorem offs_zero : (![0, 0] : Fin 2 → Nat) = fun _ => 0 := funext fun a => by fin_cases a <;> rfl

private abbrev outRect : Rect S1024x1 := Rect.unit (s := S1024x1) ![0, 0] S1024x1.size inb_S1024x1_S1024x1_0_0

private theorem cover_out (p : Vec F S1024x1 .f32) (y : S1024x1.Idx) :
    ∃ pc ∈ ([⟨outRect, p⟩] : List (View.Piece (Elt F) S1024x1 .f32)), y ∈ pc.1.set :=
  ⟨_, List.mem_singleton_self _, View.mem_set_unit_zero offs_zero inb_S1024x1_S1024x1_0_0 y⟩

set_option maxHeartbeats 1000000 in
/-- On any inputs `xp`, `xg` the step writes `k1_pay1 xp xg` over the whole output block and changes nothing else. -/
private theorem sound_kernel (c : Dev nD) (E : Set ℕ) (i : grid1.Coords)
    (mp : Memref sig .tc .vmem S1024x3 .f32) (hmp : mp.IsWhole)
    (mg : Memref sig .tc .vmem S2048x3 .f32) (hmg : mg.IsWhole)
    (mo : Memref sig .tc .vmem S1024x1 .f32) (hmo : mo.IsWhole)
    (xp : Vec F S1024x3 .f32) (xg : Vec F S2048x3 .f32) (K : PUnit → sProp 𝕄) :
    iprop(owns (c : Thread nD τ) mp fullShare xp ∗ owns (c : Thread nD τ) mg fullShare xg
        ∗ (∃ d, owns (c : Thread nD τ) mo fullShare d)
        ∗ (iprop(owns (c : Thread nD τ) mp fullShare xp ∗ owns (c : Thread nD τ) mg fullShare xg
            ∗ owns (c : Thread nD τ) mo fullShare (k1_pay1 xp xg)) -∗ K ⟨⟩))
      ⊢ wp frame (wpE (defs₀ (F := F)) Variants.none c none) E (cc1__min_sqdist_kernel i mp hmp mg hmg mo hmo) K := by
  simp only [cc1__min_sqdist_kernel_eq_skeleton]; unfold cc1__min_sqdist_kernel_skel
  unfold owns
  iintro ⟨⟨%fp, %hfp, Hp⟩, ⟨%fg, %hfg, Hg⟩, ⟨%dq, %fq, -, Hq⟩, Hk⟩
  subst hfp; subst hfg
  sl_exec
  sl_step
  iapply Hk
  isplitl [Hp]
  · iexists fp; isplitr; · ipureintro; rfl
    iexact Hp
  isplitl [Hg]
  · iexists fg; isplitr; · ipureintro; rfl
    iexact Hg
  iexists _; isplitr
  swap; · iexact Hq
  ipureintro
  rw [View.read_writes_eq_canon _ _ _ (cover_out _), View.canon_unit_zero offs_zero]
  simp only [View.readAt_eq_ld, View.ld_unit_zero (S := S1024x3) offs_zero, View.ld_unit_zero (S := S2048x3) offs_zero]

private def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

private def bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- At step `t` the inputs are `blk1 0 t` and `blk1 1 t`, so the step produces exactly what `dat1` records. -/
private theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_pred, before_table]
  rw [show (dat1 V c).Φ t.succ = (dat1 V c).Φ t.castSucc from rfl,
    show (dat1 V c).owesAt () t.succ = (dat1 V c).owesAt () t.castSucc from rfl,
    dat1_after_pred, dat1_after_table, dat1_after_out]
  iintro ⟨HΦ, Hw, ⟨%dp, Hp⟩, ⟨%dg, Hg⟩, ⟨%dq, Hq⟩⟩
  iapply (sound_kernel c Set.univ _ _ _ _ _ _ _ (blk1 V c 0 t) (blk1 V c 1 t) _)
  iframe Hp Hg
  isplitl [Hq]; · iexists _; iexact Hq
  iintro ⟨Hp, Hg, Hq⟩
  iframe

theorem body1 (c : Dev nD) : BodyObligation (dat1 (F := F) V c) (defs₀ (F := F)) Variants.none () Set.univ := fun t => by
  rw [bigSep_W1, bigSep_W1]
  exact sound_body V c t

end Cert.Kernel.Hand

end
-- ==== Proof.K.RadarSumA.lean ====
/- One step of the radar sum keeps the invariant of `dat2`: a step whose index is divisible by 4 starts the sum afresh,
   every other step adds its block to the sum so far. -/
import proofs.«132617_j16140487098675_1_alg».proof.Proof.K.RadarSumAData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem acc2_first (c : Dev nD) (t : Fin cfg2.N) (h0 : t.val % 4 = 0) :
    acc2 V c t.val t.isLt = k2_pay2 (blk2 V c 0 t) (k2_pay1 (F := F)) := by
  have hN : t.val < 4 := lt_of_lt_of_eq t.isLt (show cfg2.N = 4 from N_2)
  obtain ⟨n, hn⟩ := t
  cases n with
  | zero => rfl
  | succ n => exfalso; dsimp only at h0 hN; omega

private theorem acc2_later (c : Dev nD) (t : Fin cfg2.N) (h0 : ¬t.val % 4 = 0) :
    acc2 V c t.val t.isLt
      = k2_pay2 (blk2 V c 0 t) (acc2 V c (t.val - 1) (Nat.lt_of_le_of_lt (Nat.sub_le _ _) t.isLt)) := by
  obtain ⟨n, hn⟩ := t
  cases n with
  | zero => exact absurd (Nat.zero_mod _) h0
  | succ n => rfl

private theorem before2_in (c : Dev nD) (t : Fin cfg2.N) (d) : (dat2 V c).before 0 t d = blk2 V c 0 t :=
  ((dat2 V c).before_in_eq_fetched 0 rfl (fun _ => rfl) (fun _ _ _ => rfl)
      (fun t => by rw [dat2_after_in]; unfold Dat.blockOf blk2; rw [dat2_A]; try rfl) t d).trans
    (by unfold Dat.fetched Dat.blockOf blk2; rw [dat2_A]; try rfl)

private theorem before2_out_later (c : Dev nD) (t : Fin cfg2.N) (h0 : ¬t.val % 4 = 0) (d) :
    (dat2 V c).before 1 t d = acc2 V c (t.val - 1) (Nat.lt_of_le_of_lt (Nat.sub_le _ _) t.isLt) := by
  have hN : t.val < 4 := lt_of_lt_of_eq t.isLt (show cfg2.N = 4 from N_2)
  rw [Dat.before_out_kept _ 1 rfl t (by omega)
    (Bool.eq_false_iff.mpr fun h => by have := (flush2_1 _).mp h; dsimp only at this; omega)
    (fun _ => rfl) (fun _ _ => rfl)]
  dsimp only [dat2]

private abbrev isFirst2 (i : grid2.Coords) : Prop :=
  (Scalar.cmpi .ne (Scalar.extui (Scalar.cmpi .eq (BitVec.ofNat 32 (i 0).val) 0#32)) 0#32) = 1#1

/-- The step's own test for a fresh start holds exactly at the indices divisible by 4. -/
private theorem isFirst2_iff : ∀ t : Fin cfg2.N, isFirst2 (grid2.coords t) ↔ t.val % 4 = 0 :=
  (by decide +kernel : ∀ t : Fin grid2.N, isFirst2 (grid2.coords t) ↔ t.val % 4 = 0)

private theorem off_zero2 : (![0, 0] : Fin 2 → Nat) = fun _ => 0 := funext fun a => by fin_cases a <;> rfl

private theorem cover2 (p : Vec F S1x3 .f32) (L : List (View.Piece (Elt F) S1x3 .f32)) (y : S1x3.Idx) :
    ∃ pc ∈ ((⟨Rect.unit (s := S1x3) ![0, 0] S1x3.size Gen.inb_S1x3_S1x3_0_0, p⟩ : View.Piece (Elt F) S1x3 .f32) :: L),
      y ∈ pc.1.set :=
  ⟨_, List.Mem.head _, View.mem_set_unit_zero off_zero2 Gen.inb_S1x3_S1x3_0_0 y⟩

set_option maxHeartbeats 1000000 in
/-- At a fresh start the output becomes `k2_pay2 x0 k2_pay1`, whatever it held before. -/
private theorem kernel2_first (c : Dev nD) (E : Set ℕ) (i : grid2.Coords)
    (arg1 : Memref sig .tc .vmem S8192x4 .f32) (harg1 : arg1.IsWhole)
    (arg2 : Memref sig .tc .vmem S1x3 .f32) (harg2 : arg2.IsWhole) (hc : isFirst2 i)
    (x0 : Vec F S8192x4 .f32) (K : PUnit → sProp 𝕄) :
    iprop(owns (c : Thread nD τ) arg1 fullShare x0 ∗ (∃ d, owns (c : Thread nD τ) arg2 fullShare d)
        ∗ (iprop(owns (c : Thread nD τ) arg1 fullShare x0
            ∗ owns (c : Thread nD τ) arg2 fullShare (k2_pay2 x0 (k2_pay1 (F := F)))) -∗ K ⟨⟩))
      ⊢ wp frame (wpE (defs₀ (F := F)) Variants.none c none) E (cc2__radar_reduce_kernel i arg1 harg1 arg2 harg2) K := by
  simp only [cc2__radar_reduce_kernel_eq_skeleton]; unfold cc2__radar_reduce_kernel_skel
  unfold owns
  iintro ⟨⟨%f0, %hf0, H0⟩, ⟨%d1, %f1, -, H1⟩, Hk⟩
  obtain rfl := harg1.eq_unread hf0
  sl_exec (disch := exact hc)
  sl_step
  iapply Hk
  isplitl [H0]
  · iexists _; isplitr; · ipureintro; exact harg1.read_unread _
    iexact H0
  iexists _; isplitr
  swap; · iexact H1
  ipureintro
  sl_unfold_words
  rw [View.read_writes_eq_canon _ _ _ (cover2 _ _),
    View.canon_cons_unit_zero off_zero2]
  simp only [View.readAt_eq_ld, harg1.read_unread, View.ld_unit_zero (S := S8192x4) off_zero2,
    View.readCov_unit_zero (S := S1x3) _ off_zero2]

set_option maxHeartbeats 1000000 in
/-- At any other step the output `xo` becomes `k2_pay2 x0 xo`: the block folded into the sum so far. -/
private theorem kernel2_later (c : Dev nD) (E : Set ℕ) (i : grid2.Coords)
    (arg1 : Memref sig .tc .vmem S8192x4 .f32) (harg1 : arg1.IsWhole)
    (arg2 : Memref sig .tc .vmem S1x3 .f32) (harg2 : arg2.IsWhole) (hc : ¬isFirst2 i)
    (x0 : Vec F S8192x4 .f32) (xo : Vec F S1x3 .f32) (K : PUnit → sProp 𝕄) :
    iprop(owns (c : Thread nD τ) arg1 fullShare x0 ∗ owns (c : Thread nD τ) arg2 fullShare xo
        ∗ (iprop(owns (c : Thread nD τ) arg1 fullShare x0
            ∗ owns (c : Thread nD τ) arg2 fullShare (k2_pay2 x0 xo)) -∗ K ⟨⟩))
      ⊢ wp frame (wpE (defs₀ (F := F)) Variants.none c none) E (cc2__radar_reduce_kernel i arg1 harg1 arg2 harg2) K := by
  simp only [cc2__radar_reduce_kernel_eq_skeleton]; unfold cc2__radar_reduce_kernel_skel
  unfold owns
  iintro ⟨⟨%f0, %hf0, H0⟩, ⟨%f1, %hf1, H1⟩, Hk⟩
  obtain rfl := harg1.eq_unread hf0; obtain rfl := harg2.eq_unread hf1
  sl_exec (disch := exact hc)
  sl_step
  iapply Hk
  isplitl [H0]
  · iexists _; isplitr; · ipureintro; exact harg1.read_unread _
    iexact H0
  iexists _; isplitr
  swap; · iexact H1
  ipureintro
  sl_unfold_words
  rw [View.read_writes_eq_canon _ _ _ (cover2 _ _),
    View.canon_unit_zero off_zero2]
  simp only [View.readAt_eq_ld, harg1.read_unread, harg2.read_unread, View.ld_unit_zero (S := S8192x4) off_zero2,
    View.ld_unit_zero (S := S1x3) off_zero2]

private def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

private def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

set_option maxHeartbeats 800000 in
/-- In both cases the new output is `acc2 t`, by the unfolding equations `acc2_first` and `acc2_later`. -/
private theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_in]
  rw [show (dat2 V c).Φ t.succ = (dat2 V c).Φ t.castSucc from rfl,
    show (dat2 V c).owesAt () t.succ = (dat2 V c).owesAt () t.castSucc from rfl,
    dat2_after_in, dat2_after_out]
  by_cases h0 : t.val % 4 = 0
  · rw [acc2_first V c t h0]
    iintro ⟨HΦ, Ho, ⟨%d0, H0⟩, ⟨%d1, H1⟩⟩
    iapply (kernel2_first c Set.univ (grid2.coords t) _ _ _ _ ((isFirst2_iff t).mpr h0) (blk2 V c 0 t) _)
    iframe H0
    isplitl [H1]; · iexists _; iexact H1
    iintro ⟨H0, H1⟩
    iframe
  · rw [acc2_later V c t h0]
    simp only [before2_out_later V c t h0]
    iintro ⟨HΦ, Ho, ⟨%d0, H0⟩, ⟨%d1, H1⟩⟩
    iapply (kernel2_later c Set.univ (grid2.coords t) _ _ _ _ (fun h => h0 ((isFirst2_iff t).mp h)) (blk2 V c 0 t)
      (acc2 V c (t.val - 1) (Nat.lt_of_le_of_lt (Nat.sub_le _ _) t.isLt)) _)
    iframe H0 H1
    iintro ⟨H0, H1⟩
    iframe

theorem body2 (c : Dev nD) : BodyObligation (dat2 (F := F) V c) (defs₀ (F := F)) Variants.none () Set.univ := fun t => by
  rw [bigSep_W2, bigSep_W2]
  exact sound_body2 V c t

end Cert.Kernel.Hand

end
-- ==== Proof.K.NearestB.lean ====
/- One step of the nearest-point search keeps the invariant of `dat3`: it leaves its two inputs alone
   and overwrites its output block with `k3_pay1` of them. -/
import proofs.«132617_j16140487098675_1_alg».proof.Proof.K.NearestBData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem before_pred (c : Dev nD) (t : Fin cfg3.N) (d) : (dat3 V c).before 0 t d = blk3 V c 0 t := by
  have keep : ∀ s, (cfg3.win 0).cut (cfg3.grid.coords s) ((dat3 V c).after 0 s) = (dat3 V c).blockOf 0 s := by
    intro s
    rw [dat3_after_pred]; unfold Dat.blockOf blk3; rw [dat3_A]; try rfl
  rw [(dat3 V c).before_in_eq_fetched 0 rfl (fun _ => rfl) (fun _ _ _ => rfl) keep t d]
  unfold Dat.fetched Dat.blockOf blk3; rw [dat3_A]; try rfl

private theorem before_table (c : Dev nD) (t : Fin cfg3.N) (d) : (dat3 V c).before 1 t d = blk3 V c 1 t := by
  have keep : ∀ s, (cfg3.win 1).cut (cfg3.grid.coords s) ((dat3 V c).after 1 s) = (dat3 V c).blockOf 1 s := by
    intro s
    rw [dat3_after_table]; unfold Dat.blockOf blk3; rw [dat3_A]; try rfl
  rw [(dat3 V c).before_in_eq_fetched 1 rfl (fun _ => rfl) (fun _ _ _ => rfl) keep t d]
  unfold Dat.fetched Dat.blockOf blk3; rw [dat3_A]; try rfl

private theorem offs_zero : (![0, 0] : Fin 2 → Nat) = fun _ => 0 := funext fun a => by fin_cases a <;> rfl

private abbrev outRect : Rect S1024x1 := Rect.unit (s := S1024x1) ![0, 0] S1024x1.size inb_S1024x1_S1024x1_0_0

private theorem cover_out (p : Vec F S1024x1 .f32) (y : S1024x1.Idx) :
    ∃ pc ∈ ([⟨outRect, p⟩] : List (View.Piece (Elt F) S1024x1 .f32)), y ∈ pc.1.set :=
  ⟨_, List.mem_singleton_self _, View.mem_set_unit_zero offs_zero inb_S1024x1_S1024x1_0_0 y⟩

set_option maxHeartbeats 1000000 in
/-- On any inputs `xp`, `xg` the step writes `k3_pay1 xp xg` over the whole output block and changes nothing else. -/
private theorem sound_kernel (c : Dev nD) (E : Set ℕ) (i : grid3.Coords)
    (mp : Memref sig .tc .vmem S1024x3 .f32) (hmp : mp.IsWhole)
    (mg : Memref sig .tc .vmem S2048x3 .f32) (hmg : mg.IsWhole)
    (mo : Memref sig .tc .vmem S1024x1 .f32) (hmo : mo.IsWhole)
    (xp : Vec F S1024x3 .f32) (xg : Vec F S2048x3 .f32) (K : PUnit → sProp 𝕄) :
    iprop(owns (c : Thread nD τ) mp fullShare xp ∗ owns (c : Thread nD τ) mg fullShare xg
        ∗ (∃ d, owns (c : Thread nD τ) mo fullShare d)
        ∗ (iprop(owns (c : Thread nD τ) mp fullShare xp ∗ owns (c : Thread nD τ) mg fullShare xg
            ∗ owns (c : Thread nD τ) mo fullShare (k3_pay1 xp xg)) -∗ K ⟨⟩))
      ⊢ wp frame (wpE (defs₀ (F := F)) Variants.none c none) E (cc3__min_sqdist_kernel i mp hmp mg hmg mo hmo) K := by
  simp only [cc3__min_sqdist_kernel_eq_skeleton]; unfold cc3__min_sqdist_kernel_skel
  unfold owns
  iintro ⟨⟨%fp, %hfp, Hp⟩, ⟨%fg, %hfg, Hg⟩, ⟨%dq, %fq, -, Hq⟩, Hk⟩
  subst hfp; subst hfg
  sl_exec
  sl_step
  iapply Hk
  isplitl [Hp]
  · iexists fp; isplitr; · ipureintro; rfl
    iexact Hp
  isplitl [Hg]
  · iexists fg; isplitr; · ipureintro; rfl
    iexact Hg
  iexists _; isplitr
  swap; · iexact Hq
  ipureintro
  rw [View.read_writes_eq_canon _ _ _ (cover_out _), View.canon_unit_zero offs_zero]
  simp only [View.readAt_eq_ld, View.ld_unit_zero (S := S1024x3) offs_zero, View.ld_unit_zero (S := S2048x3) offs_zero]

private def bodyPre (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

private def bodyPost (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- At step `t` the inputs are `blk3 0 t` and `blk3 1 t`, so the step produces exactly what `dat3` records. -/
private theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_pred, before_table]
  rw [show (dat3 V c).Φ t.succ = (dat3 V c).Φ t.castSucc from rfl,
    show (dat3 V c).owesAt () t.succ = (dat3 V c).owesAt () t.castSucc from rfl,
    dat3_after_pred, dat3_after_table, dat3_after_out]
  iintro ⟨HΦ, Hw, ⟨%dp, Hp⟩, ⟨%dg, Hg⟩, ⟨%dq, Hq⟩⟩
  iapply (sound_kernel c Set.univ _ _ _ _ _ _ _ (blk3 V c 0 t) (blk3 V c 1 t) _)
  iframe Hp Hg
  isplitl [Hq]; · iexists _; iexact Hq
  iintro ⟨Hp, Hg, Hq⟩
  iframe

theorem body3 (c : Dev nD) : BodyObligation (dat3 (F := F) V c) (defs₀ (F := F)) Variants.none () Set.univ := fun t => by
  rw [bigSep_W3, bigSep_W3]
  exact sound_body V c t

end Cert.Kernel.Hand

end
-- ==== Proof.K.RadarSumB.lean ====
/- One step of the radar sum keeps the invariant of `dat4`: a step whose index is divisible by 4 starts the sum afresh,
   every other step adds its block to the sum so far. -/
import proofs.«132617_j16140487098675_1_alg».proof.Proof.K.RadarSumBData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

private theorem acc4_first (c : Dev nD) (t : Fin cfg4.N) (h0 : t.val % 4 = 0) :
    acc4 V c t.val t.isLt = k4_pay2 (blk4 V c 0 t) (k4_pay1 (F := F)) := by
  have hN : t.val < 4 := lt_of_lt_of_eq t.isLt (show cfg4.N = 4 from N_4)
  obtain ⟨n, hn⟩ := t
  cases n with
  | zero => rfl
  | succ n => exfalso; dsimp only at h0 hN; omega

private theorem acc4_later (c : Dev nD) (t : Fin cfg4.N) (h0 : ¬t.val % 4 = 0) :
    acc4 V c t.val t.isLt
      = k4_pay2 (blk4 V c 0 t) (acc4 V c (t.val - 1) (Nat.lt_of_le_of_lt (Nat.sub_le _ _) t.isLt)) := by
  obtain ⟨n, hn⟩ := t
  cases n with
  | zero => exact absurd (Nat.zero_mod _) h0
  | succ n => rfl

private theorem before4_in (c : Dev nD) (t : Fin cfg4.N) (d) : (dat4 V c).before 0 t d = blk4 V c 0 t :=
  ((dat4 V c).before_in_eq_fetched 0 rfl (fun _ => rfl) (fun _ _ _ => rfl)
      (fun t => by rw [dat4_after_in]; unfold Dat.blockOf blk4; rw [dat4_A]; try rfl) t d).trans
    (by unfold Dat.fetched Dat.blockOf blk4; rw [dat4_A]; try rfl)

private theorem before4_out_later (c : Dev nD) (t : Fin cfg4.N) (h0 : ¬t.val % 4 = 0) (d) :
    (dat4 V c).before 1 t d = acc4 V c (t.val - 1) (Nat.lt_of_le_of_lt (Nat.sub_le _ _) t.isLt) := by
  have hN : t.val < 4 := lt_of_lt_of_eq t.isLt (show cfg4.N = 4 from N_4)
  rw [Dat.before_out_kept _ 1 rfl t (by omega)
    (Bool.eq_false_iff.mpr fun h => by have := (flush4_1 _).mp h; dsimp only at this; omega)
    (fun _ => rfl) (fun _ _ => rfl)]
  dsimp only [dat4]

private abbrev isFirst4 (i : grid4.Coords) : Prop :=
  (Scalar.cmpi .ne (Scalar.extui (Scalar.cmpi .eq (BitVec.ofNat 32 (i 0).val) 0#32)) 0#32) = 1#1

/-- The step's own test for a fresh start holds exactly at the indices divisible by 4. -/
private theorem isFirst4_iff : ∀ t : Fin cfg4.N, isFirst4 (grid4.coords t) ↔ t.val % 4 = 0 :=
  (by decide +kernel : ∀ t : Fin grid4.N, isFirst4 (grid4.coords t) ↔ t.val % 4 = 0)

private theorem off_zero4 : (![0, 0] : Fin 2 → Nat) = fun _ => 0 := funext fun a => by fin_cases a <;> rfl

private theorem cover4 (p : Vec F S1x3 .f32) (L : List (View.Piece (Elt F) S1x3 .f32)) (y : S1x3.Idx) :
    ∃ pc ∈ ((⟨Rect.unit (s := S1x3) ![0, 0] S1x3.size Gen.inb_S1x3_S1x3_0_0, p⟩ : View.Piece (Elt F) S1x3 .f32) :: L),
      y ∈ pc.1.set :=
  ⟨_, List.Mem.head _, View.mem_set_unit_zero off_zero4 Gen.inb_S1x3_S1x3_0_0 y⟩

set_option maxHeartbeats 1000000 in
/-- At a fresh start the output becomes `k4_pay2 x0 k4_pay1`, whatever it held before. -/
private theorem kernel4_first (c : Dev nD) (E : Set ℕ) (i : grid4.Coords)
    (arg1 : Memref sig .tc .vmem S8192x4 .f32) (harg1 : arg1.IsWhole)
    (arg2 : Memref sig .tc .vmem S1x3 .f32) (harg2 : arg2.IsWhole) (hc : isFirst4 i)
    (x0 : Vec F S8192x4 .f32) (K : PUnit → sProp 𝕄) :
    iprop(owns (c : Thread nD τ) arg1 fullShare x0 ∗ (∃ d, owns (c : Thread nD τ) arg2 fullShare d)
        ∗ (iprop(owns (c : Thread nD τ) arg1 fullShare x0
            ∗ owns (c : Thread nD τ) arg2 fullShare (k4_pay2 x0 (k4_pay1 (F := F)))) -∗ K ⟨⟩))
      ⊢ wp frame (wpE (defs₀ (F := F)) Variants.none c none) E (cc4__radar_reduce_kernel i arg1 harg1 arg2 harg2) K := by
  simp only [cc4__radar_reduce_kernel_eq_skeleton]; unfold cc4__radar_reduce_kernel_skel
  unfold owns
  iintro ⟨⟨%f0, %hf0, H0⟩, ⟨%d1, %f1, -, H1⟩, Hk⟩
  obtain rfl := harg1.eq_unread hf0
  sl_exec (disch := exact hc)
  sl_step
  iapply Hk
  isplitl [H0]
  · iexists _; isplitr; · ipureintro; exact harg1.read_unread _
    iexact H0
  iexists _; isplitr
  swap; · iexact H1
  ipureintro
  sl_unfold_words
  rw [View.read_writes_eq_canon _ _ _ (cover4 _ _),
    View.canon_cons_unit_zero off_zero4]
  simp only [View.readAt_eq_ld, harg1.read_unread, View.ld_unit_zero (S := S8192x4) off_zero4,
    View.readCov_unit_zero (S := S1x3) _ off_zero4]

set_option maxHeartbeats 1000000 in
/-- At any other step the output `xo` becomes `k4_pay2 x0 xo`: the block folded into the sum so far. -/
private theorem kernel4_later (c : Dev nD) (E : Set ℕ) (i : grid4.Coords)
    (arg1 : Memref sig .tc .vmem S8192x4 .f32) (harg1 : arg1.IsWhole)
    (arg2 : Memref sig .tc .vmem S1x3 .f32) (harg2 : arg2.IsWhole) (hc : ¬isFirst4 i)
    (x0 : Vec F S8192x4 .f32) (xo : Vec F S1x3 .f32) (K : PUnit → sProp 𝕄) :
    iprop(owns (c : Thread nD τ) arg1 fullShare x0 ∗ owns (c : Thread nD τ) arg2 fullShare xo
        ∗ (iprop(owns (c : Thread nD τ) arg1 fullShare x0
            ∗ owns (c : Thread nD τ) arg2 fullShare (k4_pay2 x0 xo)) -∗ K ⟨⟩))
      ⊢ wp frame (wpE (defs₀ (F := F)) Variants.none c none) E (cc4__radar_reduce_kernel i arg1 harg1 arg2 harg2) K := by
  simp only [cc4__radar_reduce_kernel_eq_skeleton]; unfold cc4__radar_reduce_kernel_skel
  unfold owns
  iintro ⟨⟨%f0, %hf0, H0⟩, ⟨%f1, %hf1, H1⟩, Hk⟩
  obtain rfl := harg1.eq_unread hf0; obtain rfl := harg2.eq_unread hf1
  sl_exec (disch := exact hc)
  sl_step
  iapply Hk
  isplitl [H0]
  · iexists _; isplitr; · ipureintro; exact harg1.read_unread _
    iexact H0
  iexists _; isplitr
  swap; · iexact H1
  ipureintro
  sl_unfold_words
  rw [View.read_writes_eq_canon _ _ _ (cover4 _ _),
    View.canon_unit_zero off_zero4]
  simp only [View.readAt_eq_ld, harg1.read_unread, harg2.read_unread, View.ld_unit_zero (S := S8192x4) off_zero4,
    View.ld_unit_zero (S := S1x3) off_zero4]

private def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

private def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

set_option maxHeartbeats 800000 in
/-- In both cases the new output is `acc4 t`, by the unfolding equations `acc4_first` and `acc4_later`. -/
private theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_in]
  rw [show (dat4 V c).Φ t.succ = (dat4 V c).Φ t.castSucc from rfl,
    show (dat4 V c).owesAt () t.succ = (dat4 V c).owesAt () t.castSucc from rfl,
    dat4_after_in, dat4_after_out]
  by_cases h0 : t.val % 4 = 0
  · rw [acc4_first V c t h0]
    iintro ⟨HΦ, Ho, ⟨%d0, H0⟩, ⟨%d1, H1⟩⟩
    iapply (kernel4_first c Set.univ (grid4.coords t) _ _ _ _ ((isFirst4_iff t).mpr h0) (blk4 V c 0 t) _)
    iframe H0
    isplitl [H1]; · iexists _; iexact H1
    iintro ⟨H0, H1⟩
    iframe
  · rw [acc4_later V c t h0]
    simp only [before4_out_later V c t h0]
    iintro ⟨HΦ, Ho, ⟨%d0, H0⟩, ⟨%d1, H1⟩⟩
    iapply (kernel4_later c Set.univ (grid4.coords t) _ _ _ _ (fun h => h0 ((isFirst4_iff t).mp h)) (blk4 V c 0 t)
      (acc4 V c (t.val - 1) (Nat.lt_of_le_of_lt (Nat.sub_le _ _) t.isLt)) _)
    iframe H0 H1
    iintro ⟨H0, H1⟩
    iframe

theorem body4 (c : Dev nD) : BodyObligation (dat4 (F := F) V c) (defs₀ (F := F)) Variants.none () Set.univ := fun t => by
  rw [bigSep_W4, bigSep_W4]
  exact sound_body4 V c t

end Cert.Kernel.Hand

end
-- ==== Proof.K.Frame.lean ====
/- The whole run, assembled from its five loops: once every loop's step keeps that loop's invariant,
   the run is safe, hands every argument back as given, and ends with the value `W23` built up stage by stage. -/
import proofs.«132617_j16140487098675_1_alg».proof.Proof.K.Run
import proofs.«132617_j16140487098675_1_alg».proof.Proof.K.LidarSum
import proofs.«132617_j16140487098675_1_alg».proof.Proof.K.NearestA
import proofs.«132617_j16140487098675_1_alg».proof.Proof.K.RadarSumA
import proofs.«132617_j16140487098675_1_alg».proof.Proof.K.NearestB
import proofs.«132617_j16140487098675_1_alg».proof.Proof.K.RadarSumB

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Safety and unchanged arguments need only the five step invariants `body0` … `body4`. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame (F := F) m ρ (fun V c => body0 V c) (fun V c => body1 V c) (fun V c => body2 V c) (fun V c => body3 V c) (fun V c => body4 V c)

/-- The same five invariants also determine the result: it is `W23`. -/
theorem result_main : θ_run defs (onTc (τ := τ) (main (F := F))) ⟨m, fun _ => 0, ρ⟩ (fun r => ∀ c : Dev nD,
      r.2.mem ((c.tc : Thread nD τ).loc main_v281) = W23 m ρ c (Proc.devRef .tc main_v281)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  run_result (F := F) m ρ (fun V c => body0 V c) (fun V c => body1 V c) (fun V c => body2 V c) (fun V c => body3 V c) (fun V c => body4 V c)

end Cert.Kernel.Hand

end
-- ==== Proof.Val.Picks.lean ====
/- The three entries of a `1 × 3` array of sums read off as scalars, and the loss term a stage makes of them:
   `lossOf n s0 s1 s2 = s0 / n + s1 / n + s2 / n`, up to factors of one. -/
import proofs.«132617_j16140487098675_1_alg».proof.KernelIdeal
import proofs.«132617_j16140487098675_1_alg».proof.Proof.Gen.KernelIdeal
import Idealize.ShloMosaic.Lib.ValueIdx
import Idealize.ShloMosaic.Lib.Pipeline.Value

noncomputable section

namespace Cert.Val

open Idealize.ShloMosaic
open Cert.KernelIdeal Cert.KernelIdeal.Gen

variable {F : FTy → Type} [FloatOps F]

def pick0 (o : FVec F S1x3 .f32) : FVec F S_ .f32 :=
  shapeCast S_ (extractStridedSlice S1 ![0] (shapeCast S3 o shapeCasts_S1x3_S3) slices_S3_S1_0) shapeCasts_S1_S_
def pick1 (o : FVec F S1x3 .f32) : FVec F S_ .f32 :=
  shapeCast S_ (extractStridedSlice S1 ![1] (shapeCast S3 o shapeCasts_S1x3_S3) slices_S3_S1_1) shapeCasts_S1_S_
def pick2 (o : FVec F S1x3 .f32) : FVec F S_ .f32 :=
  shapeCast S_ (extractStridedSlice S1 ![2] (shapeCast S3 o shapeCasts_S1x3_S3) slices_S3_S1_2) shapeCasts_S1_S_

def lossOf (n : BitVec 32) (s0 s1 s2 : FVec F S_ .f32) : FVec F S_ .f32 :=
  mulf (addf (addf (mulf (constant S_ .f32 0x3F800000#32) (Host.divf s0 (constant S_ .f32 n)))
                   (mulf (constant S_ .f32 0x3F800000#32) (Host.divf s1 (constant S_ .f32 n))))
             (Host.divf s2 (constant S_ .f32 n)))
       (constant S_ .f32 0x3F800000#32)

theorem pick0_apply (o : FVec F S1x3 .f32) (i : S_.Idx) : pick0 o i = o (ValueIdx.ix2 (0 : Fin 1) (0 : Fin 3)) := by
  unfold pick0
  rw [shapeCast_apply _ _ i (ValueIdx.ix1 (0 : Fin 1)) (by rfl)]
  rw [extractStridedSlice_apply _ _ _ (ValueIdx.ix1 (0 : Fin 1)) (ValueIdx.ix1 (0 : Fin 3)) (fun a => by match a with | ⟨0, _⟩ => rfl)]
  exact shapeCast_apply _ _ _ (ValueIdx.ix2 (0 : Fin 1) (0 : Fin 3)) (by rfl)
theorem pick1_apply (o : FVec F S1x3 .f32) (i : S_.Idx) : pick1 o i = o (ValueIdx.ix2 (0 : Fin 1) (1 : Fin 3)) := by
  unfold pick1
  rw [shapeCast_apply _ _ i (ValueIdx.ix1 (0 : Fin 1)) (by rfl)]
  rw [extractStridedSlice_apply _ _ _ (ValueIdx.ix1 (0 : Fin 1)) (ValueIdx.ix1 (1 : Fin 3)) (fun a => by match a with | ⟨0, _⟩ => rfl)]
  exact shapeCast_apply _ _ _ (ValueIdx.ix2 (0 : Fin 1) (1 : Fin 3)) (by rfl)
theorem pick2_apply (o : FVec F S1x3 .f32) (i : S_.Idx) : pick2 o i = o (ValueIdx.ix2 (0 : Fin 1) (2 : Fin 3)) := by
  unfold pick2
  rw [shapeCast_apply _ _ i (ValueIdx.ix1 (0 : Fin 1)) (by rfl)]
  rw [extractStridedSlice_apply _ _ _ (ValueIdx.ix1 (0 : Fin 1)) (ValueIdx.ix1 (2 : Fin 3)) (fun a => by match a with | ⟨0, _⟩ => rfl)]
  exact shapeCast_apply _ _ _ (ValueIdx.ix2 (0 : Fin 1) (2 : Fin 3)) (by rfl)

end Cert.Val

end
-- ==== Proof.RefH.Vals.lean ====
/-
  The reference, one operation at a time: what each operation writes, as a function of the arguments it depends on.
-/
import proofs.«132617_j16140487098675_1_alg».proof.ReferenceIdeal
import proofs.«132617_j16140487098675_1_alg».proof.Proof.Gen.ReferenceIdeal
import Idealize.ShloMosaic.PureOps.Ideal

noncomputable section

namespace Cert.RefH

open Cert.ReferenceIdeal Cert.ReferenceIdeal.Gen Idealize.ShloMosaic Idealize.ShloMosaic.TcCoe Idealize.SL.Sem

variable {F : FTy → Type} [FloatOps F]

def val_main_cst : Vec F S_ .f32 :=
  constant S_ .f32 0xC139E47F#32

def val_main_cst_0 : Vec F S_ .f32 :=
  constant S_ .f32 0xC0BFBA14#32

def val_main_call0_v0 : Vec F S_ .f32 :=
  id (val_main_cst (F := F))

def val_main_call0_v1 : Vec F S131072x1 .f32 :=
  broadcastInDim S131072x1 ![] bcast_S_S131072x1 (val_main_call0_v0 (F := F))

def val_main_call0_v2 (x0 : Vec F S131072x1 .f32) : Vec F S131072x1 .f32 :=
  maximumf (val_main_call0_v1 (F := F)) x0

def val_main_call0_v3 : Vec F S_ .f32 :=
  id (val_main_cst_0 (F := F))

def val_main_call0_v4 : Vec F S131072x1 .f32 :=
  broadcastInDim S131072x1 ![] bcast_S_S131072x1 (val_main_call0_v3 (F := F))

def val_main_v0 (x0 : Vec F S131072x1 .f32) : Vec F S131072x1 .f32 :=
  minimumf (val_main_call0_v4 (F := F)) (val_main_call0_v2 (F := F) x0)

def val_main_cst_1 : Vec F S_ .f32 :=
  constant S_ .f32 0x3F800000#32

def val_main_v1 : Vec F S2097152 .f32 :=
  broadcastInDim S2097152 ![] bcast_S_S2097152 (val_main_cst_1 (F := F))

def val_main_cst_2 : Vec F S_ .f32 :=
  constant S_ .f32 0x00000000#32

def val_main_v2 : Vec F S131072 .f32 :=
  broadcastInDim S131072 ![] bcast_S_S131072 (val_main_cst_2 (F := F))

def val_main_v3 (x12 : Vec F S2097152 .i32) : Vec F S2097152x1 .i32 :=
  broadcastInDim S2097152x1 ![0] bcast_S2097152_S2097152x1_0 x12

def val_main_v4 (x12 : Vec F S2097152 .i32) : Vec F S131072 .f32 :=
  Host.scatterAdd scatter_S131072_S2097152x1_S2097152_n_0_0_1 (val_main_v2 (F := F)) (val_main_v3 (F := F) x12) (val_main_v1 (F := F))

def val_main_cst_3 : Vec F S_ .f32 :=
  constant S_ .f32 0x3F800000#32

def val_main_v5 : Vec F S131072 .f32 :=
  broadcastInDim S131072 ![] bcast_S_S131072 (val_main_cst_3 (F := F))

def val_main_v6 (x12 : Vec F S2097152 .i32) : Vec F S131072 .f32 :=
  maximumf (val_main_v4 (F := F) x12) (val_main_v5 (F := F))

def val_main_v7 (x12 : Vec F S2097152 .i32) : Vec F S131072x1 .f32 :=
  broadcastInDim S131072x1 ![0] bcast_S131072_S131072x1_0 (val_main_v6 (F := F) x12)

def val_main_c : Vec F S_ .i32 :=
  constantI S_ 32 0#32

def val_main_v8 : Vec F S2097152 .i32 :=
  broadcastInDim S2097152 ![] bcast_S_S2097152 (val_main_c (F := F))

def val_main_v9 (x11 : Vec F S2097152 .i32) : Vec F S2097152 .i1 :=
  cmpi .slt x11 (val_main_v8 (F := F))

def val_main_c_4 : Vec F S_ .i32 :=
  constantI S_ 32 131072#32

def val_main_v10 : Vec F S2097152 .i32 :=
  broadcastInDim S2097152 ![] bcast_S_S2097152 (val_main_c_4 (F := F))

def val_main_v11 (x11 : Vec F S2097152 .i32) : Vec F S2097152 .i32 :=
  addi x11 (val_main_v10 (F := F))

def val_main_v12 (x11 : Vec F S2097152 .i32) : Vec F S2097152 .i32 :=
  select (val_main_v9 (F := F) x11) (val_main_v11 (F := F) x11) x11

def val_main_v13 (x11 : Vec F S2097152 .i32) : Vec F S2097152x1 .i32 :=
  broadcastInDim S2097152x1 ![0] bcast_S2097152_S2097152x1_0 (val_main_v12 (F := F) x11)

def val_main_v14 (x1 : Vec F S131072x3 .f32) (x11 : Vec F S2097152 .i32) : Vec F S2097152x3 .f32 :=
  Host.gather gather_S131072x3_S2097152x1_S2097152x3_1_0_n_n_0_1_13 x1 (val_main_v13 (F := F) x11)

def val_main_cst_5 : Vec F S_ .f32 :=
  constant S_ .f32 0x00000000#32

def val_main_v15 : Vec F S131072x3 .f32 :=
  broadcastInDim S131072x3 ![] bcast_S_S131072x3 (val_main_cst_5 (F := F))

def val_main_v16 (x12 : Vec F S2097152 .i32) : Vec F S2097152x1 .i32 :=
  broadcastInDim S2097152x1 ![0] bcast_S2097152_S2097152x1_0 x12

def val_main_v17 (x1 : Vec F S131072x3 .f32) (x11 x12 : Vec F S2097152 .i32) : Vec F S131072x3 .f32 :=
  Host.scatterAdd scatter_S131072x3_S2097152x1_S2097152x3_1_0_0_1 (val_main_v15 (F := F)) (val_main_v16 (F := F) x12) (val_main_v14 (F := F) x1 x11)

def val_main_v18 (x12 : Vec F S2097152 .i32) : Vec F S131072x3 .f32 :=
  broadcastInDim S131072x3 ![0, 1] bcast_S131072x1_S131072x3_0_1 (val_main_v7 (F := F) x12)

def val_main_v19 (x1 : Vec F S131072x3 .f32) (x11 x12 : Vec F S2097152 .i32) : Vec F S131072x3 .f32 :=
  Host.divf (val_main_v17 (F := F) x1 x11 x12) (val_main_v18 (F := F) x12)

def val_main_v20 (x2 : Vec F S131072x4 .f32) : Vec F S131072x1 .f32 :=
  extractStridedSlice S131072x1 ![0, 2] x2 slices_S131072x4_S131072x1_0_2

def val_main_c_6 : Vec F S_ .i32 :=
  constantI S_ 32 0#32

def val_main_v21 : Vec F S2097152 .i32 :=
  broadcastInDim S2097152 ![] bcast_S_S2097152 (val_main_c_6 (F := F))

def val_main_v22 (x11 : Vec F S2097152 .i32) : Vec F S2097152 .i1 :=
  cmpi .slt x11 (val_main_v21 (F := F))

def val_main_c_7 : Vec F S_ .i32 :=
  constantI S_ 32 131072#32

def val_main_v23 : Vec F S2097152 .i32 :=
  broadcastInDim S2097152 ![] bcast_S_S2097152 (val_main_c_7 (F := F))

def val_main_v24 (x11 : Vec F S2097152 .i32) : Vec F S2097152 .i32 :=
  addi x11 (val_main_v23 (F := F))

def val_main_v25 (x11 : Vec F S2097152 .i32) : Vec F S2097152 .i32 :=
  select (val_main_v22 (F := F) x11) (val_main_v24 (F := F) x11) x11

def val_main_v26 (x11 : Vec F S2097152 .i32) : Vec F S2097152x1 .i32 :=
  broadcastInDim S2097152x1 ![0] bcast_S2097152_S2097152x1_0 (val_main_v25 (F := F) x11)

def val_main_v27 (x2 : Vec F S131072x4 .f32) (x11 : Vec F S2097152 .i32) : Vec F S2097152x1 .f32 :=
  Host.gather gather_S131072x1_S2097152x1_S2097152x1_1_0_n_n_0_1_11 (val_main_v20 (F := F) x2) (val_main_v26 (F := F) x11)

def val_main_cst_8 : Vec F S_ .f32 :=
  constant S_ .f32 0x00000000#32

def val_main_v28 : Vec F S131072x1 .f32 :=
  broadcastInDim S131072x1 ![] bcast_S_S131072x1 (val_main_cst_8 (F := F))

def val_main_v29 (x12 : Vec F S2097152 .i32) : Vec F S2097152x1 .i32 :=
  broadcastInDim S2097152x1 ![0] bcast_S2097152_S2097152x1_0 x12

def val_main_v30 (x2 : Vec F S131072x4 .f32) (x11 x12 : Vec F S2097152 .i32) : Vec F S131072x1 .f32 :=
  Host.scatterAdd scatter_S131072x1_S2097152x1_S2097152x1_1_0_0_1 (val_main_v28 (F := F)) (val_main_v29 (F := F) x12) (val_main_v27 (F := F) x2 x11)

def val_main_v31 (x2 : Vec F S131072x4 .f32) (x11 x12 : Vec F S2097152 .i32) : Vec F S131072x1 .f32 :=
  Host.divf (val_main_v30 (F := F) x2 x11 x12) (val_main_v7 (F := F) x12)

def val_main_v32 (x1 : Vec F S131072x3 .f32) (x11 x12 : Vec F S2097152 .i32) : Vec F S131072x3 .f32 :=
  subf x1 (val_main_v19 (F := F) x1 x11 x12)

def val_main_v33 (x1 : Vec F S131072x3 .f32) (x11 x12 : Vec F S2097152 .i32) : Vec F S131072x3 .f32 :=
  mulf (val_main_v32 (F := F) x1 x11 x12) (val_main_v32 (F := F) x1 x11 x12)

def val_main_cst_9 : Vec F S_ .f32 :=
  constant S_ .f32 0x00000000#32

def val_main_v34 (x1 : Vec F S131072x3 .f32) (x11 x12 : Vec F S2097152 .i32) : Vec F S131072 .f32 :=
  Host.reduceAdd (val_main_v33 (F := F) x1 x11 x12) (val_main_cst_9 (F := F)) reducesTo_S131072x3_S131072_d1 h_S_

def val_main_v35 (x1 : Vec F S131072x3 .f32) (x11 x12 : Vec F S2097152 .i32) : Vec F S131072x1 .f32 :=
  broadcastInDim S131072x1 ![0] bcast_S131072_S131072x1_0 (val_main_v34 (F := F) x1 x11 x12)

def val_main_v36 (x2 : Vec F S131072x4 .f32) (x11 x12 : Vec F S2097152 .i32) : Vec F S131072x1 .f32 :=
  subf (val_main_v20 (F := F) x2) (val_main_v31 (F := F) x2 x11 x12)

def val_main_v37 (x2 : Vec F S131072x4 .f32) (x11 x12 : Vec F S2097152 .i32) : Vec F S131072x1 .f32 :=
  mulf (val_main_v36 (F := F) x2 x11 x12) (val_main_v36 (F := F) x2 x11 x12)

def val_main_v38 (x0 : Vec F S131072x1 .f32) : Vec F S131072x1 .f32 :=
  Host.negf (val_main_v0 (F := F) x0)

def val_main_v39 (x0 : Vec F S131072x1 .f32) : Vec F S131072x1 .f32 :=
  Host.exp (val_main_v38 (F := F) x0)

def val_main_cst_10 : Vec F S_ .f32 :=
  constant S_ .f32 0x3F000000#32

def val_main_v40 : Vec F S131072x1 .f32 :=
  broadcastInDim S131072x1 ![] bcast_S_S131072x1 (val_main_cst_10 (F := F))

def val_main_v41 (x0 : Vec F S131072x1 .f32) : Vec F S131072x1 .f32 :=
  mulf (val_main_v40 (F := F)) (val_main_v39 (F := F) x0)

def val_main_v42 (x0 : Vec F S131072x1 .f32) (x1 : Vec F S131072x3 .f32) (x11 x12 : Vec F S2097152 .i32) : Vec F S131072x1 .f32 :=
  mulf (val_main_v41 (F := F) x0) (val_main_v35 (F := F) x1 x11 x12)

def val_main_cst_11 : Vec F S_ .f32 :=
  constant S_ .f32 0x00000000#32

def val_main_v43 (x0 : Vec F S131072x1 .f32) (x1 : Vec F S131072x3 .f32) (x11 x12 : Vec F S2097152 .i32) : Vec F S_ .f32 :=
  Host.reduceAdd (val_main_v42 (F := F) x0 x1 x11 x12) (val_main_cst_11 (F := F)) reducesTo_S131072x1_S_d0_1 h_S_

def val_main_cst_12 : Vec F S_ .f32 :=
  constant S_ .f32 0x48000000#32

def val_main_v44 (x0 : Vec F S131072x1 .f32) (x1 : Vec F S131072x3 .f32) (x11 x12 : Vec F S2097152 .i32) : Vec F S_ .f32 :=
  Host.divf (val_main_v43 (F := F) x0 x1 x11 x12) (val_main_cst_12 (F := F))

def val_main_cst_13 : Vec F S_ .f32 :=
  constant S_ .f32 0x3F000000#32

def val_main_v45 : Vec F S131072x1 .f32 :=
  broadcastInDim S131072x1 ![] bcast_S_S131072x1 (val_main_cst_13 (F := F))

def val_main_v46 (x0 : Vec F S131072x1 .f32) : Vec F S131072x1 .f32 :=
  mulf (val_main_v45 (F := F)) (val_main_v39 (F := F) x0)

def val_main_v47 (x0 : Vec F S131072x1 .f32) (x2 : Vec F S131072x4 .f32) (x11 x12 : Vec F S2097152 .i32) : Vec F S131072x1 .f32 :=
  mulf (val_main_v46 (F := F) x0) (val_main_v37 (F := F) x2 x11 x12)

def val_main_cst_14 : Vec F S_ .f32 :=
  constant S_ .f32 0x00000000#32

def val_main_v48 (x0 : Vec F S131072x1 .f32) (x2 : Vec F S131072x4 .f32) (x11 x12 : Vec F S2097152 .i32) : Vec F S_ .f32 :=
  Host.reduceAdd (val_main_v47 (F := F) x0 x2 x11 x12) (val_main_cst_14 (F := F)) reducesTo_S131072x1_S_d0_1 h_S_

def val_main_cst_15 : Vec F S_ .f32 :=
  constant S_ .f32 0x48000000#32

def val_main_v49 (x0 : Vec F S131072x1 .f32) (x2 : Vec F S131072x4 .f32) (x11 x12 : Vec F S2097152 .i32) : Vec F S_ .f32 :=
  Host.divf (val_main_v48 (F := F) x0 x2 x11 x12) (val_main_cst_15 (F := F))

def val_main_cst_16 : Vec F S_ .f32 :=
  constant S_ .f32 0x3F000000#32

def val_main_v50 : Vec F S131072x1 .f32 :=
  broadcastInDim S131072x1 ![] bcast_S_S131072x1 (val_main_cst_16 (F := F))

def val_main_v51 (x0 : Vec F S131072x1 .f32) : Vec F S131072x1 .f32 :=
  mulf (val_main_v50 (F := F)) (val_main_v0 (F := F) x0)

def val_main_cst_17 : Vec F S_ .f32 :=
  constant S_ .f32 0x00000000#32

def val_main_v52 (x0 : Vec F S131072x1 .f32) : Vec F S_ .f32 :=
  Host.reduceAdd (val_main_v51 (F := F) x0) (val_main_cst_17 (F := F)) reducesTo_S131072x1_S_d0_1 h_S_

def val_main_cst_18 : Vec F S_ .f32 :=
  constant S_ .f32 0x48000000#32

def val_main_v53 (x0 : Vec F S131072x1 .f32) : Vec F S_ .f32 :=
  Host.divf (val_main_v52 (F := F) x0) (val_main_cst_18 (F := F))

def val_main_cst_19 : Vec F S_ .f32 :=
  constant S_ .f32 0x3F800000#32

def val_main_v54 (x0 : Vec F S131072x1 .f32) (x1 : Vec F S131072x3 .f32) (x11 x12 : Vec F S2097152 .i32) : Vec F S_ .f32 :=
  mulf (val_main_cst_19 (F := F)) (val_main_v44 (F := F) x0 x1 x11 x12)

def val_main_cst_20 : Vec F S_ .f32 :=
  constant S_ .f32 0x3F800000#32

def val_main_v55 (x0 : Vec F S131072x1 .f32) (x2 : Vec F S131072x4 .f32) (x11 x12 : Vec F S2097152 .i32) : Vec F S_ .f32 :=
  mulf (val_main_cst_20 (F := F)) (val_main_v49 (F := F) x0 x2 x11 x12)

def val_main_v56 (x0 : Vec F S131072x1 .f32) (x1 : Vec F S131072x3 .f32) (x2 : Vec F S131072x4 .f32) (x11 x12 : Vec F S2097152 .i32) : Vec F S_ .f32 :=
  addf (val_main_v54 (F := F) x0 x1 x11 x12) (val_main_v55 (F := F) x0 x2 x11 x12)

def val_main_v57 (x0 : Vec F S131072x1 .f32) (x1 : Vec F S131072x3 .f32) (x2 : Vec F S131072x4 .f32) (x11 x12 : Vec F S2097152 .i32) : Vec F S_ .f32 :=
  addf (val_main_v56 (F := F) x0 x1 x2 x11 x12) (val_main_v53 (F := F) x0)

def val_main_cst_21 : Vec F S_ .f32 :=
  constant S_ .f32 0x3F800000#32

def val_main_v58 (x0 : Vec F S131072x1 .f32) (x1 : Vec F S131072x3 .f32) (x2 : Vec F S131072x4 .f32) (x11 x12 : Vec F S2097152 .i32) : Vec F S_ .f32 :=
  mulf (val_main_v57 (F := F) x0 x1 x2 x11 x12) (val_main_cst_21 (F := F))

def val_main_cst_22 : Vec F S_ .f32 :=
  constant S_ .f32 0xC0FA5E96#32

def val_main_cst_23 : Vec F S_ .f32 :=
  constant S_ .f32 0x31097060#32

def val_main_call1_v0 : Vec F S_ .f32 :=
  id (val_main_cst_22 (F := F))

def val_main_call1_v1 : Vec F S32768x1 .f32 :=
  broadcastInDim S32768x1 ![] bcast_S_S32768x1 (val_main_call1_v0 (F := F))

def val_main_call1_v2 (x3 : Vec F S32768x1 .f32) : Vec F S32768x1 .f32 :=
  maximumf (val_main_call1_v1 (F := F)) x3

def val_main_call1_v3 : Vec F S_ .f32 :=
  id (val_main_cst_23 (F := F))

def val_main_call1_v4 : Vec F S32768x1 .f32 :=
  broadcastInDim S32768x1 ![] bcast_S_S32768x1 (val_main_call1_v3 (F := F))

def val_main_v59 (x3 : Vec F S32768x1 .f32) : Vec F S32768x1 .f32 :=
  minimumf (val_main_call1_v4 (F := F)) (val_main_call1_v2 (F := F) x3)

def val_main_c_24 : Vec F S_ .i32 :=
  constantI S_ 32 0#32

def val_main_v60 : Vec F S32768 .i32 :=
  broadcastInDim S32768 ![] bcast_S_S32768 (val_main_c_24 (F := F))

def val_main_v61 (x13 : Vec F S32768 .i32) : Vec F S32768 .i1 :=
  cmpi .slt x13 (val_main_v60 (F := F))

def val_main_c_25 : Vec F S_ .i32 :=
  constantI S_ 32 8#32

def val_main_v62 : Vec F S32768 .i32 :=
  broadcastInDim S32768 ![] bcast_S_S32768 (val_main_c_25 (F := F))

def val_main_v63 (x13 : Vec F S32768 .i32) : Vec F S32768 .i32 :=
  addi x13 (val_main_v62 (F := F))

def val_main_v64 (x13 : Vec F S32768 .i32) : Vec F S32768 .i32 :=
  select (val_main_v61 (F := F) x13) (val_main_v63 (F := F) x13) x13

def val_main_v65 (x13 : Vec F S32768 .i32) : Vec F S32768x1 .i32 :=
  broadcastInDim S32768x1 ![0] bcast_S32768_S32768x1_0 (val_main_v64 (F := F) x13)

def val_main_v66 (x10 : Vec F S8 .f32) (x13 : Vec F S32768 .i32) : Vec F S32768 .f32 :=
  Host.gather gather_S8_S32768x1_S32768_n_0_n_n_0_1_1 x10 (val_main_v65 (F := F) x13)

def val_main_cst_26 : Vec F S_ .f32 :=
  constant S_ .f32 0x3C23D70A#32

def val_main_call2_v0 : Vec F S_ .f32 :=
  id (val_main_cst_26 (F := F))

def val_main_call2_v1 : Vec F S32768 .f32 :=
  broadcastInDim S32768 ![] bcast_S_S32768 (val_main_call2_v0 (F := F))

def val_main_v67 (x10 : Vec F S8 .f32) (x13 : Vec F S32768 .i32) : Vec F S32768 .f32 :=
  maximumf (val_main_call2_v1 (F := F)) (val_main_v66 (F := F) x10 x13)

def val_main_v68 (x10 : Vec F S8 .f32) (x13 : Vec F S32768 .i32) : Vec F S32768x1 .f32 :=
  broadcastInDim S32768x1 ![0] bcast_S32768_S32768x1_0 (val_main_v67 (F := F) x10 x13)

def val_main_c_27 : Vec F S_ .i32 :=
  constantI S_ 32 0#32

def val_main_v69 : Vec F S32768 .i32 :=
  broadcastInDim S32768 ![] bcast_S_S32768 (val_main_c_27 (F := F))

def val_main_v70 (x15 : Vec F S32768 .i32) : Vec F S32768 .i1 :=
  cmpi .slt x15 (val_main_v69 (F := F))

def val_main_c_28 : Vec F S_ .i32 :=
  constantI S_ 32 32768#32

def val_main_v71 : Vec F S32768 .i32 :=
  broadcastInDim S32768 ![] bcast_S_S32768 (val_main_c_28 (F := F))

def val_main_v72 (x15 : Vec F S32768 .i32) : Vec F S32768 .i32 :=
  addi x15 (val_main_v71 (F := F))

def val_main_v73 (x15 : Vec F S32768 .i32) : Vec F S32768 .i32 :=
  select (val_main_v70 (F := F) x15) (val_main_v72 (F := F) x15) x15

def val_main_v74 (x15 : Vec F S32768 .i32) : Vec F S32768x1 .i32 :=
  broadcastInDim S32768x1 ![0] bcast_S32768_S32768x1_0 (val_main_v73 (F := F) x15)

def val_main_v75 (x4 : Vec F S32768x3 .f32) (x15 : Vec F S32768 .i32) : Vec F S32768x3 .f32 :=
  Host.gather gather_S32768x3_S32768x1_S32768x3_1_0_n_n_0_1_13 x4 (val_main_v74 (F := F) x15)

def val_main_c_29 : Vec F S_ .i32 :=
  constantI S_ 32 0#32

def val_main_v76 : Vec F S32768 .i32 :=
  broadcastInDim S32768 ![] bcast_S_S32768 (val_main_c_29 (F := F))

def val_main_v77 (x14 : Vec F S32768 .i32) : Vec F S32768 .i1 :=
  cmpi .slt x14 (val_main_v76 (F := F))

def val_main_c_30 : Vec F S_ .i32 :=
  constantI S_ 32 32768#32

def val_main_v78 : Vec F S32768 .i32 :=
  broadcastInDim S32768 ![] bcast_S_S32768 (val_main_c_30 (F := F))

def val_main_v79 (x14 : Vec F S32768 .i32) : Vec F S32768 .i32 :=
  addi x14 (val_main_v78 (F := F))

def val_main_v80 (x14 : Vec F S32768 .i32) : Vec F S32768 .i32 :=
  select (val_main_v77 (F := F) x14) (val_main_v79 (F := F) x14) x14

def val_main_v81 (x14 : Vec F S32768 .i32) : Vec F S32768x1 .i32 :=
  broadcastInDim S32768x1 ![0] bcast_S32768_S32768x1_0 (val_main_v80 (F := F) x14)

def val_main_v82 (x4 : Vec F S32768x3 .f32) (x14 : Vec F S32768 .i32) : Vec F S32768x3 .f32 :=
  Host.gather gather_S32768x3_S32768x1_S32768x3_1_0_n_n_0_1_13 x4 (val_main_v81 (F := F) x14)

def val_main_v83 (x4 : Vec F S32768x3 .f32) (x14 x15 : Vec F S32768 .i32) : Vec F S32768x3 .f32 :=
  subf (val_main_v75 (F := F) x4 x15) (val_main_v82 (F := F) x4 x14)

def val_main_call3_v0 (x4 : Vec F S32768x3 .f32) (x14 x15 : Vec F S32768 .i32) : Vec F S32768x3 .f32 :=
  mulf (val_main_v83 (F := F) x4 x14 x15) (val_main_v83 (F := F) x4 x14 x15)

def val_main_call3_cst : Vec F S_ .f32 :=
  constant S_ .f32 0x00000000#32

def val_main_call3_v1 (x4 : Vec F S32768x3 .f32) (x14 x15 : Vec F S32768 .i32) : Vec F S32768 .f32 :=
  Host.reduceAdd (val_main_call3_v0 (F := F) x4 x14 x15) (val_main_call3_cst (F := F)) reducesTo_S32768x3_S32768_d1 h_S_

def val_main_call3_v2 (x4 : Vec F S32768x3 .f32) (x14 x15 : Vec F S32768 .i32) : Vec F S32768x1 .f32 :=
  broadcastInDim S32768x1 ![0] bcast_S32768_S32768x1_0 (val_main_call3_v1 (F := F) x4 x14 x15)

def val_main_v84 (x4 : Vec F S32768x3 .f32) (x14 x15 : Vec F S32768 .i32) : Vec F S32768x1 .f32 :=
  Host.sqrt (val_main_call3_v2 (F := F) x4 x14 x15)

def val_main_cst_31 : Vec F S_ .f32 :=
  constant S_ .f32 0x3089705F#32

def val_main_v85 : Vec F S32768x1 .f32 :=
  broadcastInDim S32768x1 ![] bcast_S_S32768x1 (val_main_cst_31 (F := F))

def val_main_v86 (x4 : Vec F S32768x3 .f32) (x14 x15 : Vec F S32768 .i32) : Vec F S32768x1 .f32 :=
  addf (val_main_v84 (F := F) x4 x14 x15) (val_main_v85 (F := F))

def val_main_v87 (x4 : Vec F S32768x3 .f32) (x14 x15 : Vec F S32768 .i32) : Vec F S32768x3 .f32 :=
  broadcastInDim S32768x3 ![0, 1] bcast_S32768x1_S32768x3_0_1 (val_main_v86 (F := F) x4 x14 x15)

def val_main_v88 (x4 : Vec F S32768x3 .f32) (x14 x15 : Vec F S32768 .i32) : Vec F S32768x3 .f32 :=
  Host.divf (val_main_v83 (F := F) x4 x14 x15) (val_main_v87 (F := F) x4 x14 x15)

def val_main_c_32 : Vec F S_ .i32 :=
  constantI S_ 32 0#32

def val_main_v89 : Vec F S32768 .i32 :=
  broadcastInDim S32768 ![] bcast_S_S32768 (val_main_c_32 (F := F))

def val_main_v90 (x14 : Vec F S32768 .i32) : Vec F S32768 .i1 :=
  cmpi .slt x14 (val_main_v89 (F := F))

def val_main_c_33 : Vec F S_ .i32 :=
  constantI S_ 32 32768#32

def val_main_v91 : Vec F S32768 .i32 :=
  broadcastInDim S32768 ![] bcast_S_S32768 (val_main_c_33 (F := F))

def val_main_v92 (x14 : Vec F S32768 .i32) : Vec F S32768 .i32 :=
  addi x14 (val_main_v91 (F := F))

def val_main_v93 (x14 : Vec F S32768 .i32) : Vec F S32768 .i32 :=
  select (val_main_v90 (F := F) x14) (val_main_v92 (F := F) x14) x14

def val_main_v94 (x14 : Vec F S32768 .i32) : Vec F S32768x1 .i32 :=
  broadcastInDim S32768x1 ![0] bcast_S32768_S32768x1_0 (val_main_v93 (F := F) x14)

def val_main_c_34 : Vec F S_ .i32 :=
  constantI S_ 32 2#32

def val_main_v95 : Vec F S32768x1 .i32 :=
  broadcastInDim S32768x1 ![] bcast_S_S32768x1 (val_main_c_34 (F := F))

def val_main_v96 (x14 : Vec F S32768 .i32) : Vec F S32768x2 .i32 :=
  concatenate S32768x2 1 [⟨S32768x1, (val_main_v94 (F := F) x14)⟩, ⟨S32768x1, (val_main_v95 (F := F))⟩] concatenates_S32768x1_S32768x1_S32768x2_d1

def val_main_v97 (x5 : Vec F S32768x4 .f32) (x14 : Vec F S32768 .i32) : Vec F S32768x1 .f32 :=
  Host.gather gather_S32768x4_S32768x2_S32768x1_1_0_n_n_01_1_11 x5 (val_main_v96 (F := F) x14)

def val_main_v98 (x5 : Vec F S32768x4 .f32) (x14 : Vec F S32768 .i32) : Vec F S32768x1 .f32 :=
  Host.absf (val_main_v97 (F := F) x5 x14)

def val_main_c_35 : Vec F S_ .i32 :=
  constantI S_ 32 0#32

def val_main_v99 : Vec F S32768 .i32 :=
  broadcastInDim S32768 ![] bcast_S_S32768 (val_main_c_35 (F := F))

def val_main_v100 (x14 : Vec F S32768 .i32) : Vec F S32768 .i1 :=
  cmpi .slt x14 (val_main_v99 (F := F))

def val_main_c_36 : Vec F S_ .i32 :=
  constantI S_ 32 32768#32

def val_main_v101 : Vec F S32768 .i32 :=
  broadcastInDim S32768 ![] bcast_S_S32768 (val_main_c_36 (F := F))

def val_main_v102 (x14 : Vec F S32768 .i32) : Vec F S32768 .i32 :=
  addi x14 (val_main_v101 (F := F))

def val_main_v103 (x14 : Vec F S32768 .i32) : Vec F S32768 .i32 :=
  select (val_main_v100 (F := F) x14) (val_main_v102 (F := F) x14) x14

def val_main_v104 (x14 : Vec F S32768 .i32) : Vec F S32768x1 .i32 :=
  broadcastInDim S32768x1 ![0] bcast_S32768_S32768x1_0 (val_main_v103 (F := F) x14)

def val_main_v105 (x4 : Vec F S32768x3 .f32) (x14 : Vec F S32768 .i32) : Vec F S32768x3 .f32 :=
  Host.gather gather_S32768x3_S32768x1_S32768x3_1_0_n_n_0_1_13 x4 (val_main_v104 (F := F) x14)

def val_main_v106 (x5 : Vec F S32768x4 .f32) (x14 : Vec F S32768 .i32) : Vec F S32768x3 .f32 :=
  broadcastInDim S32768x3 ![0, 1] bcast_S32768x1_S32768x3_0_1 (val_main_v98 (F := F) x5 x14)

def val_main_v107 (x4 : Vec F S32768x3 .f32) (x5 : Vec F S32768x4 .f32) (x14 x15 : Vec F S32768 .i32) : Vec F S32768x3 .f32 :=
  mulf (val_main_v106 (F := F) x5 x14) (val_main_v88 (F := F) x4 x14 x15)

def val_main_c_37 : Vec F S_ .i32 :=
  constantI S_ 32 0#32

def val_main_v108 : Vec F S32768 .i32 :=
  broadcastInDim S32768 ![] bcast_S_S32768 (val_main_c_37 (F := F))

def val_main_v109 (x14 : Vec F S32768 .i32) : Vec F S32768 .i1 :=
  cmpi .slt x14 (val_main_v108 (F := F))

def val_main_c_38 : Vec F S_ .i32 :=
  constantI S_ 32 32768#32

def val_main_v110 : Vec F S32768 .i32 :=
  broadcastInDim S32768 ![] bcast_S_S32768 (val_main_c_38 (F := F))

def val_main_v111 (x14 : Vec F S32768 .i32) : Vec F S32768 .i32 :=
  addi x14 (val_main_v110 (F := F))

def val_main_v112 (x14 : Vec F S32768 .i32) : Vec F S32768 .i32 :=
  select (val_main_v109 (F := F) x14) (val_main_v111 (F := F) x14) x14

def val_main_v113 (x14 : Vec F S32768 .i32) : Vec F S32768x1 .i32 :=
  broadcastInDim S32768x1 ![0] bcast_S32768_S32768x1_0 (val_main_v112 (F := F) x14)

def val_main_v114 (x10 : Vec F S8 .f32) (x13 x14 : Vec F S32768 .i32) : Vec F S32768x1 .f32 :=
  Host.gather gather_S32768x1_S32768x1_S32768x1_1_0_n_n_0_1_11 (val_main_v68 (F := F) x10 x13) (val_main_v113 (F := F) x14)

def val_main_v115 (x10 : Vec F S8 .f32) (x13 x14 : Vec F S32768 .i32) : Vec F S32768x3 .f32 :=
  broadcastInDim S32768x3 ![0, 1] bcast_S32768x1_S32768x3_0_1 (val_main_v114 (F := F) x10 x13 x14)

def val_main_v116 (x4 : Vec F S32768x3 .f32) (x5 : Vec F S32768x4 .f32) (x10 : Vec F S8 .f32) (x13 x14 x15 : Vec F S32768 .i32) : Vec F S32768x3 .f32 :=
  mulf (val_main_v107 (F := F) x4 x5 x14 x15) (val_main_v115 (F := F) x10 x13 x14)

def val_main_v117 (x4 : Vec F S32768x3 .f32) (x5 : Vec F S32768x4 .f32) (x10 : Vec F S8 .f32) (x13 x14 x15 : Vec F S32768 .i32) : Vec F S32768x3 .f32 :=
  addf (val_main_v105 (F := F) x4 x14) (val_main_v116 (F := F) x4 x5 x10 x13 x14 x15)

def val_main_v118 (x4 : Vec F S32768x3 .f32) (x5 : Vec F S32768x4 .f32) (x10 : Vec F S8 .f32) (x13 x14 x15 : Vec F S32768 .i32) : Vec F S32768x3 .f32 :=
  mulf (val_main_v117 (F := F) x4 x5 x10 x13 x14 x15) (val_main_v117 (F := F) x4 x5 x10 x13 x14 x15)

def val_main_cst_39 : Vec F S_ .f32 :=
  constant S_ .f32 0x00000000#32

def val_main_v119 (x4 : Vec F S32768x3 .f32) (x5 : Vec F S32768x4 .f32) (x10 : Vec F S8 .f32) (x13 x14 x15 : Vec F S32768 .i32) : Vec F S32768 .f32 :=
  Host.reduceAdd (val_main_v118 (F := F) x4 x5 x10 x13 x14 x15) (val_main_cst_39 (F := F)) reducesTo_S32768x3_S32768_d1 h_S_

def val_main_v120 (x9 : Vec F S2048x3 .f32) : Vec F S2048x3 .f32 :=
  mulf x9 x9

def val_main_cst_40 : Vec F S_ .f32 :=
  constant S_ .f32 0x00000000#32

def val_main_v121 (x9 : Vec F S2048x3 .f32) : Vec F S2048 .f32 :=
  Host.reduceAdd (val_main_v120 (F := F) x9) (val_main_cst_40 (F := F)) reducesTo_S2048x3_S2048_d1 h_S_

def val_main_v122 (x4 : Vec F S32768x3 .f32) (x5 : Vec F S32768x4 .f32) (x10 : Vec F S8 .f32) (x13 x14 x15 : Vec F S32768 .i32) : Vec F S32768x1 .f32 :=
  broadcastInDim S32768x1 ![0] bcast_S32768_S32768x1_0 (val_main_v119 (F := F) x4 x5 x10 x13 x14 x15)

def val_main_v123 (x9 : Vec F S2048x3 .f32) : Vec F S1x2048 .f32 :=
  broadcastInDim S1x2048 ![1] bcast_S2048_S1x2048_1 (val_main_v121 (F := F) x9)

def val_main_v124 (x4 : Vec F S32768x3 .f32) (x5 : Vec F S32768x4 .f32) (x10 : Vec F S8 .f32) (x13 x14 x15 : Vec F S32768 .i32) : Vec F S32768x2048 .f32 :=
  broadcastInDim S32768x2048 ![0, 1] bcast_S32768x1_S32768x2048_0_1 (val_main_v122 (F := F) x4 x5 x10 x13 x14 x15)

def val_main_v125 (x9 : Vec F S2048x3 .f32) : Vec F S32768x2048 .f32 :=
  broadcastInDim S32768x2048 ![0, 1] bcast_S1x2048_S32768x2048_0_1 (val_main_v123 (F := F) x9)

def val_main_v126 (x4 : Vec F S32768x3 .f32) (x5 : Vec F S32768x4 .f32) (x9 : Vec F S2048x3 .f32) (x10 : Vec F S8 .f32) (x13 x14 x15 : Vec F S32768 .i32) : Vec F S32768x2048 .f32 :=
  addf (val_main_v124 (F := F) x4 x5 x10 x13 x14 x15) (val_main_v125 (F := F) x9)

def val_main_cst_41 : Vec F S_ .f32 :=
  constant S_ .f32 0x40000000#32

def val_main_v127 : Vec F S32768x3 .f32 :=
  broadcastInDim S32768x3 ![] bcast_S_S32768x3 (val_main_cst_41 (F := F))

def val_main_v128 (x4 : Vec F S32768x3 .f32) (x5 : Vec F S32768x4 .f32) (x10 : Vec F S8 .f32) (x13 x14 x15 : Vec F S32768 .i32) : Vec F S32768x3 .f32 :=
  mulf (val_main_v127 (F := F)) (val_main_v117 (F := F) x4 x5 x10 x13 x14 x15)

def val_main_v129 (x9 : Vec F S2048x3 .f32) : Vec F S3x2048 .f32 :=
  transpose S3x2048 [1, 0] x9 transposes_S2048x3_S3x2048_1_0

def val_main_v130 (x4 : Vec F S32768x3 .f32) (x5 : Vec F S32768x4 .f32) (x9 : Vec F S2048x3 .f32) (x10 : Vec F S8 .f32) (x13 x14 x15 : Vec F S32768 .i32) : Vec F S32768x2048 .f32 :=
  Host.dotGeneral dot_S32768x3_S3x2048_S32768x2048_1_0_0_1_n_n none (val_main_v128 (F := F) x4 x5 x10 x13 x14 x15) (val_main_v129 (F := F) x9)

def val_main_v131 (x4 : Vec F S32768x3 .f32) (x5 : Vec F S32768x4 .f32) (x9 : Vec F S2048x3 .f32) (x10 : Vec F S8 .f32) (x13 x14 x15 : Vec F S32768 .i32) : Vec F S32768x2048 .f32 :=
  subf (val_main_v126 (F := F) x4 x5 x9 x10 x13 x14 x15) (val_main_v130 (F := F) x4 x5 x9 x10 x13 x14 x15)

def val_main_cst_42 : Vec F S_ .f32 :=
  constant S_ .f32 0x00000000#32

def val_main_v132 : Vec F S32768x2048 .f32 :=
  broadcastInDim S32768x2048 ![] bcast_S_S32768x2048 (val_main_cst_42 (F := F))

def val_main_v133 (x4 : Vec F S32768x3 .f32) (x5 : Vec F S32768x4 .f32) (x9 : Vec F S2048x3 .f32) (x10 : Vec F S8 .f32) (x13 x14 x15 : Vec F S32768 .i32) : Vec F S32768x2048 .f32 :=
  maximumf (val_main_v131 (F := F) x4 x5 x9 x10 x13 x14 x15) (val_main_v132 (F := F))

def val_main_cst_43 : Vec F S_ .f32 :=
  constant S_ .f32 0x7F800000#32

def val_main_v134 (x4 : Vec F S32768x3 .f32) (x5 : Vec F S32768x4 .f32) (x9 : Vec F S2048x3 .f32) (x10 : Vec F S8 .f32) (x13 x14 x15 : Vec F S32768 .i32) : Vec F S32768 .f32 :=
  Host.reduce FloatOps.minimumf (val_main_v133 (F := F) x4 x5 x9 x10 x13 x14 x15) (val_main_cst_43 (F := F)) reducesTo_S32768x2048_S32768_d1 h_S_

def val_main_v135 (x4 : Vec F S32768x3 .f32) (x5 : Vec F S32768x4 .f32) (x9 : Vec F S2048x3 .f32) (x10 : Vec F S8 .f32) (x13 x14 x15 : Vec F S32768 .i32) : Vec F S32768x1 .f32 :=
  broadcastInDim S32768x1 ![0] bcast_S32768_S32768x1_0 (val_main_v134 (F := F) x4 x5 x9 x10 x13 x14 x15)

def val_main_cst_44 : Vec F S_ .f32 :=
  constant S_ .f32 0x00000000#32

def val_main_v136 : Vec F S32768x1 .f32 :=
  broadcastInDim S32768x1 ![] bcast_S_S32768x1 (val_main_cst_44 (F := F))

def val_main_c_45 : Vec F S_ .i32 :=
  constantI S_ 32 0#32

def val_main_v137 : Vec F S32768 .i32 :=
  broadcastInDim S32768 ![] bcast_S_S32768 (val_main_c_45 (F := F))

def val_main_v138 (x14 : Vec F S32768 .i32) : Vec F S32768 .i1 :=
  cmpi .slt x14 (val_main_v137 (F := F))

def val_main_c_46 : Vec F S_ .i32 :=
  constantI S_ 32 32768#32

def val_main_v139 : Vec F S32768 .i32 :=
  broadcastInDim S32768 ![] bcast_S_S32768 (val_main_c_46 (F := F))

def val_main_v140 (x14 : Vec F S32768 .i32) : Vec F S32768 .i32 :=
  addi x14 (val_main_v139 (F := F))

def val_main_v141 (x14 : Vec F S32768 .i32) : Vec F S32768 .i32 :=
  select (val_main_v138 (F := F) x14) (val_main_v140 (F := F) x14) x14

def val_main_v142 (x14 : Vec F S32768 .i32) : Vec F S32768x1 .i32 :=
  broadcastInDim S32768x1 ![0] bcast_S32768_S32768x1_0 (val_main_v141 (F := F) x14)

def val_main_v143 (x4 : Vec F S32768x3 .f32) (x5 : Vec F S32768x4 .f32) (x9 : Vec F S2048x3 .f32) (x10 : Vec F S8 .f32) (x13 x14 x15 : Vec F S32768 .i32) : Vec F S32768x1 .f32 :=
  Host.scatter scatter_S32768x1_S32768x1_S32768x1_1_0_0_1 (fun _ b => b) (val_main_v136 (F := F)) (val_main_v142 (F := F) x14) (val_main_v135 (F := F) x4 x5 x9 x10 x13 x14 x15)

def val_main_c_47 : Vec F S_ .i32 :=
  constantI S_ 32 0#32

def val_main_v144 : Vec F S262144 .i32 :=
  broadcastInDim S262144 ![] bcast_S_S262144 (val_main_c_47 (F := F))

def val_main_v145 (x16 : Vec F S262144 .i32) : Vec F S262144 .i1 :=
  cmpi .slt x16 (val_main_v144 (F := F))

def val_main_c_48 : Vec F S_ .i32 :=
  constantI S_ 32 32768#32

def val_main_v146 : Vec F S262144 .i32 :=
  broadcastInDim S262144 ![] bcast_S_S262144 (val_main_c_48 (F := F))

def val_main_v147 (x16 : Vec F S262144 .i32) : Vec F S262144 .i32 :=
  addi x16 (val_main_v146 (F := F))

def val_main_v148 (x16 : Vec F S262144 .i32) : Vec F S262144 .i32 :=
  select (val_main_v145 (F := F) x16) (val_main_v147 (F := F) x16) x16

def val_main_v149 (x16 : Vec F S262144 .i32) : Vec F S262144x1 .i32 :=
  broadcastInDim S262144x1 ![0] bcast_S262144_S262144x1_0 (val_main_v148 (F := F) x16)

def val_main_v150 (x4 : Vec F S32768x3 .f32) (x16 : Vec F S262144 .i32) : Vec F S262144x3 .f32 :=
  Host.gather gather_S32768x3_S262144x1_S262144x3_1_0_n_n_0_1_13 x4 (val_main_v149 (F := F) x16)

def val_main_c_49 : Vec F S_ .i32 :=
  constantI S_ 32 0#32

def val_main_v151 : Vec F S262144 .i32 :=
  broadcastInDim S262144 ![] bcast_S_S262144 (val_main_c_49 (F := F))

def val_main_v152 (x17 : Vec F S262144 .i32) : Vec F S262144 .i1 :=
  cmpi .slt x17 (val_main_v151 (F := F))

def val_main_c_50 : Vec F S_ .i32 :=
  constantI S_ 32 131072#32

def val_main_v153 : Vec F S262144 .i32 :=
  broadcastInDim S262144 ![] bcast_S_S262144 (val_main_c_50 (F := F))

def val_main_v154 (x17 : Vec F S262144 .i32) : Vec F S262144 .i32 :=
  addi x17 (val_main_v153 (F := F))

def val_main_v155 (x17 : Vec F S262144 .i32) : Vec F S262144 .i32 :=
  select (val_main_v152 (F := F) x17) (val_main_v154 (F := F) x17) x17

def val_main_v156 (x17 : Vec F S262144 .i32) : Vec F S262144x1 .i32 :=
  broadcastInDim S262144x1 ![0] bcast_S262144_S262144x1_0 (val_main_v155 (F := F) x17)

def val_main_v157 (x1 : Vec F S131072x3 .f32) (x17 : Vec F S262144 .i32) : Vec F S262144x3 .f32 :=
  Host.gather gather_S131072x3_S262144x1_S262144x3_1_0_n_n_0_1_13 x1 (val_main_v156 (F := F) x17)

def val_main_v158 (x1 : Vec F S131072x3 .f32) (x4 : Vec F S32768x3 .f32) (x16 x17 : Vec F S262144 .i32) : Vec F S262144x3 .f32 :=
  subf (val_main_v150 (F := F) x4 x16) (val_main_v157 (F := F) x1 x17)

def val_main_v159 (x1 : Vec F S131072x3 .f32) (x4 : Vec F S32768x3 .f32) (x16 x17 : Vec F S262144 .i32) : Vec F S262144x3 .f32 :=
  mulf (val_main_v158 (F := F) x1 x4 x16 x17) (val_main_v158 (F := F) x1 x4 x16 x17)

def val_main_cst_51 : Vec F S_ .f32 :=
  constant S_ .f32 0x00000000#32

def val_main_v160 (x1 : Vec F S131072x3 .f32) (x4 : Vec F S32768x3 .f32) (x16 x17 : Vec F S262144 .i32) : Vec F S262144 .f32 :=
  Host.reduceAdd (val_main_v159 (F := F) x1 x4 x16 x17) (val_main_cst_51 (F := F)) reducesTo_S262144x3_S262144_d1 h_S_

def val_main_cst_52 : Vec F S_ .f32 :=
  constant S_ .f32 0x00000000#32

def val_main_v161 : Vec F S32768 .f32 :=
  broadcastInDim S32768 ![] bcast_S_S32768 (val_main_cst_52 (F := F))

def val_main_v162 (x16 : Vec F S262144 .i32) : Vec F S262144x1 .i32 :=
  broadcastInDim S262144x1 ![0] bcast_S262144_S262144x1_0 x16

def val_main_v163 (x1 : Vec F S131072x3 .f32) (x4 : Vec F S32768x3 .f32) (x16 x17 : Vec F S262144 .i32) : Vec F S32768 .f32 :=
  Host.scatterAdd scatter_S32768_S262144x1_S262144_n_0_0_1 (val_main_v161 (F := F)) (val_main_v162 (F := F) x16) (val_main_v160 (F := F) x1 x4 x16 x17)

def val_main_cst_53 : Vec F S_ .f32 :=
  constant S_ .f32 0x3F800000#32

def val_main_v164 : Vec F S262144 .f32 :=
  broadcastInDim S262144 ![] bcast_S_S262144 (val_main_cst_53 (F := F))

def val_main_cst_54 : Vec F S_ .f32 :=
  constant S_ .f32 0x00000000#32

def val_main_v165 : Vec F S32768 .f32 :=
  broadcastInDim S32768 ![] bcast_S_S32768 (val_main_cst_54 (F := F))

def val_main_v166 (x16 : Vec F S262144 .i32) : Vec F S262144x1 .i32 :=
  broadcastInDim S262144x1 ![0] bcast_S262144_S262144x1_0 x16

def val_main_v167 (x16 : Vec F S262144 .i32) : Vec F S32768 .f32 :=
  Host.scatterAdd scatter_S32768_S262144x1_S262144_n_0_0_1 (val_main_v165 (F := F)) (val_main_v166 (F := F) x16) (val_main_v164 (F := F))

def val_main_cst_55 : Vec F S_ .f32 :=
  constant S_ .f32 0x00000000#32

def val_main_v168 : Vec F S32768 .f32 :=
  broadcastInDim S32768 ![] bcast_S_S32768 (val_main_cst_55 (F := F))

def val_main_v169 (x16 : Vec F S262144 .i32) : Vec F S32768 .i1 :=
  cmpf .ogt (val_main_v167 (F := F) x16) (val_main_v168 (F := F))

def val_main_cst_56 : Vec F S_ .f32 :=
  constant S_ .f32 0x3F800000#32

def val_main_v170 : Vec F S32768 .f32 :=
  broadcastInDim S32768 ![] bcast_S_S32768 (val_main_cst_56 (F := F))

def val_main_v171 (x16 : Vec F S262144 .i32) : Vec F S32768 .f32 :=
  maximumf (val_main_v167 (F := F) x16) (val_main_v170 (F := F))

def val_main_v172 (x16 : Vec F S262144 .i32) : Vec F S32768 .f32 :=
  mulf (val_main_v171 (F := F) x16) (val_main_v171 (F := F) x16)

def val_main_v173 (x1 : Vec F S131072x3 .f32) (x4 : Vec F S32768x3 .f32) (x16 x17 : Vec F S262144 .i32) : Vec F S32768 .f32 :=
  Host.divf (val_main_v163 (F := F) x1 x4 x16 x17) (val_main_v172 (F := F) x16)

def val_main_cst_57 : Vec F S_ .f32 :=
  constant S_ .f32 0x3B6BEDFA#32

def val_main_call4_v0 : Vec F S_ .f32 :=
  id (val_main_cst_57 (F := F))

def val_main_call4_v1 : Vec F S32768 .f32 :=
  broadcastInDim S32768 ![] bcast_S_S32768 (val_main_call4_v0 (F := F))

def val_main_v174 (x1 : Vec F S131072x3 .f32) (x4 : Vec F S32768x3 .f32) (x16 x17 : Vec F S262144 .i32) : Vec F S32768 .f32 :=
  select (val_main_v169 (F := F) x16) (val_main_v173 (F := F) x1 x4 x16 x17) (val_main_call4_v1 (F := F))

def val_main_v175 (x1 : Vec F S131072x3 .f32) (x4 : Vec F S32768x3 .f32) (x16 x17 : Vec F S262144 .i32) : Vec F S32768x1 .f32 :=
  broadcastInDim S32768x1 ![0] bcast_S32768_S32768x1_0 (val_main_v174 (F := F) x1 x4 x16 x17)

def val_main_v176 (x3 : Vec F S32768x1 .f32) : Vec F S32768x1 .f32 :=
  Host.exp (val_main_v59 (F := F) x3)

def val_main_cst_58 : Vec F S_ .f32 :=
  constant S_ .f32 0x40000000#32

def val_main_v177 : Vec F S32768x1 .f32 :=
  broadcastInDim S32768x1 ![] bcast_S_S32768x1 (val_main_cst_58 (F := F))

def val_main_v178 (x3 : Vec F S32768x1 .f32) : Vec F S32768x1 .f32 :=
  mulf (val_main_v177 (F := F)) (val_main_v176 (F := F) x3)

def val_main_v179 (x10 : Vec F S8 .f32) (x13 : Vec F S32768 .i32) : Vec F S32768x1 .f32 :=
  mulf (val_main_v68 (F := F) x10 x13) (val_main_v68 (F := F) x10 x13)

def val_main_v180 (x3 : Vec F S32768x1 .f32) (x10 : Vec F S8 .f32) (x13 : Vec F S32768 .i32) : Vec F S32768x1 .f32 :=
  mulf (val_main_v178 (F := F) x3) (val_main_v179 (F := F) x10 x13)

def val_main_cst_59 : Vec F S_ .f32 :=
  constant S_ .f32 0x3089705F#32

def val_main_v181 : Vec F S32768x1 .f32 :=
  broadcastInDim S32768x1 ![] bcast_S_S32768x1 (val_main_cst_59 (F := F))

def val_main_v182 (x3 : Vec F S32768x1 .f32) (x10 : Vec F S8 .f32) (x13 : Vec F S32768 .i32) : Vec F S32768x1 .f32 :=
  addf (val_main_v180 (F := F) x3 x10 x13) (val_main_v181 (F := F))

def val_main_v183 (x3 : Vec F S32768x1 .f32) (x4 : Vec F S32768x3 .f32) (x5 : Vec F S32768x4 .f32) (x9 : Vec F S2048x3 .f32) (x10 : Vec F S8 .f32) (x13 x14 x15 : Vec F S32768 .i32) : Vec F S32768x1 .f32 :=
  Host.divf (val_main_v143 (F := F) x4 x5 x9 x10 x13 x14 x15) (val_main_v182 (F := F) x3 x10 x13)

def val_main_cst_60 : Vec F S_ .f32 :=
  constant S_ .f32 0x00000000#32

def val_main_v184 (x3 : Vec F S32768x1 .f32) (x4 : Vec F S32768x3 .f32) (x5 : Vec F S32768x4 .f32) (x9 : Vec F S2048x3 .f32) (x10 : Vec F S8 .f32) (x13 x14 x15 : Vec F S32768 .i32) : Vec F S_ .f32 :=
  Host.reduceAdd (val_main_v183 (F := F) x3 x4 x5 x9 x10 x13 x14 x15) (val_main_cst_60 (F := F)) reducesTo_S32768x1_S_d0_1 h_S_

def val_main_cst_61 : Vec F S_ .f32 :=
  constant S_ .f32 0x47000000#32

def val_main_v185 (x3 : Vec F S32768x1 .f32) (x4 : Vec F S32768x3 .f32) (x5 : Vec F S32768x4 .f32) (x9 : Vec F S2048x3 .f32) (x10 : Vec F S8 .f32) (x13 x14 x15 : Vec F S32768 .i32) : Vec F S_ .f32 :=
  Host.divf (val_main_v184 (F := F) x3 x4 x5 x9 x10 x13 x14 x15) (val_main_cst_61 (F := F))

def val_main_v186 (x1 : Vec F S131072x3 .f32) (x3 : Vec F S32768x1 .f32) (x4 : Vec F S32768x3 .f32) (x10 : Vec F S8 .f32) (x13 : Vec F S32768 .i32) (x16 x17 : Vec F S262144 .i32) : Vec F S32768x1 .f32 :=
  Host.divf (val_main_v175 (F := F) x1 x4 x16 x17) (val_main_v182 (F := F) x3 x10 x13)

def val_main_cst_62 : Vec F S_ .f32 :=
  constant S_ .f32 0x00000000#32

def val_main_v187 (x1 : Vec F S131072x3 .f32) (x3 : Vec F S32768x1 .f32) (x4 : Vec F S32768x3 .f32) (x10 : Vec F S8 .f32) (x13 : Vec F S32768 .i32) (x16 x17 : Vec F S262144 .i32) : Vec F S_ .f32 :=
  Host.reduceAdd (val_main_v186 (F := F) x1 x3 x4 x10 x13 x16 x17) (val_main_cst_62 (F := F)) reducesTo_S32768x1_S_d0_1 h_S_

def val_main_cst_63 : Vec F S_ .f32 :=
  constant S_ .f32 0x47000000#32

def val_main_v188 (x1 : Vec F S131072x3 .f32) (x3 : Vec F S32768x1 .f32) (x4 : Vec F S32768x3 .f32) (x10 : Vec F S8 .f32) (x13 : Vec F S32768 .i32) (x16 x17 : Vec F S262144 .i32) : Vec F S_ .f32 :=
  Host.divf (val_main_v187 (F := F) x1 x3 x4 x10 x13 x16 x17) (val_main_cst_63 (F := F))

def val_main_cst_64 : Vec F S_ .f32 :=
  constant S_ .f32 0x3F000000#32

def val_main_v189 : Vec F S32768x1 .f32 :=
  broadcastInDim S32768x1 ![] bcast_S_S32768x1 (val_main_cst_64 (F := F))

def val_main_v190 (x3 : Vec F S32768x1 .f32) : Vec F S32768x1 .f32 :=
  mulf (val_main_v189 (F := F)) (val_main_v59 (F := F) x3)

def val_main_cst_65 : Vec F S_ .f32 :=
  constant S_ .f32 0x00000000#32

def val_main_v191 (x3 : Vec F S32768x1 .f32) : Vec F S_ .f32 :=
  Host.reduceAdd (val_main_v190 (F := F) x3) (val_main_cst_65 (F := F)) reducesTo_S32768x1_S_d0_1 h_S_

def val_main_cst_66 : Vec F S_ .f32 :=
  constant S_ .f32 0x47000000#32

def val_main_v192 (x3 : Vec F S32768x1 .f32) : Vec F S_ .f32 :=
  Host.divf (val_main_v191 (F := F) x3) (val_main_cst_66 (F := F))

def val_main_cst_67 : Vec F S_ .f32 :=
  constant S_ .f32 0x3F800000#32

def val_main_v193 (x3 : Vec F S32768x1 .f32) (x4 : Vec F S32768x3 .f32) (x5 : Vec F S32768x4 .f32) (x9 : Vec F S2048x3 .f32) (x10 : Vec F S8 .f32) (x13 x14 x15 : Vec F S32768 .i32) : Vec F S_ .f32 :=
  mulf (val_main_cst_67 (F := F)) (val_main_v185 (F := F) x3 x4 x5 x9 x10 x13 x14 x15)

def val_main_cst_68 : Vec F S_ .f32 :=
  constant S_ .f32 0x3F800000#32

def val_main_v194 (x1 : Vec F S131072x3 .f32) (x3 : Vec F S32768x1 .f32) (x4 : Vec F S32768x3 .f32) (x10 : Vec F S8 .f32) (x13 : Vec F S32768 .i32) (x16 x17 : Vec F S262144 .i32) : Vec F S_ .f32 :=
  mulf (val_main_cst_68 (F := F)) (val_main_v188 (F := F) x1 x3 x4 x10 x13 x16 x17)

def val_main_v195 (x1 : Vec F S131072x3 .f32) (x3 : Vec F S32768x1 .f32) (x4 : Vec F S32768x3 .f32) (x5 : Vec F S32768x4 .f32) (x9 : Vec F S2048x3 .f32) (x10 : Vec F S8 .f32) (x13 x14 x15 : Vec F S32768 .i32) (x16 x17 : Vec F S262144 .i32) : Vec F S_ .f32 :=
  addf (val_main_v193 (F := F) x3 x4 x5 x9 x10 x13 x14 x15) (val_main_v194 (F := F) x1 x3 x4 x10 x13 x16 x17)

def val_main_v196 (x1 : Vec F S131072x3 .f32) (x3 : Vec F S32768x1 .f32) (x4 : Vec F S32768x3 .f32) (x5 : Vec F S32768x4 .f32) (x9 : Vec F S2048x3 .f32) (x10 : Vec F S8 .f32) (x13 x14 x15 : Vec F S32768 .i32) (x16 x17 : Vec F S262144 .i32) : Vec F S_ .f32 :=
  addf (val_main_v195 (F := F) x1 x3 x4 x5 x9 x10 x13 x14 x15 x16 x17) (val_main_v192 (F := F) x3)

def val_main_cst_69 : Vec F S_ .f32 :=
  constant S_ .f32 0x3F800000#32

def val_main_v197 (x1 : Vec F S131072x3 .f32) (x3 : Vec F S32768x1 .f32) (x4 : Vec F S32768x3 .f32) (x5 : Vec F S32768x4 .f32) (x9 : Vec F S2048x3 .f32) (x10 : Vec F S8 .f32) (x13 x14 x15 : Vec F S32768 .i32) (x16 x17 : Vec F S262144 .i32) : Vec F S_ .f32 :=
  mulf (val_main_v196 (F := F) x1 x3 x4 x5 x9 x10 x13 x14 x15 x16 x17) (val_main_cst_69 (F := F))

def val_main_v198 (x0 : Vec F S131072x1 .f32) (x1 : Vec F S131072x3 .f32) (x2 : Vec F S131072x4 .f32) (x3 : Vec F S32768x1 .f32) (x4 : Vec F S32768x3 .f32) (x5 : Vec F S32768x4 .f32) (x9 : Vec F S2048x3 .f32) (x10 : Vec F S8 .f32) (x11 x12 : Vec F S2097152 .i32) (x13 x14 x15 : Vec F S32768 .i32) (x16 x17 : Vec F S262144 .i32) : Vec F S_ .f32 :=
  addf (val_main_v58 (F := F) x0 x1 x2 x11 x12) (val_main_v197 (F := F) x1 x3 x4 x5 x9 x10 x13 x14 x15 x16 x17)

def val_main_cst_70 : Vec F S_ .f32 :=
  constant S_ .f32 0xC0FA5E96#32

def val_main_cst_71 : Vec F S_ .f32 :=
  constant S_ .f32 0x31097060#32

def val_main_call5_v0 : Vec F S_ .f32 :=
  id (val_main_cst_70 (F := F))

def val_main_call5_v1 : Vec F S32768x1 .f32 :=
  broadcastInDim S32768x1 ![] bcast_S_S32768x1 (val_main_call5_v0 (F := F))

def val_main_call5_v2 (x6 : Vec F S32768x1 .f32) : Vec F S32768x1 .f32 :=
  maximumf (val_main_call5_v1 (F := F)) x6

def val_main_call5_v3 : Vec F S_ .f32 :=
  id (val_main_cst_71 (F := F))

def val_main_call5_v4 : Vec F S32768x1 .f32 :=
  broadcastInDim S32768x1 ![] bcast_S_S32768x1 (val_main_call5_v3 (F := F))

def val_main_v199 (x6 : Vec F S32768x1 .f32) : Vec F S32768x1 .f32 :=
  minimumf (val_main_call5_v4 (F := F)) (val_main_call5_v2 (F := F) x6)

def val_main_c_72 : Vec F S_ .i32 :=
  constantI S_ 32 0#32

def val_main_v200 : Vec F S32768 .i32 :=
  broadcastInDim S32768 ![] bcast_S_S32768 (val_main_c_72 (F := F))

def val_main_v201 (x18 : Vec F S32768 .i32) : Vec F S32768 .i1 :=
  cmpi .slt x18 (val_main_v200 (F := F))

def val_main_c_73 : Vec F S_ .i32 :=
  constantI S_ 32 8#32

def val_main_v202 : Vec F S32768 .i32 :=
  broadcastInDim S32768 ![] bcast_S_S32768 (val_main_c_73 (F := F))

def val_main_v203 (x18 : Vec F S32768 .i32) : Vec F S32768 .i32 :=
  addi x18 (val_main_v202 (F := F))

def val_main_v204 (x18 : Vec F S32768 .i32) : Vec F S32768 .i32 :=
  select (val_main_v201 (F := F) x18) (val_main_v203 (F := F) x18) x18

def val_main_v205 (x18 : Vec F S32768 .i32) : Vec F S32768x1 .i32 :=
  broadcastInDim S32768x1 ![0] bcast_S32768_S32768x1_0 (val_main_v204 (F := F) x18)

def val_main_v206 (x10 : Vec F S8 .f32) (x18 : Vec F S32768 .i32) : Vec F S32768 .f32 :=
  Host.gather gather_S8_S32768x1_S32768_n_0_n_n_0_1_1 x10 (val_main_v205 (F := F) x18)

def val_main_cst_74 : Vec F S_ .f32 :=
  constant S_ .f32 0x3C23D70A#32

def val_main_call6_v0 : Vec F S_ .f32 :=
  id (val_main_cst_74 (F := F))

def val_main_call6_v1 : Vec F S32768 .f32 :=
  broadcastInDim S32768 ![] bcast_S_S32768 (val_main_call6_v0 (F := F))

def val_main_v207 (x10 : Vec F S8 .f32) (x18 : Vec F S32768 .i32) : Vec F S32768 .f32 :=
  maximumf (val_main_call6_v1 (F := F)) (val_main_v206 (F := F) x10 x18)

def val_main_v208 (x10 : Vec F S8 .f32) (x18 : Vec F S32768 .i32) : Vec F S32768x1 .f32 :=
  broadcastInDim S32768x1 ![0] bcast_S32768_S32768x1_0 (val_main_v207 (F := F) x10 x18)

def val_main_c_75 : Vec F S_ .i32 :=
  constantI S_ 32 0#32

def val_main_v209 : Vec F S32768 .i32 :=
  broadcastInDim S32768 ![] bcast_S_S32768 (val_main_c_75 (F := F))

def val_main_v210 (x20 : Vec F S32768 .i32) : Vec F S32768 .i1 :=
  cmpi .slt x20 (val_main_v209 (F := F))

def val_main_c_76 : Vec F S_ .i32 :=
  constantI S_ 32 32768#32

def val_main_v211 : Vec F S32768 .i32 :=
  broadcastInDim S32768 ![] bcast_S_S32768 (val_main_c_76 (F := F))

def val_main_v212 (x20 : Vec F S32768 .i32) : Vec F S32768 .i32 :=
  addi x20 (val_main_v211 (F := F))

def val_main_v213 (x20 : Vec F S32768 .i32) : Vec F S32768 .i32 :=
  select (val_main_v210 (F := F) x20) (val_main_v212 (F := F) x20) x20

def val_main_v214 (x20 : Vec F S32768 .i32) : Vec F S32768x1 .i32 :=
  broadcastInDim S32768x1 ![0] bcast_S32768_S32768x1_0 (val_main_v213 (F := F) x20)

def val_main_v215 (x7 : Vec F S32768x3 .f32) (x20 : Vec F S32768 .i32) : Vec F S32768x3 .f32 :=
  Host.gather gather_S32768x3_S32768x1_S32768x3_1_0_n_n_0_1_13 x7 (val_main_v214 (F := F) x20)

def val_main_c_77 : Vec F S_ .i32 :=
  constantI S_ 32 0#32

def val_main_v216 : Vec F S32768 .i32 :=
  broadcastInDim S32768 ![] bcast_S_S32768 (val_main_c_77 (F := F))

def val_main_v217 (x19 : Vec F S32768 .i32) : Vec F S32768 .i1 :=
  cmpi .slt x19 (val_main_v216 (F := F))

def val_main_c_78 : Vec F S_ .i32 :=
  constantI S_ 32 32768#32

def val_main_v218 : Vec F S32768 .i32 :=
  broadcastInDim S32768 ![] bcast_S_S32768 (val_main_c_78 (F := F))

def val_main_v219 (x19 : Vec F S32768 .i32) : Vec F S32768 .i32 :=
  addi x19 (val_main_v218 (F := F))

def val_main_v220 (x19 : Vec F S32768 .i32) : Vec F S32768 .i32 :=
  select (val_main_v217 (F := F) x19) (val_main_v219 (F := F) x19) x19

def val_main_v221 (x19 : Vec F S32768 .i32) : Vec F S32768x1 .i32 :=
  broadcastInDim S32768x1 ![0] bcast_S32768_S32768x1_0 (val_main_v220 (F := F) x19)

def val_main_v222 (x7 : Vec F S32768x3 .f32) (x19 : Vec F S32768 .i32) : Vec F S32768x3 .f32 :=
  Host.gather gather_S32768x3_S32768x1_S32768x3_1_0_n_n_0_1_13 x7 (val_main_v221 (F := F) x19)

def val_main_v223 (x7 : Vec F S32768x3 .f32) (x19 x20 : Vec F S32768 .i32) : Vec F S32768x3 .f32 :=
  subf (val_main_v215 (F := F) x7 x20) (val_main_v222 (F := F) x7 x19)

def val_main_call7_v0 (x7 : Vec F S32768x3 .f32) (x19 x20 : Vec F S32768 .i32) : Vec F S32768x3 .f32 :=
  mulf (val_main_v223 (F := F) x7 x19 x20) (val_main_v223 (F := F) x7 x19 x20)

def val_main_call7_cst : Vec F S_ .f32 :=
  constant S_ .f32 0x00000000#32

def val_main_call7_v1 (x7 : Vec F S32768x3 .f32) (x19 x20 : Vec F S32768 .i32) : Vec F S32768 .f32 :=
  Host.reduceAdd (val_main_call7_v0 (F := F) x7 x19 x20) (val_main_call7_cst (F := F)) reducesTo_S32768x3_S32768_d1 h_S_

def val_main_call7_v2 (x7 : Vec F S32768x3 .f32) (x19 x20 : Vec F S32768 .i32) : Vec F S32768x1 .f32 :=
  broadcastInDim S32768x1 ![0] bcast_S32768_S32768x1_0 (val_main_call7_v1 (F := F) x7 x19 x20)

def val_main_v224 (x7 : Vec F S32768x3 .f32) (x19 x20 : Vec F S32768 .i32) : Vec F S32768x1 .f32 :=
  Host.sqrt (val_main_call7_v2 (F := F) x7 x19 x20)

def val_main_cst_79 : Vec F S_ .f32 :=
  constant S_ .f32 0x3089705F#32

def val_main_v225 : Vec F S32768x1 .f32 :=
  broadcastInDim S32768x1 ![] bcast_S_S32768x1 (val_main_cst_79 (F := F))

def val_main_v226 (x7 : Vec F S32768x3 .f32) (x19 x20 : Vec F S32768 .i32) : Vec F S32768x1 .f32 :=
  addf (val_main_v224 (F := F) x7 x19 x20) (val_main_v225 (F := F))

def val_main_v227 (x7 : Vec F S32768x3 .f32) (x19 x20 : Vec F S32768 .i32) : Vec F S32768x3 .f32 :=
  broadcastInDim S32768x3 ![0, 1] bcast_S32768x1_S32768x3_0_1 (val_main_v226 (F := F) x7 x19 x20)

def val_main_v228 (x7 : Vec F S32768x3 .f32) (x19 x20 : Vec F S32768 .i32) : Vec F S32768x3 .f32 :=
  Host.divf (val_main_v223 (F := F) x7 x19 x20) (val_main_v227 (F := F) x7 x19 x20)

def val_main_c_80 : Vec F S_ .i32 :=
  constantI S_ 32 0#32

def val_main_v229 : Vec F S32768 .i32 :=
  broadcastInDim S32768 ![] bcast_S_S32768 (val_main_c_80 (F := F))

def val_main_v230 (x19 : Vec F S32768 .i32) : Vec F S32768 .i1 :=
  cmpi .slt x19 (val_main_v229 (F := F))

def val_main_c_81 : Vec F S_ .i32 :=
  constantI S_ 32 32768#32

def val_main_v231 : Vec F S32768 .i32 :=
  broadcastInDim S32768 ![] bcast_S_S32768 (val_main_c_81 (F := F))

def val_main_v232 (x19 : Vec F S32768 .i32) : Vec F S32768 .i32 :=
  addi x19 (val_main_v231 (F := F))

def val_main_v233 (x19 : Vec F S32768 .i32) : Vec F S32768 .i32 :=
  select (val_main_v230 (F := F) x19) (val_main_v232 (F := F) x19) x19

def val_main_v234 (x19 : Vec F S32768 .i32) : Vec F S32768x1 .i32 :=
  broadcastInDim S32768x1 ![0] bcast_S32768_S32768x1_0 (val_main_v233 (F := F) x19)

def val_main_c_82 : Vec F S_ .i32 :=
  constantI S_ 32 2#32

def val_main_v235 : Vec F S32768x1 .i32 :=
  broadcastInDim S32768x1 ![] bcast_S_S32768x1 (val_main_c_82 (F := F))

def val_main_v236 (x19 : Vec F S32768 .i32) : Vec F S32768x2 .i32 :=
  concatenate S32768x2 1 [⟨S32768x1, (val_main_v234 (F := F) x19)⟩, ⟨S32768x1, (val_main_v235 (F := F))⟩] concatenates_S32768x1_S32768x1_S32768x2_d1

def val_main_v237 (x8 : Vec F S32768x4 .f32) (x19 : Vec F S32768 .i32) : Vec F S32768x1 .f32 :=
  Host.gather gather_S32768x4_S32768x2_S32768x1_1_0_n_n_01_1_11 x8 (val_main_v236 (F := F) x19)

def val_main_v238 (x8 : Vec F S32768x4 .f32) (x19 : Vec F S32768 .i32) : Vec F S32768x1 .f32 :=
  Host.absf (val_main_v237 (F := F) x8 x19)

def val_main_c_83 : Vec F S_ .i32 :=
  constantI S_ 32 0#32

def val_main_v239 : Vec F S32768 .i32 :=
  broadcastInDim S32768 ![] bcast_S_S32768 (val_main_c_83 (F := F))

def val_main_v240 (x19 : Vec F S32768 .i32) : Vec F S32768 .i1 :=
  cmpi .slt x19 (val_main_v239 (F := F))

def val_main_c_84 : Vec F S_ .i32 :=
  constantI S_ 32 32768#32

def val_main_v241 : Vec F S32768 .i32 :=
  broadcastInDim S32768 ![] bcast_S_S32768 (val_main_c_84 (F := F))

def val_main_v242 (x19 : Vec F S32768 .i32) : Vec F S32768 .i32 :=
  addi x19 (val_main_v241 (F := F))

def val_main_v243 (x19 : Vec F S32768 .i32) : Vec F S32768 .i32 :=
  select (val_main_v240 (F := F) x19) (val_main_v242 (F := F) x19) x19

def val_main_v244 (x19 : Vec F S32768 .i32) : Vec F S32768x1 .i32 :=
  broadcastInDim S32768x1 ![0] bcast_S32768_S32768x1_0 (val_main_v243 (F := F) x19)

def val_main_v245 (x7 : Vec F S32768x3 .f32) (x19 : Vec F S32768 .i32) : Vec F S32768x3 .f32 :=
  Host.gather gather_S32768x3_S32768x1_S32768x3_1_0_n_n_0_1_13 x7 (val_main_v244 (F := F) x19)

def val_main_v246 (x8 : Vec F S32768x4 .f32) (x19 : Vec F S32768 .i32) : Vec F S32768x3 .f32 :=
  broadcastInDim S32768x3 ![0, 1] bcast_S32768x1_S32768x3_0_1 (val_main_v238 (F := F) x8 x19)

def val_main_v247 (x7 : Vec F S32768x3 .f32) (x8 : Vec F S32768x4 .f32) (x19 x20 : Vec F S32768 .i32) : Vec F S32768x3 .f32 :=
  mulf (val_main_v246 (F := F) x8 x19) (val_main_v228 (F := F) x7 x19 x20)

def val_main_c_85 : Vec F S_ .i32 :=
  constantI S_ 32 0#32

def val_main_v248 : Vec F S32768 .i32 :=
  broadcastInDim S32768 ![] bcast_S_S32768 (val_main_c_85 (F := F))

def val_main_v249 (x19 : Vec F S32768 .i32) : Vec F S32768 .i1 :=
  cmpi .slt x19 (val_main_v248 (F := F))

def val_main_c_86 : Vec F S_ .i32 :=
  constantI S_ 32 32768#32

def val_main_v250 : Vec F S32768 .i32 :=
  broadcastInDim S32768 ![] bcast_S_S32768 (val_main_c_86 (F := F))

def val_main_v251 (x19 : Vec F S32768 .i32) : Vec F S32768 .i32 :=
  addi x19 (val_main_v250 (F := F))

def val_main_v252 (x19 : Vec F S32768 .i32) : Vec F S32768 .i32 :=
  select (val_main_v249 (F := F) x19) (val_main_v251 (F := F) x19) x19

def val_main_v253 (x19 : Vec F S32768 .i32) : Vec F S32768x1 .i32 :=
  broadcastInDim S32768x1 ![0] bcast_S32768_S32768x1_0 (val_main_v252 (F := F) x19)

def val_main_v254 (x10 : Vec F S8 .f32) (x18 x19 : Vec F S32768 .i32) : Vec F S32768x1 .f32 :=
  Host.gather gather_S32768x1_S32768x1_S32768x1_1_0_n_n_0_1_11 (val_main_v208 (F := F) x10 x18) (val_main_v253 (F := F) x19)

def val_main_v255 (x10 : Vec F S8 .f32) (x18 x19 : Vec F S32768 .i32) : Vec F S32768x3 .f32 :=
  broadcastInDim S32768x3 ![0, 1] bcast_S32768x1_S32768x3_0_1 (val_main_v254 (F := F) x10 x18 x19)

def val_main_v256 (x7 : Vec F S32768x3 .f32) (x8 : Vec F S32768x4 .f32) (x10 : Vec F S8 .f32) (x18 x19 x20 : Vec F S32768 .i32) : Vec F S32768x3 .f32 :=
  mulf (val_main_v247 (F := F) x7 x8 x19 x20) (val_main_v255 (F := F) x10 x18 x19)

def val_main_v257 (x7 : Vec F S32768x3 .f32) (x8 : Vec F S32768x4 .f32) (x10 : Vec F S8 .f32) (x18 x19 x20 : Vec F S32768 .i32) : Vec F S32768x3 .f32 :=
  addf (val_main_v245 (F := F) x7 x19) (val_main_v256 (F := F) x7 x8 x10 x18 x19 x20)

def val_main_v258 (x7 : Vec F S32768x3 .f32) (x8 : Vec F S32768x4 .f32) (x10 : Vec F S8 .f32) (x18 x19 x20 : Vec F S32768 .i32) : Vec F S32768x3 .f32 :=
  mulf (val_main_v257 (F := F) x7 x8 x10 x18 x19 x20) (val_main_v257 (F := F) x7 x8 x10 x18 x19 x20)

def val_main_cst_87 : Vec F S_ .f32 :=
  constant S_ .f32 0x00000000#32

def val_main_v259 (x7 : Vec F S32768x3 .f32) (x8 : Vec F S32768x4 .f32) (x10 : Vec F S8 .f32) (x18 x19 x20 : Vec F S32768 .i32) : Vec F S32768 .f32 :=
  Host.reduceAdd (val_main_v258 (F := F) x7 x8 x10 x18 x19 x20) (val_main_cst_87 (F := F)) reducesTo_S32768x3_S32768_d1 h_S_

def val_main_v260 (x9 : Vec F S2048x3 .f32) : Vec F S2048x3 .f32 :=
  mulf x9 x9

def val_main_cst_88 : Vec F S_ .f32 :=
  constant S_ .f32 0x00000000#32

def val_main_v261 (x9 : Vec F S2048x3 .f32) : Vec F S2048 .f32 :=
  Host.reduceAdd (val_main_v260 (F := F) x9) (val_main_cst_88 (F := F)) reducesTo_S2048x3_S2048_d1 h_S_

def val_main_v262 (x7 : Vec F S32768x3 .f32) (x8 : Vec F S32768x4 .f32) (x10 : Vec F S8 .f32) (x18 x19 x20 : Vec F S32768 .i32) : Vec F S32768x1 .f32 :=
  broadcastInDim S32768x1 ![0] bcast_S32768_S32768x1_0 (val_main_v259 (F := F) x7 x8 x10 x18 x19 x20)

def val_main_v263 (x9 : Vec F S2048x3 .f32) : Vec F S1x2048 .f32 :=
  broadcastInDim S1x2048 ![1] bcast_S2048_S1x2048_1 (val_main_v261 (F := F) x9)

def val_main_v264 (x7 : Vec F S32768x3 .f32) (x8 : Vec F S32768x4 .f32) (x10 : Vec F S8 .f32) (x18 x19 x20 : Vec F S32768 .i32) : Vec F S32768x2048 .f32 :=
  broadcastInDim S32768x2048 ![0, 1] bcast_S32768x1_S32768x2048_0_1 (val_main_v262 (F := F) x7 x8 x10 x18 x19 x20)

def val_main_v265 (x9 : Vec F S2048x3 .f32) : Vec F S32768x2048 .f32 :=
  broadcastInDim S32768x2048 ![0, 1] bcast_S1x2048_S32768x2048_0_1 (val_main_v263 (F := F) x9)

def val_main_v266 (x7 : Vec F S32768x3 .f32) (x8 : Vec F S32768x4 .f32) (x9 : Vec F S2048x3 .f32) (x10 : Vec F S8 .f32) (x18 x19 x20 : Vec F S32768 .i32) : Vec F S32768x2048 .f32 :=
  addf (val_main_v264 (F := F) x7 x8 x10 x18 x19 x20) (val_main_v265 (F := F) x9)

def val_main_cst_89 : Vec F S_ .f32 :=
  constant S_ .f32 0x40000000#32

def val_main_v267 : Vec F S32768x3 .f32 :=
  broadcastInDim S32768x3 ![] bcast_S_S32768x3 (val_main_cst_89 (F := F))

def val_main_v268 (x7 : Vec F S32768x3 .f32) (x8 : Vec F S32768x4 .f32) (x10 : Vec F S8 .f32) (x18 x19 x20 : Vec F S32768 .i32) : Vec F S32768x3 .f32 :=
  mulf (val_main_v267 (F := F)) (val_main_v257 (F := F) x7 x8 x10 x18 x19 x20)

def val_main_v269 (x9 : Vec F S2048x3 .f32) : Vec F S3x2048 .f32 :=
  transpose S3x2048 [1, 0] x9 transposes_S2048x3_S3x2048_1_0

def val_main_v270 (x7 : Vec F S32768x3 .f32) (x8 : Vec F S32768x4 .f32) (x9 : Vec F S2048x3 .f32) (x10 : Vec F S8 .f32) (x18 x19 x20 : Vec F S32768 .i32) : Vec F S32768x2048 .f32 :=
  Host.dotGeneral dot_S32768x3_S3x2048_S32768x2048_1_0_0_1_n_n none (val_main_v268 (F := F) x7 x8 x10 x18 x19 x20) (val_main_v269 (F := F) x9)

def val_main_v271 (x7 : Vec F S32768x3 .f32) (x8 : Vec F S32768x4 .f32) (x9 : Vec F S2048x3 .f32) (x10 : Vec F S8 .f32) (x18 x19 x20 : Vec F S32768 .i32) : Vec F S32768x2048 .f32 :=
  subf (val_main_v266 (F := F) x7 x8 x9 x10 x18 x19 x20) (val_main_v270 (F := F) x7 x8 x9 x10 x18 x19 x20)

def val_main_cst_90 : Vec F S_ .f32 :=
  constant S_ .f32 0x00000000#32

def val_main_v272 : Vec F S32768x2048 .f32 :=
  broadcastInDim S32768x2048 ![] bcast_S_S32768x2048 (val_main_cst_90 (F := F))

def val_main_v273 (x7 : Vec F S32768x3 .f32) (x8 : Vec F S32768x4 .f32) (x9 : Vec F S2048x3 .f32) (x10 : Vec F S8 .f32) (x18 x19 x20 : Vec F S32768 .i32) : Vec F S32768x2048 .f32 :=
  maximumf (val_main_v271 (F := F) x7 x8 x9 x10 x18 x19 x20) (val_main_v272 (F := F))

def val_main_cst_91 : Vec F S_ .f32 :=
  constant S_ .f32 0x7F800000#32

def val_main_v274 (x7 : Vec F S32768x3 .f32) (x8 : Vec F S32768x4 .f32) (x9 : Vec F S2048x3 .f32) (x10 : Vec F S8 .f32) (x18 x19 x20 : Vec F S32768 .i32) : Vec F S32768 .f32 :=
  Host.reduce FloatOps.minimumf (val_main_v273 (F := F) x7 x8 x9 x10 x18 x19 x20) (val_main_cst_91 (F := F)) reducesTo_S32768x2048_S32768_d1 h_S_

def val_main_v275 (x7 : Vec F S32768x3 .f32) (x8 : Vec F S32768x4 .f32) (x9 : Vec F S2048x3 .f32) (x10 : Vec F S8 .f32) (x18 x19 x20 : Vec F S32768 .i32) : Vec F S32768x1 .f32 :=
  broadcastInDim S32768x1 ![0] bcast_S32768_S32768x1_0 (val_main_v274 (F := F) x7 x8 x9 x10 x18 x19 x20)

def val_main_cst_92 : Vec F S_ .f32 :=
  constant S_ .f32 0x00000000#32

def val_main_v276 : Vec F S32768x1 .f32 :=
  broadcastInDim S32768x1 ![] bcast_S_S32768x1 (val_main_cst_92 (F := F))

def val_main_c_93 : Vec F S_ .i32 :=
  constantI S_ 32 0#32

def val_main_v277 : Vec F S32768 .i32 :=
  broadcastInDim S32768 ![] bcast_S_S32768 (val_main_c_93 (F := F))

def val_main_v278 (x19 : Vec F S32768 .i32) : Vec F S32768 .i1 :=
  cmpi .slt x19 (val_main_v277 (F := F))

def val_main_c_94 : Vec F S_ .i32 :=
  constantI S_ 32 32768#32

def val_main_v279 : Vec F S32768 .i32 :=
  broadcastInDim S32768 ![] bcast_S_S32768 (val_main_c_94 (F := F))

def val_main_v280 (x19 : Vec F S32768 .i32) : Vec F S32768 .i32 :=
  addi x19 (val_main_v279 (F := F))

def val_main_v281 (x19 : Vec F S32768 .i32) : Vec F S32768 .i32 :=
  select (val_main_v278 (F := F) x19) (val_main_v280 (F := F) x19) x19

def val_main_v282 (x19 : Vec F S32768 .i32) : Vec F S32768x1 .i32 :=
  broadcastInDim S32768x1 ![0] bcast_S32768_S32768x1_0 (val_main_v281 (F := F) x19)

def val_main_v283 (x7 : Vec F S32768x3 .f32) (x8 : Vec F S32768x4 .f32) (x9 : Vec F S2048x3 .f32) (x10 : Vec F S8 .f32) (x18 x19 x20 : Vec F S32768 .i32) : Vec F S32768x1 .f32 :=
  Host.scatter scatter_S32768x1_S32768x1_S32768x1_1_0_0_1 (fun _ b => b) (val_main_v276 (F := F)) (val_main_v282 (F := F) x19) (val_main_v275 (F := F) x7 x8 x9 x10 x18 x19 x20)

def val_main_c_95 : Vec F S_ .i32 :=
  constantI S_ 32 0#32

def val_main_v284 : Vec F S262144 .i32 :=
  broadcastInDim S262144 ![] bcast_S_S262144 (val_main_c_95 (F := F))

def val_main_v285 (x21 : Vec F S262144 .i32) : Vec F S262144 .i1 :=
  cmpi .slt x21 (val_main_v284 (F := F))

def val_main_c_96 : Vec F S_ .i32 :=
  constantI S_ 32 32768#32

def val_main_v286 : Vec F S262144 .i32 :=
  broadcastInDim S262144 ![] bcast_S_S262144 (val_main_c_96 (F := F))

def val_main_v287 (x21 : Vec F S262144 .i32) : Vec F S262144 .i32 :=
  addi x21 (val_main_v286 (F := F))

def val_main_v288 (x21 : Vec F S262144 .i32) : Vec F S262144 .i32 :=
  select (val_main_v285 (F := F) x21) (val_main_v287 (F := F) x21) x21

def val_main_v289 (x21 : Vec F S262144 .i32) : Vec F S262144x1 .i32 :=
  broadcastInDim S262144x1 ![0] bcast_S262144_S262144x1_0 (val_main_v288 (F := F) x21)

def val_main_v290 (x7 : Vec F S32768x3 .f32) (x21 : Vec F S262144 .i32) : Vec F S262144x3 .f32 :=
  Host.gather gather_S32768x3_S262144x1_S262144x3_1_0_n_n_0_1_13 x7 (val_main_v289 (F := F) x21)

def val_main_c_97 : Vec F S_ .i32 :=
  constantI S_ 32 0#32

def val_main_v291 : Vec F S262144 .i32 :=
  broadcastInDim S262144 ![] bcast_S_S262144 (val_main_c_97 (F := F))

def val_main_v292 (x22 : Vec F S262144 .i32) : Vec F S262144 .i1 :=
  cmpi .slt x22 (val_main_v291 (F := F))

def val_main_c_98 : Vec F S_ .i32 :=
  constantI S_ 32 131072#32

def val_main_v293 : Vec F S262144 .i32 :=
  broadcastInDim S262144 ![] bcast_S_S262144 (val_main_c_98 (F := F))

def val_main_v294 (x22 : Vec F S262144 .i32) : Vec F S262144 .i32 :=
  addi x22 (val_main_v293 (F := F))

def val_main_v295 (x22 : Vec F S262144 .i32) : Vec F S262144 .i32 :=
  select (val_main_v292 (F := F) x22) (val_main_v294 (F := F) x22) x22

def val_main_v296 (x22 : Vec F S262144 .i32) : Vec F S262144x1 .i32 :=
  broadcastInDim S262144x1 ![0] bcast_S262144_S262144x1_0 (val_main_v295 (F := F) x22)

def val_main_v297 (x1 : Vec F S131072x3 .f32) (x22 : Vec F S262144 .i32) : Vec F S262144x3 .f32 :=
  Host.gather gather_S131072x3_S262144x1_S262144x3_1_0_n_n_0_1_13 x1 (val_main_v296 (F := F) x22)

def val_main_v298 (x1 : Vec F S131072x3 .f32) (x7 : Vec F S32768x3 .f32) (x21 x22 : Vec F S262144 .i32) : Vec F S262144x3 .f32 :=
  subf (val_main_v290 (F := F) x7 x21) (val_main_v297 (F := F) x1 x22)

def val_main_v299 (x1 : Vec F S131072x3 .f32) (x7 : Vec F S32768x3 .f32) (x21 x22 : Vec F S262144 .i32) : Vec F S262144x3 .f32 :=
  mulf (val_main_v298 (F := F) x1 x7 x21 x22) (val_main_v298 (F := F) x1 x7 x21 x22)

def val_main_cst_99 : Vec F S_ .f32 :=
  constant S_ .f32 0x00000000#32

def val_main_v300 (x1 : Vec F S131072x3 .f32) (x7 : Vec F S32768x3 .f32) (x21 x22 : Vec F S262144 .i32) : Vec F S262144 .f32 :=
  Host.reduceAdd (val_main_v299 (F := F) x1 x7 x21 x22) (val_main_cst_99 (F := F)) reducesTo_S262144x3_S262144_d1 h_S_

def val_main_cst_100 : Vec F S_ .f32 :=
  constant S_ .f32 0x00000000#32

def val_main_v301 : Vec F S32768 .f32 :=
  broadcastInDim S32768 ![] bcast_S_S32768 (val_main_cst_100 (F := F))

def val_main_v302 (x21 : Vec F S262144 .i32) : Vec F S262144x1 .i32 :=
  broadcastInDim S262144x1 ![0] bcast_S262144_S262144x1_0 x21

def val_main_v303 (x1 : Vec F S131072x3 .f32) (x7 : Vec F S32768x3 .f32) (x21 x22 : Vec F S262144 .i32) : Vec F S32768 .f32 :=
  Host.scatterAdd scatter_S32768_S262144x1_S262144_n_0_0_1 (val_main_v301 (F := F)) (val_main_v302 (F := F) x21) (val_main_v300 (F := F) x1 x7 x21 x22)

def val_main_cst_101 : Vec F S_ .f32 :=
  constant S_ .f32 0x3F800000#32

def val_main_v304 : Vec F S262144 .f32 :=
  broadcastInDim S262144 ![] bcast_S_S262144 (val_main_cst_101 (F := F))

def val_main_cst_102 : Vec F S_ .f32 :=
  constant S_ .f32 0x00000000#32

def val_main_v305 : Vec F S32768 .f32 :=
  broadcastInDim S32768 ![] bcast_S_S32768 (val_main_cst_102 (F := F))

def val_main_v306 (x21 : Vec F S262144 .i32) : Vec F S262144x1 .i32 :=
  broadcastInDim S262144x1 ![0] bcast_S262144_S262144x1_0 x21

def val_main_v307 (x21 : Vec F S262144 .i32) : Vec F S32768 .f32 :=
  Host.scatterAdd scatter_S32768_S262144x1_S262144_n_0_0_1 (val_main_v305 (F := F)) (val_main_v306 (F := F) x21) (val_main_v304 (F := F))

def val_main_cst_103 : Vec F S_ .f32 :=
  constant S_ .f32 0x00000000#32

def val_main_v308 : Vec F S32768 .f32 :=
  broadcastInDim S32768 ![] bcast_S_S32768 (val_main_cst_103 (F := F))

def val_main_v309 (x21 : Vec F S262144 .i32) : Vec F S32768 .i1 :=
  cmpf .ogt (val_main_v307 (F := F) x21) (val_main_v308 (F := F))

def val_main_cst_104 : Vec F S_ .f32 :=
  constant S_ .f32 0x3F800000#32

def val_main_v310 : Vec F S32768 .f32 :=
  broadcastInDim S32768 ![] bcast_S_S32768 (val_main_cst_104 (F := F))

def val_main_v311 (x21 : Vec F S262144 .i32) : Vec F S32768 .f32 :=
  maximumf (val_main_v307 (F := F) x21) (val_main_v310 (F := F))

def val_main_v312 (x21 : Vec F S262144 .i32) : Vec F S32768 .f32 :=
  mulf (val_main_v311 (F := F) x21) (val_main_v311 (F := F) x21)

def val_main_v313 (x1 : Vec F S131072x3 .f32) (x7 : Vec F S32768x3 .f32) (x21 x22 : Vec F S262144 .i32) : Vec F S32768 .f32 :=
  Host.divf (val_main_v303 (F := F) x1 x7 x21 x22) (val_main_v312 (F := F) x21)

def val_main_cst_105 : Vec F S_ .f32 :=
  constant S_ .f32 0x3B6BEDFA#32

def val_main_call8_v0 : Vec F S_ .f32 :=
  id (val_main_cst_105 (F := F))

def val_main_call8_v1 : Vec F S32768 .f32 :=
  broadcastInDim S32768 ![] bcast_S_S32768 (val_main_call8_v0 (F := F))

def val_main_v314 (x1 : Vec F S131072x3 .f32) (x7 : Vec F S32768x3 .f32) (x21 x22 : Vec F S262144 .i32) : Vec F S32768 .f32 :=
  select (val_main_v309 (F := F) x21) (val_main_v313 (F := F) x1 x7 x21 x22) (val_main_call8_v1 (F := F))

def val_main_v315 (x1 : Vec F S131072x3 .f32) (x7 : Vec F S32768x3 .f32) (x21 x22 : Vec F S262144 .i32) : Vec F S32768x1 .f32 :=
  broadcastInDim S32768x1 ![0] bcast_S32768_S32768x1_0 (val_main_v314 (F := F) x1 x7 x21 x22)

def val_main_v316 (x6 : Vec F S32768x1 .f32) : Vec F S32768x1 .f32 :=
  Host.exp (val_main_v199 (F := F) x6)

def val_main_cst_106 : Vec F S_ .f32 :=
  constant S_ .f32 0x40000000#32

def val_main_v317 : Vec F S32768x1 .f32 :=
  broadcastInDim S32768x1 ![] bcast_S_S32768x1 (val_main_cst_106 (F := F))

def val_main_v318 (x6 : Vec F S32768x1 .f32) : Vec F S32768x1 .f32 :=
  mulf (val_main_v317 (F := F)) (val_main_v316 (F := F) x6)

def val_main_v319 (x10 : Vec F S8 .f32) (x18 : Vec F S32768 .i32) : Vec F S32768x1 .f32 :=
  mulf (val_main_v208 (F := F) x10 x18) (val_main_v208 (F := F) x10 x18)

def val_main_v320 (x6 : Vec F S32768x1 .f32) (x10 : Vec F S8 .f32) (x18 : Vec F S32768 .i32) : Vec F S32768x1 .f32 :=
  mulf (val_main_v318 (F := F) x6) (val_main_v319 (F := F) x10 x18)

def val_main_cst_107 : Vec F S_ .f32 :=
  constant S_ .f32 0x3089705F#32

def val_main_v321 : Vec F S32768x1 .f32 :=
  broadcastInDim S32768x1 ![] bcast_S_S32768x1 (val_main_cst_107 (F := F))

def val_main_v322 (x6 : Vec F S32768x1 .f32) (x10 : Vec F S8 .f32) (x18 : Vec F S32768 .i32) : Vec F S32768x1 .f32 :=
  addf (val_main_v320 (F := F) x6 x10 x18) (val_main_v321 (F := F))

def val_main_v323 (x6 : Vec F S32768x1 .f32) (x7 : Vec F S32768x3 .f32) (x8 : Vec F S32768x4 .f32) (x9 : Vec F S2048x3 .f32) (x10 : Vec F S8 .f32) (x18 x19 x20 : Vec F S32768 .i32) : Vec F S32768x1 .f32 :=
  Host.divf (val_main_v283 (F := F) x7 x8 x9 x10 x18 x19 x20) (val_main_v322 (F := F) x6 x10 x18)

def val_main_cst_108 : Vec F S_ .f32 :=
  constant S_ .f32 0x00000000#32

def val_main_v324 (x6 : Vec F S32768x1 .f32) (x7 : Vec F S32768x3 .f32) (x8 : Vec F S32768x4 .f32) (x9 : Vec F S2048x3 .f32) (x10 : Vec F S8 .f32) (x18 x19 x20 : Vec F S32768 .i32) : Vec F S_ .f32 :=
  Host.reduceAdd (val_main_v323 (F := F) x6 x7 x8 x9 x10 x18 x19 x20) (val_main_cst_108 (F := F)) reducesTo_S32768x1_S_d0_1 h_S_

def val_main_cst_109 : Vec F S_ .f32 :=
  constant S_ .f32 0x47000000#32

def val_main_v325 (x6 : Vec F S32768x1 .f32) (x7 : Vec F S32768x3 .f32) (x8 : Vec F S32768x4 .f32) (x9 : Vec F S2048x3 .f32) (x10 : Vec F S8 .f32) (x18 x19 x20 : Vec F S32768 .i32) : Vec F S_ .f32 :=
  Host.divf (val_main_v324 (F := F) x6 x7 x8 x9 x10 x18 x19 x20) (val_main_cst_109 (F := F))

def val_main_v326 (x1 : Vec F S131072x3 .f32) (x6 : Vec F S32768x1 .f32) (x7 : Vec F S32768x3 .f32) (x10 : Vec F S8 .f32) (x18 : Vec F S32768 .i32) (x21 x22 : Vec F S262144 .i32) : Vec F S32768x1 .f32 :=
  Host.divf (val_main_v315 (F := F) x1 x7 x21 x22) (val_main_v322 (F := F) x6 x10 x18)

def val_main_cst_110 : Vec F S_ .f32 :=
  constant S_ .f32 0x00000000#32

def val_main_v327 (x1 : Vec F S131072x3 .f32) (x6 : Vec F S32768x1 .f32) (x7 : Vec F S32768x3 .f32) (x10 : Vec F S8 .f32) (x18 : Vec F S32768 .i32) (x21 x22 : Vec F S262144 .i32) : Vec F S_ .f32 :=
  Host.reduceAdd (val_main_v326 (F := F) x1 x6 x7 x10 x18 x21 x22) (val_main_cst_110 (F := F)) reducesTo_S32768x1_S_d0_1 h_S_

def val_main_cst_111 : Vec F S_ .f32 :=
  constant S_ .f32 0x47000000#32

def val_main_v328 (x1 : Vec F S131072x3 .f32) (x6 : Vec F S32768x1 .f32) (x7 : Vec F S32768x3 .f32) (x10 : Vec F S8 .f32) (x18 : Vec F S32768 .i32) (x21 x22 : Vec F S262144 .i32) : Vec F S_ .f32 :=
  Host.divf (val_main_v327 (F := F) x1 x6 x7 x10 x18 x21 x22) (val_main_cst_111 (F := F))

def val_main_cst_112 : Vec F S_ .f32 :=
  constant S_ .f32 0x3F000000#32

def val_main_v329 : Vec F S32768x1 .f32 :=
  broadcastInDim S32768x1 ![] bcast_S_S32768x1 (val_main_cst_112 (F := F))

def val_main_v330 (x6 : Vec F S32768x1 .f32) : Vec F S32768x1 .f32 :=
  mulf (val_main_v329 (F := F)) (val_main_v199 (F := F) x6)

def val_main_cst_113 : Vec F S_ .f32 :=
  constant S_ .f32 0x00000000#32

def val_main_v331 (x6 : Vec F S32768x1 .f32) : Vec F S_ .f32 :=
  Host.reduceAdd (val_main_v330 (F := F) x6) (val_main_cst_113 (F := F)) reducesTo_S32768x1_S_d0_1 h_S_

def val_main_cst_114 : Vec F S_ .f32 :=
  constant S_ .f32 0x47000000#32

def val_main_v332 (x6 : Vec F S32768x1 .f32) : Vec F S_ .f32 :=
  Host.divf (val_main_v331 (F := F) x6) (val_main_cst_114 (F := F))

def val_main_cst_115 : Vec F S_ .f32 :=
  constant S_ .f32 0x3F800000#32

def val_main_v333 (x6 : Vec F S32768x1 .f32) (x7 : Vec F S32768x3 .f32) (x8 : Vec F S32768x4 .f32) (x9 : Vec F S2048x3 .f32) (x10 : Vec F S8 .f32) (x18 x19 x20 : Vec F S32768 .i32) : Vec F S_ .f32 :=
  mulf (val_main_cst_115 (F := F)) (val_main_v325 (F := F) x6 x7 x8 x9 x10 x18 x19 x20)

def val_main_cst_116 : Vec F S_ .f32 :=
  constant S_ .f32 0x3F800000#32

def val_main_v334 (x1 : Vec F S131072x3 .f32) (x6 : Vec F S32768x1 .f32) (x7 : Vec F S32768x3 .f32) (x10 : Vec F S8 .f32) (x18 : Vec F S32768 .i32) (x21 x22 : Vec F S262144 .i32) : Vec F S_ .f32 :=
  mulf (val_main_cst_116 (F := F)) (val_main_v328 (F := F) x1 x6 x7 x10 x18 x21 x22)

def val_main_v335 (x1 : Vec F S131072x3 .f32) (x6 : Vec F S32768x1 .f32) (x7 : Vec F S32768x3 .f32) (x8 : Vec F S32768x4 .f32) (x9 : Vec F S2048x3 .f32) (x10 : Vec F S8 .f32) (x18 x19 x20 : Vec F S32768 .i32) (x21 x22 : Vec F S262144 .i32) : Vec F S_ .f32 :=
  addf (val_main_v333 (F := F) x6 x7 x8 x9 x10 x18 x19 x20) (val_main_v334 (F := F) x1 x6 x7 x10 x18 x21 x22)

def val_main_v336 (x1 : Vec F S131072x3 .f32) (x6 : Vec F S32768x1 .f32) (x7 : Vec F S32768x3 .f32) (x8 : Vec F S32768x4 .f32) (x9 : Vec F S2048x3 .f32) (x10 : Vec F S8 .f32) (x18 x19 x20 : Vec F S32768 .i32) (x21 x22 : Vec F S262144 .i32) : Vec F S_ .f32 :=
  addf (val_main_v335 (F := F) x1 x6 x7 x8 x9 x10 x18 x19 x20 x21 x22) (val_main_v332 (F := F) x6)

def val_main_cst_117 : Vec F S_ .f32 :=
  constant S_ .f32 0x3F800000#32

def val_main_v337 (x1 : Vec F S131072x3 .f32) (x6 : Vec F S32768x1 .f32) (x7 : Vec F S32768x3 .f32) (x8 : Vec F S32768x4 .f32) (x9 : Vec F S2048x3 .f32) (x10 : Vec F S8 .f32) (x18 x19 x20 : Vec F S32768 .i32) (x21 x22 : Vec F S262144 .i32) : Vec F S_ .f32 :=
  mulf (val_main_v336 (F := F) x1 x6 x7 x8 x9 x10 x18 x19 x20 x21 x22) (val_main_cst_117 (F := F))

def val_main_v338 (x0 : Vec F S131072x1 .f32) (x1 : Vec F S131072x3 .f32) (x2 : Vec F S131072x4 .f32) (x3 : Vec F S32768x1 .f32) (x4 : Vec F S32768x3 .f32) (x5 : Vec F S32768x4 .f32) (x6 : Vec F S32768x1 .f32) (x7 : Vec F S32768x3 .f32) (x8 : Vec F S32768x4 .f32) (x9 : Vec F S2048x3 .f32) (x10 : Vec F S8 .f32) (x11 x12 : Vec F S2097152 .i32) (x13 x14 x15 : Vec F S32768 .i32) (x16 x17 : Vec F S262144 .i32) (x18 x19 x20 : Vec F S32768 .i32) (x21 x22 : Vec F S262144 .i32) : Vec F S_ .f32 :=
  addf (val_main_v198 (F := F) x0 x1 x2 x3 x4 x5 x9 x10 x11 x12 x13 x14 x15 x16 x17) (val_main_v337 (F := F) x1 x6 x7 x8 x9 x10 x18 x19 x20 x21 x22)

end Cert.RefH

end
-- ==== Proof.Val.KernelGlue.lean ====
/- Between its loops the run only rearranges and combines arrays. These equations name what each sum is fed (`glue_feat…`),
   the loss after each stage (`glue_loss…`), and the values a later loop leaves untouched (`keep_…`). -/
import proofs.«132617_j16140487098675_1_alg».proof.Proof.KI.Run
import proofs.«132617_j16140487098675_1_alg».proof.Proof.Val.Picks
import proofs.«132617_j16140487098675_1_alg».proof.Proof.RefH.Vals
import Idealize.ShloMosaic.Lib.StableHlo.Run
import Idealize.ShloMosaic.Lib.ValueIdx
import Idealize.ShloMosaic.Lib.Pipeline.Value

set_option maxRecDepth 16384

noncomputable section

namespace Cert.Val

open Idealize.ShloMosaic Idealize.ShloMosaic.TcCoe Idealize.SL.Sem Idealize.ShloMosaic.StableHlo
open Cert.KernelIdeal Cert.KernelIdeal.Gen Cert.KernelIdeal.Hand

variable {F : FTy → Type} [FloatOps F]
variable (m : (ℓ : Loc nD τ sig) → Buf (Elt F) ℓ) (ρ : Dev nD → PrngReg) (c : Dev nD)

local macro "host_results" : tactic =>
  `(tactic| simp (disch := decide) only [Matrix.cons_val, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne'])

/-- Concatenation respects equality of its pieces. -/
private theorem concat5_congr {α : Type} {t : Shape} {ax : Fin t.rank} {s0 s1 s2 s3 s4 : Shape}
    (h : Shape.Concatenates [s0, s1, s2, s3, s4] t ax)
    {a0 b0 : s0.Idx → α} {a1 b1 : s1.Idx → α} {a2 b2 : s2.Idx → α} {a3 b3 : s3.Idx → α} {a4 b4 : s4.Idx → α}
    (e0 : a0 = b0) (e1 : a1 = b1) (e2 : a2 = b2) (e3 : a3 = b3) (e4 : a4 = b4) :
    concatenate t ax [⟨s0, a0⟩, ⟨s1, a1⟩, ⟨s2, a2⟩, ⟨s3, a3⟩, ⟨s4, a4⟩] h
      = concatenate t ax [⟨s0, b0⟩, ⟨s1, b1⟩, ⟨s2, b2⟩, ⟨s3, b3⟩, ⟨s4, b4⟩] h := by
  subst e0 e1 e2 e3 e4; rfl

private theorem concat4_congr {α : Type} {t : Shape} {ax : Fin t.rank} {s0 s1 s2 s3 : Shape}
    (h : Shape.Concatenates [s0, s1, s2, s3] t ax)
    {a0 b0 : s0.Idx → α} {a1 b1 : s1.Idx → α} {a2 b2 : s2.Idx → α} {a3 b3 : s3.Idx → α}
    (e0 : a0 = b0) (e1 : a1 = b1) (e2 : a2 = b2) (e3 : a3 = b3) :
    concatenate t ax [⟨s0, a0⟩, ⟨s1, a1⟩, ⟨s2, a2⟩, ⟨s3, a3⟩] h
      = concatenate t ax [⟨s0, b0⟩, ⟨s1, b1⟩, ⟨s2, b2⟩, ⟨s3, b3⟩] h := by
  subst e0 e1 e2 e3; rfl

private theorem at_W8 (r : Ref sig .tc) (h0 : r ∉ hostOps0_W := by decide)
    (a0 : ∀ w, Pipeline.arrRef spec0 w ≠ r := by decide) (h2 : r ∉ hostOps1_W := by decide)
    (h3 : r ∉ hostOps1_1_W := by decide) (h4 : r ∉ hostOps1_2_W := by decide) (h5 : r ∉ hostOps1_3_W := by decide)
    (h6 : r ∉ hostOps1_4_W := by decide) (a1 : ∀ w, Pipeline.arrRef spec1 w ≠ r := by decide) :
    W8 m ρ c (Proc.devRef .tc r) = m ((c : Thread nD τ).loc r) :=
  W8_keep m ρ c r h0 (W2_of_ne m ρ c r a0) h2 h3 h4 h5 h6 (W8_of_ne m ρ c r a1)

private theorem at_W18 (r : Ref sig .tc) (h0 : r ∉ hostOps0_W := by decide)
    (a0 : ∀ w, Pipeline.arrRef spec0 w ≠ r := by decide) (h2 : r ∉ hostOps1_W := by decide)
    (h3 : r ∉ hostOps1_1_W := by decide) (h4 : r ∉ hostOps1_2_W := by decide) (h5 : r ∉ hostOps1_3_W := by decide)
    (h6 : r ∉ hostOps1_4_W := by decide) (a1 : ∀ w, Pipeline.arrRef spec1 w ≠ r := by decide)
    (h8 : r ∉ hostOps2_W := by decide) (h9 : r ∉ hostOps2_1_W := by decide) (h10 : r ∉ hostOps2_2_W := by decide)
    (a2 : ∀ w, Pipeline.arrRef spec2 w ≠ r := by decide) (h12 : r ∉ hostOps3_W := by decide)
    (h13 : r ∉ hostOps3_1_W := by decide) (h14 : r ∉ hostOps3_2_W := by decide) (h15 : r ∉ hostOps3_3_W := by decide)
    (h16 : r ∉ hostOps3_4_W := by decide) (a3 : ∀ w, Pipeline.arrRef spec3 w ≠ r := by decide) :
    W18 m ρ c (Proc.devRef .tc r) = m ((c : Thread nD τ).loc r) :=
  W18_keep m ρ c r h0 (W2_of_ne m ρ c r a0) h2 h3 h4 h5 h6 (W8_of_ne m ρ c r a1) h8 h9 h10 (W12_of_ne m ρ c r a2)
    h12 h13 h14 h15 h16 (W18_of_ne m ρ c r a3)

set_option maxHeartbeats 2000000 in
/-- The lidar sum's input is the five per-point columns side by side. -/
theorem glue_feat0 : W1 m ρ c (Proc.devRef .tc main_v31) =
    concatenate S131072x9 1 [⟨S131072x1, (m ((c.tc : Thread nD τ).loc main_arg0))⟩, ⟨S131072x3, (m ((c.tc : Thread nD τ).loc main_arg1))⟩, ⟨S131072x3, Cert.RefH.val_main_v19 (F := F) (m ((c.tc : Thread nD τ).loc main_arg1)) (m ((c.tc : Thread nD τ).loc main_arg11)) (m ((c.tc : Thread nD τ).loc main_arg12))⟩, ⟨S131072x1, Cert.RefH.val_main_v20 (F := F) (m ((c.tc : Thread nD τ).loc main_arg2))⟩, ⟨S131072x1, Cert.RefH.val_main_v31 (F := F) (m ((c.tc : Thread nD τ).loc main_arg2)) (m ((c.tc : Thread nD τ).loc main_arg11)) (m ((c.tc : Thread nD τ).loc main_arg12))⟩]
      concatenates_S131072x1_S131072x3_S131072x3_S131072x1_S131072x1_S131072x9_d1 := by
  dsimp only [W1, hostOps0]
  host_results
  refine concat5_congr _ ?_ ?_ ?_ ?_ ?_
  · host_results; try rfl
  · host_results; try rfl
  · host_results; try rfl
  · host_results; try rfl
  · host_results; try rfl

set_option maxHeartbeats 2000000 in
theorem glue_feat1 : W11 m ρ c (Proc.devRef .tc main_v147) =
    concatenate S32768x4 1 [⟨S32768x1, (m ((c.tc : Thread nD τ).loc main_arg3))⟩,
        ⟨S32768x1, Host.scatter scatter_S32768x1_S32768x1_S32768x1_1_0_0_1 (fun _ b => b) (Cert.RefH.val_main_v136 (F := F)) (Cert.RefH.val_main_v142 (F := F) (m ((c.tc : Thread nD τ).loc main_arg14))) (W8 m ρ c (Proc.devRef .tc main_v106))⟩,
        ⟨S32768x1, Cert.RefH.val_main_v175 (F := F) (m ((c.tc : Thread nD τ).loc main_arg1)) (m ((c.tc : Thread nD τ).loc main_arg4)) (m ((c.tc : Thread nD τ).loc main_arg16)) (m ((c.tc : Thread nD τ).loc main_arg17))⟩, ⟨S32768x1, W8 m ρ c (Proc.devRef .tc main_v56)⟩]
      concatenates_S32768x1_S32768x1_S32768x1_S32768x1_S32768x4_d1 := by
  dsimp only [W11, W10, W9, hostOps2, hostOps2_1, hostOps2_2]
  host_results
  refine concat4_congr _ ?_ ?_ ?_ ?_
  · host_results
    exact at_W8 m ρ c main_arg3
  · host_results
    rw [at_W8 m ρ c main_arg14]
    rfl
  · host_results
    rw [at_W8 m ρ c main_arg1, at_W8 m ρ c main_arg4, at_W8 m ρ c main_arg16, at_W8 m ρ c main_arg17]
    rfl
  · host_results; try rfl

set_option maxHeartbeats 2000000 in
theorem glue_feat2 : W21 m ρ c (Proc.devRef .tc main_v264) =
    concatenate S32768x4 1 [⟨S32768x1, (m ((c.tc : Thread nD τ).loc main_arg6))⟩,
        ⟨S32768x1, Host.scatter scatter_S32768x1_S32768x1_S32768x1_1_0_0_1 (fun _ b => b) (Cert.RefH.val_main_v276 (F := F)) (Cert.RefH.val_main_v282 (F := F) (m ((c.tc : Thread nD τ).loc main_arg19))) (W18 m ρ c (Proc.devRef .tc main_v223))⟩,
        ⟨S32768x1, Cert.RefH.val_main_v315 (F := F) (m ((c.tc : Thread nD τ).loc main_arg1)) (m ((c.tc : Thread nD τ).loc main_arg7)) (m ((c.tc : Thread nD τ).loc main_arg21)) (m ((c.tc : Thread nD τ).loc main_arg22))⟩, ⟨S32768x1, W18 m ρ c (Proc.devRef .tc main_v173)⟩]
      concatenates_S32768x1_S32768x1_S32768x1_S32768x1_S32768x4_d1 := by
  dsimp only [W21, W20, W19, hostOps4, hostOps4_1, hostOps4_2]
  host_results
  refine concat4_congr _ ?_ ?_ ?_ ?_
  · host_results
    exact at_W18 m ρ c main_arg6
  · host_results
    rw [at_W18 m ρ c main_arg19]
    rfl
  · host_results
    rw [at_W18 m ρ c main_arg1, at_W18 m ρ c main_arg7, at_W18 m ρ c main_arg21, at_W18 m ρ c main_arg22]
    rfl
  · host_results; try rfl

/-- After the lidar stage the loss is that stage's term alone. -/
theorem glue_loss0 : W7 m ρ c (Proc.devRef .tc main_v47) =
    lossOf (F := F) 0x48000000#32 (pick0 (W2 m ρ c (Proc.devRef .tc main_v32))) (pick1 (W2 m ρ c (Proc.devRef .tc main_v32))) (pick2 (W2 m ρ c (Proc.devRef .tc main_v32))) := by
  dsimp only [W7, W6, W5, W4, W3, hostOps1, hostOps1_1, hostOps1_2, hostOps1_3, hostOps1_4]
  after_results_simp
  rfl

/-- Each radar stage adds its own term to the loss so far. -/
theorem glue_loss1 : W17 m ρ c (Proc.devRef .tc main_v164) =
    addf (W12 m ρ c (Proc.devRef .tc main_v47))
      (lossOf (F := F) 0x47000000#32 (pick0 (W12 m ρ c (Proc.devRef .tc main_v148))) (pick1 (W12 m ρ c (Proc.devRef .tc main_v148))) (pick2 (W12 m ρ c (Proc.devRef .tc main_v148)))) := by
  dsimp only [W17, W16, W15, W14, W13, hostOps3, hostOps3_1, hostOps3_2, hostOps3_3, hostOps3_4]
  after_results_simp
  rfl

theorem glue_loss2 : W23 m ρ c (Proc.devRef .tc main_v281) =
    addf (W22 m ρ c (Proc.devRef .tc main_v164))
      (lossOf (F := F) 0x47000000#32 (pick0 (W22 m ρ c (Proc.devRef .tc main_v265))) (pick1 (W22 m ρ c (Proc.devRef .tc main_v265))) (pick2 (W22 m ρ c (Proc.devRef .tc main_v265)))) := by
  dsimp only [W23, hostOps5]
  after_results_simp
  rfl

theorem keep_loss0 : W12 m ρ c (Proc.devRef .tc main_v47) = W7 m ρ c (Proc.devRef .tc main_v47) :=
  (W12_of_ne m ρ c main_v47 (by decide)).trans
    ((StableHlo.after_of_writes_sub hostOps2_2 _ hostOps2_2_writes (by decide)).trans
      ((StableHlo.after_of_writes_sub hostOps2_1 _ hostOps2_1_writes (by decide)).trans
        ((StableHlo.after_of_writes_sub hostOps2 _ hostOps2_writes (by decide)).trans (W8_of_ne m ρ c main_v47 (by decide)))))

theorem keep_dt1 : W8 m ρ c (Proc.devRef .tc main_v56) = W7 m ρ c (Proc.devRef .tc main_v56) :=
  W8_of_ne m ρ c main_v56 (by decide)

theorem keep_loss1 : W22 m ρ c (Proc.devRef .tc main_v164) = W17 m ρ c (Proc.devRef .tc main_v164) :=
  (W22_of_ne m ρ c main_v164 (by decide)).trans
    ((StableHlo.after_of_writes_sub hostOps4_2 _ hostOps4_2_writes (by decide)).trans
      ((StableHlo.after_of_writes_sub hostOps4_1 _ hostOps4_1_writes (by decide)).trans
        ((StableHlo.after_of_writes_sub hostOps4 _ hostOps4_writes (by decide)).trans (W18_of_ne m ρ c main_v164 (by decide)))))

theorem keep_dt2 : W18 m ρ c (Proc.devRef .tc main_v173) = W17 m ρ c (Proc.devRef .tc main_v173) :=
  W18_of_ne m ρ c main_v173 (by decide)

end Cert.Val

end
-- ==== Proof.Val.PredGlueA1.lean ====
/- Between the lidar sum and the first search the run only combines arrays pointwise: what it hands on
   (the array `dt` and the search's query points) are the reference's stage values of the same arguments. -/
import proofs.«132617_j16140487098675_1_alg».proof.Proof.KI.Run
import proofs.«132617_j16140487098675_1_alg».proof.Proof.RefH.Vals
import Idealize.ShloMosaic.Lib.StableHlo.Run

set_option maxRecDepth 16384

noncomputable section

namespace Cert.Val

open Idealize.ShloMosaic Idealize.ShloMosaic.TcCoe Idealize.SL.Sem Idealize.ShloMosaic.StableHlo
open Cert.KernelIdeal Cert.KernelIdeal.Gen Cert.KernelIdeal.Hand

variable {F : FTy → Type} [FloatOps F]
variable (m : (ℓ : Loc nD τ sig) → Buf (Elt F) ℓ) (ρ : Dev nD → PrngReg) (c : Dev nD)

local macro "host_results" : tactic =>
  `(tactic| simp (disch := decide) only [Matrix.cons_val, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne'])

private theorem at_W2 (r : Ref sig .tc) (h0 : r ∉ hostOps0_W := by decide)
    (a0 : ∀ w, Pipeline.arrRef spec0 w ≠ r := by decide) :
    W2 m ρ c (Proc.devRef .tc r) = m ((c : Thread nD τ).loc r) :=
  W2_keep m ρ c r h0 (W2_of_ne m ρ c r a0)

set_option maxHeartbeats 2000000 in
private theorem dt_W5 : W5 m ρ c (Proc.devRef .tc main_v56)
    = Cert.RefH.val_main_v68 (F := F) (m ((c.tc : Thread nD τ).loc main_arg10)) (m ((c.tc : Thread nD τ).loc main_arg13)) := by
  dsimp only [W5, W4, W3, hostOps1, hostOps1_1, hostOps1_2]
  host_results
  rw [at_W2 m ρ c main_arg10, at_W2 m ρ c main_arg13]
  rfl

/-- Nothing after `W5` writes `dt`, so its value at `W7` is the one computed there. -/
theorem glue_dt1 : W7 m ρ c (Proc.devRef .tc main_v56) = Cert.RefH.val_main_v68 (F := F) (m ((c.tc : Thread nD τ).loc main_arg10)) (m ((c.tc : Thread nD τ).loc main_arg13)) :=
  (StableHlo.after_of_writes_sub hostOps1_4 _ hostOps1_4_writes (by decide)).trans
    ((StableHlo.after_of_writes_sub hostOps1_3 _ hostOps1_3_writes (by decide)).trans (dt_W5 m ρ c))

set_option maxHeartbeats 4000000 in
/-- Unfold the pointwise steps; every argument they read is still as given. -/
theorem glue_pred1 : W7 m ρ c (Proc.devRef .tc main_v105) = Cert.RefH.val_main_v117 (F := F) (m ((c.tc : Thread nD τ).loc main_arg4)) (m ((c.tc : Thread nD τ).loc main_arg5)) (m ((c.tc : Thread nD τ).loc main_arg10)) (m ((c.tc : Thread nD τ).loc main_arg13)) (m ((c.tc : Thread nD τ).loc main_arg14)) (m ((c.tc : Thread nD τ).loc main_arg15)) := by
  dsimp only [W7, hostOps1_4]
  host_results
  simp only [at_W2 m ρ c main_arg4, at_W2 m ρ c main_arg5, at_W2 m ρ c main_arg10, at_W2 m ρ c main_arg13,
    at_W2 m ρ c main_arg14, at_W2 m ρ c main_arg15]
  rfl

end Cert.Val

end
-- ==== Proof.Val.PredGlueB.lean ====
/- Between the first radar sum and the second search the run only combines arrays pointwise: what it hands on
   (the array `dt` and the search's query points) are the reference's stage values of the same arguments. -/
import proofs.«132617_j16140487098675_1_alg».proof.Proof.KI.Run
import proofs.«132617_j16140487098675_1_alg».proof.Proof.RefH.Vals
import Idealize.ShloMosaic.Lib.StableHlo.Run

set_option maxRecDepth 16384

noncomputable section

namespace Cert.Val

open Idealize.ShloMosaic Idealize.ShloMosaic.TcCoe Idealize.SL.Sem Idealize.ShloMosaic.StableHlo
open Cert.KernelIdeal Cert.KernelIdeal.Gen Cert.KernelIdeal.Hand

variable {F : FTy → Type} [FloatOps F]
variable (m : (ℓ : Loc nD τ sig) → Buf (Elt F) ℓ) (ρ : Dev nD → PrngReg) (c : Dev nD)

local macro "host_results" : tactic =>
  `(tactic| simp (disch := decide) only [Matrix.cons_val, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne'])

private theorem at_W12 (r : Ref sig .tc) (h0 : r ∉ hostOps0_W := by decide)
    (a0 : ∀ w, Pipeline.arrRef spec0 w ≠ r := by decide) (h2 : r ∉ hostOps1_W := by decide)
    (h3 : r ∉ hostOps1_1_W := by decide) (h4 : r ∉ hostOps1_2_W := by decide) (h5 : r ∉ hostOps1_3_W := by decide)
    (h6 : r ∉ hostOps1_4_W := by decide) (a1 : ∀ w, Pipeline.arrRef spec1 w ≠ r := by decide)
    (h8 : r ∉ hostOps2_W := by decide) (h9 : r ∉ hostOps2_1_W := by decide) (h10 : r ∉ hostOps2_2_W := by decide)
    (a2 : ∀ w, Pipeline.arrRef spec2 w ≠ r := by decide) :
    W12 m ρ c (Proc.devRef .tc r) = m ((c : Thread nD τ).loc r) :=
  W12_keep m ρ c r h0 (W2_of_ne m ρ c r a0) h2 h3 h4 h5 h6 (W8_of_ne m ρ c r a1) h8 h9 h10 (W12_of_ne m ρ c r a2)

set_option maxHeartbeats 2000000 in
private theorem dt_W15 : W15 m ρ c (Proc.devRef .tc main_v173)
    = Cert.RefH.val_main_v208 (F := F) (m ((c.tc : Thread nD τ).loc main_arg10)) (m ((c.tc : Thread nD τ).loc main_arg18)) := by
  dsimp only [W15, W14, W13, hostOps3, hostOps3_1, hostOps3_2]
  host_results
  rw [at_W12 m ρ c main_arg10, at_W12 m ρ c main_arg18]
  rfl

/-- Nothing after `W15` writes `dt`, so its value at `W17` is the one computed there. -/
theorem glue_dt2 : W17 m ρ c (Proc.devRef .tc main_v173) = Cert.RefH.val_main_v208 (F := F) (m ((c.tc : Thread nD τ).loc main_arg10)) (m ((c.tc : Thread nD τ).loc main_arg18)) :=
  (StableHlo.after_of_writes_sub hostOps3_4 _ hostOps3_4_writes (by decide)).trans
    ((StableHlo.after_of_writes_sub hostOps3_3 _ hostOps3_3_writes (by decide)).trans (dt_W15 m ρ c))

set_option maxHeartbeats 4000000 in
/-- Unfold the pointwise steps; every argument they read is still as given. -/
theorem glue_pred2 : W17 m ρ c (Proc.devRef .tc main_v222) = Cert.RefH.val_main_v257 (F := F) (m ((c.tc : Thread nD τ).loc main_arg7)) (m ((c.tc : Thread nD τ).loc main_arg8)) (m ((c.tc : Thread nD τ).loc main_arg10)) (m ((c.tc : Thread nD τ).loc main_arg18)) (m ((c.tc : Thread nD τ).loc main_arg19)) (m ((c.tc : Thread nD τ).loc main_arg20)) := by
  dsimp only [W17, hostOps3_4]
  host_results
  simp only [at_W12 m ρ c main_arg7, at_W12 m ρ c main_arg8, at_W12 m ρ c main_arg10, at_W12 m ρ c main_arg18,
    at_W12 m ρ c main_arg19, at_W12 m ρ c main_arg20]
  rfl

end Cert.Val

end
-- ==== Proof.Val.Stages.lean ====
/- The reference's loss cut into named pieces: a clamped log-variance per point, the weighted sums over all points
   built on it, and the squared distance from a point to the nearest point of a table. -/
import proofs.«132617_j16140487098675_1_alg».proof.ReferenceIdeal
import proofs.«132617_j16140487098675_1_alg».proof.Proof.Gen.ReferenceIdeal
import Idealize.ShloMosaic.PureOps.Ideal

noncomputable section

namespace Cert.ReferenceIdeal.Stage

open Idealize.ShloMosaic Cert.ReferenceIdeal Cert.ReferenceIdeal.Gen

variable {F : FTy → Type} [FloatOps F]

def lidarClip (lv : FVec F S131072x1 .f32) : FVec F S131072x1 .f32 :=
  minimumf (broadcastInDim S131072x1 ![] bcast_S_S131072x1 (constant S_ .f32 0xC0BFBA14#32))
    (maximumf (broadcastInDim S131072x1 ![] bcast_S_S131072x1 (constant S_ .f32 0xC139E47F#32)) lv)

/-- The precision `exp (− clamped log-variance)`. -/
def lidarPrec (lv : FVec F S131072x1 .f32) : FVec F S131072x1 .f32 :=
  Host.exp (Host.negf (lidarClip lv))

def lidarHalf : FVec F S131072x1 .f32 :=
  broadcastInDim S131072x1 ![] bcast_S_S131072x1 (constant S_ .f32 0x3F000000#32)

/-- `∑ᵢ ½ · precᵢ · ‖posᵢ − mpᵢ‖²`. -/
def lidarSumPos (lv : FVec F S131072x1 .f32) (pos mp : FVec F S131072x3 .f32) : FVec F S_ .f32 :=
  Host.reduceAdd
    (mulf (mulf (lidarHalf (F := F)) (lidarPrec lv))
      (broadcastInDim S131072x1 ![0] bcast_S131072_S131072x1_0
        (Host.reduceAdd (mulf (subf pos mp) (subf pos mp)) (constant S_ .f32 0x00000000#32) reducesTo_S131072x3_S131072_d1 h_S_)))
    (constant S_ .f32 0x00000000#32) reducesTo_S131072x1_S_d0_1 h_S_

/-- `∑ᵢ ½ · precᵢ · (itᵢ − miᵢ)²`. -/
def lidarSumInt (lv it mi : FVec F S131072x1 .f32) : FVec F S_ .f32 :=
  Host.reduceAdd
    (mulf (mulf (lidarHalf (F := F)) (lidarPrec lv)) (mulf (subf it mi) (subf it mi)))
    (constant S_ .f32 0x00000000#32) reducesTo_S131072x1_S_d0_1 h_S_

def lidarSumLv (lv : FVec F S131072x1 .f32) : FVec F S_ .f32 :=
  Host.reduceAdd (mulf (lidarHalf (F := F)) (lidarClip lv))
    (constant S_ .f32 0x00000000#32) reducesTo_S131072x1_S_d0_1 h_S_

/-- Row `i` is `minⱼ max (‖predᵢ‖² + ‖gtⱼ‖² − 2 · predᵢ · gtⱼ) 0`: the squared distance from `predᵢ` to its nearest `gtⱼ`. -/
def nearest (pred : FVec F S32768x3 .f32) (gt : FVec F S2048x3 .f32) : FVec F S32768x1 .f32 :=
  broadcastInDim S32768x1 ![0] bcast_S32768_S32768x1_0
    (Host.reduce FloatOps.minimumf
      (maximumf
        (subf
          (addf
            (broadcastInDim S32768x2048 ![0, 1] bcast_S32768x1_S32768x2048_0_1
              (broadcastInDim S32768x1 ![0] bcast_S32768_S32768x1_0
                (Host.reduceAdd (mulf pred pred) (constant S_ .f32 0x00000000#32) reducesTo_S32768x3_S32768_d1 h_S_)))
            (broadcastInDim S32768x2048 ![0, 1] bcast_S1x2048_S32768x2048_0_1
              (broadcastInDim S1x2048 ![1] bcast_S2048_S1x2048_1
                (Host.reduceAdd (mulf gt gt) (constant S_ .f32 0x00000000#32) reducesTo_S2048x3_S2048_d1 h_S_))))
          (Host.dotGeneral dot_S32768x3_S3x2048_S32768x2048_1_0_0_1_n_n none
            (mulf (broadcastInDim S32768x3 ![] bcast_S_S32768x3 (constant S_ .f32 0x40000000#32)) pred)
            (transpose S3x2048 [1, 0] gt transposes_S2048x3_S3x2048_1_0)))
        (broadcastInDim S32768x2048 ![] bcast_S_S32768x2048 (constant S_ .f32 0x00000000#32)))
      (constant S_ .f32 0x7F800000#32) reducesTo_S32768x2048_S32768_d1 h_S_)

def radarClip (lv : FVec F S32768x1 .f32) : FVec F S32768x1 .f32 :=
  minimumf (broadcastInDim S32768x1 ![] bcast_S_S32768x1 (constant S_ .f32 0x31097060#32))
    (maximumf (broadcastInDim S32768x1 ![] bcast_S_S32768x1 (constant S_ .f32 0xC0FA5E96#32)) lv)

/-- `2 · exp (clamped log-variance) · dt² + ε`. -/
def radarDen (lv dt : FVec F S32768x1 .f32) : FVec F S32768x1 .f32 :=
  addf
    (mulf (mulf (broadcastInDim S32768x1 ![] bcast_S_S32768x1 (constant S_ .f32 0x40000000#32)) (Host.exp (radarClip lv)))
      (mulf dt dt))
    (broadcastInDim S32768x1 ![] bcast_S_S32768x1 (constant S_ .f32 0x3089705F#32))

/-- `∑ᵢ xᵢ / denᵢ`. -/
def radarSumOver (lv x dt : FVec F S32768x1 .f32) : FVec F S_ .f32 :=
  Host.reduceAdd (Host.divf x (radarDen lv dt)) (constant S_ .f32 0x00000000#32) reducesTo_S32768x1_S_d0_1 h_S_

def radarSumLv (lv : FVec F S32768x1 .f32) : FVec F S_ .f32 :=
  Host.reduceAdd (mulf (broadcastInDim S32768x1 ![] bcast_S_S32768x1 (constant S_ .f32 0x3F000000#32)) (radarClip lv))
    (constant S_ .f32 0x00000000#32) reducesTo_S32768x1_S_d0_1 h_S_

end Cert.ReferenceIdeal.Stage

end
-- ==== Proof.Val.RefStages.lean ====
/- Each stage value of the reference is, by unfolding alone, one of the named pieces of `Stage` applied to earlier stage values. -/
import proofs.«132617_j16140487098675_1_alg».proof.Proof.Val.Stages
import proofs.«132617_j16140487098675_1_alg».proof.Proof.RefH.Vals

noncomputable section

namespace Cert.Val

open Idealize.ShloMosaic Cert.ReferenceIdeal Cert.RefH Cert.ReferenceIdeal.Stage

variable {F : FTy → Type} [FloatOps F]

theorem ref_lidar_pos (x0 x1 x11 x12) :
    val_main_v43 (F := F) x0 x1 x11 x12 = lidarSumPos (F := F) x0 x1 (val_main_v19 (F := F) x1 x11 x12) := rfl

theorem ref_lidar_int (x0 x2 x11 x12) :
    val_main_v48 (F := F) x0 x2 x11 x12 = lidarSumInt (F := F) x0 (val_main_v20 (F := F) x2) (val_main_v31 (F := F) x2 x11 x12) := rfl

theorem ref_lidar_lv (x0) :
    val_main_v52 (F := F) x0 = lidarSumLv (F := F) x0 := rfl

theorem ref_near1 (x4 x5 x9 x10 x13 x14 x15) :
    val_main_v135 (F := F) x4 x5 x9 x10 x13 x14 x15 = nearest (F := F) (val_main_v117 (F := F) x4 x5 x10 x13 x14 x15) x9 := rfl

theorem ref_radar1_phys (x3 x4 x5 x9 x10 x13 x14 x15) :
    val_main_v184 (F := F) x3 x4 x5 x9 x10 x13 x14 x15 = radarSumOver (F := F) x3 (val_main_v143 (F := F) x4 x5 x9 x10 x13 x14 x15) (val_main_v68 (F := F) x10 x13) := rfl

theorem ref_radar1_spat (x1 x3 x4 x10 x13 x16 x17) :
    val_main_v187 (F := F) x1 x3 x4 x10 x13 x16 x17 = radarSumOver (F := F) x3 (val_main_v175 (F := F) x1 x4 x16 x17) (val_main_v68 (F := F) x10 x13) := rfl

theorem ref_radar1_lv (x3) :
    val_main_v191 (F := F) x3 = radarSumLv (F := F) x3 := rfl

theorem ref_near2 (x7 x8 x9 x10 x18 x19 x20) :
    val_main_v275 (F := F) x7 x8 x9 x10 x18 x19 x20 = nearest (F := F) (val_main_v257 (F := F) x7 x8 x10 x18 x19 x20) x9 := rfl

theorem ref_radar2_phys (x6 x7 x8 x9 x10 x18 x19 x20) :
    val_main_v324 (F := F) x6 x7 x8 x9 x10 x18 x19 x20 = radarSumOver (F := F) x6 (val_main_v283 (F := F) x7 x8 x9 x10 x18 x19 x20) (val_main_v208 (F := F) x10 x18) := rfl

theorem ref_radar2_spat (x1 x6 x7 x10 x18 x21 x22) :
    val_main_v327 (F := F) x1 x6 x7 x10 x18 x21 x22 = radarSumOver (F := F) x6 (val_main_v315 (F := F) x1 x7 x21 x22) (val_main_v208 (F := F) x10 x18) := rfl

theorem ref_radar2_lv (x6) :
    val_main_v331 (F := F) x6 = radarSumLv (F := F) x6 := rfl

end Cert.Val

end
-- ==== Proof.KI.LidarSumFinal.lean ====
/- What the lidar sum leaves behind: the output ends as the last partial sum `acc0 15`,
   and block `t` of the input is rows `8192·t + r` of the whole array. -/
import proofs.«132617_j16140487098675_1_alg».proof.Proof.KI.LidarSumData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

variable (V : (c : Dev nD) → (b : Ref sig .tc) → Buf (Elt F) ((c : Thread nD τ).loc b))

abbrev total0 (c : Dev nD) : Buf (Elt F) ((c : Thread nD τ).loc main_v32) :=
  acc0 V c 15 (by rw [show cfg0.N = 16 from N_0]; decide)

theorem out_off_zero : (fun a => win0_1.index t0_15 a * main_v32.ty.shape.size a) = fun _ => 0 :=
  funext fun a => by
    match a with
    | ⟨0, _⟩ => exact (by decide : win0_1.index t0_15 0 * main_v32.ty.shape.size 0 = 0)
    | ⟨1, _⟩ => exact (by decide : win0_1.index t0_15 1 * main_v32.ty.shape.size 1 = 0)

theorem flushed_out (c : Dev nD) (t : Fin cfg0.N) (hf : (cfg0.win 1).flush t = true) :
    (dat0 V c).flushed 1 t = ((cfg0.win 1).blk t).view.read (Elt F) (total0 V c) := by
  have hN : cfg0.N = 16 := N_0
  have h15 : t.val = 15 := by have := (flush0_1 t).mp hf; have := t.isLt; omega
  obtain rfl : t = t0_15 := Fin.ext h15
  show (cfg0.win 1).cut (grid0.coords t0_15) ((dat0 V c).after 1 t0_15) = _
  rw [dat0_after_out]
  exact (Memref.read_access_unit_zero (Elt F) main_v32 out_off_zero
    (fun a => by rw [congrFun out_off_zero a]; simp) (total0 V c)).symm

theorem mem_last_block (c : Dev nD) (i : ((cfg0.win 1).arr.view.loc (c.tc : Thread nD τ)).2.ty.Idx) :
    i ∈ ((cfg0.win 1).blk t0_15).view.set := by
  show i ∈ ((View.whole main_v32).slice (win0_1.rect t0_15)).set
  rw [View.set_slice_whole, Rect.mem_set_unit]
  intro a
  have h0 : (i 0 : Nat) < 1 := (i 0).isLt
  have h1 : (i 1 : Nat) < 3 := (i 1).isLt
  match a with
  | ⟨0, _⟩ =>
    show win0_1.index t0_15 0 * win0_1.size 0 ≤ (i 0 : Nat)
      ∧ (i 0 : Nat) < win0_1.index t0_15 0 * win0_1.size 0 + win0_1.xsize (grid0.coords t0_15) 0
    rw [show win0_1.index t0_15 0 * win0_1.size 0 = 0 from by decide +kernel,
      show win0_1.xsize (grid0.coords t0_15) 0 = 1 from by decide +kernel]
    omega
  | ⟨1, _⟩ =>
    show win0_1.index t0_15 1 * win0_1.size 1 ≤ (i 1 : Nat)
      ∧ (i 1 : Nat) < win0_1.index t0_15 1 * win0_1.size 1 + win0_1.xsize (grid0.coords t0_15) 1
    rw [show win0_1.index t0_15 1 * win0_1.size 1 = 0 from by decide +kernel,
      show win0_1.xsize (grid0.coords t0_15) 1 = 3 from by decide +kernel]
    omega

/-- The last step's block covers every output index, so the final output is the value after that step. -/
theorem out0_final (c : Dev nD) : (dat0 V c).arrAt 1 cfg0.N = total0 V c :=
  (dat0 V c).arrAt_eq_of_cover 1 (total0 V c) (flushed_out V c) fun i =>
    ⟨t0_15, (flush0_1 t0_15).mpr rfl, mem_last_block c i⟩

theorem in_index : ∀ t : Fin cfg0.N, win0_0.index t 0 = t.val ∧ win0_0.index t 1 = 0 :=
  (by decide +kernel : ∀ t : Fin grid0.N, win0_0.index t 0 = t.val ∧ win0_0.index t 1 = 0)

/-- Row `r` of block `t` is row `8192·t + r` of the array; the value proof reads blocks through this. -/
theorem blk0_apply (c : Dev nD) (t : Fin cfg0.N) (y : S8192x9.Idx) :
    (blk0 V c 0 t : Vec F S8192x9 .f32) y
      = (V c (Pipeline.arrRef spec0 0) : Vec F S131072x9 .f32)
          (ValueIdx.ix2
            (⟨8192 * t.val + (y 0).val, by
              have h1 : t.val < 16 := lt_of_lt_of_eq t.isLt (show cfg0.N = 16 from N_0)
              have h2 : (y 0).val < 8192 := ValueIdx.idx2_lt0 y
              omega⟩ : Fin 131072)
            (⟨(y 1).val, ValueIdx.idx2_lt1 y⟩ : Fin 9)) := by
  unfold blk0
  rw [View.read_apply]
  show V c (Pipeline.arrRef spec0 0) _ = V c (Pipeline.arrRef spec0 0) _
  refine congrArg (V c (Pipeline.arrRef spec0 0)) ?_
  funext a
  apply Fin.ext
  match a with
  | ⟨0, _⟩ =>
    show win0_0.index t 0 * 8192 + 1 * (y 0).val = 8192 * t.val + (y 0).val
    rw [(in_index t).1]; omega
  | ⟨1, _⟩ =>
    show win0_0.index t 1 * 9 + 1 * (y 1).val = (y 1).val
    rw [(in_index t).2]; omega

end Cert.KernelIdeal.Hand

end
-- ==== Proof.Val.Common.lean ====
/- What the three value laws share: a cast, a broadcast, a sum or a minimum along one axis of an `n × m` array read entry by entry;
   a concatenation along the columns; a sum over rows split into blocks; a running total. -/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Mathlib.Algebra.BigOperators.Fin
import Mathlib.Data.Fintype.BigOperators
import Mathlib.Logic.Equiv.Fin.Basic
import Mathlib.Data.EReal.Operations

noncomputable section

namespace Cert.Val

open Idealize.ShloMosaic Idealize.ShloMosaic.ValueIdx

section Column
variable {α : Type}

/-- Along an axis of extent `a` a broadcast reads coordinate `r` itself, unless `a = 1`, where the only coordinate is `0`. -/
theorem bcast_val {a : ℕ} (r : Fin a) : r.val = if a = 1 then 0 else r.val := by
  split
  · have := r.isLt; omega
  · rfl

theorem shapeCast_col_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem broadcastTo_col_apply {a b : ℕ} (x : (⟨2, ![a, 1]⟩ : Shape).Idx → α)
    (h : (⟨2, ![a, 1]⟩ : Shape).Broadcasts ⟨2, ![a, b]⟩) (r : Fin a) (c : Fin b) :
    broadcastTo ⟨2, ![a, b]⟩ x h (ix2 r c) = x (ix2 r (0 : Fin 1)) := by
  refine broadcastTo_apply x h (ix2 r c) (ix2 r (0 : Fin 1)) fun ax => ?_
  match ax with
  | ⟨0, _⟩ => exact bcast_val r
  | ⟨1, _⟩ => rfl

theorem broadcastInDim_col_apply {a : ℕ} (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ (![0] : Fin 1 → Fin 2) h x (ix2 r u) = x (ix1 r) := by
  refine broadcastInDim_apply (![0] : Fin 1 → Fin 2) h x (ix2 r u) (ix1 r) fun ax => ?_
  match ax with
  | ⟨0, _⟩ => exact bcast_val r

theorem broadcastInDim_row_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ (![1] : Fin 1 → Fin 2) h x (ix2 u c) = x (ix1 c) := by
  refine broadcastInDim_apply (![1] : Fin 1 → Fin 2) h x (ix2 u c) (ix1 c) fun ax => ?_
  match ax with
  | ⟨0, _⟩ => exact bcast_val c

theorem broadcastInDim_colwise_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (c : Fin b) :
    broadcastInDim ⟨2, ![a, b]⟩ (![0, 1] : Fin 2 → Fin 2) h x (ix2 r c) = x (ix2 r (0 : Fin 1)) := by
  refine broadcastInDim_apply (![0, 1] : Fin 2 → Fin 2) h x (ix2 r c) (ix2 r (0 : Fin 1)) fun ax => ?_
  match ax with
  | ⟨0, _⟩ => exact bcast_val r
  | ⟨1, _⟩ => rfl

theorem broadcastInDim_rowwise_apply {a b : ℕ} (x : (⟨2, ![1, b]⟩ : Shape).Idx → α)
    (h : (⟨2, ![1, b]⟩ : Shape).BroadcastsInDim ⟨2, ![a, b]⟩ (![0, 1] : Fin 2 → Fin 2)) (r : Fin a) (c : Fin b) :
    broadcastInDim ⟨2, ![a, b]⟩ (![0, 1] : Fin 2 → Fin 2) h x (ix2 r c) = x (ix2 (0 : Fin 1) c) := by
  refine broadcastInDim_apply (![0, 1] : Fin 2 → Fin 2) h x (ix2 r c) (ix2 (0 : Fin 1) c) fun ax => ?_
  match ax with
  | ⟨0, _⟩ => rfl
  | ⟨1, _⟩ => exact bcast_val c

end Column

section Reductions

theorem lift_last {n m : ℕ} (h : (⟨2, ![n, m]⟩ : Shape).Reduces [1] ⟨1, ![n]⟩) (r : Fin n) (q : Fin m) :
    h.lift (ix1 r) q = ix2 r q := by
  funext ax; apply Fin.ext
  match ax with
  | ⟨0, _⟩ => rfl
  | ⟨1, _⟩ => rfl

theorem lift_first {n m : ℕ} (h : (⟨2, ![n, m]⟩ : Shape).Reduces [0] ⟨1, ![m]⟩) (c : Fin m) (q : Fin n) :
    h.lift (ix1 c) q = ix2 q c := by
  funext ax; apply Fin.ext
  match ax with
  | ⟨0, _⟩ => rfl
  | ⟨1, _⟩ => rfl

theorem multiReduction_add_rows_apply {n m : ℕ} (x : FVec Ideal ⟨2, ![n, m]⟩ .f32)
    (h : (⟨2, ![n, m]⟩ : Shape).Reduces [1] ⟨1, ![n]⟩) (hφ : FKind.Formats .f32)
    (hacc : (0x00000000#32 : BitVec 32) = 0x00000000#32) (r : Fin n) :
    multiReduction (F := Ideal) .add [1] ⟨1, ![n]⟩ x 0x00000000#32 h hφ hacc (ix1 r) = ∑ q : Fin m, x (ix2 r q) :=
  (Ideal.multiReduction_add_single x 0x00000000#32 h hφ hacc (ix1 r)).trans
    (Finset.sum_congr rfl fun q _ => congrArg x (lift_last h r q))

theorem multiReduction_add_cols_apply {n m : ℕ} (x : FVec Ideal ⟨2, ![n, m]⟩ .f32)
    (h : (⟨2, ![n, m]⟩ : Shape).Reduces [0] ⟨1, ![m]⟩) (hφ : FKind.Formats .f32)
    (hacc : (0x00000000#32 : BitVec 32) = 0x00000000#32) (c : Fin m) :
    multiReduction (F := Ideal) .add [0] ⟨1, ![m]⟩ x 0x00000000#32 h hφ hacc (ix1 c) = ∑ q : Fin n, x (ix2 q c) :=
  (Ideal.multiReduction_add_single x 0x00000000#32 h hφ hacc (ix1 c)).trans
    (Finset.sum_congr rfl fun q _ => congrArg x (lift_first h c q))

theorem multiReduction_min_rows_apply {n m : ℕ} (x : FVec Ideal ⟨2, ![n, m]⟩ .f32)
    (h : (⟨2, ![n, m]⟩ : Shape).Reduces [1] ⟨1, ![n]⟩) (hφ : FKind.Formats .f32)
    (hacc : (0x7F800000#32 : BitVec 32) = 0x7F800000#32) (r : Fin n) :
    multiReduction (F := Ideal) .minimumf [1] ⟨1, ![n]⟩ x 0x7F800000#32 h hφ hacc (ix1 r)
      = (Finset.univ : Finset (Fin m)).fold min (Ideal.ofBits .f32 0x7F800000#32) (fun c => x (ix2 r c)) := by
  refine (multiReduction_minimumf_eq_fold x 0x7F800000#32 h hφ hacc (ix1 r)).trans ?_
  refine (h.fold_filter_drop_single (FloatOps.minimumf (F := Ideal) (φ := .f32))
    (FloatOps.ofBits (F := Ideal) .f32 0x7F800000#32) x (ix1 r)).trans ?_
  exact congrArg
    (fun f : Fin m → EReal => (Finset.univ : Finset (Fin m)).fold min (Ideal.ofBits .f32 0x7F800000#32) f)
    (funext fun c => congrArg x (lift_last h r c))

theorem hostReduceAdd_rows_apply {n m : ℕ} (x : FVec Ideal ⟨2, ![n, m]⟩ .f32) (init : FVec Ideal ⟨0, ![]⟩ .f32)
    (h' : (⟨2, ![n, m]⟩ : Shape).ReducesTo [1] ⟨1, ![n]⟩) (h : (⟨2, ![n, m]⟩ : Shape).Reduces [1] ⟨1, ![n]⟩)
    (hu : 0 < (⟨0, ![]⟩ : Shape).numel) (r : Fin n) :
    Host.reduceAdd (F := Ideal) x init h' hu (ix1 r) = init (Shape.Idx.first hu) + ∑ q : Fin m, x (ix2 r q) :=
  (Ideal.hostReduceAdd_single h' h x (init (Shape.Idx.first hu)) (ix1 r)).trans
    (congrArg (init (Shape.Idx.first hu) + ·) (Finset.sum_congr rfl fun q _ => congrArg x (lift_last h r q)))

theorem hostReduce_min_rows_apply {n m : ℕ} (x : FVec Ideal ⟨2, ![n, m]⟩ .f32) (init : FVec Ideal ⟨0, ![]⟩ .f32)
    (h' : (⟨2, ![n, m]⟩ : Shape).ReducesTo [1] ⟨1, ![n]⟩) (h : (⟨2, ![n, m]⟩ : Shape).Reduces [1] ⟨1, ![n]⟩)
    (hu : 0 < (⟨0, ![]⟩ : Shape).numel) (r : Fin n) :
    Host.reduce (FloatOps.minimumf (F := Ideal) (φ := .f32)) x init h' hu (ix1 r)
      = (Finset.univ : Finset (Fin m)).fold min (init (Shape.Idx.first hu)) (fun c => x (ix2 r c)) := by
  refine (Host.reduce_eq_fold_single (FloatOps.minimumf (F := Ideal) (φ := .f32)) x init h' h hu (ix1 r)).trans ?_
  exact congrArg
    (fun f : Fin m → EReal => (Finset.univ : Finset (Fin m)).fold min (init (Shape.Idx.first hu)) f)
    (funext fun c => congrArg x (lift_last h r c))

end Reductions

section Concat
variable {α : Type}

/-- Along the columns, entry `(i, pre + k)` of a concatenation is entry `(i, k)` of the piece whose columns start at `pre`. -/
theorem concat_cols_apply {n w m : ℕ} (xs : List ((s : Shape) × (s.Idx → α)))
    (h : Shape.Concatenates (xs.map (·.1)) ⟨2, ![n, w]⟩ 1) (p : ℕ) (hp : p < xs.length)
    (x : (⟨2, ![n, m]⟩ : Shape).Idx → α) (hx : xs[p] = ⟨⟨2, ![n, m]⟩, x⟩) (pre : ℕ)
    (hpre : (((xs.take p).map (·.1)).map fun s => if e : s.rank = (⟨2, ![n, w]⟩ : Shape).rank then
      s.size ((1 : Fin (⟨2, ![n, w]⟩ : Shape).rank).cast e.symm) else 0).sum = pre)
    (i : Fin n) (k : Fin m) (q : Fin w) (hq : pre + k.val = q.val) :
    concatenate ⟨2, ![n, w]⟩ 1 xs h (ix2 i q) = x (ix2 i k) :=
  concatenate_apply_piece (1 : Fin (⟨2, ![n, w]⟩ : Shape).rank) xs h (ix2 i q) p hp _ x hx rfl pre hpre (ix2 i k)
    (fun b hb => match b, hb with
      | ⟨0, _⟩, _ => rfl
      | ⟨1, _⟩, hb => (hb rfl).elim) hq

/-- Three `1 × 1` arrays side by side: entry `(0, k)` is the `k`-th of them. -/
theorem cat3_apply (a b c : (⟨2, ![1, 1]⟩ : Shape).Idx → α)
    (h : Shape.Concatenates [⟨2, ![1, 1]⟩, ⟨2, ![1, 1]⟩, ⟨2, ![1, 1]⟩] ⟨2, ![1, 3]⟩ 1) :
    concatenate ⟨2, ![1, 3]⟩ 1 [⟨_, a⟩, ⟨_, b⟩, ⟨_, c⟩] h (ix2 (0 : Fin 1) (0 : Fin 3)) = a (ix2 (0 : Fin 1) (0 : Fin 1))
    ∧ concatenate ⟨2, ![1, 3]⟩ 1 [⟨_, a⟩, ⟨_, b⟩, ⟨_, c⟩] h (ix2 (0 : Fin 1) (1 : Fin 3)) = b (ix2 (0 : Fin 1) (0 : Fin 1))
    ∧ concatenate ⟨2, ![1, 3]⟩ 1 [⟨_, a⟩, ⟨_, b⟩, ⟨_, c⟩] h (ix2 (0 : Fin 1) (2 : Fin 3)) = c (ix2 (0 : Fin 1) (0 : Fin 1)) :=
  ⟨concat_cols_apply [⟨_, a⟩, ⟨_, b⟩, ⟨_, c⟩] h 0 (by simp) a rfl 0 rfl 0 0 0 rfl,
    concat_cols_apply [⟨_, a⟩, ⟨_, b⟩, ⟨_, c⟩] h 1 (by simp) b rfl 1 rfl 0 0 1 rfl,
    concat_cols_apply [⟨_, a⟩, ⟨_, b⟩, ⟨_, c⟩] h 2 (by simp) c rfl 2 rfl 0 0 2 rfl⟩

end Concat

section Sums

/-- The reference's sum of all entries of an `n × 1` array, started from zero, is the plain sum of its rows. -/
theorem hostSumAll_apply {n : ℕ} (x : FVec Ideal ⟨2, ![n, 1]⟩ .f32) (h : (⟨2, ![n, 1]⟩ : Shape).ReducesTo [0, 1] ⟨0, ![]⟩)
    (hu : 0 < (⟨0, ![]⟩ : Shape).numel) :
    Host.reduceAdd (F := Ideal) x (constant (F := Ideal) ⟨0, ![]⟩ .f32 0x00000000#32) h hu ix0
      = ∑ i : Fin n, x (ix2 i (0 : Fin 1)) := by
  refine (Ideal.hostReduceAdd_total h (fun b => b.elim0) x _ ix0).trans ?_
  show Ideal.ofBits .f32 0x00000000#32 + ∑ j : (⟨2, ![n, 1]⟩ : Shape).Idx, x j = _
  rw [Ideal.ofBits_zero_f32, zero_add]
  refine (sum_idx2 (n0 := n) (n1 := 1) x).trans ?_
  exact Finset.sum_congr rfl fun i _ => Fin.sum_univ_one (fun b : Fin 1 => x (ix2 i b))

/-- A sum over `T * R` rows taken block by block: row `R * t + r` is row `r` of block `t`. -/
theorem sum_blocks {T R N : ℕ} (hN : T * R = N) (f : Fin N → EReal)
    (hlt : ∀ (t : Fin T) (r : Fin R), R * t.val + r.val < N) :
    ∑ t : Fin T, ∑ r : Fin R, f ⟨R * t.val + r.val, hlt t r⟩ = ∑ i : Fin N, f i := by
  subst hN
  exact (Fintype.sum_prod_type' fun (t : Fin T) (r : Fin R) => f ⟨R * t.val + r.val, hlt t r⟩).symm.trans
    (Fintype.sum_equiv finProdFinEquiv _ f fun p => congrArg f (Fin.ext (Nat.add_comm _ _)))

/-- A sequence that starts at `g 0` and adds `g (n + 1)` at step `n + 1` has reached `∑ g` at the last step. -/
theorem running_total {N : ℕ} [NeZero N] (M : ℕ) (hM : M + 1 = N) (a : ℕ → EReal) (g : Fin N → EReal) (h0 : a 0 = 0 + g 0)
    (hs : ∀ (n : ℕ) (h : n + 1 < N), a (n + 1) = a n + g ⟨n + 1, h⟩) : a M = ∑ t : Fin N, g t := by
  have key : ∀ (n : ℕ) (h : n < N), a n = ∑ t : Fin (n + 1), g ⟨t.val, by have := t.isLt; omega⟩ := by
    intro n
    induction n with
    | zero =>
      intro h
      rw [h0, zero_add, Fin.sum_univ_one]
      exact congrArg g (Fin.ext (Nat.zero_mod N))
    | succ n ih =>
      intro h
      rw [hs n h, ih (by omega)]
      exact (Fin.sum_univ_castSucc (fun t : Fin (n + 1 + 1) => g ⟨t.val, by have := t.isLt; omega⟩)).symm
  subst hM
  exact (key M (by omega)).trans (Finset.sum_congr rfl fun t _ => rfl)

end Sums

end Cert.Val

end
-- ==== Proof.Val.LidarLaw.lean ====
/- Why the blockwise lidar sum is the reference's sum: a sum over 131072 rows splits into 16 blocks of 8192 rows,
   a running total over the blocks reaches the full sum, and each step adds exactly its own block's terms. -/
import proofs.«132617_j16140487098675_1_alg».proof.Proof.Val.Stages
import proofs.«132617_j16140487098675_1_alg».proof.Proof.Gen.KernelIdeal.Skeleton
import proofs.«132617_j16140487098675_1_alg».proof.Proof.Val.Common

noncomputable section

namespace Cert.Val

open Idealize.ShloMosaic Idealize.ShloMosaic.ValueIdx
open Cert.KernelIdeal (S131072x1 S131072x3 S131072x9 S8192x9 S8192x1 S8192x3 S8192 S1 S1x1 S8192x4 S1x3 S32768x1 S32768x3 S32768x4 S2048x3 S1024x3 S1024x1)
open Cert.KernelIdeal.Gen (k0_pay1 k0_pay2 k1_pay1 k2_pay1 k2_pay2)

namespace Lidar

def rowOf (t : Fin 16) (r : Fin 8192) : Fin 131072 :=
  ⟨8192 * t.val + r.val, by have := t.isLt; have := r.isLt; omega⟩

/-- Reindex the rows as `i = 8192 · t + r`. -/
theorem sum_rows_eq_sum_blocks (f : Fin 131072 → EReal) :
    ∑ i : Fin 131072, f i = ∑ t : Fin 16, ∑ r : Fin 8192, f (rowOf t r) :=
  (sum_blocks (T := 16) (R := 8192) rfl f fun t r => (rowOf t r).isLt).symm

def clipE (x : EReal) : EReal :=
  min (Ideal.ofBits .f32 0xC0BFBA14#32) (max (Ideal.ofBits .f32 0xC139E47F#32) x)

def termPos (l : EReal) (p m : Fin 3 → EReal) : EReal :=
  Ideal.ofBits .f32 0x3F000000#32 * Ideal.exp (-(clipE l)) * ∑ k : Fin 3, (p k - m k) * (p k - m k)

def termInt (l a b : EReal) : EReal :=
  Ideal.ofBits .f32 0x3F000000#32 * Ideal.exp (-(clipE l)) * ((a - b) * (a - b))

def termLv (l : EReal) : EReal := Ideal.ofBits .f32 0x3F000000#32 * clipE l

def colP (k : Fin 3) : Fin 9 := ⟨1 + k.val, by have := k.isLt; omega⟩
def colM (k : Fin 3) : Fin 9 := ⟨4 + k.val, by have := k.isLt; omega⟩

theorem clip_row (v3 : FVec Ideal S8192x9 .f32) (h0 : S8192x9.Slices ![0, 0] S8192x1) (r : Fin 8192) :
    minimumf (broadcast S8192x1 (Scalar.ofBits (F := Ideal) .f32 0xC0BFBA14#32))
        (maximumf (broadcast S8192x1 (Scalar.ofBits (F := Ideal) .f32 0xC139E47F#32)) (extractStridedSlice S8192x1 ![0, 0] v3 h0))
        (ix2 r (0 : Fin 1))
      = clipE (v3 (ix2 r (0 : Fin 9))) := by
  show min (Ideal.ofBits .f32 0xC0BFBA14#32)
      (max (Ideal.ofBits .f32 0xC139E47F#32) (extractStridedSlice S8192x1 ![0, 0] v3 h0 (ix2 r (0 : Fin 1)))) = _
  rw [slice2_axis1_apply 0 v3 h0 r (0 : Fin 1) (0 : Fin 9) rfl]
  rfl

theorem prec_row (v3 : FVec Ideal S8192x9 .f32) (h0 : S8192x9.Slices ![0, 0] S8192x1) (r : Fin 8192) :
    mulf (broadcast S8192x1 (Scalar.ofBits (F := Ideal) .f32 0x3F000000#32))
        (Idealize.ShloMosaic.exp (subf (broadcast S8192x1 (Scalar.ofBits (F := Ideal) .f32 0x00000000#32))
          (minimumf (broadcast S8192x1 (Scalar.ofBits (F := Ideal) .f32 0xC0BFBA14#32))
            (maximumf (broadcast S8192x1 (Scalar.ofBits (F := Ideal) .f32 0xC139E47F#32)) (extractStridedSlice S8192x1 ![0, 0] v3 h0)))))
        (ix2 r (0 : Fin 1))
      = Ideal.ofBits .f32 0x3F000000#32 * Ideal.exp (-(clipE (v3 (ix2 r (0 : Fin 9))))) := by
  show Ideal.ofBits .f32 0x3F000000#32 * Ideal.exp (Ideal.ofBits .f32 0x00000000#32 -
      (minimumf (broadcast S8192x1 (Scalar.ofBits (F := Ideal) .f32 0xC0BFBA14#32))
        (maximumf (broadcast S8192x1 (Scalar.ofBits (F := Ideal) .f32 0xC139E47F#32)) (extractStridedSlice S8192x1 ![0, 0] v3 h0))
        (ix2 r (0 : Fin 1)))) = _
  rw [clip_row, Ideal.ofBits_zero_f32, zero_sub]

theorem sqdiff_row (v3 : FVec Ideal S8192x9 .f32) (h1 : S8192x9.Slices ![0, 1] S8192x3) (h4 : S8192x9.Slices ![0, 4] S8192x3)
    (r : Fin 8192) (k : Fin 3) :
    mulf (subf (extractStridedSlice S8192x3 ![0, 1] v3 h1) (extractStridedSlice S8192x3 ![0, 4] v3 h4))
        (subf (extractStridedSlice S8192x3 ![0, 1] v3 h1) (extractStridedSlice S8192x3 ![0, 4] v3 h4)) (ix2 r k)
      = (v3 (ix2 r (colP k)) - v3 (ix2 r (colM k))) * (v3 (ix2 r (colP k)) - v3 (ix2 r (colM k))) := by
  show (extractStridedSlice S8192x3 ![0, 1] v3 h1 (ix2 r k) - extractStridedSlice S8192x3 ![0, 4] v3 h4 (ix2 r k))
      * (extractStridedSlice S8192x3 ![0, 1] v3 h1 (ix2 r k) - extractStridedSlice S8192x3 ![0, 4] v3 h4 (ix2 r k)) = _
  rw [slice2_axis1_apply 1 v3 h1 r k (colP k) rfl, slice2_axis1_apply 4 v3 h4 r k (colM k) rfl]

theorem sqint_row (v3 : FVec Ideal S8192x9 .f32) (h7 : S8192x9.Slices ![0, 7] S8192x1) (h8 : S8192x9.Slices ![0, 8] S8192x1)
    (r : Fin 8192) :
    mulf (subf (extractStridedSlice S8192x1 ![0, 7] v3 h7) (extractStridedSlice S8192x1 ![0, 8] v3 h8))
        (subf (extractStridedSlice S8192x1 ![0, 7] v3 h7) (extractStridedSlice S8192x1 ![0, 8] v3 h8)) (ix2 r (0 : Fin 1))
      = (v3 (ix2 r (7 : Fin 9)) - v3 (ix2 r (8 : Fin 9))) * (v3 (ix2 r (7 : Fin 9)) - v3 (ix2 r (8 : Fin 9))) := by
  show (extractStridedSlice S8192x1 ![0, 7] v3 h7 (ix2 r (0 : Fin 1)) - extractStridedSlice S8192x1 ![0, 8] v3 h8 (ix2 r (0 : Fin 1)))
      * (extractStridedSlice S8192x1 ![0, 7] v3 h7 (ix2 r (0 : Fin 1)) - extractStridedSlice S8192x1 ![0, 8] v3 h8 (ix2 r (0 : Fin 1))) = _
  rw [slice2_axis1_apply 7 v3 h7 r (0 : Fin 1) (7 : Fin 9) rfl, slice2_axis1_apply 8 v3 h8 r (0 : Fin 1) (8 : Fin 9) rfl]

set_option backward.isDefEq.respectTransparency.types false in
/-- Entry 0 after a step is entry 0 before it plus the block's sum of `termPos`; entries 1 and 2 likewise. -/
theorem pay2_at0 (v3 : FVec Ideal S8192x9 .f32) (v37 : FVec Ideal S1x3 .f32) :
    k0_pay2 (F := Ideal) v3 v37 (ix2 (0 : Fin 1) (0 : Fin 3))
      = v37 (ix2 (0 : Fin 1) (0 : Fin 3))
        + ∑ r : Fin 8192, termPos (v3 (ix2 r (0 : Fin 9))) (fun k => v3 (ix2 r (colP k))) (fun k => v3 (ix2 r (colM k))) := by
  unfold k0_pay2
  try dsimp only
  simp only [shapeCast_self]
  rw [addf_apply, (cat3_apply _ _ _ _).1, shapeCast_a_1a_apply, multiReduction_add_cols_apply]
  refine congrArg (fun z => v37 (ix2 (0 : Fin 1) (0 : Fin 3)) + z) (Finset.sum_congr rfl fun r _ => ?_)
  rw [mulf_apply, shapeCast_col_apply, multiReduction_add_rows_apply]
  simp only [shapeCast_self]
  unfold termPos
  refine congrArg₂ (· * ·) (prec_row v3 _ r) (Finset.sum_congr rfl fun k _ => sqdiff_row v3 _ _ r k)

set_option backward.isDefEq.respectTransparency.types false in
theorem pay2_at1 (v3 : FVec Ideal S8192x9 .f32) (v37 : FVec Ideal S1x3 .f32) :
    k0_pay2 (F := Ideal) v3 v37 (ix2 (0 : Fin 1) (1 : Fin 3))
      = v37 (ix2 (0 : Fin 1) (1 : Fin 3))
        + ∑ r : Fin 8192, termInt (v3 (ix2 r (0 : Fin 9))) (v3 (ix2 r (7 : Fin 9))) (v3 (ix2 r (8 : Fin 9))) := by
  unfold k0_pay2
  try dsimp only
  simp only [shapeCast_self]
  rw [addf_apply, (cat3_apply _ _ _ _).2.1, shapeCast_a_1a_apply, multiReduction_add_cols_apply]
  refine congrArg (fun z => v37 (ix2 (0 : Fin 1) (1 : Fin 3)) + z) (Finset.sum_congr rfl fun r _ => ?_)
  rw [mulf_apply]
  simp only [shapeCast_self]
  unfold termInt
  exact congrArg₂ (· * ·) (prec_row v3 _ r) (sqint_row v3 _ _ r)

set_option backward.isDefEq.respectTransparency.types false in
theorem pay2_at2 (v3 : FVec Ideal S8192x9 .f32) (v37 : FVec Ideal S1x3 .f32) :
    k0_pay2 (F := Ideal) v3 v37 (ix2 (0 : Fin 1) (2 : Fin 3))
      = v37 (ix2 (0 : Fin 1) (2 : Fin 3)) + ∑ r : Fin 8192, termLv (v3 (ix2 r (0 : Fin 9))) := by
  unfold k0_pay2
  try dsimp only
  simp only [shapeCast_self]
  rw [addf_apply, (cat3_apply _ _ _ _).2.2, shapeCast_a_1a_apply, multiReduction_add_cols_apply]
  refine congrArg (fun z => v37 (ix2 (0 : Fin 1) (2 : Fin 3)) + z) (Finset.sum_congr rfl fun r _ => ?_)
  rw [mulf_apply]
  simp only [shapeCast_self]
  unfold termLv
  exact congrArg₂ (· * ·) rfl (clip_row v3 _ r)

theorem pay1_apply (j : S1x3.Idx) : k0_pay1 (F := Ideal) j = 0 := by
  show Ideal.ofBits .f32 0x00000000#32 = 0
  exact Ideal.ofBits_zero_f32

section Packed
variable (lv : FVec Ideal S131072x1 .f32) (pos mp : FVec Ideal S131072x3 .f32) (it mi : FVec Ideal S131072x1 .f32)
  (h : Shape.Concatenates [S131072x1, S131072x3, S131072x3, S131072x1, S131072x1] S131072x9 1)

abbrev parts : List ((s : Shape) × (s.Idx → Ideal .f32)) :=
  [⟨S131072x1, lv⟩, ⟨S131072x3, pos⟩, ⟨S131072x3, mp⟩, ⟨S131072x1, it⟩, ⟨S131072x1, mi⟩]

abbrev packed : FVec Ideal S131072x9 .f32 := concatenate S131072x9 1 (parts lv pos mp it mi) h

/-- Column 0 of the five arrays side by side is `lv`, columns 1–3 are `pos`, 4–6 `mp`, 7 `it` and 8 `mi`. -/
theorem packed_apply (i : Fin 131072) :
    packed lv pos mp it mi h (ix2 i (0 : Fin 9)) = lv (ix2 i (0 : Fin 1))
    ∧ (∀ k : Fin 3, packed lv pos mp it mi h (ix2 i (colP k)) = pos (ix2 i k))
    ∧ (∀ k : Fin 3, packed lv pos mp it mi h (ix2 i (colM k)) = mp (ix2 i k))
    ∧ packed lv pos mp it mi h (ix2 i (7 : Fin 9)) = it (ix2 i (0 : Fin 1))
    ∧ packed lv pos mp it mi h (ix2 i (8 : Fin 9)) = mi (ix2 i (0 : Fin 1)) :=
  ⟨concat_cols_apply (parts lv pos mp it mi) h 0 (by simp [parts]) lv rfl 0 rfl i 0 0 rfl,
    fun k => concat_cols_apply (parts lv pos mp it mi) h 1 (by simp [parts]) pos rfl 1 rfl i k _ rfl,
    fun k => concat_cols_apply (parts lv pos mp it mi) h 2 (by simp [parts]) mp rfl 4 rfl i k _ rfl,
    concat_cols_apply (parts lv pos mp it mi) h 3 (by simp [parts]) it rfl 7 rfl i 0 7 rfl,
    concat_cols_apply (parts lv pos mp it mi) h 4 (by simp [parts]) mi rfl 8 rfl i 0 8 rfl⟩

end Packed

open Cert.KernelIdeal (S_ S131072)

theorem hostSumLanes_apply (y : FVec Ideal S131072x3 .f32) (h' : S131072x3.ReducesTo [1] S131072) (hu : 0 < S_.numel)
    (i : Fin 131072) :
    Host.reduceAdd (F := Ideal) y (constant (F := Ideal) S_ .f32 0x00000000#32) h' hu (ix1 i) = ∑ k : Fin 3, y (ix2 i k) :=
  (hostReduceAdd_rows_apply y _ h' (by decide) hu i).trans (by rw [constant_apply, Ideal.ofBits_zero_f32, zero_add])

theorem refClip_apply (lv : FVec Ideal S131072x1 .f32) (i : Fin 131072) :
    Cert.ReferenceIdeal.Stage.lidarClip (F := Ideal) lv (ix2 i (0 : Fin 1)) = clipE (lv (ix2 i (0 : Fin 1))) := by
  unfold Cert.ReferenceIdeal.Stage.lidarClip
  rw [minimumf_apply, maximumf_apply, broadcastInDim_scalar_apply, broadcastInDim_scalar_apply]
  rfl

theorem refPrec_apply (lv : FVec Ideal S131072x1 .f32) (i : Fin 131072) :
    mulf (Cert.ReferenceIdeal.Stage.lidarHalf (F := Ideal)) (Cert.ReferenceIdeal.Stage.lidarPrec (F := Ideal) lv) (ix2 i (0 : Fin 1))
      = Ideal.ofBits .f32 0x3F000000#32 * Ideal.exp (-(clipE (lv (ix2 i (0 : Fin 1))))) := by
  show Cert.ReferenceIdeal.Stage.lidarHalf (F := Ideal) (ix2 i (0 : Fin 1))
      * Ideal.exp (-(Cert.ReferenceIdeal.Stage.lidarClip (F := Ideal) lv (ix2 i (0 : Fin 1)))) = _
  rw [refClip_apply]
  unfold Cert.ReferenceIdeal.Stage.lidarHalf
  rw [broadcastInDim_scalar_apply, constant_apply]

theorem ref_sumPos (lv : FVec Ideal S131072x1 .f32) (pos mp : FVec Ideal S131072x3 .f32) :
    Cert.ReferenceIdeal.Stage.lidarSumPos (F := Ideal) lv pos mp ix0
      = ∑ i : Fin 131072, termPos (lv (ix2 i (0 : Fin 1))) (fun k => pos (ix2 i k)) (fun k => mp (ix2 i k)) := by
  unfold Cert.ReferenceIdeal.Stage.lidarSumPos
  refine (hostSumAll_apply _ _ _).trans (Finset.sum_congr rfl fun i _ => ?_)
  rw [mulf_apply, broadcastInDim_col_apply, hostSumLanes_apply]
  unfold termPos
  exact congrArg₂ (· * ·) (refPrec_apply lv i) (Finset.sum_congr rfl fun k _ => rfl)

theorem ref_sumInt (lv it mi : FVec Ideal S131072x1 .f32) :
    Cert.ReferenceIdeal.Stage.lidarSumInt (F := Ideal) lv it mi ix0
      = ∑ i : Fin 131072, termInt (lv (ix2 i (0 : Fin 1))) (it (ix2 i (0 : Fin 1))) (mi (ix2 i (0 : Fin 1))) := by
  unfold Cert.ReferenceIdeal.Stage.lidarSumInt
  refine (hostSumAll_apply _ _ _).trans (Finset.sum_congr rfl fun i _ => ?_)
  rw [mulf_apply]
  unfold termInt
  exact congrArg₂ (· * ·) (refPrec_apply lv i) rfl

theorem ref_sumLv (lv : FVec Ideal S131072x1 .f32) :
    Cert.ReferenceIdeal.Stage.lidarSumLv (F := Ideal) lv ix0 = ∑ i : Fin 131072, termLv (lv (ix2 i (0 : Fin 1))) := by
  unfold Cert.ReferenceIdeal.Stage.lidarSumLv
  refine (hostSumAll_apply _ _ _).trans (Finset.sum_congr rfl fun i _ => ?_)
  rw [mulf_apply, refClip_apply]
  unfold Cert.ReferenceIdeal.Stage.lidarHalf termLv
  rw [broadcastInDim_scalar_apply, constant_apply]

end Lidar

open Lidar

/-- Each entry of the last partial sum is a running total of block sums, hence the reference's sum over all rows. -/
theorem lidar_law
    (lv : FVec Ideal S131072x1 .f32) (pos mp : FVec Ideal S131072x3 .f32) (it mi : FVec Ideal S131072x1 .f32)
    (blk : Fin 16 → Vec Ideal S8192x9 .f32)
    (hblk : ∀ (t : Fin 16) (r : Fin 8192) (q : Fin 9), blk t (ValueIdx.ix2 r q) =
      (concatenate S131072x9 1 [⟨S131072x1, lv⟩, ⟨S131072x3, pos⟩, ⟨S131072x3, mp⟩, ⟨S131072x1, it⟩, ⟨S131072x1, mi⟩]
          Cert.KernelIdeal.Gen.concatenates_S131072x1_S131072x3_S131072x3_S131072x1_S131072x1_S131072x9_d1 : FVec Ideal S131072x9 .f32)
        (ValueIdx.ix2 (⟨8192 * t.val + r.val, by have := t.isLt; have := r.isLt; omega⟩ : Fin 131072) q))
    (acc : ℕ → Vec Ideal S1x3 .f32)
    (h0 : acc 0 = k0_pay2 (blk 0) (k0_pay1 (F := Ideal)))
    (hs : ∀ (n : ℕ) (h : n + 1 < 16), acc (n + 1) = k0_pay2 (blk ⟨n + 1, h⟩) (acc n)) :
    acc 15 (ValueIdx.ix2 (0 : Fin 1) (0 : Fin 3)) = Cert.ReferenceIdeal.Stage.lidarSumPos (F := Ideal) lv pos mp ValueIdx.ix0
    ∧ acc 15 (ValueIdx.ix2 (0 : Fin 1) (1 : Fin 3)) = Cert.ReferenceIdeal.Stage.lidarSumInt (F := Ideal) lv it mi ValueIdx.ix0
    ∧ acc 15 (ValueIdx.ix2 (0 : Fin 1) (2 : Fin 3)) = Cert.ReferenceIdeal.Stage.lidarSumLv (F := Ideal) lv ValueIdx.ix0 := by
  have b_lv : ∀ (t : Fin 16) (r : Fin 8192), blk t (ix2 r (0 : Fin 9)) = lv (ix2 (rowOf t r) (0 : Fin 1)) :=
    fun t r => (hblk t r 0).trans (packed_apply lv pos mp it mi _ (rowOf t r)).1
  have b_pos : ∀ (t : Fin 16) (r : Fin 8192) (k : Fin 3), blk t (ix2 r (colP k)) = pos (ix2 (rowOf t r) k) :=
    fun t r k => (hblk t r (colP k)).trans ((packed_apply lv pos mp it mi _ (rowOf t r)).2.1 k)
  have b_mp : ∀ (t : Fin 16) (r : Fin 8192) (k : Fin 3), blk t (ix2 r (colM k)) = mp (ix2 (rowOf t r) k) :=
    fun t r k => (hblk t r (colM k)).trans ((packed_apply lv pos mp it mi _ (rowOf t r)).2.2.1 k)
  have b_it : ∀ (t : Fin 16) (r : Fin 8192), blk t (ix2 r (7 : Fin 9)) = it (ix2 (rowOf t r) (0 : Fin 1)) :=
    fun t r => (hblk t r 7).trans (packed_apply lv pos mp it mi _ (rowOf t r)).2.2.2.1
  have b_mi : ∀ (t : Fin 16) (r : Fin 8192), blk t (ix2 r (8 : Fin 9)) = mi (ix2 (rowOf t r) (0 : Fin 1)) :=
    fun t r => (hblk t r 8).trans (packed_apply lv pos mp it mi _ (rowOf t r)).2.2.2.2
  refine ⟨?_, ?_, ?_⟩
  · refine Eq.trans ?_ ((ref_sumPos lv pos mp).trans (sum_rows_eq_sum_blocks _)).symm
    refine (running_total 15 rfl (fun n => acc n (ix2 (0 : Fin 1) (0 : Fin 3)))
      (fun t => ∑ r : Fin 8192, termPos (blk t (ix2 r (0 : Fin 9))) (fun k => blk t (ix2 r (colP k))) (fun k => blk t (ix2 r (colM k))))
      ?_ ?_).trans ?_
    · refine (congrFun h0 _).trans ((pay2_at0 (blk 0) (k0_pay1 (F := Ideal))).trans ?_)
      rw [pay1_apply]
    · intro n h
      exact (congrFun (hs n h) _).trans (pay2_at0 (blk ⟨n + 1, h⟩) (acc n))
    · refine Finset.sum_congr rfl fun t _ => Finset.sum_congr rfl fun r _ => ?_
      simp only [b_lv, b_pos, b_mp]
  · refine Eq.trans ?_ ((ref_sumInt lv it mi).trans (sum_rows_eq_sum_blocks _)).symm
    refine (running_total 15 rfl (fun n => acc n (ix2 (0 : Fin 1) (1 : Fin 3)))
      (fun t => ∑ r : Fin 8192, termInt (blk t (ix2 r (0 : Fin 9))) (blk t (ix2 r (7 : Fin 9))) (blk t (ix2 r (8 : Fin 9))))
      ?_ ?_).trans ?_
    · refine (congrFun h0 _).trans ((pay2_at1 (blk 0) (k0_pay1 (F := Ideal))).trans ?_)
      rw [pay1_apply]
    · intro n h
      exact (congrFun (hs n h) _).trans (pay2_at1 (blk ⟨n + 1, h⟩) (acc n))
    · refine Finset.sum_congr rfl fun t _ => Finset.sum_congr rfl fun r _ => ?_
      simp only [b_lv, b_it, b_mi]
  · refine Eq.trans ?_ ((ref_sumLv lv).trans (sum_rows_eq_sum_blocks _)).symm
    refine (running_total 15 rfl (fun n => acc n (ix2 (0 : Fin 1) (2 : Fin 3)))
      (fun t => ∑ r : Fin 8192, termLv (blk t (ix2 r (0 : Fin 9))))
      ?_ ?_).trans ?_
    · refine (congrFun h0 _).trans ((pay2_at2 (blk 0) (k0_pay1 (F := Ideal))).trans ?_)
      rw [pay1_apply]
    · intro n h
      exact (congrFun (hs n h) _).trans (pay2_at2 (blk ⟨n + 1, h⟩) (acc n))
    · refine Finset.sum_congr rfl fun t _ => Finset.sum_congr rfl fun r _ => ?_
      simp only [b_lv]

end Cert.Val

end
-- ==== Proof.Val.LidarValue.lean ====
/- The lidar loop's final output is the reference's sums: the partial sums `acc0` satisfy the two hypotheses of `lidar_law`. -/
import proofs.«132617_j16140487098675_1_alg».proof.Proof.KI.LidarSumFinal
import proofs.«132617_j16140487098675_1_alg».proof.Proof.Val.LidarLaw

set_option maxRecDepth 16384

noncomputable section

namespace Cert.Val

open Cert.KernelIdeal Cert.KernelIdeal.Gen Cert.KernelIdeal.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

def lidarAcc (c : Dev nD) (n : ℕ) : Vec Ideal S1x3 .f32 :=
  if h : n < cfg0.N then acc0 V c n h else acc0 V c 0 (by rw [show cfg0.N = 16 from N_0]; decide)

theorem lidarAcc_of_lt (c : Dev nD) (n : ℕ) (h : n < cfg0.N) : lidarAcc V c n = acc0 V c n h := dif_pos h

/-- Feed `lidar_law` the blocks and the unfolding equations of `acc0`, then read off the three entries. -/
theorem lidar_value (c : Dev nD)
    (lv : FVec Ideal S131072x1 .f32) (pos mp : FVec Ideal S131072x3 .f32) (it mi : FVec Ideal S131072x1 .f32)
    (hfeat : (V c (Pipeline.arrRef spec0 0) : FVec Ideal S131072x9 .f32)
      = concatenate S131072x9 1 [⟨S131072x1, lv⟩, ⟨S131072x3, pos⟩, ⟨S131072x3, mp⟩, ⟨S131072x1, it⟩, ⟨S131072x1, mi⟩]
          Cert.KernelIdeal.Gen.concatenates_S131072x1_S131072x3_S131072x3_S131072x1_S131072x1_S131072x9_d1) :
    ((dat0 V c).arrAt 1 cfg0.N : FVec Ideal S1x3 .f32) (ValueIdx.ix2 (0 : Fin 1) (0 : Fin 3))
        = Cert.ReferenceIdeal.Stage.lidarSumPos (F := Ideal) lv pos mp ValueIdx.ix0
    ∧ ((dat0 V c).arrAt 1 cfg0.N : FVec Ideal S1x3 .f32) (ValueIdx.ix2 (0 : Fin 1) (1 : Fin 3))
        = Cert.ReferenceIdeal.Stage.lidarSumInt (F := Ideal) lv it mi ValueIdx.ix0
    ∧ ((dat0 V c).arrAt 1 cfg0.N : FVec Ideal S1x3 .f32) (ValueIdx.ix2 (0 : Fin 1) (2 : Fin 3))
        = Cert.ReferenceIdeal.Stage.lidarSumLv (F := Ideal) lv ValueIdx.ix0 := by
  have hN : cfg0.N = 16 := N_0
  have law := lidar_law lv pos mp it mi
    (fun t => blk0 V c 0 (Fin.cast hN.symm t))
    (fun t r q => (blk0_apply V c (Fin.cast hN.symm t) (ValueIdx.ix2 r q)).trans (congrFun hfeat _))
    (lidarAcc V c)
    (lidarAcc_of_lt V c 0 (by rw [hN]; decide))
    (fun n h => by
      have h1 : n + 1 < cfg0.N := by rw [hN]; exact h
      rw [lidarAcc_of_lt V c (n + 1) h1, lidarAcc_of_lt V c n (Nat.lt_of_succ_lt h1)]
      rfl)
  have hend : ∀ i : S1x3.Idx, ((dat0 V c).arrAt 1 cfg0.N : FVec Ideal S1x3 .f32) i = lidarAcc V c 15 i := fun i =>
    (congrFun (out0_final V c) i).trans (congrFun (lidarAcc_of_lt V c 15 (by rw [hN]; decide)).symm i)
  exact ⟨(hend _).trans law.1, (hend _).trans law.2.1, (hend _).trans law.2.2⟩

end Cert.Val

end
-- ==== Proof.KI.NearestAFinal.lean ====
/- What the search leaves behind: the output blocks tile the output, so row `i` of the result is row `i % 1024` of
   `k1_pay1` applied to query block `i / 1024` and the table. -/
import proofs.«132617_j16140487098675_1_alg».proof.Proof.KI.NearestAData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Idealize.ShloMosaic.ValueIdx

private def pointOf (i : S32768x1.Idx) : Fin cfg1.N :=
  ⟨(i (0 : Fin 2)).val / 1024, by
    have h : (i (0 : Fin 2)).val < 32768 := (i (0 : Fin 2)).isLt
    show (i (0 : Fin 2)).val / 1024 < grid1.N
    rw [N_1]; omega⟩

private def rowIn (i : S32768x1.Idx) : S1024x1.Idx :=
  ix2 (⟨(i (0 : Fin 2)).val % 1024, Nat.mod_lt _ (by decide)⟩ : Fin 1024) (0 : Fin 1)

private theorem pointOf_val (i : S32768x1.Idx) : (pointOf i).val = (i (0 : Fin 2)).val / 1024 := rfl

private def outAll (c : Dev nD) : S32768x1.Idx → Elt F .f32 :=
  fun i => k1_pay1 (blk1 V c 0 (pointOf i)) (blk1 V c 1 (pointOf i)) (rowIn i)

private theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

private theorem emb_out_row (t : Fin cfg1.N) (y : ((cfg1.win 2).xblock (cfg1.grid.coords t)).Idx) :
    ((((cfg1.win 2).blk t).view.emb y) (0 : Fin 2)).val = 1024 * t.val + (y (0 : Fin 2)).val := by
  obtain ⟨-, -, -, -, e0, -⟩ := idx_facts t
  show win1_2.index t (0 : Fin 2) * 1024 + 1 * (y (0 : Fin 2)).val = _
  omega

private theorem pointOf_emb (t : Fin cfg1.N) (y : ((cfg1.win 2).xblock (cfg1.grid.coords t)).Idx) :
    pointOf (((cfg1.win 2).blk t).view.emb y) = t := by
  apply Fin.ext
  rw [pointOf_val, emb_out_row]
  have hy : (y (0 : Fin 2)).val < 1024 := (y (0 : Fin 2)).isLt
  omega

private theorem rowIn_emb (t : Fin cfg1.N) (y : ((cfg1.win 2).xblock (cfg1.grid.coords t)).Idx) :
    rowIn (((cfg1.win 2).blk t).view.emb y) = y := by
  funext a; apply Fin.ext
  match a with
  | ⟨0, _⟩ =>
    show ((((cfg1.win 2).blk t).view.emb y) (0 : Fin 2)).val % 1024 = (y (0 : Fin 2)).val
    rw [emb_out_row]
    have hy : (y (0 : Fin 2)).val < 1024 := (y (0 : Fin 2)).isLt
    omega
  | ⟨1, _⟩ =>
    show 0 = (y (1 : Fin 2)).val
    have hy : (y (1 : Fin 2)).val < 1 := (y (1 : Fin 2)).isLt
    omega

private theorem cut_out_apply (t : Fin cfg1.N) (X : S1024x1.Idx → Elt F .f32)
    (y : ((cfg1.win 2).xblock (cfg1.grid.coords t)).Idx) : (cfg1.win 2).cut (grid1.coords t) X y = X y := rfl

private theorem read_out_blk (t : Fin cfg1.N) (G : S32768x1.Idx → Elt F .f32)
    (y : ((cfg1.win 2).xblock (cfg1.grid.coords t)).Idx) :
    ((cfg1.win 2).blk t).view.read (Elt F) G y = G (((cfg1.win 2).blk t).view.emb y) := rfl

private theorem flushed_eq (c : Dev nD) (t : Fin cfg1.N) :
    (dat1 V c).flushed 2 t = ((cfg1.win 2).blk t).view.read (Elt F) (outAll V c) := by
  show (cfg1.win 2).cut (grid1.coords t) ((dat1 V c).after 2 t) = _
  rw [dat1_after_out]
  funext y
  refine (cut_out_apply t _ y).trans ?_
  refine Eq.trans ?_ (read_out_blk t (outAll V c) y).symm
  unfold outAll
  rw [pointOf_emb, rowIn_emb]

private theorem mem_out_blk (t : Fin cfg1.N) (i : S32768x1.Idx) :
    i ∈ ((cfg1.win 2).blk t).view.set ↔ ∀ a : Fin 2, win1_2.index t a * S1024x1.size a ≤ (i a).val ∧ (i a).val < win1_2.index t a * S1024x1.size a + S1024x1.size a := by
  show i ∈ ((View.whole main_v106).slice (win1_2.rect t)).set ↔ _
  rw [View.set_slice_whole, Rect.mem_set_unit]
  exact Iff.rfl

/-- Row `i` lies in the block of step `i / 1024`. -/
private theorem cover_out_arr (i : S32768x1.Idx) :
    ∃ t : Fin cfg1.N, (cfg1.win 2).flush t = true ∧ i ∈ ((cfg1.win 2).blk t).view.set := by
  refine ⟨pointOf i, flush1_2 _, ?_⟩
  rw [mem_out_blk]
  obtain ⟨-, -, -, -, e0, e1⟩ := idx_facts (pointOf i)
  have hp : (pointOf i).val = (i (0 : Fin 2)).val / 1024 := rfl
  have hi0 : (i (0 : Fin 2)).val < 32768 := (i (0 : Fin 2)).isLt
  have hi1 : (i (1 : Fin 2)).val < 1 := (i (1 : Fin 2)).isLt
  intro a
  match a with
  | ⟨0, _⟩ =>
    show win1_2.index (pointOf i) (0 : Fin 2) * 1024 ≤ (i (0 : Fin 2)).val ∧ (i (0 : Fin 2)).val < win1_2.index (pointOf i) (0 : Fin 2) * 1024 + 1024
    omega
  | ⟨1, _⟩ =>
    show win1_2.index (pointOf i) (1 : Fin 2) * 1 ≤ (i (1 : Fin 2)).val ∧ (i (1 : Fin 2)).val < win1_2.index (pointOf i) (1 : Fin 2) * 1 + 1
    omega

/-- Each row is written by exactly one step, at row `i % 1024` of that step's block. -/
theorem out1_final (c : Dev nD) (i : S32768x1.Idx) :
    (dat1 V c).arrAt 2 cfg1.N i
      = k1_pay1
          (blk1 V c 0 ⟨(i (0 : Fin 2)).val / 1024, by
            have h : (i (0 : Fin 2)).val < 32768 := (i (0 : Fin 2)).isLt
            show (i (0 : Fin 2)).val / 1024 < grid1.N
            rw [N_1]; omega⟩)
          (blk1 V c 1 ⟨(i (0 : Fin 2)).val / 1024, by
            have h : (i (0 : Fin 2)).val < 32768 := (i (0 : Fin 2)).isLt
            show (i (0 : Fin 2)).val / 1024 < grid1.N
            rw [N_1]; omega⟩)
          (ix2 (⟨(i (0 : Fin 2)).val % 1024, Nat.mod_lt _ (by decide)⟩ : Fin 1024) (0 : Fin 1)) :=
  congrFun ((dat1 V c).arrAt_eq_of_cover 2 (outAll V c) (fun t _ => flushed_eq V c t) cover_out_arr) i

/-- Query block `t` is rows `1024·t + r` of the query array. -/
theorem blk1_pred_apply (c : Dev nD) (t : Fin cfg1.N) (y : S1024x3.Idx) :
    blk1 V c 0 t y = V c (Pipeline.arrRef spec1 0)
      (ix2 (⟨1024 * t.val + (y (0 : Fin 2)).val, by
        have ht : t.val < 32 := lt_of_lt_of_eq t.isLt N_1
        have hy : (y (0 : Fin 2)).val < 1024 := (y (0 : Fin 2)).isLt
        omega⟩ : Fin 32768) (⟨(y (1 : Fin 2)).val, (y (1 : Fin 2)).isLt⟩ : Fin 3)) := by
  obtain ⟨e0, e1, -, -, -, -⟩ := idx_facts t
  show V c (Pipeline.arrRef spec1 0) (((cfg1.win 0).blk t).view.emb y) = _
  refine congrArg (V c (Pipeline.arrRef spec1 0)) (funext fun a => Fin.ext ?_)
  match a with
  | ⟨0, _⟩ => show win1_0.index t (0 : Fin 2) * 1024 + 1 * (y (0 : Fin 2)).val = 1024 * t.val + (y (0 : Fin 2)).val; omega
  | ⟨1, _⟩ => show win1_0.index t (1 : Fin 2) * 3 + 1 * (y (1 : Fin 2)).val = (y (1 : Fin 2)).val; omega

/-- Every step sees the whole table. -/
theorem blk1_table_apply (c : Dev nD) (t : Fin cfg1.N) (y : S2048x3.Idx) :
    blk1 V c 1 t y = V c (Pipeline.arrRef spec1 1) y := by
  obtain ⟨-, -, e0, e1, -, -⟩ := idx_facts t
  show V c (Pipeline.arrRef spec1 1) (((cfg1.win 1).blk t).view.emb y) = _
  refine congrArg (V c (Pipeline.arrRef spec1 1)) (funext fun a => Fin.ext ?_)
  match a with
  | ⟨0, _⟩ => show win1_1.index t (0 : Fin 2) * 2048 + 1 * (y (0 : Fin 2)).val = (y (0 : Fin 2)).val; omega
  | ⟨1, _⟩ => show win1_1.index t (1 : Fin 2) * 3 + 1 * (y (1 : Fin 2)).val = (y (1 : Fin 2)).val; omega

end Cert.KernelIdeal.Hand

end
-- ==== Proof.Val.NearestLaw.lean ====
/- Why the blockwise search is the reference's `nearest`: for a query row both take the minimum over the table of
   `max (‖p‖² + ‖g‖² − 2 · p · g) 0`; a step merely sees 1024 query rows at a time. -/
import proofs.«132617_j16140487098675_1_alg».proof.Proof.Val.Stages
import proofs.«132617_j16140487098675_1_alg».proof.Proof.Gen.KernelIdeal.Skeleton
import proofs.«132617_j16140487098675_1_alg».proof.Proof.Val.Common

noncomputable section

namespace Cert.Val

open Idealize.ShloMosaic Idealize.ShloMosaic.ValueIdx
open Cert.KernelIdeal (S131072x1 S131072x3 S131072x9 S8192x9 S8192x4 S1x3 S32768x1 S32768x3 S32768x4 S2048x3 S1024x3 S1024x1)
open Cert.KernelIdeal.Gen (k0_pay1 k0_pay2 k1_pay1 k2_pay1 k2_pay2)

namespace Nearest

section Product

theorem plain3_sum {n m : ℕ} (A : (⟨2, ![n, 3]⟩ : Shape).Idx → EReal) (B : (⟨2, ![3, m]⟩ : Shape).Idx → EReal)
    (r : Fin n) (c : Fin m) :
    ∑ k : (DotDims.plain n 3 m).contr.Idx,
        A ((DotDims.plain n 3 m).lhsIdx (ix2 r c) k) * B ((DotDims.plain n 3 m).rhsIdx (ix2 r c) k)
      = ∑ q : Fin 3, A (ix2 r q) * B (ix2 q c) := by
  rw [← Equiv.sum_comp (contrEquiv1 (DotDims.plain n 3 m) 3 rfl rfl).symm]
  refine Finset.sum_congr rfl fun q _ => ?_
  have hq := contrEquiv1_symm_val (DotDims.plain n 3 m) 3 rfl rfl q
  have hl : (DotDims.plain n 3 m).lhsIdx (ix2 r c) ((contrEquiv1 (DotDims.plain n 3 m) 3 rfl rfl).symm q) = ix2 r q := by
    funext ax; apply Fin.ext
    match ax with
    | ⟨0, _⟩ => first | rfl | (simp [DotDims.lhsIdx, DotDims.plain] <;> rfl)
    | ⟨1, _⟩ =>
      exact ((DotDims.plain n 3 m).lhsIdx_val_of_single (cl := (1 : Fin 2)) rfl (ix2 r c) _).trans hq
  have hr : (DotDims.plain n 3 m).rhsIdx (ix2 r c) ((contrEquiv1 (DotDims.plain n 3 m) 3 rfl rfl).symm q) = ix2 q c := by
    funext ax; apply Fin.ext
    match ax with
    | ⟨0, _⟩ =>
      exact ((DotDims.plain n 3 m).rhsIdx_val_of_single (cr := (0 : Fin 2)) rfl (ix2 r c) _).trans hq
    | ⟨1, _⟩ => first | rfl | (simp [DotDims.rhsIdx, DotDims.plain] <;> rfl)
  rw [hl, hr]

theorem matmul_plain3_apply {n m : ℕ} (D : DotDims ⟨2, ![n, 3]⟩ ⟨2, ![3, m]⟩ ⟨2, ![n, m]⟩)
    (hD : D = DotDims.plain n 3 m) (prec : Option ContractPrecision)
    (A : FVec Ideal ⟨2, ![n, 3]⟩ .f32) (B : FVec Ideal ⟨2, ![3, m]⟩ .f32) (r : Fin n) (c : Fin m) :
    matmul (F := Ideal) D prec A B (constant (F := Ideal) ⟨2, ![n, m]⟩ .f32 0x00000000#32) (ix2 r c)
      = ∑ q : Fin 3, A (ix2 r q) * B (ix2 q c) := by
  subst hD
  exact (Ideal.matmul_constant_zero_apply (DotDims.plain n 3 m) prec A B (ix2 r c)).trans (plain3_sum A B r c)

theorem dotGeneral_plain3_apply {n m : ℕ} (D : DotDims ⟨2, ![n, 3]⟩ ⟨2, ![3, m]⟩ ⟨2, ![n, m]⟩)
    (hD : D = DotDims.plain n 3 m) (prec : Option ContractPrecision)
    (A : FVec Ideal ⟨2, ![n, 3]⟩ .f32) (B : FVec Ideal ⟨2, ![3, m]⟩ .f32) (r : Fin n) (c : Fin m) :
    Host.dotGeneral (F := Ideal) D prec A B (ix2 r c) = ∑ q : Fin 3, A (ix2 r q) * B (ix2 q c) := by
  subst hD
  exact (Ideal.dotGeneral_apply (DotDims.plain n 3 m) prec .single A B (ix2 r c)).trans (plain3_sum A B r c)

end Product

section Arithmetic

theorem ofBits_two : Ideal.ofBits .f32 0x40000000#32 = ((2 : ℝ) : EReal) := by
  simp [Ideal.ofBits, Ideal.ieee, -EReal.coe_mul] <;> norm_num

theorem two_mul_sum3 (p g : Fin 3 → EReal) :
    ((2 : ℝ) : EReal) * ∑ q : Fin 3, p q * g q = ∑ q : Fin 3, (((2 : ℝ) : EReal) * p q) * g q := by
  have h2 : (0 : EReal) ≤ ((2 : ℝ) : EReal) := EReal.coe_nonneg.mpr (by norm_num)
  have hd := EReal.left_distrib_of_nonneg_of_ne_top h2 (EReal.coe_ne_top 2)
  rw [Fin.sum_univ_three, Fin.sum_univ_three, hd, hd, mul_assoc, mul_assoc, mul_assoc]

end Arithmetic

section Sides

/-- One step, read row by row. -/
theorem k1_pay1_apply (v0 : FVec Ideal S1024x3 .f32) (v2 : FVec Ideal S2048x3 .f32) (r : Fin 1024) :
    k1_pay1 (F := Ideal) v0 v2 (ix2 r (0 : Fin 1))
      = (Finset.univ : Finset (Fin 2048)).fold min (Ideal.ofBits .f32 0x7F800000#32) (fun c =>
          max ((∑ q : Fin 3, v0 (ix2 r q) * v0 (ix2 r q)) + (∑ q : Fin 3, v2 (ix2 c q) * v2 (ix2 c q))
                - Ideal.ofBits .f32 0x40000000#32 * ∑ q : Fin 3, v0 (ix2 r q) * v2 (ix2 c q))
              (Ideal.ofBits .f32 0x00000000#32)) := by
  unfold k1_pay1
  simp only [shapeCast_self]
  refine (shapeCast_col_apply _ _ r 0).trans ?_
  refine (multiReduction_min_rows_apply _ _ _ _ r).trans ?_
  refine Finset.fold_congr fun c _ => ?_
  refine (maximumf_apply _ _ _).trans (congrArg₂ max ?_ rfl)
  refine (subf_apply _ _ _).trans (congrArg₂ (· - ·) ?_ ?_)
  · refine (addf_apply _ _ _).trans (congrArg₂ (· + ·) ?_ ?_)
    · refine (broadcastTo_col_apply _ _ r c).trans ?_
      refine (shapeCast_col_apply _ _ r 0).trans ?_
      refine (multiReduction_add_rows_apply _ _ _ _ r).trans ?_
      exact Finset.sum_congr rfl fun q _ => mulf_apply _ _ _
    · refine (broadcastTo_1b_ab_apply _ _ r c).trans ?_
      refine (shapeCast_a_1a_apply _ _ 0 c).trans ?_
      refine (multiReduction_add_cols_apply _ _ _ _ c).trans ?_
      exact Finset.sum_congr rfl fun q _ => (mulf_apply _ _ _).trans
        (congrArg₂ (· * ·) (transpose_ix2_apply _ _ q c) (transpose_ix2_apply _ _ q c))
  · refine (mulf_apply _ _ _).trans (congrArg₂ (· * ·) rfl ?_)
    refine (matmul_plain3_apply _ rfl _ _ _ r c).trans ?_
    exact Finset.sum_congr rfl fun q _ => congrArg₂ (· * ·) rfl (transpose_ix2_apply _ _ q c)

/-- The reference, read row by row: the same expression. -/
theorem nearest_apply (pred : FVec Ideal S32768x3 .f32) (gt : FVec Ideal S2048x3 .f32) (i : Fin 32768) :
    Cert.ReferenceIdeal.Stage.nearest (F := Ideal) pred gt (ix2 i (0 : Fin 1))
      = (Finset.univ : Finset (Fin 2048)).fold min (Ideal.ofBits .f32 0x7F800000#32) (fun c =>
          max ((Ideal.ofBits .f32 0x00000000#32 + ∑ q : Fin 3, pred (ix2 i q) * pred (ix2 i q))
                + (Ideal.ofBits .f32 0x00000000#32 + ∑ q : Fin 3, gt (ix2 c q) * gt (ix2 c q))
                - ∑ q : Fin 3, (Ideal.ofBits .f32 0x40000000#32 * pred (ix2 i q)) * gt (ix2 c q))
              (Ideal.ofBits .f32 0x00000000#32)) := by
  unfold Cert.ReferenceIdeal.Stage.nearest
  refine (broadcastInDim_col_apply _ _ i 0).trans ?_
  refine (hostReduce_min_rows_apply _ _ _ (by decide) _ i).trans ?_
  refine Finset.fold_congr fun c _ => ?_
  refine (maximumf_apply _ _ _).trans (congrArg₂ max ?_ rfl)
  refine (subf_apply _ _ _).trans (congrArg₂ (· - ·) ?_ ?_)
  · refine (addf_apply _ _ _).trans (congrArg₂ (· + ·) ?_ ?_)
    · refine (broadcastInDim_colwise_apply _ _ i c).trans ?_
      refine (broadcastInDim_col_apply _ _ i 0).trans ?_
      refine (hostReduceAdd_rows_apply _ _ _ (by decide) _ i).trans ?_
      exact congrArg₂ (· + ·) rfl (Finset.sum_congr rfl fun q _ => mulf_apply _ _ _)
    · refine (broadcastInDim_rowwise_apply _ _ i c).trans ?_
      refine (broadcastInDim_row_apply _ _ 0 c).trans ?_
      refine (hostReduceAdd_rows_apply _ _ _ (by decide) _ c).trans ?_
      exact congrArg₂ (· + ·) rfl (Finset.sum_congr rfl fun q _ => mulf_apply _ _ _)
  · refine (dotGeneral_plain3_apply _ rfl _ _ _ i c).trans ?_
    exact Finset.sum_congr rfl fun q _ =>
      congrArg₂ (· * ·) (mulf_apply _ _ _) (transpose_ix2_apply _ _ q c)

end Sides

end Nearest

/-- Row `1024 · t + r` of the reference is row `r` of step `t`. -/
theorem nearest_law
    (pred : FVec Ideal S32768x3 .f32) (gt : FVec Ideal S2048x3 .f32)
    (blk : Fin 32 → Vec Ideal S1024x3 .f32)
    (hblk : ∀ (t : Fin 32) (r : Fin 1024) (q : Fin 3), blk t (ValueIdx.ix2 r q) =
      pred (ValueIdx.ix2 (⟨1024 * t.val + r.val, by have := t.isLt; have := r.isLt; omega⟩ : Fin 32768) q))
    (out : Vec Ideal S32768x1 .f32)
    (hout : ∀ (i : Fin 32768), out (ValueIdx.ix2 i (0 : Fin 1)) =
      k1_pay1 (blk ⟨i.val / 1024, by have := i.isLt; omega⟩) gt
        (ValueIdx.ix2 (⟨i.val % 1024, Nat.mod_lt _ (by decide)⟩ : Fin 1024) (0 : Fin 1))) :
    out = Cert.ReferenceIdeal.Stage.nearest (F := Ideal) pred gt := by
  funext j
  obtain ⟨i, u, rfl⟩ : ∃ (i : Fin 32768) (u : Fin 1), j = ValueIdx.ix2 i u := ⟨j 0, j 1, eq_ix2 j⟩
  obtain rfl : u = 0 := Subsingleton.elim _ _
  have hrow : ∀ q : Fin 3,
      blk ⟨i.val / 1024, by have := i.isLt; omega⟩
        (ValueIdx.ix2 (⟨i.val % 1024, Nat.mod_lt _ (by decide)⟩ : Fin 1024) q) = pred (ValueIdx.ix2 i q) := fun q =>
    (hblk _ _ q).trans (congrArg (fun a : Fin 32768 => pred (ValueIdx.ix2 a q)) (Fin.ext (Nat.div_add_mod i.val 1024)))
  refine (hout i).trans ?_
  refine (Nearest.k1_pay1_apply _ gt _).trans ?_
  refine Eq.trans ?_ (Nearest.nearest_apply pred gt i).symm
  refine Finset.fold_congr fun c _ => ?_
  simp only [hrow, Ideal.ofBits_zero_f32, zero_add, Nearest.ofBits_two]
  rw [Nearest.two_mul_sum3]

end Cert.Val

end
-- ==== Proof.Val.NearestValue.lean ====
/- The search loop's final output is the reference's `nearest` of its two inputs. -/
import proofs.«132617_j16140487098675_1_alg».proof.Proof.KI.NearestAFinal
import proofs.«132617_j16140487098675_1_alg».proof.Proof.Val.NearestLaw

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-- Feed `nearest_law` the blockwise description of the inputs and of the final output. -/
theorem nearest_value (V : (c : Dev nD) → (b : Ref sig .tc) → Buf (Elt Ideal) ((c : Thread nD τ).loc b)) (c : Dev nD) :
    ((dat1 V c).arrAt 2 cfg1.N : FVec Ideal S32768x1 .f32)
      = Cert.ReferenceIdeal.Stage.nearest (F := Ideal) (V c (Pipeline.arrRef spec1 0)) (V c (Pipeline.arrRef spec1 1)) := by
  refine nearest_law (V c (Pipeline.arrRef spec1 0)) (V c (Pipeline.arrRef spec1 1))
    (fun t => blk1 V c 0 (t.cast N_1.symm)) (fun t r q => ?_) _ (fun i => ?_)
  · exact blk1_pred_apply V c (t.cast N_1.symm) (ix2 r q)
  · refine (out1_final V c (ix2 i (0 : Fin 1))).trans ?_
    rw [funext (blk1_table_apply V c _)]
    rfl

end Cert.Val

end
-- ==== Proof.KI.RadarSumAFinal.lean ====
/- What the radar sum leaves behind: the output ends as the last partial sum,
   and block `t` of the input is rows `8192·t + r` of the whole array. -/
import proofs.«132617_j16140487098675_1_alg».proof.Proof.KI.RadarSumAData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem acc2_zero (c : Dev nD) (h : 0 < cfg2.N) :
    acc2 V c 0 h = k2_pay2 (blk2 V c 0 ⟨0, h⟩) (k2_pay1 (F := F)) := rfl

theorem acc2_succ (c : Dev nD) (n : ℕ) (h : n + 1 < cfg2.N) :
    acc2 V c (n + 1) h = k2_pay2 (blk2 V c 0 ⟨n + 1, h⟩) (acc2 V c n (Nat.lt_of_succ_lt h)) := rfl

abbrev out2 (c : Dev nD) : Buf (Elt F) ((c : Thread nD τ).loc main_v148) :=
  acc2 V c 3 (by rw [show cfg2.N = 4 from N_2]; decide)

private theorem flushed2_out (c : Dev nD) (t : Fin cfg2.N) (hf : (cfg2.win 1).flush t = true) :
    (dat2 V c).flushed 1 t = ((cfg2.win 1).blk t).view.read (Elt F) (out2 V c) := by
  have hN : cfg2.N = 4 := N_2
  have hlast : t.val = 3 := by have := (flush2_1 t).mp hf; have := t.isLt; omega
  obtain rfl : t = t2_3 := Fin.ext hlast
  show (cfg2.win 1).cut (grid2.coords t2_3) ((dat2 V c).after 1 t2_3) = _
  rw [dat2_after_out]
  have hoff : (fun a => win2_1.index t2_3 a * main_v148.ty.shape.size a) = fun _ => 0 :=
    funext fun a => by fin_cases a <;> decide
  exact (Memref.read_access_unit_zero (Elt F) main_v148 hoff (fun a => by rw [congrFun hoff a]; simp) (out2 V c)).symm

private theorem mem_last_block2 (i : main_v148.ty.Idx) : i ∈ ((cfg2.win 1).blk t2_3).view.set := by
  have hoff : ∀ a, win2_1.index t2_3 a * win2_1.size a = 0 := by decide +kernel
  have hsz : ∀ a, win2_1.xsize (grid2.coords t2_3) a = S1x3.size a := by decide +kernel
  show i ∈ ((View.whole main_v148).slice (win2_1.rect t2_3)).set
  rw [View.set_slice_whole, Rect.mem_set_unit]
  intro a
  show win2_1.index t2_3 a * win2_1.size a ≤ (i a : Nat)
    ∧ (i a : Nat) < win2_1.index t2_3 a * win2_1.size a + win2_1.xsize (grid2.coords t2_3) a
  rw [hoff a, hsz a, Nat.zero_add]
  exact ⟨Nat.zero_le _, (i a).isLt⟩

/-- The last step's block covers every output index, so the final output is the value after that step. -/
theorem out2_final (c : Dev nD) : (dat2 V c).arrAt 1 cfg2.N = out2 V c :=
  (dat2 V c).arrAt_eq_of_cover 1 (out2 V c) (flushed2_out V c) fun i =>
    ⟨t2_3, (flush2_1 t2_3).mpr rfl, mem_last_block2 i⟩

private theorem index2_in : ∀ t : Fin cfg2.N, win2_0.index t 0 = t.val ∧ win2_0.index t 1 = 0 :=
  (by decide +kernel : ∀ t : Fin grid2.N, win2_0.index t 0 = t.val ∧ win2_0.index t 1 = 0)

/-- Row `r` of block `t` is row `8192·t + r` of the array; the value proof reads blocks through this. -/
theorem blk2_apply (c : Dev nD) (t : Fin cfg2.N) (y : S8192x4.Idx) :
    (blk2 V c 0 t : Vec F S8192x4 .f32) y
      = (V c (Pipeline.arrRef spec2 0) : Vec F S32768x4 .f32)
          (ix2 (⟨8192 * t.val + (y 0).val, by
            have := lt_of_lt_of_eq t.isLt (show cfg2.N = 4 from N_2); have := idx2_lt0 y; omega⟩ : Fin 32768) (y 1)) := by
  unfold blk2
  rw [View.read_apply]
  show V c main_v147 (((cfg2.win 0).blk t).view.emb y) = V c main_v147 _
  refine congrArg (V c main_v147) ?_
  funext a
  apply Fin.ext
  match a with
  | ⟨0, _⟩ =>
    show win2_0.index t 0 * 8192 + 1 * (y 0).val = 8192 * t.val + (y 0).val
    rw [(index2_in t).1]; omega
  | ⟨1, _⟩ =>
    show win2_0.index t 1 * 4 + 1 * (y 1).val = (y 1).val
    rw [(index2_in t).2]; omega

end Cert.KernelIdeal.Hand

end
-- ==== Proof.Val.RadarLaw.lean ====
/- Why the blockwise radar sum is the reference's sum: a sum over 32768 rows splits into 4 blocks of 8192 rows,
   four steps of a running total reach the full sum, and each step adds exactly its own block's terms. -/
import proofs.«132617_j16140487098675_1_alg».proof.Proof.Val.Stages
import proofs.«132617_j16140487098675_1_alg».proof.Proof.Gen.KernelIdeal.Skeleton
import proofs.«132617_j16140487098675_1_alg».proof.Proof.Val.Common

noncomputable section

namespace Cert.Val

open Idealize.ShloMosaic Idealize.ShloMosaic.ValueIdx
open Cert.KernelIdeal (S131072x1 S131072x3 S131072x9 S8192x9 S8192x4 S8192x1 S1x3 S1x1 S1 S_ S32768x1 S32768x3 S32768x4 S2048x3 S1024x3 S1024x1)
open Cert.KernelIdeal.Gen (k0_pay1 k0_pay2 k1_pay1 k2_pay1 k2_pay2)

namespace Radar

def clip (x : EReal) : EReal :=
  min (Ideal.ofBits .f32 0x31097060#32) (max (Ideal.ofBits .f32 0xC0FA5E96#32) x)

def den (l d : EReal) : EReal :=
  Ideal.ofBits .f32 0x40000000#32 * Ideal.exp (clip l) * (d * d) + Ideal.ofBits .f32 0x3089705F#32

def over (l x d : EReal) : EReal := Ideal.div x (den l d)

def half (l : EReal) : EReal := Ideal.ofBits .f32 0x3F000000#32 * clip l

theorem exp_apply {s : Shape} {φ : FTy} (a : FVec Ideal s φ) (i : s.Idx) : exp a i = Ideal.exp (a i) := rfl

theorem hostExp_apply {s : Shape} {φ : FTy} (a : FVec Ideal s φ) (i : s.Idx) : Host.exp a i = Ideal.exp (a i) := rfl

abbrev cols (x0 x1 x2 x3 : FVec Ideal S32768x1 .f32) : List ((s : Shape) × (s.Idx → Ideal .f32)) :=
  [⟨S32768x1, x0⟩, ⟨S32768x1, x1⟩, ⟨S32768x1, x2⟩, ⟨S32768x1, x3⟩]

/-- Four columns side by side: column `k` of the result is the `k`-th of them. -/
theorem cat4_apply (x0 x1 x2 x3 : FVec Ideal S32768x1 .f32)
    (h : Shape.Concatenates [S32768x1, S32768x1, S32768x1, S32768x1] S32768x4 1) (i : Fin 32768) :
    concatenate S32768x4 1 (cols x0 x1 x2 x3) h (ix2 i (0 : Fin 4)) = x0 (ix2 i (0 : Fin 1))
    ∧ concatenate S32768x4 1 (cols x0 x1 x2 x3) h (ix2 i (1 : Fin 4)) = x1 (ix2 i (0 : Fin 1))
    ∧ concatenate S32768x4 1 (cols x0 x1 x2 x3) h (ix2 i (2 : Fin 4)) = x2 (ix2 i (0 : Fin 1))
    ∧ concatenate S32768x4 1 (cols x0 x1 x2 x3) h (ix2 i (3 : Fin 4)) = x3 (ix2 i (0 : Fin 1)) :=
  ⟨concat_cols_apply (cols x0 x1 x2 x3) h 0 (by simp [cols]) x0 rfl 0 rfl i 0 0 rfl,
    concat_cols_apply (cols x0 x1 x2 x3) h 1 (by simp [cols]) x1 rfl 1 rfl i 0 1 rfl,
    concat_cols_apply (cols x0 x1 x2 x3) h 2 (by simp [cols]) x2 rfl 2 rfl i 0 2 rfl,
    concat_cols_apply (cols x0 x1 x2 x3) h 3 (by simp [cols]) x3 rfl 3 rfl i 0 3 rfl⟩

theorem pay1_apply (j : S1x3.Idx) : k2_pay1 (F := Ideal) j = 0 := by
  unfold k2_pay1
  exact Ideal.ofBits_zero_f32

/-- Entry 0 after a step is entry 0 before it plus the block's sum of `over`; entries 1 and 2 likewise. -/
theorem pay2_at0 (v : FVec Ideal S8192x4 .f32) (w : FVec Ideal S1x3 .f32) :
    k2_pay2 v w (ix2 (0 : Fin 1) (0 : Fin 3))
      = w (ix2 (0 : Fin 1) (0 : Fin 3))
        + ∑ r : Fin 8192, over (v (ix2 r (0 : Fin 4))) (v (ix2 r (1 : Fin 4))) (v (ix2 r (3 : Fin 4))) := by
  unfold k2_pay2
  simp only [addf_apply, shapeCast_self]
  refine congrArg (fun z => w (ix2 (0 : Fin 1) (0 : Fin 3)) + z) ?_
  refine (cat3_apply _ _ _ _).1.trans ?_
  refine (shapeCast_a_1a_apply _ _ 0 0).trans ?_
  refine (multiReduction_add_cols_apply _ _ _ _ 0).trans ?_
  refine Finset.sum_congr rfl fun r _ => ?_
  simp only [divf_apply, addf_apply, mulf_apply, exp_apply, minimumf_apply, maximumf_apply, broadcast_apply,
    Ideal.ofBits_def, slice2_axis1_apply 0 _ _ _ (0 : Fin 1) (0 : Fin 4) rfl,
    slice2_axis1_apply 1 _ _ _ (0 : Fin 1) (1 : Fin 4) rfl, slice2_axis1_apply 3 _ _ _ (0 : Fin 1) (3 : Fin 4) rfl]
  rfl

theorem pay2_at1 (v : FVec Ideal S8192x4 .f32) (w : FVec Ideal S1x3 .f32) :
    k2_pay2 v w (ix2 (0 : Fin 1) (1 : Fin 3))
      = w (ix2 (0 : Fin 1) (1 : Fin 3))
        + ∑ r : Fin 8192, over (v (ix2 r (0 : Fin 4))) (v (ix2 r (2 : Fin 4))) (v (ix2 r (3 : Fin 4))) := by
  unfold k2_pay2
  simp only [addf_apply, shapeCast_self]
  refine congrArg (fun z => w (ix2 (0 : Fin 1) (1 : Fin 3)) + z) ?_
  refine (cat3_apply _ _ _ _).2.1.trans ?_
  refine (shapeCast_a_1a_apply _ _ 0 0).trans ?_
  refine (multiReduction_add_cols_apply _ _ _ _ 0).trans ?_
  refine Finset.sum_congr rfl fun r _ => ?_
  simp only [divf_apply, addf_apply, mulf_apply, exp_apply, minimumf_apply, maximumf_apply, broadcast_apply,
    Ideal.ofBits_def, slice2_axis1_apply 0 _ _ _ (0 : Fin 1) (0 : Fin 4) rfl,
    slice2_axis1_apply 2 _ _ _ (0 : Fin 1) (2 : Fin 4) rfl, slice2_axis1_apply 3 _ _ _ (0 : Fin 1) (3 : Fin 4) rfl]
  rfl

theorem pay2_at2 (v : FVec Ideal S8192x4 .f32) (w : FVec Ideal S1x3 .f32) :
    k2_pay2 v w (ix2 (0 : Fin 1) (2 : Fin 3))
      = w (ix2 (0 : Fin 1) (2 : Fin 3)) + ∑ r : Fin 8192, half (v (ix2 r (0 : Fin 4))) := by
  unfold k2_pay2
  simp only [addf_apply, shapeCast_self]
  refine congrArg (fun z => w (ix2 (0 : Fin 1) (2 : Fin 3)) + z) ?_
  refine (cat3_apply _ _ _ _).2.2.trans ?_
  refine (shapeCast_a_1a_apply _ _ 0 0).trans ?_
  refine (multiReduction_add_cols_apply _ _ _ _ 0).trans ?_
  refine Finset.sum_congr rfl fun r _ => ?_
  simp only [mulf_apply, minimumf_apply, maximumf_apply, broadcast_apply, Ideal.ofBits_def,
    slice2_axis1_apply 0 _ _ _ (0 : Fin 1) (0 : Fin 4) rfl]
  rfl

theorem sumOver_eq (lv x dt : FVec Ideal S32768x1 .f32) :
    Cert.ReferenceIdeal.Stage.radarSumOver (F := Ideal) lv x dt ix0
      = ∑ i : Fin 32768, over (lv (ix2 i (0 : Fin 1))) (x (ix2 i (0 : Fin 1))) (dt (ix2 i (0 : Fin 1))) := by
  unfold Cert.ReferenceIdeal.Stage.radarSumOver
  refine (hostSumAll_apply _ _ _).trans (Finset.sum_congr rfl fun i _ => ?_)
  unfold Cert.ReferenceIdeal.Stage.radarDen Cert.ReferenceIdeal.Stage.radarClip
  simp only [hostDivf_apply, addf_apply, mulf_apply, hostExp_apply, minimumf_apply, maximumf_apply,
    broadcastInDim_scalar_apply, constant_apply]
  rfl

theorem sumLv_eq (lv : FVec Ideal S32768x1 .f32) :
    Cert.ReferenceIdeal.Stage.radarSumLv (F := Ideal) lv ix0 = ∑ i : Fin 32768, half (lv (ix2 i (0 : Fin 1))) := by
  unfold Cert.ReferenceIdeal.Stage.radarSumLv
  refine (hostSumAll_apply _ _ _).trans (Finset.sum_congr rfl fun i _ => ?_)
  unfold Cert.ReferenceIdeal.Stage.radarClip
  simp only [mulf_apply, minimumf_apply, maximumf_apply, broadcastInDim_scalar_apply, constant_apply]
  rfl

theorem row_lt (t : Fin 4) (r : Fin 8192) : 8192 * t.val + r.val < 32768 := by
  have := t.isLt; have := r.isLt; omega

end Radar

open Radar

/-- Each entry of the last partial sum is a running total of block sums, hence the reference's sum over all rows. -/
theorem radar_law
    (lv ph sp dt : FVec Ideal S32768x1 .f32)
    (blk : Fin 4 → Vec Ideal S8192x4 .f32)
    (hblk : ∀ (t : Fin 4) (r : Fin 8192) (q : Fin 4), blk t (ValueIdx.ix2 r q) =
      (concatenate S32768x4 1 [⟨S32768x1, lv⟩, ⟨S32768x1, ph⟩, ⟨S32768x1, sp⟩, ⟨S32768x1, dt⟩]
          Cert.KernelIdeal.Gen.concatenates_S32768x1_S32768x1_S32768x1_S32768x1_S32768x4_d1 : FVec Ideal S32768x4 .f32)
        (ValueIdx.ix2 (⟨8192 * t.val + r.val, by have := t.isLt; have := r.isLt; omega⟩ : Fin 32768) q))
    (acc : ℕ → Vec Ideal S1x3 .f32)
    (h0 : acc 0 = k2_pay2 (blk 0) (k2_pay1 (F := Ideal)))
    (hs : ∀ (n : ℕ) (h : n + 1 < 4), acc (n + 1) = k2_pay2 (blk ⟨n + 1, h⟩) (acc n)) :
    acc 3 (ValueIdx.ix2 (0 : Fin 1) (0 : Fin 3)) = Cert.ReferenceIdeal.Stage.radarSumOver (F := Ideal) lv ph dt ValueIdx.ix0
    ∧ acc 3 (ValueIdx.ix2 (0 : Fin 1) (1 : Fin 3)) = Cert.ReferenceIdeal.Stage.radarSumOver (F := Ideal) lv sp dt ValueIdx.ix0
    ∧ acc 3 (ValueIdx.ix2 (0 : Fin 1) (2 : Fin 3)) = Cert.ReferenceIdeal.Stage.radarSumLv (F := Ideal) lv ValueIdx.ix0 := by
  have c0 : ∀ (t : Fin 4) (r : Fin 8192), blk t (ix2 r (0 : Fin 4)) = lv (ix2 ⟨8192 * t.val + r.val, row_lt t r⟩ (0 : Fin 1)) :=
    fun t r => (hblk t r 0).trans (cat4_apply lv ph sp dt _ _).1
  have c1 : ∀ (t : Fin 4) (r : Fin 8192), blk t (ix2 r (1 : Fin 4)) = ph (ix2 ⟨8192 * t.val + r.val, row_lt t r⟩ (0 : Fin 1)) :=
    fun t r => (hblk t r 1).trans (cat4_apply lv ph sp dt _ _).2.1
  have c2 : ∀ (t : Fin 4) (r : Fin 8192), blk t (ix2 r (2 : Fin 4)) = sp (ix2 ⟨8192 * t.val + r.val, row_lt t r⟩ (0 : Fin 1)) :=
    fun t r => (hblk t r 2).trans (cat4_apply lv ph sp dt _ _).2.2.1
  have c3 : ∀ (t : Fin 4) (r : Fin 8192), blk t (ix2 r (3 : Fin 4)) = dt (ix2 ⟨8192 * t.val + r.val, row_lt t r⟩ (0 : Fin 1)) :=
    fun t r => (hblk t r 3).trans (cat4_apply lv ph sp dt _ _).2.2.2
  refine ⟨?_, ?_, ?_⟩
  · refine (running_total 3 rfl (fun n => acc n (ix2 (0 : Fin 1) (0 : Fin 3)))
      (fun t => ∑ r : Fin 8192, over (blk t (ix2 r (0 : Fin 4))) (blk t (ix2 r (1 : Fin 4))) (blk t (ix2 r (3 : Fin 4))))
      ?_ ?_).trans ?_
    · show acc 0 _ = _
      rw [h0, pay2_at0, pay1_apply]
    · intro n h
      show acc (n + 1) _ = _
      rw [hs n h, pay2_at0]
    · rw [sumOver_eq, ← sum_blocks (T := 4) (R := 8192) (N := 32768) rfl _ row_lt]
      refine Finset.sum_congr rfl fun t _ => Finset.sum_congr rfl fun r _ => ?_
      rw [c0 t r, c1 t r, c3 t r]
  · refine (running_total 3 rfl (fun n => acc n (ix2 (0 : Fin 1) (1 : Fin 3)))
      (fun t => ∑ r : Fin 8192, over (blk t (ix2 r (0 : Fin 4))) (blk t (ix2 r (2 : Fin 4))) (blk t (ix2 r (3 : Fin 4))))
      ?_ ?_).trans ?_
    · show acc 0 _ = _
      rw [h0, pay2_at1, pay1_apply]
    · intro n h
      show acc (n + 1) _ = _
      rw [hs n h, pay2_at1]
    · rw [sumOver_eq, ← sum_blocks (T := 4) (R := 8192) (N := 32768) rfl _ row_lt]
      refine Finset.sum_congr rfl fun t _ => Finset.sum_congr rfl fun r _ => ?_
      rw [c0 t r, c2 t r, c3 t r]
  · refine (running_total 3 rfl (fun n => acc n (ix2 (0 : Fin 1) (2 : Fin 3)))
      (fun t => ∑ r : Fin 8192, half (blk t (ix2 r (0 : Fin 4))))
      ?_ ?_).trans ?_
    · show acc 0 _ = _
      rw [h0, pay2_at2, pay1_apply]
    · intro n h
      show acc (n + 1) _ = _
      rw [hs n h, pay2_at2]
    · rw [sumLv_eq, ← sum_blocks (T := 4) (R := 8192) (N := 32768) rfl _ row_lt]
      refine Finset.sum_congr rfl fun t _ => Finset.sum_congr rfl fun r _ => ?_
      rw [c0 t r]

end Cert.Val

end
-- ==== Proof.Val.RadarValue.lean ====
/- The radar loop's final output is the reference's sums: the partial sums `acc2` satisfy the hypotheses of `radar_law`. -/
import proofs.«132617_j16140487098675_1_alg».proof.Proof.KI.RadarSumAFinal
import proofs.«132617_j16140487098675_1_alg».proof.Proof.Val.RadarLaw

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

def radarAcc (c : Dev nD) (n : ℕ) : Vec Ideal S1x3 .f32 :=
  if h : n < cfg2.N then acc2 V c n h else acc2 V c 0 (by rw [show cfg2.N = 4 from N_2]; decide)

theorem radarAcc_of_lt (c : Dev nD) (n : ℕ) (h : n < cfg2.N) : radarAcc V c n = acc2 V c n h := dif_pos h

/-- Feed `radar_law` the blocks and the unfolding equations of `acc2`, then read off entry 0. -/
theorem radar_value (c : Dev nD) (lv ph sp dt : FVec Ideal S32768x1 .f32)
    (hfeat : (V c (Pipeline.arrRef spec2 0) : FVec Ideal S32768x4 .f32)
      = concatenate S32768x4 1 [⟨S32768x1, lv⟩, ⟨S32768x1, ph⟩, ⟨S32768x1, sp⟩, ⟨S32768x1, dt⟩]
          Cert.KernelIdeal.Gen.concatenates_S32768x1_S32768x1_S32768x1_S32768x1_S32768x4_d1) :
    ((dat2 V c).arrAt 1 cfg2.N : FVec Ideal S1x3 .f32) (ix2 (0 : Fin 1) (0 : Fin 3))
        = Cert.ReferenceIdeal.Stage.radarSumOver (F := Ideal) lv ph dt ix0
    ∧ ((dat2 V c).arrAt 1 cfg2.N : FVec Ideal S1x3 .f32) (ix2 (0 : Fin 1) (1 : Fin 3))
        = Cert.ReferenceIdeal.Stage.radarSumOver (F := Ideal) lv sp dt ix0
    ∧ ((dat2 V c).arrAt 1 cfg2.N : FVec Ideal S1x3 .f32) (ix2 (0 : Fin 1) (2 : Fin 3))
        = Cert.ReferenceIdeal.Stage.radarSumLv (F := Ideal) lv ix0 := by
  have hN : cfg2.N = 4 := N_2
  have law := radar_law lv ph sp dt
    (fun t => blk2 V c 0 (Fin.cast hN.symm t))
    (fun t r q => (blk2_apply V c (Fin.cast hN.symm t) (ix2 r q)).trans (congrFun hfeat _))
    (radarAcc V c)
    ((radarAcc_of_lt V c 0 (by rw [hN]; decide)).trans (acc2_zero V c _))
    (fun n h => by
      have h1 : n + 1 < cfg2.N := by rw [hN]; exact h
      rw [radarAcc_of_lt V c (n + 1) h1, radarAcc_of_lt V c n (Nat.lt_of_succ_lt h1)]
      exact acc2_succ V c n h1)
  have hend : ∀ i : S1x3.Idx, ((dat2 V c).arrAt 1 cfg2.N : FVec Ideal S1x3 .f32) i = radarAcc V c 3 i := fun i =>
    (congrFun (out2_final V c) i).trans (congrFun (radarAcc_of_lt V c 3 (by rw [hN]; decide)).symm i)
  exact ⟨(hend _).trans law.1, (hend _).trans law.2.1, (hend _).trans law.2.2⟩

end Cert.Val

end
-- ==== Proof.KI.NearestBFinal.lean ====
/- What the search leaves behind: the output blocks tile the output, so row `i` of the result is row `i % 1024` of
   `k3_pay1` applied to query block `i / 1024` and the table. -/
import proofs.«132617_j16140487098675_1_alg».proof.Proof.KI.NearestBData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Idealize.ShloMosaic.ValueIdx

private def pointOf (i : S32768x1.Idx) : Fin cfg3.N :=
  ⟨(i (0 : Fin 2)).val / 1024, by
    have h : (i (0 : Fin 2)).val < 32768 := (i (0 : Fin 2)).isLt
    show (i (0 : Fin 2)).val / 1024 < grid3.N
    rw [N_3]; omega⟩

private def rowIn (i : S32768x1.Idx) : S1024x1.Idx :=
  ix2 (⟨(i (0 : Fin 2)).val % 1024, Nat.mod_lt _ (by decide)⟩ : Fin 1024) (0 : Fin 1)

private theorem pointOf_val (i : S32768x1.Idx) : (pointOf i).val = (i (0 : Fin 2)).val / 1024 := rfl

private def outAll (c : Dev nD) : S32768x1.Idx → Elt F .f32 :=
  fun i => k3_pay1 (blk3 V c 0 (pointOf i)) (blk3 V c 1 (pointOf i)) (rowIn i)

private theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

private theorem emb_out_row (t : Fin cfg3.N) (y : ((cfg3.win 2).xblock (cfg3.grid.coords t)).Idx) :
    ((((cfg3.win 2).blk t).view.emb y) (0 : Fin 2)).val = 1024 * t.val + (y (0 : Fin 2)).val := by
  obtain ⟨-, -, -, -, e0, -⟩ := idx_facts t
  show win3_2.index t (0 : Fin 2) * 1024 + 1 * (y (0 : Fin 2)).val = _
  omega

private theorem pointOf_emb (t : Fin cfg3.N) (y : ((cfg3.win 2).xblock (cfg3.grid.coords t)).Idx) :
    pointOf (((cfg3.win 2).blk t).view.emb y) = t := by
  apply Fin.ext
  rw [pointOf_val, emb_out_row]
  have hy : (y (0 : Fin 2)).val < 1024 := (y (0 : Fin 2)).isLt
  omega

private theorem rowIn_emb (t : Fin cfg3.N) (y : ((cfg3.win 2).xblock (cfg3.grid.coords t)).Idx) :
    rowIn (((cfg3.win 2).blk t).view.emb y) = y := by
  funext a; apply Fin.ext
  match a with
  | ⟨0, _⟩ =>
    show ((((cfg3.win 2).blk t).view.emb y) (0 : Fin 2)).val % 1024 = (y (0 : Fin 2)).val
    rw [emb_out_row]
    have hy : (y (0 : Fin 2)).val < 1024 := (y (0 : Fin 2)).isLt
    omega
  | ⟨1, _⟩ =>
    show 0 = (y (1 : Fin 2)).val
    have hy : (y (1 : Fin 2)).val < 1 := (y (1 : Fin 2)).isLt
    omega

private theorem cut_out_apply (t : Fin cfg3.N) (X : S1024x1.Idx → Elt F .f32)
    (y : ((cfg3.win 2).xblock (cfg3.grid.coords t)).Idx) : (cfg3.win 2).cut (grid3.coords t) X y = X y := rfl

private theorem read_out_blk (t : Fin cfg3.N) (G : S32768x1.Idx → Elt F .f32)
    (y : ((cfg3.win 2).xblock (cfg3.grid.coords t)).Idx) :
    ((cfg3.win 2).blk t).view.read (Elt F) G y = G (((cfg3.win 2).blk t).view.emb y) := rfl

private theorem flushed_eq (c : Dev nD) (t : Fin cfg3.N) :
    (dat3 V c).flushed 2 t = ((cfg3.win 2).blk t).view.read (Elt F) (outAll V c) := by
  show (cfg3.win 2).cut (grid3.coords t) ((dat3 V c).after 2 t) = _
  rw [dat3_after_out]
  funext y
  refine (cut_out_apply t _ y).trans ?_
  refine Eq.trans ?_ (read_out_blk t (outAll V c) y).symm
  unfold outAll
  rw [pointOf_emb, rowIn_emb]

private theorem mem_out_blk (t : Fin cfg3.N) (i : S32768x1.Idx) :
    i ∈ ((cfg3.win 2).blk t).view.set ↔ ∀ a : Fin 2, win3_2.index t a * S1024x1.size a ≤ (i a).val ∧ (i a).val < win3_2.index t a * S1024x1.size a + S1024x1.size a := by
  show i ∈ ((View.whole main_v223).slice (win3_2.rect t)).set ↔ _
  rw [View.set_slice_whole, Rect.mem_set_unit]
  exact Iff.rfl

/-- Row `i` lies in the block of step `i / 1024`. -/
private theorem cover_out_arr (i : S32768x1.Idx) :
    ∃ t : Fin cfg3.N, (cfg3.win 2).flush t = true ∧ i ∈ ((cfg3.win 2).blk t).view.set := by
  refine ⟨pointOf i, flush3_2 _, ?_⟩
  rw [mem_out_blk]
  obtain ⟨-, -, -, -, e0, e1⟩ := idx_facts (pointOf i)
  have hp : (pointOf i).val = (i (0 : Fin 2)).val / 1024 := rfl
  have hi0 : (i (0 : Fin 2)).val < 32768 := (i (0 : Fin 2)).isLt
  have hi1 : (i (1 : Fin 2)).val < 1 := (i (1 : Fin 2)).isLt
  intro a
  match a with
  | ⟨0, _⟩ =>
    show win3_2.index (pointOf i) (0 : Fin 2) * 1024 ≤ (i (0 : Fin 2)).val ∧ (i (0 : Fin 2)).val < win3_2.index (pointOf i) (0 : Fin 2) * 1024 + 1024
    omega
  | ⟨1, _⟩ =>
    show win3_2.index (pointOf i) (1 : Fin 2) * 1 ≤ (i (1 : Fin 2)).val ∧ (i (1 : Fin 2)).val < win3_2.index (pointOf i) (1 : Fin 2) * 1 + 1
    omega

/-- Each row is written by exactly one step, at row `i % 1024` of that step's block. -/
theorem out3_final (c : Dev nD) (i : S32768x1.Idx) :
    (dat3 V c).arrAt 2 cfg3.N i
      = k3_pay1
          (blk3 V c 0 ⟨(i (0 : Fin 2)).val / 1024, by
            have h : (i (0 : Fin 2)).val < 32768 := (i (0 : Fin 2)).isLt
            show (i (0 : Fin 2)).val / 1024 < grid3.N
            rw [N_3]; omega⟩)
          (blk3 V c 1 ⟨(i (0 : Fin 2)).val / 1024, by
            have h : (i (0 : Fin 2)).val < 32768 := (i (0 : Fin 2)).isLt
            show (i (0 : Fin 2)).val / 1024 < grid3.N
            rw [N_3]; omega⟩)
          (ix2 (⟨(i (0 : Fin 2)).val % 1024, Nat.mod_lt _ (by decide)⟩ : Fin 1024) (0 : Fin 1)) :=
  congrFun ((dat3 V c).arrAt_eq_of_cover 2 (outAll V c) (fun t _ => flushed_eq V c t) cover_out_arr) i

/-- Query block `t` is rows `1024·t + r` of the query array. -/
theorem blk3_pred_apply (c : Dev nD) (t : Fin cfg3.N) (y : S1024x3.Idx) :
    blk3 V c 0 t y = V c (Pipeline.arrRef spec3 0)
      (ix2 (⟨1024 * t.val + (y (0 : Fin 2)).val, by
        have ht : t.val < 32 := lt_of_lt_of_eq t.isLt N_3
        have hy : (y (0 : Fin 2)).val < 1024 := (y (0 : Fin 2)).isLt
        omega⟩ : Fin 32768) (⟨(y (1 : Fin 2)).val, (y (1 : Fin 2)).isLt⟩ : Fin 3)) := by
  obtain ⟨e0, e1, -, -, -, -⟩ := idx_facts t
  show V c (Pipeline.arrRef spec3 0) (((cfg3.win 0).blk t).view.emb y) = _
  refine congrArg (V c (Pipeline.arrRef spec3 0)) (funext fun a => Fin.ext ?_)
  match a with
  | ⟨0, _⟩ => show win3_0.index t (0 : Fin 2) * 1024 + 1 * (y (0 : Fin 2)).val = 1024 * t.val + (y (0 : Fin 2)).val; omega
  | ⟨1, _⟩ => show win3_0.index t (1 : Fin 2) * 3 + 1 * (y (1 : Fin 2)).val = (y (1 : Fin 2)).val; omega

/-- Every step sees the whole table. -/
theorem blk3_table_apply (c : Dev nD) (t : Fin cfg3.N) (y : S2048x3.Idx) :
    blk3 V c 1 t y = V c (Pipeline.arrRef spec3 1) y := by
  obtain ⟨-, -, e0, e1, -, -⟩ := idx_facts t
  show V c (Pipeline.arrRef spec3 1) (((cfg3.win 1).blk t).view.emb y) = _
  refine congrArg (V c (Pipeline.arrRef spec3 1)) (funext fun a => Fin.ext ?_)
  match a with
  | ⟨0, _⟩ => show win3_1.index t (0 : Fin 2) * 2048 + 1 * (y (0 : Fin 2)).val = (y (0 : Fin 2)).val; omega
  | ⟨1, _⟩ => show win3_1.index t (1 : Fin 2) * 3 + 1 * (y (1 : Fin 2)).val = (y (1 : Fin 2)).val; omega

end Cert.KernelIdeal.Hand

end
-- ==== Proof.Val.NearestValueB.lean ====
/- The search loop's final output is the reference's `nearest` of its two inputs. -/
import proofs.«132617_j16140487098675_1_alg».proof.Proof.KI.NearestBFinal
import proofs.«132617_j16140487098675_1_alg».proof.Proof.Val.NearestLaw

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-- Feed `nearest_law` the blockwise description of the inputs and of the final output. -/
theorem nearest_value_b (V : (c : Dev nD) → (b : Ref sig .tc) → Buf (Elt Ideal) ((c : Thread nD τ).loc b)) (c : Dev nD) :
    ((dat3 V c).arrAt 2 cfg3.N : FVec Ideal S32768x1 .f32)
      = Cert.ReferenceIdeal.Stage.nearest (F := Ideal) (V c (Pipeline.arrRef spec3 0)) (V c (Pipeline.arrRef spec3 1)) := by
  refine nearest_law (V c (Pipeline.arrRef spec3 0)) (V c (Pipeline.arrRef spec3 1))
    (fun t => blk3 V c 0 (t.cast N_3.symm)) (fun t r q => ?_) _ (fun i => ?_)
  · exact blk3_pred_apply V c (t.cast N_3.symm) (ix2 r q)
  · refine (out3_final V c (ix2 i (0 : Fin 1))).trans ?_
    rw [funext (blk3_table_apply V c _)]
    rfl

end Cert.Val

end
-- ==== Proof.KI.RadarSumBFinal.lean ====
/- What the radar sum leaves behind: the output ends as the last partial sum,
   and block `t` of the input is rows `8192·t + r` of the whole array. -/
import proofs.«132617_j16140487098675_1_alg».proof.Proof.KI.RadarSumBData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem acc4_zero (c : Dev nD) (h : 0 < cfg4.N) :
    acc4 V c 0 h = k4_pay2 (blk4 V c 0 ⟨0, h⟩) (k4_pay1 (F := F)) := rfl

theorem acc4_succ (c : Dev nD) (n : ℕ) (h : n + 1 < cfg4.N) :
    acc4 V c (n + 1) h = k4_pay2 (blk4 V c 0 ⟨n + 1, h⟩) (acc4 V c n (Nat.lt_of_succ_lt h)) := rfl

abbrev out4 (c : Dev nD) : Buf (Elt F) ((c : Thread nD τ).loc main_v265) :=
  acc4 V c 3 (by rw [show cfg4.N = 4 from N_4]; decide)

private theorem flushed4_out (c : Dev nD) (t : Fin cfg4.N) (hf : (cfg4.win 1).flush t = true) :
    (dat4 V c).flushed 1 t = ((cfg4.win 1).blk t).view.read (Elt F) (out4 V c) := by
  have hN : cfg4.N = 4 := N_4
  have hlast : t.val = 3 := by have := (flush4_1 t).mp hf; have := t.isLt; omega
  obtain rfl : t = t4_3 := Fin.ext hlast
  show (cfg4.win 1).cut (grid4.coords t4_3) ((dat4 V c).after 1 t4_3) = _
  rw [dat4_after_out]
  have hoff : (fun a => win4_1.index t4_3 a * main_v265.ty.shape.size a) = fun _ => 0 :=
    funext fun a => by fin_cases a <;> decide
  exact (Memref.read_access_unit_zero (Elt F) main_v265 hoff (fun a => by rw [congrFun hoff a]; simp) (out4 V c)).symm

private theorem mem_last_block4 (i : main_v265.ty.Idx) : i ∈ ((cfg4.win 1).blk t4_3).view.set := by
  have hoff : ∀ a, win4_1.index t4_3 a * win4_1.size a = 0 := by decide +kernel
  have hsz : ∀ a, win4_1.xsize (grid4.coords t4_3) a = S1x3.size a := by decide +kernel
  show i ∈ ((View.whole main_v265).slice (win4_1.rect t4_3)).set
  rw [View.set_slice_whole, Rect.mem_set_unit]
  intro a
  show win4_1.index t4_3 a * win4_1.size a ≤ (i a : Nat)
    ∧ (i a : Nat) < win4_1.index t4_3 a * win4_1.size a + win4_1.xsize (grid4.coords t4_3) a
  rw [hoff a, hsz a, Nat.zero_add]
  exact ⟨Nat.zero_le _, (i a).isLt⟩

/-- The last step's block covers every output index, so the final output is the value after that step. -/
theorem out4_final (c : Dev nD) : (dat4 V c).arrAt 1 cfg4.N = out4 V c :=
  (dat4 V c).arrAt_eq_of_cover 1 (out4 V c) (flushed4_out V c) fun i =>
    ⟨t4_3, (flush4_1 t4_3).mpr rfl, mem_last_block4 i⟩

private theorem index4_in : ∀ t : Fin cfg4.N, win4_0.index t 0 = t.val ∧ win4_0.index t 1 = 0 :=
  (by decide +kernel : ∀ t : Fin grid4.N, win4_0.index t 0 = t.val ∧ win4_0.index t 1 = 0)

/-- Row `r` of block `t` is row `8192·t + r` of the array; the value proof reads blocks through this. -/
theorem blk4_apply (c : Dev nD) (t : Fin cfg4.N) (y : S8192x4.Idx) :
    (blk4 V c 0 t : Vec F S8192x4 .f32) y
      = (V c (Pipeline.arrRef spec4 0) : Vec F S32768x4 .f32)
          (ix2 (⟨8192 * t.val + (y 0).val, by
            have := lt_of_lt_of_eq t.isLt (show cfg4.N = 4 from N_4); have := idx2_lt0 y; omega⟩ : Fin 32768) (y 1)) := by
  unfold blk4
  rw [View.read_apply]
  show V c main_v264 (((cfg4.win 0).blk t).view.emb y) = V c main_v264 _
  refine congrArg (V c main_v264) ?_
  funext a
  apply Fin.ext
  match a with
  | ⟨0, _⟩ =>
    show win4_0.index t 0 * 8192 + 1 * (y 0).val = 8192 * t.val + (y 0).val
    rw [(index4_in t).1]; omega
  | ⟨1, _⟩ =>
    show win4_0.index t 1 * 4 + 1 * (y 1).val = (y 1).val
    rw [(index4_in t).2]; omega

end Cert.KernelIdeal.Hand

end
-- ==== Proof.Val.RadarValueB.lean ====
/- The radar loop's final output is the reference's sums: the partial sums `acc4` satisfy the hypotheses of `radar_law`. -/
import proofs.«132617_j16140487098675_1_alg».proof.Proof.KI.RadarSumBFinal
import proofs.«132617_j16140487098675_1_alg».proof.Proof.Val.RadarLaw

set_option maxRecDepth 16384

noncomputable section

namespace Cert.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

def radarAccB (c : Dev nD) (n : ℕ) : Vec Ideal S1x3 .f32 :=
  if h : n < cfg4.N then acc4 V c n h else acc4 V c 0 (by rw [show cfg4.N = 4 from N_4]; decide)

theorem radarAccB_of_lt (c : Dev nD) (n : ℕ) (h : n < cfg4.N) : radarAccB V c n = acc4 V c n h := dif_pos h

/-- Feed `radar_law` the blocks and the unfolding equations of `acc4`, then read off entry 0. -/
theorem radar_value_b (c : Dev nD) (lv ph sp dt : FVec Ideal S32768x1 .f32)
    (hfeat : (V c (Pipeline.arrRef spec4 0) : FVec Ideal S32768x4 .f32)
      = concatenate S32768x4 1 [⟨S32768x1, lv⟩, ⟨S32768x1, ph⟩, ⟨S32768x1, sp⟩, ⟨S32768x1, dt⟩]
          Cert.KernelIdeal.Gen.concatenates_S32768x1_S32768x1_S32768x1_S32768x1_S32768x4_d1) :
    ((dat4 V c).arrAt 1 cfg4.N : FVec Ideal S1x3 .f32) (ix2 (0 : Fin 1) (0 : Fin 3))
        = Cert.ReferenceIdeal.Stage.radarSumOver (F := Ideal) lv ph dt ix0
    ∧ ((dat4 V c).arrAt 1 cfg4.N : FVec Ideal S1x3 .f32) (ix2 (0 : Fin 1) (1 : Fin 3))
        = Cert.ReferenceIdeal.Stage.radarSumOver (F := Ideal) lv sp dt ix0
    ∧ ((dat4 V c).arrAt 1 cfg4.N : FVec Ideal S1x3 .f32) (ix2 (0 : Fin 1) (2 : Fin 3))
        = Cert.ReferenceIdeal.Stage.radarSumLv (F := Ideal) lv ix0 := by
  have hN : cfg4.N = 4 := N_4
  have law := radar_law lv ph sp dt
    (fun t => blk4 V c 0 (Fin.cast hN.symm t))
    (fun t r q => (blk4_apply V c (Fin.cast hN.symm t) (ix2 r q)).trans (congrFun hfeat _))
    (radarAccB V c)
    ((radarAccB_of_lt V c 0 (by rw [hN]; decide)).trans (acc4_zero V c _))
    (fun n h => by
      have h1 : n + 1 < cfg4.N := by rw [hN]; exact h
      rw [radarAccB_of_lt V c (n + 1) h1, radarAccB_of_lt V c n (Nat.lt_of_succ_lt h1)]
      exact acc4_succ V c n h1)
  have hend : ∀ i : S1x3.Idx, ((dat4 V c).arrAt 1 cfg4.N : FVec Ideal S1x3 .f32) i = radarAccB V c 3 i := fun i =>
    (congrFun (out4_final V c) i).trans (congrFun (radarAccB_of_lt V c 3 (by rw [hN]; decide)).symm i)
  exact ⟨(hend _).trans law.1, (hend _).trans law.2.1, (hend _).trans law.2.2⟩

end Cert.Val

end
-- ==== Proof.Val.Bridge.lean ====
/- The run and the reference agree stage by stage: each loop's result is the reference's stage value of the same arguments,
   and therefore so is the final loss. -/
import proofs.«132617_j16140487098675_1_alg».proof.Proof.Val.KernelGlue
import proofs.«132617_j16140487098675_1_alg».proof.Proof.Val.PredGlueA1
import proofs.«132617_j16140487098675_1_alg».proof.Proof.Val.PredGlueB
import proofs.«132617_j16140487098675_1_alg».proof.Proof.Val.RefStages
import proofs.«132617_j16140487098675_1_alg».proof.Proof.Val.LidarValue
import proofs.«132617_j16140487098675_1_alg».proof.Proof.Val.NearestValue
import proofs.«132617_j16140487098675_1_alg».proof.Proof.Val.RadarValue
import proofs.«132617_j16140487098675_1_alg».proof.Proof.Val.NearestValueB
import proofs.«132617_j16140487098675_1_alg».proof.Proof.Val.RadarValueB

set_option maxRecDepth 16384

noncomputable section

namespace Cert.Val

open Idealize.ShloMosaic Idealize.ShloMosaic.TcCoe Idealize.SL.Sem Idealize.ShloMosaic.StableHlo
open Cert.KernelIdeal Cert.KernelIdeal.Gen Cert.KernelIdeal.Hand

variable (m : (ℓ : Loc nD τ sig) → Buf (Elt Ideal) ℓ) (ρ : Dev nD → PrngReg) (c : Dev nD)

/-- The loop's three sums are the reference's three sums, by `lidar_value` on the columns `glue_feat0` names. -/
theorem lidar_sums :
    pick0 (F := Ideal) (W2 m ρ c (Proc.devRef .tc main_v32)) = Cert.RefH.val_main_v43 (F := Ideal) (m ((c.tc : Thread nD τ).loc main_arg0)) (m ((c.tc : Thread nD τ).loc main_arg1)) (m ((c.tc : Thread nD τ).loc main_arg11)) (m ((c.tc : Thread nD τ).loc main_arg12))
    ∧ pick1 (F := Ideal) (W2 m ρ c (Proc.devRef .tc main_v32)) = Cert.RefH.val_main_v48 (F := Ideal) (m ((c.tc : Thread nD τ).loc main_arg0)) (m ((c.tc : Thread nD τ).loc main_arg2)) (m ((c.tc : Thread nD τ).loc main_arg11)) (m ((c.tc : Thread nD τ).loc main_arg12))
    ∧ pick2 (F := Ideal) (W2 m ρ c (Proc.devRef .tc main_v32)) = Cert.RefH.val_main_v52 (F := Ideal) (m ((c.tc : Thread nD τ).loc main_arg0)) := by
  have h := lidar_value (E1 m ρ) c _ _ _ _ _ (glue_feat0 (F := Ideal) m ρ c)
  have ho : W2 m ρ c (Proc.devRef .tc main_v32) = (dat0 (E1 m ρ) c).arrAt 1 cfg0.N := W2_arr m ρ c 1
  rw [ho]
  refine ⟨funext fun i => ?_, funext fun i => ?_, funext fun i => ?_⟩
  · rw [pick0_apply, h.1, ref_lidar_pos, ValueIdx.eq_ix0 i]
  · rw [pick1_apply, h.2.1, ref_lidar_int, ValueIdx.eq_ix0 i]
  · rw [pick2_apply, h.2.2, ref_lidar_lv, ValueIdx.eq_ix0 i]

/-- The search's output is the reference's `nearest` of the same query points and table. -/
theorem near1 : W8 m ρ c (Proc.devRef .tc main_v106) = Cert.RefH.val_main_v135 (F := Ideal) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15)) := by
  have ho : W8 m ρ c (Proc.devRef .tc main_v106) = (dat1 (E7 m ρ) c).arrAt 2 cfg1.N := W8_arr m ρ c 2
  have hp : E7 m ρ c (Pipeline.arrRef spec1 0) = Cert.RefH.val_main_v117 (F := Ideal) (m ((c.tc : Thread nD τ).loc main_arg4)) (m ((c.tc : Thread nD τ).loc main_arg5)) (m ((c.tc : Thread nD τ).loc main_arg10)) (m ((c.tc : Thread nD τ).loc main_arg13)) (m ((c.tc : Thread nD τ).loc main_arg14)) (m ((c.tc : Thread nD τ).loc main_arg15)) := glue_pred1 (F := Ideal) m ρ c
  have hg : E7 m ρ c (Pipeline.arrRef spec1 1) = (m ((c.tc : Thread nD τ).loc main_arg9)) := W7_keep m ρ c main_arg9 (by decide) (W2_of_ne m ρ c main_arg9 (by decide)) (by decide) (by decide) (by decide) (by decide) (by decide)
  rw [ho, nearest_value (E7 m ρ) c, hp, hg, ref_near1]

/-- As for the lidar stage, with `radar_value` and `glue_feat1`; the search result enters through `near1`. -/
theorem radar1_sums :
    pick0 (F := Ideal) (W12 m ρ c (Proc.devRef .tc main_v148)) = Cert.RefH.val_main_v184 (F := Ideal) (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15))
    ∧ pick1 (F := Ideal) (W12 m ρ c (Proc.devRef .tc main_v148)) = Cert.RefH.val_main_v187 (F := Ideal) (m ((c.tc : Thread nD τ).loc main_arg1)) (m ((c.tc : Thread nD τ).loc main_arg3)) (m ((c.tc : Thread nD τ).loc main_arg4)) (m ((c.tc : Thread nD τ).loc main_arg10)) (m ((c.tc : Thread nD τ).loc main_arg13)) (m ((c.tc : Thread nD τ).loc main_arg16)) (m ((c.tc : Thread nD τ).loc main_arg17))
    ∧ pick2 (F := Ideal) (W12 m ρ c (Proc.devRef .tc main_v148)) = Cert.RefH.val_main_v191 (F := Ideal) (m ((c.tc : Thread nD τ).loc main_arg3)) := by
  have hf := glue_feat1 (F := Ideal) m ρ c
  rw [near1 m ρ c, keep_dt1 (F := Ideal) m ρ c, glue_dt1 (F := Ideal) m ρ c] at hf
  have h := radar_value (E11 m ρ) c _ _ _ _ hf
  have ho : W12 m ρ c (Proc.devRef .tc main_v148) = (dat2 (E11 m ρ) c).arrAt 1 cfg2.N := W12_arr m ρ c 1
  rw [ho]
  refine ⟨funext fun i => ?_, funext fun i => ?_, funext fun i => ?_⟩
  · rw [pick0_apply, h.1, ref_radar1_phys, ValueIdx.eq_ix0 i]; rfl
  · rw [pick1_apply, h.2.1, ref_radar1_spat, ValueIdx.eq_ix0 i]
  · rw [pick2_apply, h.2.2, ref_radar1_lv, ValueIdx.eq_ix0 i]

theorem near2 : W18 m ρ c (Proc.devRef .tc main_v223) = Cert.RefH.val_main_v275 (F := Ideal) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg18)) (m ((c.tc : Thread nD τ).loc main_arg19)) (m ((c.tc : Thread nD τ).loc main_arg20)) := by
  have ho : W18 m ρ c (Proc.devRef .tc main_v223) = (dat3 (E17 m ρ) c).arrAt 2 cfg3.N := W18_arr m ρ c 2
  have hp : E17 m ρ c (Pipeline.arrRef spec3 0) = Cert.RefH.val_main_v257 (F := Ideal) (m ((c.tc : Thread nD τ).loc main_arg7)) (m ((c.tc : Thread nD τ).loc main_arg8)) (m ((c.tc : Thread nD τ).loc main_arg10)) (m ((c.tc : Thread nD τ).loc main_arg18)) (m ((c.tc : Thread nD τ).loc main_arg19)) (m ((c.tc : Thread nD τ).loc main_arg20)) := glue_pred2 (F := Ideal) m ρ c
  have hg : E17 m ρ c (Pipeline.arrRef spec3 1) = (m ((c.tc : Thread nD τ).loc main_arg9)) := W17_keep m ρ c main_arg9 (by decide) (W2_of_ne m ρ c main_arg9 (by decide)) (by decide) (by decide) (by decide) (by decide) (by decide) ((W8_arr m ρ c 1).trans (((dat1 (E7 m ρ) c).arrAt_in 1 rfl _).trans (dat1_A (E7 m ρ) c 1))) (by decide) (by decide) (by decide) (W12_of_ne m ρ c main_arg9 (by decide)) (by decide) (by decide) (by decide) (by decide) (by decide)
  rw [ho, nearest_value_b (E17 m ρ) c, hp, hg, ref_near2]

theorem radar2_sums :
    pick0 (F := Ideal) (W22 m ρ c (Proc.devRef .tc main_v265)) = Cert.RefH.val_main_v324 (F := Ideal) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg18)) (m ((c.tc : Thread nD τ).loc main_arg19)) (m ((c.tc : Thread nD τ).loc main_arg20))
    ∧ pick1 (F := Ideal) (W22 m ρ c (Proc.devRef .tc main_v265)) = Cert.RefH.val_main_v327 (F := Ideal) (m ((c.tc : Thread nD τ).loc main_arg1)) (m ((c.tc : Thread nD τ).loc main_arg6)) (m ((c.tc : Thread nD τ).loc main_arg7)) (m ((c.tc : Thread nD τ).loc main_arg10)) (m ((c.tc : Thread nD τ).loc main_arg18)) (m ((c.tc : Thread nD τ).loc main_arg21)) (m ((c.tc : Thread nD τ).loc main_arg22))
    ∧ pick2 (F := Ideal) (W22 m ρ c (Proc.devRef .tc main_v265)) = Cert.RefH.val_main_v331 (F := Ideal) (m ((c.tc : Thread nD τ).loc main_arg6)) := by
  have hf := glue_feat2 (F := Ideal) m ρ c
  rw [near2 m ρ c, keep_dt2 (F := Ideal) m ρ c, glue_dt2 (F := Ideal) m ρ c] at hf
  have h := radar_value_b (E21 m ρ) c _ _ _ _ hf
  have ho : W22 m ρ c (Proc.devRef .tc main_v265) = (dat4 (E21 m ρ) c).arrAt 1 cfg4.N := W22_arr m ρ c 1
  rw [ho]
  refine ⟨funext fun i => ?_, funext fun i => ?_, funext fun i => ?_⟩
  · rw [pick0_apply, h.1, ref_radar2_phys, ValueIdx.eq_ix0 i]; rfl
  · rw [pick1_apply, h.2.1, ref_radar2_spat, ValueIdx.eq_ix0 i]
  · rw [pick2_apply, h.2.2, ref_radar2_lv, ValueIdx.eq_ix0 i]

/-- Chain the stage equations through the three loss terms. -/
theorem result_eq : W23 m ρ c (Proc.devRef .tc main_v281) = Cert.RefH.val_main_v338 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  rw [glue_loss2, keep_loss1, glue_loss1, keep_loss0, glue_loss0]
  obtain ⟨a0, a1, a2⟩ := lidar_sums m ρ c
  obtain ⟨b0, b1, b2⟩ := radar1_sums m ρ c
  obtain ⟨c0, c1, c2⟩ := radar2_sums m ρ c
  rw [a0, a1, a2, b0, b1, b2, c0, c1, c2]
  rfl

end Cert.Val

end
-- ==== Proof.RefH.Base.lean ====
/-
  Two facts about lists of operations, used stretch by stretch.
-/
import proofs.«132617_j16140487098675_1_alg».proof.Proof.Gen.ReferenceIdeal
import Idealize.ShloMosaic.Lib.StableHlo.Run

noncomputable section

namespace Cert.RefH

open Cert.ReferenceIdeal Cert.ReferenceIdeal.Gen Idealize.ShloMosaic Idealize.ShloMosaic.TcCoe Idealize.SL.Sem Idealize.ShloMosaic.StableHlo

variable {F : FTy → Type} [FloatOps F]

/-- A one-buffer set lies among a list's buffers when the buffer is in the list. -/
theorem wr {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- What holds of every member of two lists holds of every member of the two in a row. -/
theorem fa {α : Type} {P : α → Prop} {a b : List α} (ha : a.Forall P) (hb : b.Forall P) : (a ++ b).Forall P :=
  List.forall_append.mpr ⟨ha, hb⟩

end Cert.RefH

end
-- ==== Proof.RefH.OpsA.lean ====
/-
  Stretches 0 to 3 of the reference's operations, in program order, and the buffers each stretch writes.
-/
import proofs.«132617_j16140487098675_1_alg».proof.Proof.RefH.Base

noncomputable section

namespace Cert.RefH

open Cert.ReferenceIdeal Cert.ReferenceIdeal.Gen Idealize.ShloMosaic Idealize.ShloMosaic.TcCoe Idealize.SL.Sem Idealize.ShloMosaic.StableHlo

variable {F : FTy → Type} [FloatOps F]

abbrev pc0 : List (HloOp τ sig (Elt F)) :=
  [ nullary main_cst (constant S_ .f32 0xC139E47F#32),
    nullary main_cst_0 (constant S_ .f32 0xC0BFBA14#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S131072x1, .f32⟩) main_call0_v1) (broadcastInDim S131072x1 ![] bcast_S_S131072x1),
    TRef.binary (TRef.of (T := ⟨S131072x1, .f32⟩) main_call0_v1) (TRef.of (T := ⟨S131072x1, .f32⟩) main_arg0) (TRef.of (T := ⟨S131072x1, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S131072x1, .f32⟩) main_call0_v4) (broadcastInDim S131072x1 ![] bcast_S_S131072x1),
    TRef.binary (TRef.of (T := ⟨S131072x1, .f32⟩) main_call0_v4) (TRef.of (T := ⟨S131072x1, .f32⟩) main_call0_v2) (TRef.of (T := ⟨S131072x1, .f32⟩) main_v0) minimumf,
    nullary main_cst_1 (constant S_ .f32 0x3F800000#32),
    unary main_cst_1 main_v1 (broadcastInDim S2097152 ![] bcast_S_S2097152 : Vec F S_ .f32 → Vec F S2097152 .f32),
    nullary main_cst_2 (constant S_ .f32 0x00000000#32),
    unary main_cst_2 main_v2 (broadcastInDim S131072 ![] bcast_S_S131072 : Vec F S_ .f32 → Vec F S131072 .f32),
    unary main_arg12 main_v3 (broadcastInDim S2097152x1 ![0] bcast_S2097152_S2097152x1_0 : Vec F S2097152 .i32 → Vec F S2097152x1 .i32),
    ternary main_v2 main_v3 main_v1 main_v4 ((fun x i u => Host.scatterAdd scatter_S131072_S2097152x1_S2097152_n_0_0_1 x i u) : Vec F S131072 .f32 → Vec F S2097152x1 .i32 → Vec F S2097152 .f32 → Vec F S131072 .f32),
    nullary main_cst_3 (constant S_ .f32 0x3F800000#32),
    unary main_cst_3 main_v5 (broadcastInDim S131072 ![] bcast_S_S131072 : Vec F S_ .f32 → Vec F S131072 .f32),
    binary main_v4 main_v5 main_v6 (maximumf : Vec F S131072 .f32 → Vec F S131072 .f32 → Vec F S131072 .f32),
    unary main_v6 main_v7 (broadcastInDim S131072x1 ![0] bcast_S131072_S131072x1_0 : Vec F S131072 .f32 → Vec F S131072x1 .f32),
    nullary main_c (constantI S_ 32 0#32),
    unary main_c main_v8 (broadcastInDim S2097152 ![] bcast_S_S2097152 : Vec F S_ .i32 → Vec F S2097152 .i32),
    binary main_arg11 main_v8 main_v9 (cmpi .slt : Vec F S2097152 .i32 → Vec F S2097152 .i32 → Vec F S2097152 .i1),
    nullary main_c_4 (constantI S_ 32 131072#32),
    unary main_c_4 main_v10 (broadcastInDim S2097152 ![] bcast_S_S2097152 : Vec F S_ .i32 → Vec F S2097152 .i32),
    binary main_arg11 main_v10 main_v11 (addi : Vec F S2097152 .i32 → Vec F S2097152 .i32 → Vec F S2097152 .i32),
    ternary main_v9 main_v11 main_arg11 main_v12 (select : Vec F S2097152 .i1 → Vec F S2097152 .i32 → Vec F S2097152 .i32 → Vec F S2097152 .i32),
    unary main_v12 main_v13 (broadcastInDim S2097152x1 ![0] bcast_S2097152_S2097152x1_0 : Vec F S2097152 .i32 → Vec F S2097152x1 .i32),
    binary main_arg1 main_v13 main_v14 ((fun x i => Host.gather gather_S131072x3_S2097152x1_S2097152x3_1_0_n_n_0_1_13 x i) : Vec F S131072x3 .f32 → Vec F S2097152x1 .i32 → Vec F S2097152x3 .f32),
    nullary main_cst_5 (constant S_ .f32 0x00000000#32),
    unary main_cst_5 main_v15 (broadcastInDim S131072x3 ![] bcast_S_S131072x3 : Vec F S_ .f32 → Vec F S131072x3 .f32),
    unary main_arg12 main_v16 (broadcastInDim S2097152x1 ![0] bcast_S2097152_S2097152x1_0 : Vec F S2097152 .i32 → Vec F S2097152x1 .i32),
    ternary main_v15 main_v16 main_v14 main_v17 ((fun x i u => Host.scatterAdd scatter_S131072x3_S2097152x1_S2097152x3_1_0_0_1 x i u) : Vec F S131072x3 .f32 → Vec F S2097152x1 .i32 → Vec F S2097152x3 .f32 → Vec F S131072x3 .f32) ]

theorem pc0_sub : (pc0 : List (HloOp τ sig (Elt F))).Forall fun op => op.bufs ⊆ tcRefs τ sig :=
  ⟨nullary_bufs_sub .., nullary_bufs_sub .., unary_bufs_sub .., unary_bufs_sub .., binary_bufs_sub ..,
   unary_bufs_sub .., unary_bufs_sub .., binary_bufs_sub .., nullary_bufs_sub .., unary_bufs_sub ..,
   nullary_bufs_sub .., unary_bufs_sub .., unary_bufs_sub .., ternary_bufs_sub .., nullary_bufs_sub ..,
   unary_bufs_sub .., binary_bufs_sub .., unary_bufs_sub .., nullary_bufs_sub .., unary_bufs_sub ..,
   binary_bufs_sub .., nullary_bufs_sub .., unary_bufs_sub .., binary_bufs_sub .., ternary_bufs_sub ..,
   unary_bufs_sub .., binary_bufs_sub .., nullary_bufs_sub .., unary_bufs_sub .., unary_bufs_sub ..,
   ternary_bufs_sub ..⟩

theorem pc0_fresh : (pc0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl⟩

abbrev wr0 : List (Ref sig .tc) :=
  [main_cst, main_cst_0, main_call0_v0, main_call0_v1, main_call0_v2, main_call0_v3, main_call0_v4, main_v0,
   main_cst_1, main_v1, main_cst_2, main_v2, main_v3, main_v4, main_cst_3, main_v5, main_v6, main_v7, main_c,
   main_v8, main_v9, main_c_4, main_v10, main_v11, main_v12, main_v13, main_v14, main_cst_5, main_v15, main_v16,
   main_v17]

theorem hW0 : (pc0 : List (HloOp τ sig (Elt F))).Forall fun op => op.writes ⊆ (wr0.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide)⟩

abbrev pc1 : List (HloOp τ sig (Elt F)) :=
  [ unary main_v7 main_v18 (broadcastInDim S131072x3 ![0, 1] bcast_S131072x1_S131072x3_0_1 : Vec F S131072x1 .f32 → Vec F S131072x3 .f32),
    binary main_v17 main_v18 main_v19 (Host.divf : Vec F S131072x3 .f32 → Vec F S131072x3 .f32 → Vec F S131072x3 .f32),
    unary main_arg2 main_v20 ((extractStridedSlice S131072x1 ![0, 2] · slices_S131072x4_S131072x1_0_2) : Vec F S131072x4 .f32 → Vec F S131072x1 .f32),
    nullary main_c_6 (constantI S_ 32 0#32),
    unary main_c_6 main_v21 (broadcastInDim S2097152 ![] bcast_S_S2097152 : Vec F S_ .i32 → Vec F S2097152 .i32),
    binary main_arg11 main_v21 main_v22 (cmpi .slt : Vec F S2097152 .i32 → Vec F S2097152 .i32 → Vec F S2097152 .i1),
    nullary main_c_7 (constantI S_ 32 131072#32),
    unary main_c_7 main_v23 (broadcastInDim S2097152 ![] bcast_S_S2097152 : Vec F S_ .i32 → Vec F S2097152 .i32),
    binary main_arg11 main_v23 main_v24 (addi : Vec F S2097152 .i32 → Vec F S2097152 .i32 → Vec F S2097152 .i32),
    ternary main_v22 main_v24 main_arg11 main_v25 (select : Vec F S2097152 .i1 → Vec F S2097152 .i32 → Vec F S2097152 .i32 → Vec F S2097152 .i32),
    unary main_v25 main_v26 (broadcastInDim S2097152x1 ![0] bcast_S2097152_S2097152x1_0 : Vec F S2097152 .i32 → Vec F S2097152x1 .i32),
    binary main_v20 main_v26 main_v27 ((fun x i => Host.gather gather_S131072x1_S2097152x1_S2097152x1_1_0_n_n_0_1_11 x i) : Vec F S131072x1 .f32 → Vec F S2097152x1 .i32 → Vec F S2097152x1 .f32),
    nullary main_cst_8 (constant S_ .f32 0x00000000#32),
    unary main_cst_8 main_v28 (broadcastInDim S131072x1 ![] bcast_S_S131072x1 : Vec F S_ .f32 → Vec F S131072x1 .f32),
    unary main_arg12 main_v29 (broadcastInDim S2097152x1 ![0] bcast_S2097152_S2097152x1_0 : Vec F S2097152 .i32 → Vec F S2097152x1 .i32),
    ternary main_v28 main_v29 main_v27 main_v30 ((fun x i u => Host.scatterAdd scatter_S131072x1_S2097152x1_S2097152x1_1_0_0_1 x i u) : Vec F S131072x1 .f32 → Vec F S2097152x1 .i32 → Vec F S2097152x1 .f32 → Vec F S131072x1 .f32),
    binary main_v30 main_v7 main_v31 (Host.divf : Vec F S131072x1 .f32 → Vec F S131072x1 .f32 → Vec F S131072x1 .f32),
    binary main_arg1 main_v19 main_v32 (subf : Vec F S131072x3 .f32 → Vec F S131072x3 .f32 → Vec F S131072x3 .f32),
    binary main_v32 main_v32 main_v33 (mulf : Vec F S131072x3 .f32 → Vec F S131072x3 .f32 → Vec F S131072x3 .f32),
    nullary main_cst_9 (constant S_ .f32 0x00000000#32),
    binary main_v33 main_cst_9 main_v34 ((fun x v => Host.reduceAdd x v reducesTo_S131072x3_S131072_d1 h_S_) : Vec F S131072x3 .f32 → Vec F S_ .f32 → Vec F S131072 .f32),
    unary main_v34 main_v35 (broadcastInDim S131072x1 ![0] bcast_S131072_S131072x1_0 : Vec F S131072 .f32 → Vec F S131072x1 .f32),
    binary main_v20 main_v31 main_v36 (subf : Vec F S131072x1 .f32 → Vec F S131072x1 .f32 → Vec F S131072x1 .f32),
    binary main_v36 main_v36 main_v37 (mulf : Vec F S131072x1 .f32 → Vec F S131072x1 .f32 → Vec F S131072x1 .f32),
    unary main_v0 main_v38 (Host.negf : Vec F S131072x1 .f32 → Vec F S131072x1 .f32),
    unary main_v38 main_v39 (Host.exp : Vec F S131072x1 .f32 → Vec F S131072x1 .f32),
    nullary main_cst_10 (constant S_ .f32 0x3F000000#32),
    unary main_cst_10 main_v40 (broadcastInDim S131072x1 ![] bcast_S_S131072x1 : Vec F S_ .f32 → Vec F S131072x1 .f32),
    binary main_v40 main_v39 main_v41 (mulf : Vec F S131072x1 .f32 → Vec F S131072x1 .f32 → Vec F S131072x1 .f32),
    binary main_v41 main_v35 main_v42 (mulf : Vec F S131072x1 .f32 → Vec F S131072x1 .f32 → Vec F S131072x1 .f32),
    nullary main_cst_11 (constant S_ .f32 0x00000000#32),
    binary main_v42 main_cst_11 main_v43 ((fun x v => Host.reduceAdd x v reducesTo_S131072x1_S_d0_1 h_S_) : Vec F S131072x1 .f32 → Vec F S_ .f32 → Vec F S_ .f32),
    nullary main_cst_12 (constant S_ .f32 0x48000000#32),
    binary main_v43 main_cst_12 main_v44 (Host.divf : Vec F S_ .f32 → Vec F S_ .f32 → Vec F S_ .f32) ]

theorem pc1_sub : (pc1 : List (HloOp τ sig (Elt F))).Forall fun op => op.bufs ⊆ tcRefs τ sig :=
  ⟨unary_bufs_sub .., binary_bufs_sub .., unary_bufs_sub .., nullary_bufs_sub .., unary_bufs_sub ..,
   binary_bufs_sub .., nullary_bufs_sub .., unary_bufs_sub .., binary_bufs_sub .., ternary_bufs_sub ..,
   unary_bufs_sub .., binary_bufs_sub .., nullary_bufs_sub .., unary_bufs_sub .., unary_bufs_sub ..,
   ternary_bufs_sub .., binary_bufs_sub .., binary_bufs_sub .., binary_bufs_sub .., nullary_bufs_sub ..,
   binary_bufs_sub .., unary_bufs_sub .., binary_bufs_sub .., binary_bufs_sub .., unary_bufs_sub ..,
   unary_bufs_sub .., nullary_bufs_sub .., unary_bufs_sub .., binary_bufs_sub .., binary_bufs_sub ..,
   nullary_bufs_sub .., binary_bufs_sub .., nullary_bufs_sub .., binary_bufs_sub ..⟩

theorem pc1_fresh : (pc1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl⟩

abbrev wr1 : List (Ref sig .tc) :=
  [main_v18, main_v19, main_v20, main_c_6, main_v21, main_v22, main_c_7, main_v23, main_v24, main_v25, main_v26,
   main_v27, main_cst_8, main_v28, main_v29, main_v30, main_v31, main_v32, main_v33, main_cst_9, main_v34, main_v35,
   main_v36, main_v37, main_v38, main_v39, main_cst_10, main_v40, main_v41, main_v42, main_cst_11, main_v43,
   main_cst_12, main_v44]

theorem hW1 : (pc1 : List (HloOp τ sig (Elt F))).Forall fun op => op.writes ⊆ (wr1.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide)⟩

abbrev pc2 : List (HloOp τ sig (Elt F)) :=
  [ nullary main_cst_13 (constant S_ .f32 0x3F000000#32),
    unary main_cst_13 main_v45 (broadcastInDim S131072x1 ![] bcast_S_S131072x1 : Vec F S_ .f32 → Vec F S131072x1 .f32),
    binary main_v45 main_v39 main_v46 (mulf : Vec F S131072x1 .f32 → Vec F S131072x1 .f32 → Vec F S131072x1 .f32),
    binary main_v46 main_v37 main_v47 (mulf : Vec F S131072x1 .f32 → Vec F S131072x1 .f32 → Vec F S131072x1 .f32),
    nullary main_cst_14 (constant S_ .f32 0x00000000#32),
    binary main_v47 main_cst_14 main_v48 ((fun x v => Host.reduceAdd x v reducesTo_S131072x1_S_d0_1 h_S_) : Vec F S131072x1 .f32 → Vec F S_ .f32 → Vec F S_ .f32),
    nullary main_cst_15 (constant S_ .f32 0x48000000#32),
    binary main_v48 main_cst_15 main_v49 (Host.divf : Vec F S_ .f32 → Vec F S_ .f32 → Vec F S_ .f32),
    nullary main_cst_16 (constant S_ .f32 0x3F000000#32),
    unary main_cst_16 main_v50 (broadcastInDim S131072x1 ![] bcast_S_S131072x1 : Vec F S_ .f32 → Vec F S131072x1 .f32),
    binary main_v50 main_v0 main_v51 (mulf : Vec F S131072x1 .f32 → Vec F S131072x1 .f32 → Vec F S131072x1 .f32),
    nullary main_cst_17 (constant S_ .f32 0x00000000#32),
    binary main_v51 main_cst_17 main_v52 ((fun x v => Host.reduceAdd x v reducesTo_S131072x1_S_d0_1 h_S_) : Vec F S131072x1 .f32 → Vec F S_ .f32 → Vec F S_ .f32),
    nullary main_cst_18 (constant S_ .f32 0x48000000#32),
    binary main_v52 main_cst_18 main_v53 (Host.divf : Vec F S_ .f32 → Vec F S_ .f32 → Vec F S_ .f32),
    nullary main_cst_19 (constant S_ .f32 0x3F800000#32),
    binary main_cst_19 main_v44 main_v54 (mulf : Vec F S_ .f32 → Vec F S_ .f32 → Vec F S_ .f32),
    nullary main_cst_20 (constant S_ .f32 0x3F800000#32),
    binary main_cst_20 main_v49 main_v55 (mulf : Vec F S_ .f32 → Vec F S_ .f32 → Vec F S_ .f32),
    binary main_v54 main_v55 main_v56 (addf : Vec F S_ .f32 → Vec F S_ .f32 → Vec F S_ .f32),
    binary main_v56 main_v53 main_v57 (addf : Vec F S_ .f32 → Vec F S_ .f32 → Vec F S_ .f32),
    nullary main_cst_21 (constant S_ .f32 0x3F800000#32),
    binary main_v57 main_cst_21 main_v58 (mulf : Vec F S_ .f32 → Vec F S_ .f32 → Vec F S_ .f32),
    nullary main_cst_22 (constant S_ .f32 0xC0FA5E96#32),
    nullary main_cst_23 (constant S_ .f32 0x31097060#32),
    TRef.unary (TRef.of (T := ⟨S_, .f32⟩) main_cst_22) (TRef.of (T := ⟨S_, .f32⟩) main_call1_v0) id,
    TRef.unary (TRef.of (T := ⟨S_, .f32⟩) main_call1_v0) (TRef.of (T := ⟨S32768x1, .f32⟩) main_call1_v1) (broadcastInDim S32768x1 ![] bcast_S_S32768x1),
    TRef.binary (TRef.of (T := ⟨S32768x1, .f32⟩) main_call1_v1) (TRef.of (T := ⟨S32768x1, .f32⟩) main_arg3) (TRef.of (T := ⟨S32768x1, .f32⟩) main_call1_v2) maximumf,
    TRef.unary (TRef.of (T := ⟨S_, .f32⟩) main_cst_23) (TRef.of (T := ⟨S_, .f32⟩) main_call1_v3) id,
    TRef.unary (TRef.of (T := ⟨S_, .f32⟩) main_call1_v3) (TRef.of (T := ⟨S32768x1, .f32⟩) main_call1_v4) (broadcastInDim S32768x1 ![] bcast_S_S32768x1),
    TRef.binary (TRef.of (T := ⟨S32768x1, .f32⟩) main_call1_v4) (TRef.of (T := ⟨S32768x1, .f32⟩) main_call1_v2) (TRef.of (T := ⟨S32768x1, .f32⟩) main_v59) minimumf,
    nullary main_c_24 (constantI S_ 32 0#32) ]

theorem pc2_sub : (pc2 : List (HloOp τ sig (Elt F))).Forall fun op => op.bufs ⊆ tcRefs τ sig :=
  ⟨nullary_bufs_sub .., unary_bufs_sub .., binary_bufs_sub .., binary_bufs_sub .., nullary_bufs_sub ..,
   binary_bufs_sub .., nullary_bufs_sub .., binary_bufs_sub .., nullary_bufs_sub .., unary_bufs_sub ..,
   binary_bufs_sub .., nullary_bufs_sub .., binary_bufs_sub .., nullary_bufs_sub .., binary_bufs_sub ..,
   nullary_bufs_sub .., binary_bufs_sub .., nullary_bufs_sub .., binary_bufs_sub .., binary_bufs_sub ..,
   binary_bufs_sub .., nullary_bufs_sub .., binary_bufs_sub .., nullary_bufs_sub .., nullary_bufs_sub ..,
   unary_bufs_sub .., unary_bufs_sub .., binary_bufs_sub .., unary_bufs_sub .., unary_bufs_sub ..,
   binary_bufs_sub .., nullary_bufs_sub ..⟩

theorem pc2_fresh : (pc2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl⟩

abbrev wr2 : List (Ref sig .tc) :=
  [main_cst_13, main_v45, main_v46, main_v47, main_cst_14, main_v48, main_cst_15, main_v49, main_cst_16, main_v50,
   main_v51, main_cst_17, main_v52, main_cst_18, main_v53, main_cst_19, main_v54, main_cst_20, main_v55, main_v56,
   main_v57, main_cst_21, main_v58, main_cst_22, main_cst_23, main_call1_v0, main_call1_v1, main_call1_v2,
   main_call1_v3, main_call1_v4, main_v59, main_c_24]

theorem hW2 : (pc2 : List (HloOp τ sig (Elt F))).Forall fun op => op.writes ⊆ (wr2.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide)⟩

abbrev pc3 : List (HloOp τ sig (Elt F)) :=
  [ unary main_c_24 main_v60 (broadcastInDim S32768 ![] bcast_S_S32768 : Vec F S_ .i32 → Vec F S32768 .i32),
    binary main_arg13 main_v60 main_v61 (cmpi .slt : Vec F S32768 .i32 → Vec F S32768 .i32 → Vec F S32768 .i1),
    nullary main_c_25 (constantI S_ 32 8#32),
    unary main_c_25 main_v62 (broadcastInDim S32768 ![] bcast_S_S32768 : Vec F S_ .i32 → Vec F S32768 .i32),
    binary main_arg13 main_v62 main_v63 (addi : Vec F S32768 .i32 → Vec F S32768 .i32 → Vec F S32768 .i32),
    ternary main_v61 main_v63 main_arg13 main_v64 (select : Vec F S32768 .i1 → Vec F S32768 .i32 → Vec F S32768 .i32 → Vec F S32768 .i32),
    unary main_v64 main_v65 (broadcastInDim S32768x1 ![0] bcast_S32768_S32768x1_0 : Vec F S32768 .i32 → Vec F S32768x1 .i32),
    binary main_arg10 main_v65 main_v66 ((fun x i => Host.gather gather_S8_S32768x1_S32768_n_0_n_n_0_1_1 x i) : Vec F S8 .f32 → Vec F S32768x1 .i32 → Vec F S32768 .f32),
    nullary main_cst_26 (constant S_ .f32 0x3C23D70A#32),
    TRef.unary (TRef.of (T := ⟨S_, .f32⟩) main_cst_26) (TRef.of (T := ⟨S_, .f32⟩) main_call2_v0) id,
    TRef.unary (TRef.of (T := ⟨S_, .f32⟩) main_call2_v0) (TRef.of (T := ⟨S32768, .f32⟩) main_call2_v1) (broadcastInDim S32768 ![] bcast_S_S32768),
    TRef.binary (TRef.of (T := ⟨S32768, .f32⟩) main_call2_v1) (TRef.of (T := ⟨S32768, .f32⟩) main_v66) (TRef.of (T := ⟨S32768, .f32⟩) main_v67) maximumf,
    unary main_v67 main_v68 (broadcastInDim S32768x1 ![0] bcast_S32768_S32768x1_0 : Vec F S32768 .f32 → Vec F S32768x1 .f32),
    nullary main_c_27 (constantI S_ 32 0#32),
    unary main_c_27 main_v69 (broadcastInDim S32768 ![] bcast_S_S32768 : Vec F S_ .i32 → Vec F S32768 .i32),
    binary main_arg15 main_v69 main_v70 (cmpi .slt : Vec F S32768 .i32 → Vec F S32768 .i32 → Vec F S32768 .i1),
    nullary main_c_28 (constantI S_ 32 32768#32),
    unary main_c_28 main_v71 (broadcastInDim S32768 ![] bcast_S_S32768 : Vec F S_ .i32 → Vec F S32768 .i32),
    binary main_arg15 main_v71 main_v72 (addi : Vec F S32768 .i32 → Vec F S32768 .i32 → Vec F S32768 .i32),
    ternary main_v70 main_v72 main_arg15 main_v73 (select : Vec F S32768 .i1 → Vec F S32768 .i32 → Vec F S32768 .i32 → Vec F S32768 .i32),
    unary main_v73 main_v74 (broadcastInDim S32768x1 ![0] bcast_S32768_S32768x1_0 : Vec F S32768 .i32 → Vec F S32768x1 .i32),
    binary main_arg4 main_v74 main_v75 ((fun x i => Host.gather gather_S32768x3_S32768x1_S32768x3_1_0_n_n_0_1_13 x i) : Vec F S32768x3 .f32 → Vec F S32768x1 .i32 → Vec F S32768x3 .f32),
    nullary main_c_29 (constantI S_ 32 0#32),
    unary main_c_29 main_v76 (broadcastInDim S32768 ![] bcast_S_S32768 : Vec F S_ .i32 → Vec F S32768 .i32),
    binary main_arg14 main_v76 main_v77 (cmpi .slt : Vec F S32768 .i32 → Vec F S32768 .i32 → Vec F S32768 .i1),
    nullary main_c_30 (constantI S_ 32 32768#32),
    unary main_c_30 main_v78 (broadcastInDim S32768 ![] bcast_S_S32768 : Vec F S_ .i32 → Vec F S32768 .i32),
    binary main_arg14 main_v78 main_v79 (addi : Vec F S32768 .i32 → Vec F S32768 .i32 → Vec F S32768 .i32),
    ternary main_v77 main_v79 main_arg14 main_v80 (select : Vec F S32768 .i1 → Vec F S32768 .i32 → Vec F S32768 .i32 → Vec F S32768 .i32),
    unary main_v80 main_v81 (broadcastInDim S32768x1 ![0] bcast_S32768_S32768x1_0 : Vec F S32768 .i32 → Vec F S32768x1 .i32),
    binary main_arg4 main_v81 main_v82 ((fun x i => Host.gather gather_S32768x3_S32768x1_S32768x3_1_0_n_n_0_1_13 x i) : Vec F S32768x3 .f32 → Vec F S32768x1 .i32 → Vec F S32768x3 .f32),
    binary main_v75 main_v82 main_v83 (subf : Vec F S32768x3 .f32 → Vec F S32768x3 .f32 → Vec F S32768x3 .f32),
    TRef.binary (TRef.of (T := ⟨S32768x3, .f32⟩) main_v83) (TRef.of (T := ⟨S32768x3, .f32⟩) main_v83) (TRef.of (T := ⟨S32768x3, .f32⟩) main_call3_v0) mulf,
    TRef.nullary (TRef.of (T := ⟨S_, .f32⟩) main_call3_cst) (constant S_ .f32 0x00000000#32),
    TRef.binary (TRef.of (T := ⟨S32768x3, .f32⟩) main_call3_v0) (TRef.of (T := ⟨S_, .f32⟩) main_call3_cst) (TRef.of (T := ⟨S32768, .f32⟩) main_call3_v1) (fun x v => Host.reduceAdd x v reducesTo_S32768x3_S32768_d1 h_S_),
    TRef.unary (TRef.of (T := ⟨S32768, .f32⟩) main_call3_v1) (TRef.of (T := ⟨S32768x1, .f32⟩) main_call3_v2) (broadcastInDim S32768x1 ![0] bcast_S32768_S32768x1_0),
    TRef.unary (TRef.of (T := ⟨S32768x1, .f32⟩) main_call3_v2) (TRef.of (T := ⟨S32768x1, .f32⟩) main_v84) Host.sqrt,
    nullary main_cst_31 (constant S_ .f32 0x3089705F#32),
    unary main_cst_31 main_v85 (broadcastInDim S32768x1 ![] bcast_S_S32768x1 : Vec F S_ .f32 → Vec F S32768x1 .f32) ]

theorem pc3_sub : (pc3 : List (HloOp τ sig (Elt F))).Forall fun op => op.bufs ⊆ tcRefs τ sig :=
  ⟨unary_bufs_sub .., binary_bufs_sub .., nullary_bufs_sub .., unary_bufs_sub .., binary_bufs_sub ..,
   ternary_bufs_sub .., unary_bufs_sub .., binary_bufs_sub .., nullary_bufs_sub .., unary_bufs_sub ..,
   unary_bufs_sub .., binary_bufs_sub .., unary_bufs_sub .., nullary_bufs_sub .., unary_bufs_sub ..,
   binary_bufs_sub .., nullary_bufs_sub .., unary_bufs_sub .., binary_bufs_sub .., ternary_bufs_sub ..,
   unary_bufs_sub .., binary_bufs_sub .., nullary_bufs_sub .., unary_bufs_sub .., binary_bufs_sub ..,
   nullary_bufs_sub .., unary_bufs_sub .., binary_bufs_sub .., ternary_bufs_sub .., unary_bufs_sub ..,
   binary_bufs_sub .., binary_bufs_sub .., binary_bufs_sub .., nullary_bufs_sub .., binary_bufs_sub ..,
   unary_bufs_sub .., unary_bufs_sub .., nullary_bufs_sub .., unary_bufs_sub ..⟩

theorem pc3_fresh : (pc3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl⟩

abbrev wr3 : List (Ref sig .tc) :=
  [main_v60, main_v61, main_c_25, main_v62, main_v63, main_v64, main_v65, main_v66, main_cst_26, main_call2_v0,
   main_call2_v1, main_v67, main_v68, main_c_27, main_v69, main_v70, main_c_28, main_v71, main_v72, main_v73,
   main_v74, main_v75, main_c_29, main_v76, main_v77, main_c_30, main_v78, main_v79, main_v80, main_v81, main_v82,
   main_v83, main_call3_v0, main_call3_cst, main_call3_v1, main_call3_v2, main_v84, main_cst_31, main_v85]

theorem hW3 : (pc3 : List (HloOp τ sig (Elt F))).Forall fun op => op.writes ⊆ (wr3.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide)⟩

set_option maxRecDepth 8192 in
set_option maxHeartbeats 4000000 in
theorem main_part0_eq (c : Dev nD) : main_part0 (F := F) c = seq (pc0 ++ (pc1)) := rfl

set_option maxRecDepth 8192 in
set_option maxHeartbeats 4000000 in
theorem main_part1_eq (c : Dev nD) : main_part1 (F := F) c = seq (pc2 ++ (pc3)) := rfl

end Cert.RefH

end
-- ==== Proof.RefH.OpsB.lean ====
/-
  Stretches 4 to 8 of the reference's operations, in program order, and the buffers each stretch writes.
-/
import proofs.«132617_j16140487098675_1_alg».proof.Proof.RefH.Base

noncomputable section

namespace Cert.RefH

open Cert.ReferenceIdeal Cert.ReferenceIdeal.Gen Idealize.ShloMosaic Idealize.ShloMosaic.TcCoe Idealize.SL.Sem Idealize.ShloMosaic.StableHlo

variable {F : FTy → Type} [FloatOps F]

abbrev pc4 : List (HloOp τ sig (Elt F)) :=
  [ binary main_v84 main_v85 main_v86 (addf : Vec F S32768x1 .f32 → Vec F S32768x1 .f32 → Vec F S32768x1 .f32),
    unary main_v86 main_v87 (broadcastInDim S32768x3 ![0, 1] bcast_S32768x1_S32768x3_0_1 : Vec F S32768x1 .f32 → Vec F S32768x3 .f32),
    binary main_v83 main_v87 main_v88 (Host.divf : Vec F S32768x3 .f32 → Vec F S32768x3 .f32 → Vec F S32768x3 .f32),
    nullary main_c_32 (constantI S_ 32 0#32),
    unary main_c_32 main_v89 (broadcastInDim S32768 ![] bcast_S_S32768 : Vec F S_ .i32 → Vec F S32768 .i32),
    binary main_arg14 main_v89 main_v90 (cmpi .slt : Vec F S32768 .i32 → Vec F S32768 .i32 → Vec F S32768 .i1),
    nullary main_c_33 (constantI S_ 32 32768#32),
    unary main_c_33 main_v91 (broadcastInDim S32768 ![] bcast_S_S32768 : Vec F S_ .i32 → Vec F S32768 .i32),
    binary main_arg14 main_v91 main_v92 (addi : Vec F S32768 .i32 → Vec F S32768 .i32 → Vec F S32768 .i32),
    ternary main_v90 main_v92 main_arg14 main_v93 (select : Vec F S32768 .i1 → Vec F S32768 .i32 → Vec F S32768 .i32 → Vec F S32768 .i32),
    unary main_v93 main_v94 (broadcastInDim S32768x1 ![0] bcast_S32768_S32768x1_0 : Vec F S32768 .i32 → Vec F S32768x1 .i32),
    nullary main_c_34 (constantI S_ 32 2#32),
    unary main_c_34 main_v95 (broadcastInDim S32768x1 ![] bcast_S_S32768x1 : Vec F S_ .i32 → Vec F S32768x1 .i32) ]

theorem pc4_sub : (pc4 : List (HloOp τ sig (Elt F))).Forall fun op => op.bufs ⊆ tcRefs τ sig :=
  ⟨binary_bufs_sub .., unary_bufs_sub .., binary_bufs_sub .., nullary_bufs_sub .., unary_bufs_sub ..,
   binary_bufs_sub .., nullary_bufs_sub .., unary_bufs_sub .., binary_bufs_sub .., ternary_bufs_sub ..,
   unary_bufs_sub .., nullary_bufs_sub .., unary_bufs_sub ..⟩

theorem pc4_fresh : (pc4 : List (HloOp τ sig (Elt F))).Forall fun op => op.fresh = ∅ :=
  ⟨rfl, rfl, rfl, rfl, rfl, rfl, rfl, rfl, rfl, rfl, rfl, rfl, rfl⟩

abbrev wr4 : List (Ref sig .tc) :=
  [main_v86, main_v87, main_v88, main_c_32, main_v89, main_v90, main_c_33, main_v91, main_v92, main_v93, main_v94,
   main_c_34, main_v95]

theorem hW4 : (pc4 : List (HloOp τ sig (Elt F))).Forall fun op => op.writes ⊆ (wr4.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide)⟩

abbrev pc5 : List (HloOp τ sig (Elt F)) :=
  [ binary main_v94 main_v95 main_v96 ((fun a b => concatenate S32768x2 1 [⟨S32768x1, a⟩, ⟨S32768x1, b⟩] concatenates_S32768x1_S32768x1_S32768x2_d1) : Vec F S32768x1 .i32 → Vec F S32768x1 .i32 → Vec F S32768x2 .i32),
    binary main_arg5 main_v96 main_v97 ((fun x i => Host.gather gather_S32768x4_S32768x2_S32768x1_1_0_n_n_01_1_11 x i) : Vec F S32768x4 .f32 → Vec F S32768x2 .i32 → Vec F S32768x1 .f32),
    unary main_v97 main_v98 (Host.absf : Vec F S32768x1 .f32 → Vec F S32768x1 .f32),
    nullary main_c_35 (constantI S_ 32 0#32),
    unary main_c_35 main_v99 (broadcastInDim S32768 ![] bcast_S_S32768 : Vec F S_ .i32 → Vec F S32768 .i32),
    binary main_arg14 main_v99 main_v100 (cmpi .slt : Vec F S32768 .i32 → Vec F S32768 .i32 → Vec F S32768 .i1),
    nullary main_c_36 (constantI S_ 32 32768#32),
    unary main_c_36 main_v101 (broadcastInDim S32768 ![] bcast_S_S32768 : Vec F S_ .i32 → Vec F S32768 .i32),
    binary main_arg14 main_v101 main_v102 (addi : Vec F S32768 .i32 → Vec F S32768 .i32 → Vec F S32768 .i32),
    ternary main_v100 main_v102 main_arg14 main_v103 (select : Vec F S32768 .i1 → Vec F S32768 .i32 → Vec F S32768 .i32 → Vec F S32768 .i32),
    unary main_v103 main_v104 (broadcastInDim S32768x1 ![0] bcast_S32768_S32768x1_0 : Vec F S32768 .i32 → Vec F S32768x1 .i32),
    binary main_arg4 main_v104 main_v105 ((fun x i => Host.gather gather_S32768x3_S32768x1_S32768x3_1_0_n_n_0_1_13 x i) : Vec F S32768x3 .f32 → Vec F S32768x1 .i32 → Vec F S32768x3 .f32),
    unary main_v98 main_v106 (broadcastInDim S32768x3 ![0, 1] bcast_S32768x1_S32768x3_0_1 : Vec F S32768x1 .f32 → Vec F S32768x3 .f32),
    binary main_v106 main_v88 main_v107 (mulf : Vec F S32768x3 .f32 → Vec F S32768x3 .f32 → Vec F S32768x3 .f32),
    nullary main_c_37 (constantI S_ 32 0#32),
    unary main_c_37 main_v108 (broadcastInDim S32768 ![] bcast_S_S32768 : Vec F S_ .i32 → Vec F S32768 .i32),
    binary main_arg14 main_v108 main_v109 (cmpi .slt : Vec F S32768 .i32 → Vec F S32768 .i32 → Vec F S32768 .i1),
    nullary main_c_38 (constantI S_ 32 32768#32),
    unary main_c_38 main_v110 (broadcastInDim S32768 ![] bcast_S_S32768 : Vec F S_ .i32 → Vec F S32768 .i32),
    binary main_arg14 main_v110 main_v111 (addi : Vec F S32768 .i32 → Vec F S32768 .i32 → Vec F S32768 .i32),
    ternary main_v109 main_v111 main_arg14 main_v112 (select : Vec F S32768 .i1 → Vec F S32768 .i32 → Vec F S32768 .i32 → Vec F S32768 .i32),
    unary main_v112 main_v113 (broadcastInDim S32768x1 ![0] bcast_S32768_S32768x1_0 : Vec F S32768 .i32 → Vec F S32768x1 .i32),
    binary main_v68 main_v113 main_v114 ((fun x i => Host.gather gather_S32768x1_S32768x1_S32768x1_1_0_n_n_0_1_11 x i) : Vec F S32768x1 .f32 → Vec F S32768x1 .i32 → Vec F S32768x1 .f32),
    unary main_v114 main_v115 (broadcastInDim S32768x3 ![0, 1] bcast_S32768x1_S32768x3_0_1 : Vec F S32768x1 .f32 → Vec F S32768x3 .f32),
    binary main_v107 main_v115 main_v116 (mulf : Vec F S32768x3 .f32 → Vec F S32768x3 .f32 → Vec F S32768x3 .f32),
    binary main_v105 main_v116 main_v117 (addf : Vec F S32768x3 .f32 → Vec F S32768x3 .f32 → Vec F S32768x3 .f32) ]

theorem pc5_sub : (pc5 : List (HloOp τ sig (Elt F))).Forall fun op => op.bufs ⊆ tcRefs τ sig :=
  ⟨binary_bufs_sub .., binary_bufs_sub .., unary_bufs_sub .., nullary_bufs_sub .., unary_bufs_sub ..,
   binary_bufs_sub .., nullary_bufs_sub .., unary_bufs_sub .., binary_bufs_sub .., ternary_bufs_sub ..,
   unary_bufs_sub .., binary_bufs_sub .., unary_bufs_sub .., binary_bufs_sub .., nullary_bufs_sub ..,
   unary_bufs_sub .., binary_bufs_sub .., nullary_bufs_sub .., unary_bufs_sub .., binary_bufs_sub ..,
   ternary_bufs_sub .., unary_bufs_sub .., binary_bufs_sub .., unary_bufs_sub .., binary_bufs_sub ..,
   binary_bufs_sub ..⟩

theorem pc5_fresh : (pc5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl⟩

abbrev wr5 : List (Ref sig .tc) :=
  [main_v96, main_v97, main_v98, main_c_35, main_v99, main_v100, main_c_36, main_v101, main_v102, main_v103,
   main_v104, main_v105, main_v106, main_v107, main_c_37, main_v108, main_v109, main_c_38, main_v110, main_v111,
   main_v112, main_v113, main_v114, main_v115, main_v116, main_v117]

theorem hW5 : (pc5 : List (HloOp τ sig (Elt F))).Forall fun op => op.writes ⊆ (wr5.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide)⟩

abbrev pc6 : List (HloOp τ sig (Elt F)) :=
  [ binary main_v117 main_v117 main_v118 (mulf : Vec F S32768x3 .f32 → Vec F S32768x3 .f32 → Vec F S32768x3 .f32),
    nullary main_cst_39 (constant S_ .f32 0x00000000#32),
    binary main_v118 main_cst_39 main_v119 ((fun x v => Host.reduceAdd x v reducesTo_S32768x3_S32768_d1 h_S_) : Vec F S32768x3 .f32 → Vec F S_ .f32 → Vec F S32768 .f32),
    binary main_arg9 main_arg9 main_v120 (mulf : Vec F S2048x3 .f32 → Vec F S2048x3 .f32 → Vec F S2048x3 .f32),
    nullary main_cst_40 (constant S_ .f32 0x00000000#32),
    binary main_v120 main_cst_40 main_v121 ((fun x v => Host.reduceAdd x v reducesTo_S2048x3_S2048_d1 h_S_) : Vec F S2048x3 .f32 → Vec F S_ .f32 → Vec F S2048 .f32),
    unary main_v119 main_v122 (broadcastInDim S32768x1 ![0] bcast_S32768_S32768x1_0 : Vec F S32768 .f32 → Vec F S32768x1 .f32),
    unary main_v121 main_v123 (broadcastInDim S1x2048 ![1] bcast_S2048_S1x2048_1 : Vec F S2048 .f32 → Vec F S1x2048 .f32),
    unary main_v122 main_v124 (broadcastInDim S32768x2048 ![0, 1] bcast_S32768x1_S32768x2048_0_1 : Vec F S32768x1 .f32 → Vec F S32768x2048 .f32),
    unary main_v123 main_v125 (broadcastInDim S32768x2048 ![0, 1] bcast_S1x2048_S32768x2048_0_1 : Vec F S1x2048 .f32 → Vec F S32768x2048 .f32),
    binary main_v124 main_v125 main_v126 (addf : Vec F S32768x2048 .f32 → Vec F S32768x2048 .f32 → Vec F S32768x2048 .f32),
    nullary main_cst_41 (constant S_ .f32 0x40000000#32),
    unary main_cst_41 main_v127 (broadcastInDim S32768x3 ![] bcast_S_S32768x3 : Vec F S_ .f32 → Vec F S32768x3 .f32),
    binary main_v127 main_v117 main_v128 (mulf : Vec F S32768x3 .f32 → Vec F S32768x3 .f32 → Vec F S32768x3 .f32),
    unary main_arg9 main_v129 ((transpose S3x2048 [1, 0] · transposes_S2048x3_S3x2048_1_0) : Vec F S2048x3 .f32 → Vec F S3x2048 .f32),
    binary main_v128 main_v129 main_v130 ((fun l r => Host.dotGeneral dot_S32768x3_S3x2048_S32768x2048_1_0_0_1_n_n none l r) : Vec F S32768x3 .f32 → Vec F S3x2048 .f32 → Vec F S32768x2048 .f32),
    binary main_v126 main_v130 main_v131 (subf : Vec F S32768x2048 .f32 → Vec F S32768x2048 .f32 → Vec F S32768x2048 .f32),
    nullary main_cst_42 (constant S_ .f32 0x00000000#32),
    unary main_cst_42 main_v132 (broadcastInDim S32768x2048 ![] bcast_S_S32768x2048 : Vec F S_ .f32 → Vec F S32768x2048 .f32),
    binary main_v131 main_v132 main_v133 (maximumf : Vec F S32768x2048 .f32 → Vec F S32768x2048 .f32 → Vec F S32768x2048 .f32),
    nullary main_cst_43 (constant S_ .f32 0x7F800000#32) ]

theorem pc6_sub : (pc6 : List (HloOp τ sig (Elt F))).Forall fun op => op.bufs ⊆ tcRefs τ sig :=
  ⟨binary_bufs_sub .., nullary_bufs_sub .., binary_bufs_sub .., binary_bufs_sub .., nullary_bufs_sub ..,
   binary_bufs_sub .., unary_bufs_sub .., unary_bufs_sub .., unary_bufs_sub .., unary_bufs_sub ..,
   binary_bufs_sub .., nullary_bufs_sub .., unary_bufs_sub .., binary_bufs_sub .., unary_bufs_sub ..,
   binary_bufs_sub .., binary_bufs_sub .., nullary_bufs_sub .., unary_bufs_sub .., binary_bufs_sub ..,
   nullary_bufs_sub ..⟩

theorem pc6_fresh : (pc6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

abbrev wr6 : List (Ref sig .tc) :=
  [main_v118, main_cst_39, main_v119, main_v120, main_cst_40, main_v121, main_v122, main_v123, main_v124, main_v125,
   main_v126, main_cst_41, main_v127, main_v128, main_v129, main_v130, main_v131, main_cst_42, main_v132, main_v133,
   main_cst_43]

theorem hW6 : (pc6 : List (HloOp τ sig (Elt F))).Forall fun op => op.writes ⊆ (wr6.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide)⟩

abbrev pc7 : List (HloOp τ sig (Elt F)) :=
  [ binary main_v133 main_cst_43 main_v134 ((fun x v => Host.reduce FloatOps.minimumf x v reducesTo_S32768x2048_S32768_d1 h_S_) : Vec F S32768x2048 .f32 → Vec F S_ .f32 → Vec F S32768 .f32),
    unary main_v134 main_v135 (broadcastInDim S32768x1 ![0] bcast_S32768_S32768x1_0 : Vec F S32768 .f32 → Vec F S32768x1 .f32),
    nullary main_cst_44 (constant S_ .f32 0x00000000#32),
    unary main_cst_44 main_v136 (broadcastInDim S32768x1 ![] bcast_S_S32768x1 : Vec F S_ .f32 → Vec F S32768x1 .f32),
    nullary main_c_45 (constantI S_ 32 0#32),
    unary main_c_45 main_v137 (broadcastInDim S32768 ![] bcast_S_S32768 : Vec F S_ .i32 → Vec F S32768 .i32),
    binary main_arg14 main_v137 main_v138 (cmpi .slt : Vec F S32768 .i32 → Vec F S32768 .i32 → Vec F S32768 .i1),
    nullary main_c_46 (constantI S_ 32 32768#32),
    unary main_c_46 main_v139 (broadcastInDim S32768 ![] bcast_S_S32768 : Vec F S_ .i32 → Vec F S32768 .i32),
    binary main_arg14 main_v139 main_v140 (addi : Vec F S32768 .i32 → Vec F S32768 .i32 → Vec F S32768 .i32),
    ternary main_v138 main_v140 main_arg14 main_v141 (select : Vec F S32768 .i1 → Vec F S32768 .i32 → Vec F S32768 .i32 → Vec F S32768 .i32),
    unary main_v141 main_v142 (broadcastInDim S32768x1 ![0] bcast_S32768_S32768x1_0 : Vec F S32768 .i32 → Vec F S32768x1 .i32),
    ternary main_v136 main_v142 main_v135 main_v143 ((fun x i u => Host.scatter scatter_S32768x1_S32768x1_S32768x1_1_0_0_1 (fun _ b => b) x i u) : Vec F S32768x1 .f32 → Vec F S32768x1 .i32 → Vec F S32768x1 .f32 → Vec F S32768x1 .f32),
    nullary main_c_47 (constantI S_ 32 0#32),
    unary main_c_47 main_v144 (broadcastInDim S262144 ![] bcast_S_S262144 : Vec F S_ .i32 → Vec F S262144 .i32),
    binary main_arg16 main_v144 main_v145 (cmpi .slt : Vec F S262144 .i32 → Vec F S262144 .i32 → Vec F S262144 .i1),
    nullary main_c_48 (constantI S_ 32 32768#32),
    unary main_c_48 main_v146 (broadcastInDim S262144 ![] bcast_S_S262144 : Vec F S_ .i32 → Vec F S262144 .i32),
    binary main_arg16 main_v146 main_v147 (addi : Vec F S262144 .i32 → Vec F S262144 .i32 → Vec F S262144 .i32),
    ternary main_v145 main_v147 main_arg16 main_v148 (select : Vec F S262144 .i1 → Vec F S262144 .i32 → Vec F S262144 .i32 → Vec F S262144 .i32),
    unary main_v148 main_v149 (broadcastInDim S262144x1 ![0] bcast_S262144_S262144x1_0 : Vec F S262144 .i32 → Vec F S262144x1 .i32),
    binary main_arg4 main_v149 main_v150 ((fun x i => Host.gather gather_S32768x3_S262144x1_S262144x3_1_0_n_n_0_1_13 x i) : Vec F S32768x3 .f32 → Vec F S262144x1 .i32 → Vec F S262144x3 .f32),
    nullary main_c_49 (constantI S_ 32 0#32),
    unary main_c_49 main_v151 (broadcastInDim S262144 ![] bcast_S_S262144 : Vec F S_ .i32 → Vec F S262144 .i32),
    binary main_arg17 main_v151 main_v152 (cmpi .slt : Vec F S262144 .i32 → Vec F S262144 .i32 → Vec F S262144 .i1),
    nullary main_c_50 (constantI S_ 32 131072#32),
    unary main_c_50 main_v153 (broadcastInDim S262144 ![] bcast_S_S262144 : Vec F S_ .i32 → Vec F S262144 .i32),
    binary main_arg17 main_v153 main_v154 (addi : Vec F S262144 .i32 → Vec F S262144 .i32 → Vec F S262144 .i32),
    ternary main_v152 main_v154 main_arg17 main_v155 (select : Vec F S262144 .i1 → Vec F S262144 .i32 → Vec F S262144 .i32 → Vec F S262144 .i32),
    unary main_v155 main_v156 (broadcastInDim S262144x1 ![0] bcast_S262144_S262144x1_0 : Vec F S262144 .i32 → Vec F S262144x1 .i32),
    binary main_arg1 main_v156 main_v157 ((fun x i => Host.gather gather_S131072x3_S262144x1_S262144x3_1_0_n_n_0_1_13 x i) : Vec F S131072x3 .f32 → Vec F S262144x1 .i32 → Vec F S262144x3 .f32),
    binary main_v150 main_v157 main_v158 (subf : Vec F S262144x3 .f32 → Vec F S262144x3 .f32 → Vec F S262144x3 .f32) ]

theorem pc7_sub : (pc7 : List (HloOp τ sig (Elt F))).Forall fun op => op.bufs ⊆ tcRefs τ sig :=
  ⟨binary_bufs_sub .., unary_bufs_sub .., nullary_bufs_sub .., unary_bufs_sub .., nullary_bufs_sub ..,
   unary_bufs_sub .., binary_bufs_sub .., nullary_bufs_sub .., unary_bufs_sub .., binary_bufs_sub ..,
   ternary_bufs_sub .., unary_bufs_sub .., ternary_bufs_sub .., nullary_bufs_sub .., unary_bufs_sub ..,
   binary_bufs_sub .., nullary_bufs_sub .., unary_bufs_sub .., binary_bufs_sub .., ternary_bufs_sub ..,
   unary_bufs_sub .., binary_bufs_sub .., nullary_bufs_sub .., unary_bufs_sub .., binary_bufs_sub ..,
   nullary_bufs_sub .., unary_bufs_sub .., binary_bufs_sub .., ternary_bufs_sub .., unary_bufs_sub ..,
   binary_bufs_sub .., binary_bufs_sub ..⟩

theorem pc7_fresh : (pc7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl⟩

abbrev wr7 : List (Ref sig .tc) :=
  [main_v134, main_v135, main_cst_44, main_v136, main_c_45, main_v137, main_v138, main_c_46, main_v139, main_v140,
   main_v141, main_v142, main_v143, main_c_47, main_v144, main_v145, main_c_48, main_v146, main_v147, main_v148,
   main_v149, main_v150, main_c_49, main_v151, main_v152, main_c_50, main_v153, main_v154, main_v155, main_v156,
   main_v157, main_v158]

theorem hW7 : (pc7 : List (HloOp τ sig (Elt F))).Forall fun op => op.writes ⊆ (wr7.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide)⟩

abbrev pc8 : List (HloOp τ sig (Elt F)) :=
  [ binary main_v158 main_v158 main_v159 (mulf : Vec F S262144x3 .f32 → Vec F S262144x3 .f32 → Vec F S262144x3 .f32),
    nullary main_cst_51 (constant S_ .f32 0x00000000#32),
    binary main_v159 main_cst_51 main_v160 ((fun x v => Host.reduceAdd x v reducesTo_S262144x3_S262144_d1 h_S_) : Vec F S262144x3 .f32 → Vec F S_ .f32 → Vec F S262144 .f32),
    nullary main_cst_52 (constant S_ .f32 0x00000000#32),
    unary main_cst_52 main_v161 (broadcastInDim S32768 ![] bcast_S_S32768 : Vec F S_ .f32 → Vec F S32768 .f32),
    unary main_arg16 main_v162 (broadcastInDim S262144x1 ![0] bcast_S262144_S262144x1_0 : Vec F S262144 .i32 → Vec F S262144x1 .i32),
    ternary main_v161 main_v162 main_v160 main_v163 ((fun x i u => Host.scatterAdd scatter_S32768_S262144x1_S262144_n_0_0_1 x i u) : Vec F S32768 .f32 → Vec F S262144x1 .i32 → Vec F S262144 .f32 → Vec F S32768 .f32),
    nullary main_cst_53 (constant S_ .f32 0x3F800000#32),
    unary main_cst_53 main_v164 (broadcastInDim S262144 ![] bcast_S_S262144 : Vec F S_ .f32 → Vec F S262144 .f32),
    nullary main_cst_54 (constant S_ .f32 0x00000000#32),
    unary main_cst_54 main_v165 (broadcastInDim S32768 ![] bcast_S_S32768 : Vec F S_ .f32 → Vec F S32768 .f32),
    unary main_arg16 main_v166 (broadcastInDim S262144x1 ![0] bcast_S262144_S262144x1_0 : Vec F S262144 .i32 → Vec F S262144x1 .i32),
    ternary main_v165 main_v166 main_v164 main_v167 ((fun x i u => Host.scatterAdd scatter_S32768_S262144x1_S262144_n_0_0_1 x i u) : Vec F S32768 .f32 → Vec F S262144x1 .i32 → Vec F S262144 .f32 → Vec F S32768 .f32),
    nullary main_cst_55 (constant S_ .f32 0x00000000#32),
    unary main_cst_55 main_v168 (broadcastInDim S32768 ![] bcast_S_S32768 : Vec F S_ .f32 → Vec F S32768 .f32),
    binary main_v167 main_v168 main_v169 (cmpf .ogt : Vec F S32768 .f32 → Vec F S32768 .f32 → Vec F S32768 .i1),
    nullary main_cst_56 (constant S_ .f32 0x3F800000#32),
    unary main_cst_56 main_v170 (broadcastInDim S32768 ![] bcast_S_S32768 : Vec F S_ .f32 → Vec F S32768 .f32),
    binary main_v167 main_v170 main_v171 (maximumf : Vec F S32768 .f32 → Vec F S32768 .f32 → Vec F S32768 .f32),
    binary main_v171 main_v171 main_v172 (mulf : Vec F S32768 .f32 → Vec F S32768 .f32 → Vec F S32768 .f32),
    binary main_v163 main_v172 main_v173 (Host.divf : Vec F S32768 .f32 → Vec F S32768 .f32 → Vec F S32768 .f32),
    nullary main_cst_57 (constant S_ .f32 0x3B6BEDFA#32),
    TRef.unary (TRef.of (T := ⟨S_, .f32⟩) main_cst_57) (TRef.of (T := ⟨S_, .f32⟩) main_call4_v0) id,
    TRef.unary (TRef.of (T := ⟨S_, .f32⟩) main_call4_v0) (TRef.of (T := ⟨S32768, .f32⟩) main_call4_v1) (broadcastInDim S32768 ![] bcast_S_S32768),
    TRef.ternary (TRef.of (T := ⟨S32768, .i1⟩) main_v169) (TRef.of (T := ⟨S32768, .f32⟩) main_v173) (TRef.of (T := ⟨S32768, .f32⟩) main_call4_v1) (TRef.of (T := ⟨S32768, .f32⟩) main_v174) select,
    unary main_v174 main_v175 (broadcastInDim S32768x1 ![0] bcast_S32768_S32768x1_0 : Vec F S32768 .f32 → Vec F S32768x1 .f32),
    unary main_v59 main_v176 (Host.exp : Vec F S32768x1 .f32 → Vec F S32768x1 .f32),
    nullary main_cst_58 (constant S_ .f32 0x40000000#32),
    unary main_cst_58 main_v177 (broadcastInDim S32768x1 ![] bcast_S_S32768x1 : Vec F S_ .f32 → Vec F S32768x1 .f32),
    binary main_v177 main_v176 main_v178 (mulf : Vec F S32768x1 .f32 → Vec F S32768x1 .f32 → Vec F S32768x1 .f32) ]

theorem pc8_sub : (pc8 : List (HloOp τ sig (Elt F))).Forall fun op => op.bufs ⊆ tcRefs τ sig :=
  ⟨binary_bufs_sub .., nullary_bufs_sub .., binary_bufs_sub .., nullary_bufs_sub .., unary_bufs_sub ..,
   unary_bufs_sub .., ternary_bufs_sub .., nullary_bufs_sub .., unary_bufs_sub .., nullary_bufs_sub ..,
   unary_bufs_sub .., unary_bufs_sub .., ternary_bufs_sub .., nullary_bufs_sub .., unary_bufs_sub ..,
   binary_bufs_sub .., nullary_bufs_sub .., unary_bufs_sub .., binary_bufs_sub .., binary_bufs_sub ..,
   binary_bufs_sub .., nullary_bufs_sub .., unary_bufs_sub .., unary_bufs_sub .., ternary_bufs_sub ..,
   unary_bufs_sub .., unary_bufs_sub .., nullary_bufs_sub .., unary_bufs_sub .., binary_bufs_sub ..⟩

theorem pc8_fresh : (pc8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl⟩

abbrev wr8 : List (Ref sig .tc) :=
  [main_v159, main_cst_51, main_v160, main_cst_52, main_v161, main_v162, main_v163, main_cst_53, main_v164,
   main_cst_54, main_v165, main_v166, main_v167, main_cst_55, main_v168, main_v169, main_cst_56, main_v170,
   main_v171, main_v172, main_v173, main_cst_57, main_call4_v0, main_call4_v1, main_v174, main_v175, main_v176,
   main_cst_58, main_v177, main_v178]

theorem hW8 : (pc8 : List (HloOp τ sig (Elt F))).Forall fun op => op.writes ⊆ (wr8.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide)⟩

set_option maxRecDepth 8192 in
set_option maxHeartbeats 4000000 in
theorem main_part2_eq (c : Dev nD) : main_part2 (F := F) c = seq (pc4 ++ (pc5 ++ (pc6))) := rfl

set_option maxRecDepth 8192 in
set_option maxHeartbeats 4000000 in
theorem main_part3_eq (c : Dev nD) : main_part3 (F := F) c = seq (pc7 ++ (pc8)) := rfl

end Cert.RefH

end
-- ==== Proof.RefH.OpsC.lean ====
/-
  Stretches 9 to 13 of the reference's operations, in program order, and the buffers each stretch writes.
-/
import proofs.«132617_j16140487098675_1_alg».proof.Proof.RefH.Base

noncomputable section

namespace Cert.RefH

open Cert.ReferenceIdeal Cert.ReferenceIdeal.Gen Idealize.ShloMosaic Idealize.ShloMosaic.TcCoe Idealize.SL.Sem Idealize.ShloMosaic.StableHlo

variable {F : FTy → Type} [FloatOps F]

abbrev pc9 : List (HloOp τ sig (Elt F)) :=
  [ binary main_v68 main_v68 main_v179 (mulf : Vec F S32768x1 .f32 → Vec F S32768x1 .f32 → Vec F S32768x1 .f32),
    binary main_v178 main_v179 main_v180 (mulf : Vec F S32768x1 .f32 → Vec F S32768x1 .f32 → Vec F S32768x1 .f32),
    nullary main_cst_59 (constant S_ .f32 0x3089705F#32),
    unary main_cst_59 main_v181 (broadcastInDim S32768x1 ![] bcast_S_S32768x1 : Vec F S_ .f32 → Vec F S32768x1 .f32),
    binary main_v180 main_v181 main_v182 (addf : Vec F S32768x1 .f32 → Vec F S32768x1 .f32 → Vec F S32768x1 .f32),
    binary main_v143 main_v182 main_v183 (Host.divf : Vec F S32768x1 .f32 → Vec F S32768x1 .f32 → Vec F S32768x1 .f32),
    nullary main_cst_60 (constant S_ .f32 0x00000000#32),
    binary main_v183 main_cst_60 main_v184 ((fun x v => Host.reduceAdd x v reducesTo_S32768x1_S_d0_1 h_S_) : Vec F S32768x1 .f32 → Vec F S_ .f32 → Vec F S_ .f32),
    nullary main_cst_61 (constant S_ .f32 0x47000000#32),
    binary main_v184 main_cst_61 main_v185 (Host.divf : Vec F S_ .f32 → Vec F S_ .f32 → Vec F S_ .f32),
    binary main_v175 main_v182 main_v186 (Host.divf : Vec F S32768x1 .f32 → Vec F S32768x1 .f32 → Vec F S32768x1 .f32),
    nullary main_cst_62 (constant S_ .f32 0x00000000#32),
    binary main_v186 main_cst_62 main_v187 ((fun x v => Host.reduceAdd x v reducesTo_S32768x1_S_d0_1 h_S_) : Vec F S32768x1 .f32 → Vec F S_ .f32 → Vec F S_ .f32),
    nullary main_cst_63 (constant S_ .f32 0x47000000#32),
    binary main_v187 main_cst_63 main_v188 (Host.divf : Vec F S_ .f32 → Vec F S_ .f32 → Vec F S_ .f32),
    nullary main_cst_64 (constant S_ .f32 0x3F000000#32),
    unary main_cst_64 main_v189 (broadcastInDim S32768x1 ![] bcast_S_S32768x1 : Vec F S_ .f32 → Vec F S32768x1 .f32),
    binary main_v189 main_v59 main_v190 (mulf : Vec F S32768x1 .f32 → Vec F S32768x1 .f32 → Vec F S32768x1 .f32),
    nullary main_cst_65 (constant S_ .f32 0x00000000#32),
    binary main_v190 main_cst_65 main_v191 ((fun x v => Host.reduceAdd x v reducesTo_S32768x1_S_d0_1 h_S_) : Vec F S32768x1 .f32 → Vec F S_ .f32 → Vec F S_ .f32),
    nullary main_cst_66 (constant S_ .f32 0x47000000#32),
    binary main_v191 main_cst_66 main_v192 (Host.divf : Vec F S_ .f32 → Vec F S_ .f32 → Vec F S_ .f32),
    nullary main_cst_67 (constant S_ .f32 0x3F800000#32),
    binary main_cst_67 main_v185 main_v193 (mulf : Vec F S_ .f32 → Vec F S_ .f32 → Vec F S_ .f32),
    nullary main_cst_68 (constant S_ .f32 0x3F800000#32),
    binary main_cst_68 main_v188 main_v194 (mulf : Vec F S_ .f32 → Vec F S_ .f32 → Vec F S_ .f32),
    binary main_v193 main_v194 main_v195 (addf : Vec F S_ .f32 → Vec F S_ .f32 → Vec F S_ .f32),
    binary main_v195 main_v192 main_v196 (addf : Vec F S_ .f32 → Vec F S_ .f32 → Vec F S_ .f32),
    nullary main_cst_69 (constant S_ .f32 0x3F800000#32),
    binary main_v196 main_cst_69 main_v197 (mulf : Vec F S_ .f32 → Vec F S_ .f32 → Vec F S_ .f32),
    binary main_v58 main_v197 main_v198 (addf : Vec F S_ .f32 → Vec F S_ .f32 → Vec F S_ .f32) ]

theorem pc9_sub : (pc9 : List (HloOp τ sig (Elt F))).Forall fun op => op.bufs ⊆ tcRefs τ sig :=
  ⟨binary_bufs_sub .., binary_bufs_sub .., nullary_bufs_sub .., unary_bufs_sub .., binary_bufs_sub ..,
   binary_bufs_sub .., nullary_bufs_sub .., binary_bufs_sub .., nullary_bufs_sub .., binary_bufs_sub ..,
   binary_bufs_sub .., nullary_bufs_sub .., binary_bufs_sub .., nullary_bufs_sub .., binary_bufs_sub ..,
   nullary_bufs_sub .., unary_bufs_sub .., binary_bufs_sub .., nullary_bufs_sub .., binary_bufs_sub ..,
   nullary_bufs_sub .., binary_bufs_sub .., nullary_bufs_sub .., binary_bufs_sub .., nullary_bufs_sub ..,
   binary_bufs_sub .., binary_bufs_sub .., binary_bufs_sub .., nullary_bufs_sub .., binary_bufs_sub ..,
   binary_bufs_sub ..⟩

theorem pc9_fresh : (pc9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl⟩

abbrev wr9 : List (Ref sig .tc) :=
  [main_v179, main_v180, main_cst_59, main_v181, main_v182, main_v183, main_cst_60, main_v184, main_cst_61,
   main_v185, main_v186, main_cst_62, main_v187, main_cst_63, main_v188, main_cst_64, main_v189, main_v190,
   main_cst_65, main_v191, main_cst_66, main_v192, main_cst_67, main_v193, main_cst_68, main_v194, main_v195,
   main_v196, main_cst_69, main_v197, main_v198]

theorem hW9 : (pc9 : List (HloOp τ sig (Elt F))).Forall fun op => op.writes ⊆ (wr9.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide)⟩

abbrev pc10 : List (HloOp τ sig (Elt F)) :=
  [ nullary main_cst_70 (constant S_ .f32 0xC0FA5E96#32),
    nullary main_cst_71 (constant S_ .f32 0x31097060#32),
    TRef.unary (TRef.of (T := ⟨S_, .f32⟩) main_cst_70) (TRef.of (T := ⟨S_, .f32⟩) main_call5_v0) id,
    TRef.unary (TRef.of (T := ⟨S_, .f32⟩) main_call5_v0) (TRef.of (T := ⟨S32768x1, .f32⟩) main_call5_v1) (broadcastInDim S32768x1 ![] bcast_S_S32768x1),
    TRef.binary (TRef.of (T := ⟨S32768x1, .f32⟩) main_call5_v1) (TRef.of (T := ⟨S32768x1, .f32⟩) main_arg6) (TRef.of (T := ⟨S32768x1, .f32⟩) main_call5_v2) maximumf,
    TRef.unary (TRef.of (T := ⟨S_, .f32⟩) main_cst_71) (TRef.of (T := ⟨S_, .f32⟩) main_call5_v3) id,
    TRef.unary (TRef.of (T := ⟨S_, .f32⟩) main_call5_v3) (TRef.of (T := ⟨S32768x1, .f32⟩) main_call5_v4) (broadcastInDim S32768x1 ![] bcast_S_S32768x1),
    TRef.binary (TRef.of (T := ⟨S32768x1, .f32⟩) main_call5_v4) (TRef.of (T := ⟨S32768x1, .f32⟩) main_call5_v2) (TRef.of (T := ⟨S32768x1, .f32⟩) main_v199) minimumf,
    nullary main_c_72 (constantI S_ 32 0#32),
    unary main_c_72 main_v200 (broadcastInDim S32768 ![] bcast_S_S32768 : Vec F S_ .i32 → Vec F S32768 .i32),
    binary main_arg18 main_v200 main_v201 (cmpi .slt : Vec F S32768 .i32 → Vec F S32768 .i32 → Vec F S32768 .i1),
    nullary main_c_73 (constantI S_ 32 8#32),
    unary main_c_73 main_v202 (broadcastInDim S32768 ![] bcast_S_S32768 : Vec F S_ .i32 → Vec F S32768 .i32),
    binary main_arg18 main_v202 main_v203 (addi : Vec F S32768 .i32 → Vec F S32768 .i32 → Vec F S32768 .i32),
    ternary main_v201 main_v203 main_arg18 main_v204 (select : Vec F S32768 .i1 → Vec F S32768 .i32 → Vec F S32768 .i32 → Vec F S32768 .i32),
    unary main_v204 main_v205 (broadcastInDim S32768x1 ![0] bcast_S32768_S32768x1_0 : Vec F S32768 .i32 → Vec F S32768x1 .i32),
    binary main_arg10 main_v205 main_v206 ((fun x i => Host.gather gather_S8_S32768x1_S32768_n_0_n_n_0_1_1 x i) : Vec F S8 .f32 → Vec F S32768x1 .i32 → Vec F S32768 .f32),
    nullary main_cst_74 (constant S_ .f32 0x3C23D70A#32),
    TRef.unary (TRef.of (T := ⟨S_, .f32⟩) main_cst_74) (TRef.of (T := ⟨S_, .f32⟩) main_call6_v0) id,
    TRef.unary (TRef.of (T := ⟨S_, .f32⟩) main_call6_v0) (TRef.of (T := ⟨S32768, .f32⟩) main_call6_v1) (broadcastInDim S32768 ![] bcast_S_S32768),
    TRef.binary (TRef.of (T := ⟨S32768, .f32⟩) main_call6_v1) (TRef.of (T := ⟨S32768, .f32⟩) main_v206) (TRef.of (T := ⟨S32768, .f32⟩) main_v207) maximumf,
    unary main_v207 main_v208 (broadcastInDim S32768x1 ![0] bcast_S32768_S32768x1_0 : Vec F S32768 .f32 → Vec F S32768x1 .f32),
    nullary main_c_75 (constantI S_ 32 0#32),
    unary main_c_75 main_v209 (broadcastInDim S32768 ![] bcast_S_S32768 : Vec F S_ .i32 → Vec F S32768 .i32),
    binary main_arg20 main_v209 main_v210 (cmpi .slt : Vec F S32768 .i32 → Vec F S32768 .i32 → Vec F S32768 .i1),
    nullary main_c_76 (constantI S_ 32 32768#32),
    unary main_c_76 main_v211 (broadcastInDim S32768 ![] bcast_S_S32768 : Vec F S_ .i32 → Vec F S32768 .i32),
    binary main_arg20 main_v211 main_v212 (addi : Vec F S32768 .i32 → Vec F S32768 .i32 → Vec F S32768 .i32),
    ternary main_v210 main_v212 main_arg20 main_v213 (select : Vec F S32768 .i1 → Vec F S32768 .i32 → Vec F S32768 .i32 → Vec F S32768 .i32),
    unary main_v213 main_v214 (broadcastInDim S32768x1 ![0] bcast_S32768_S32768x1_0 : Vec F S32768 .i32 → Vec F S32768x1 .i32),
    binary main_arg7 main_v214 main_v215 ((fun x i => Host.gather gather_S32768x3_S32768x1_S32768x3_1_0_n_n_0_1_13 x i) : Vec F S32768x3 .f32 → Vec F S32768x1 .i32 → Vec F S32768x3 .f32),
    nullary main_c_77 (constantI S_ 32 0#32),
    unary main_c_77 main_v216 (broadcastInDim S32768 ![] bcast_S_S32768 : Vec F S_ .i32 → Vec F S32768 .i32),
    binary main_arg19 main_v216 main_v217 (cmpi .slt : Vec F S32768 .i32 → Vec F S32768 .i32 → Vec F S32768 .i1),
    nullary main_c_78 (constantI S_ 32 32768#32),
    unary main_c_78 main_v218 (broadcastInDim S32768 ![] bcast_S_S32768 : Vec F S_ .i32 → Vec F S32768 .i32) ]

theorem pc10_sub : (pc10 : List (HloOp τ sig (Elt F))).Forall fun op => op.bufs ⊆ tcRefs τ sig :=
  ⟨nullary_bufs_sub .., nullary_bufs_sub .., unary_bufs_sub .., unary_bufs_sub .., binary_bufs_sub ..,
   unary_bufs_sub .., unary_bufs_sub .., binary_bufs_sub .., nullary_bufs_sub .., unary_bufs_sub ..,
   binary_bufs_sub .., nullary_bufs_sub .., unary_bufs_sub .., binary_bufs_sub .., ternary_bufs_sub ..,
   unary_bufs_sub .., binary_bufs_sub .., nullary_bufs_sub .., unary_bufs_sub .., unary_bufs_sub ..,
   binary_bufs_sub .., unary_bufs_sub .., nullary_bufs_sub .., unary_bufs_sub .., binary_bufs_sub ..,
   nullary_bufs_sub .., unary_bufs_sub .., binary_bufs_sub .., ternary_bufs_sub .., unary_bufs_sub ..,
   binary_bufs_sub .., nullary_bufs_sub .., unary_bufs_sub .., binary_bufs_sub .., nullary_bufs_sub ..,
   unary_bufs_sub ..⟩

theorem pc10_fresh : (pc10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl⟩

abbrev wr10 : List (Ref sig .tc) :=
  [main_cst_70, main_cst_71, main_call5_v0, main_call5_v1, main_call5_v2, main_call5_v3, main_call5_v4, main_v199,
   main_c_72, main_v200, main_v201, main_c_73, main_v202, main_v203, main_v204, main_v205, main_v206, main_cst_74,
   main_call6_v0, main_call6_v1, main_v207, main_v208, main_c_75, main_v209, main_v210, main_c_76, main_v211,
   main_v212, main_v213, main_v214, main_v215, main_c_77, main_v216, main_v217, main_c_78, main_v218]

theorem hW10 : (pc10 : List (HloOp τ sig (Elt F))).Forall fun op => op.writes ⊆ (wr10.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide)⟩

abbrev pc11 : List (HloOp τ sig (Elt F)) :=
  [ binary main_arg19 main_v218 main_v219 (addi : Vec F S32768 .i32 → Vec F S32768 .i32 → Vec F S32768 .i32),
    ternary main_v217 main_v219 main_arg19 main_v220 (select : Vec F S32768 .i1 → Vec F S32768 .i32 → Vec F S32768 .i32 → Vec F S32768 .i32),
    unary main_v220 main_v221 (broadcastInDim S32768x1 ![0] bcast_S32768_S32768x1_0 : Vec F S32768 .i32 → Vec F S32768x1 .i32),
    binary main_arg7 main_v221 main_v222 ((fun x i => Host.gather gather_S32768x3_S32768x1_S32768x3_1_0_n_n_0_1_13 x i) : Vec F S32768x3 .f32 → Vec F S32768x1 .i32 → Vec F S32768x3 .f32),
    binary main_v215 main_v222 main_v223 (subf : Vec F S32768x3 .f32 → Vec F S32768x3 .f32 → Vec F S32768x3 .f32),
    TRef.binary (TRef.of (T := ⟨S32768x3, .f32⟩) main_v223) (TRef.of (T := ⟨S32768x3, .f32⟩) main_v223) (TRef.of (T := ⟨S32768x3, .f32⟩) main_call7_v0) mulf,
    TRef.nullary (TRef.of (T := ⟨S_, .f32⟩) main_call7_cst) (constant S_ .f32 0x00000000#32),
    TRef.binary (TRef.of (T := ⟨S32768x3, .f32⟩) main_call7_v0) (TRef.of (T := ⟨S_, .f32⟩) main_call7_cst) (TRef.of (T := ⟨S32768, .f32⟩) main_call7_v1) (fun x v => Host.reduceAdd x v reducesTo_S32768x3_S32768_d1 h_S_),
    TRef.unary (TRef.of (T := ⟨S32768, .f32⟩) main_call7_v1) (TRef.of (T := ⟨S32768x1, .f32⟩) main_call7_v2) (broadcastInDim S32768x1 ![0] bcast_S32768_S32768x1_0),
    TRef.unary (TRef.of (T := ⟨S32768x1, .f32⟩) main_call7_v2) (TRef.of (T := ⟨S32768x1, .f32⟩) main_v224) Host.sqrt,
    nullary main_cst_79 (constant S_ .f32 0x3089705F#32),
    unary main_cst_79 main_v225 (broadcastInDim S32768x1 ![] bcast_S_S32768x1 : Vec F S_ .f32 → Vec F S32768x1 .f32),
    binary main_v224 main_v225 main_v226 (addf : Vec F S32768x1 .f32 → Vec F S32768x1 .f32 → Vec F S32768x1 .f32),
    unary main_v226 main_v227 (broadcastInDim S32768x3 ![0, 1] bcast_S32768x1_S32768x3_0_1 : Vec F S32768x1 .f32 → Vec F S32768x3 .f32),
    binary main_v223 main_v227 main_v228 (Host.divf : Vec F S32768x3 .f32 → Vec F S32768x3 .f32 → Vec F S32768x3 .f32),
    nullary main_c_80 (constantI S_ 32 0#32),
    unary main_c_80 main_v229 (broadcastInDim S32768 ![] bcast_S_S32768 : Vec F S_ .i32 → Vec F S32768 .i32),
    binary main_arg19 main_v229 main_v230 (cmpi .slt : Vec F S32768 .i32 → Vec F S32768 .i32 → Vec F S32768 .i1),
    nullary main_c_81 (constantI S_ 32 32768#32),
    unary main_c_81 main_v231 (broadcastInDim S32768 ![] bcast_S_S32768 : Vec F S_ .i32 → Vec F S32768 .i32),
    binary main_arg19 main_v231 main_v232 (addi : Vec F S32768 .i32 → Vec F S32768 .i32 → Vec F S32768 .i32),
    ternary main_v230 main_v232 main_arg19 main_v233 (select : Vec F S32768 .i1 → Vec F S32768 .i32 → Vec F S32768 .i32 → Vec F S32768 .i32),
    unary main_v233 main_v234 (broadcastInDim S32768x1 ![0] bcast_S32768_S32768x1_0 : Vec F S32768 .i32 → Vec F S32768x1 .i32),
    nullary main_c_82 (constantI S_ 32 2#32),
    unary main_c_82 main_v235 (broadcastInDim S32768x1 ![] bcast_S_S32768x1 : Vec F S_ .i32 → Vec F S32768x1 .i32) ]

theorem pc11_sub : (pc11 : List (HloOp τ sig (Elt F))).Forall fun op => op.bufs ⊆ tcRefs τ sig :=
  ⟨binary_bufs_sub .., ternary_bufs_sub .., unary_bufs_sub .., binary_bufs_sub .., binary_bufs_sub ..,
   binary_bufs_sub .., nullary_bufs_sub .., binary_bufs_sub .., unary_bufs_sub .., unary_bufs_sub ..,
   nullary_bufs_sub .., unary_bufs_sub .., binary_bufs_sub .., unary_bufs_sub .., binary_bufs_sub ..,
   nullary_bufs_sub .., unary_bufs_sub .., binary_bufs_sub .., nullary_bufs_sub .., unary_bufs_sub ..,
   binary_bufs_sub .., ternary_bufs_sub .., unary_bufs_sub .., nullary_bufs_sub .., unary_bufs_sub ..⟩

theorem pc11_fresh : (pc11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl⟩

abbrev wr11 : List (Ref sig .tc) :=
  [main_v219, main_v220, main_v221, main_v222, main_v223, main_call7_v0, main_call7_cst, main_call7_v1,
   main_call7_v2, main_v224, main_cst_79, main_v225, main_v226, main_v227, main_v228, main_c_80, main_v229,
   main_v230, main_c_81, main_v231, main_v232, main_v233, main_v234, main_c_82, main_v235]

theorem hW11 : (pc11 : List (HloOp τ sig (Elt F))).Forall fun op => op.writes ⊆ (wr11.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide)⟩

abbrev pc12 : List (HloOp τ sig (Elt F)) :=
  [ binary main_v234 main_v235 main_v236 ((fun a b => concatenate S32768x2 1 [⟨S32768x1, a⟩, ⟨S32768x1, b⟩] concatenates_S32768x1_S32768x1_S32768x2_d1) : Vec F S32768x1 .i32 → Vec F S32768x1 .i32 → Vec F S32768x2 .i32),
    binary main_arg8 main_v236 main_v237 ((fun x i => Host.gather gather_S32768x4_S32768x2_S32768x1_1_0_n_n_01_1_11 x i) : Vec F S32768x4 .f32 → Vec F S32768x2 .i32 → Vec F S32768x1 .f32),
    unary main_v237 main_v238 (Host.absf : Vec F S32768x1 .f32 → Vec F S32768x1 .f32),
    nullary main_c_83 (constantI S_ 32 0#32),
    unary main_c_83 main_v239 (broadcastInDim S32768 ![] bcast_S_S32768 : Vec F S_ .i32 → Vec F S32768 .i32),
    binary main_arg19 main_v239 main_v240 (cmpi .slt : Vec F S32768 .i32 → Vec F S32768 .i32 → Vec F S32768 .i1),
    nullary main_c_84 (constantI S_ 32 32768#32),
    unary main_c_84 main_v241 (broadcastInDim S32768 ![] bcast_S_S32768 : Vec F S_ .i32 → Vec F S32768 .i32),
    binary main_arg19 main_v241 main_v242 (addi : Vec F S32768 .i32 → Vec F S32768 .i32 → Vec F S32768 .i32),
    ternary main_v240 main_v242 main_arg19 main_v243 (select : Vec F S32768 .i1 → Vec F S32768 .i32 → Vec F S32768 .i32 → Vec F S32768 .i32),
    unary main_v243 main_v244 (broadcastInDim S32768x1 ![0] bcast_S32768_S32768x1_0 : Vec F S32768 .i32 → Vec F S32768x1 .i32),
    binary main_arg7 main_v244 main_v245 ((fun x i => Host.gather gather_S32768x3_S32768x1_S32768x3_1_0_n_n_0_1_13 x i) : Vec F S32768x3 .f32 → Vec F S32768x1 .i32 → Vec F S32768x3 .f32),
    unary main_v238 main_v246 (broadcastInDim S32768x3 ![0, 1] bcast_S32768x1_S32768x3_0_1 : Vec F S32768x1 .f32 → Vec F S32768x3 .f32),
    binary main_v246 main_v228 main_v247 (mulf : Vec F S32768x3 .f32 → Vec F S32768x3 .f32 → Vec F S32768x3 .f32),
    nullary main_c_85 (constantI S_ 32 0#32),
    unary main_c_85 main_v248 (broadcastInDim S32768 ![] bcast_S_S32768 : Vec F S_ .i32 → Vec F S32768 .i32) ]

theorem pc12_sub : (pc12 : List (HloOp τ sig (Elt F))).Forall fun op => op.bufs ⊆ tcRefs τ sig :=
  ⟨binary_bufs_sub .., binary_bufs_sub .., unary_bufs_sub .., nullary_bufs_sub .., unary_bufs_sub ..,
   binary_bufs_sub .., nullary_bufs_sub .., unary_bufs_sub .., binary_bufs_sub .., ternary_bufs_sub ..,
   unary_bufs_sub .., binary_bufs_sub .., unary_bufs_sub .., binary_bufs_sub .., nullary_bufs_sub ..,
   unary_bufs_sub ..⟩

theorem pc12_fresh : (pc12 : List (HloOp τ sig (Elt F))).Forall fun op => op.fresh = ∅ :=
  ⟨rfl, rfl, rfl, rfl, rfl, rfl, rfl, rfl, rfl, rfl, rfl, rfl, rfl, rfl, rfl, rfl⟩

abbrev wr12 : List (Ref sig .tc) :=
  [main_v236, main_v237, main_v238, main_c_83, main_v239, main_v240, main_c_84, main_v241, main_v242, main_v243,
   main_v244, main_v245, main_v246, main_v247, main_c_85, main_v248]

theorem hW12 : (pc12 : List (HloOp τ sig (Elt F))).Forall fun op => op.writes ⊆ (wr12.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide)⟩

abbrev pc13 : List (HloOp τ sig (Elt F)) :=
  [ binary main_arg19 main_v248 main_v249 (cmpi .slt : Vec F S32768 .i32 → Vec F S32768 .i32 → Vec F S32768 .i1),
    nullary main_c_86 (constantI S_ 32 32768#32),
    unary main_c_86 main_v250 (broadcastInDim S32768 ![] bcast_S_S32768 : Vec F S_ .i32 → Vec F S32768 .i32),
    binary main_arg19 main_v250 main_v251 (addi : Vec F S32768 .i32 → Vec F S32768 .i32 → Vec F S32768 .i32),
    ternary main_v249 main_v251 main_arg19 main_v252 (select : Vec F S32768 .i1 → Vec F S32768 .i32 → Vec F S32768 .i32 → Vec F S32768 .i32),
    unary main_v252 main_v253 (broadcastInDim S32768x1 ![0] bcast_S32768_S32768x1_0 : Vec F S32768 .i32 → Vec F S32768x1 .i32),
    binary main_v208 main_v253 main_v254 ((fun x i => Host.gather gather_S32768x1_S32768x1_S32768x1_1_0_n_n_0_1_11 x i) : Vec F S32768x1 .f32 → Vec F S32768x1 .i32 → Vec F S32768x1 .f32),
    unary main_v254 main_v255 (broadcastInDim S32768x3 ![0, 1] bcast_S32768x1_S32768x3_0_1 : Vec F S32768x1 .f32 → Vec F S32768x3 .f32),
    binary main_v247 main_v255 main_v256 (mulf : Vec F S32768x3 .f32 → Vec F S32768x3 .f32 → Vec F S32768x3 .f32),
    binary main_v245 main_v256 main_v257 (addf : Vec F S32768x3 .f32 → Vec F S32768x3 .f32 → Vec F S32768x3 .f32),
    binary main_v257 main_v257 main_v258 (mulf : Vec F S32768x3 .f32 → Vec F S32768x3 .f32 → Vec F S32768x3 .f32),
    nullary main_cst_87 (constant S_ .f32 0x00000000#32),
    binary main_v258 main_cst_87 main_v259 ((fun x v => Host.reduceAdd x v reducesTo_S32768x3_S32768_d1 h_S_) : Vec F S32768x3 .f32 → Vec F S_ .f32 → Vec F S32768 .f32),
    binary main_arg9 main_arg9 main_v260 (mulf : Vec F S2048x3 .f32 → Vec F S2048x3 .f32 → Vec F S2048x3 .f32),
    nullary main_cst_88 (constant S_ .f32 0x00000000#32),
    binary main_v260 main_cst_88 main_v261 ((fun x v => Host.reduceAdd x v reducesTo_S2048x3_S2048_d1 h_S_) : Vec F S2048x3 .f32 → Vec F S_ .f32 → Vec F S2048 .f32),
    unary main_v259 main_v262 (broadcastInDim S32768x1 ![0] bcast_S32768_S32768x1_0 : Vec F S32768 .f32 → Vec F S32768x1 .f32),
    unary main_v261 main_v263 (broadcastInDim S1x2048 ![1] bcast_S2048_S1x2048_1 : Vec F S2048 .f32 → Vec F S1x2048 .f32),
    unary main_v262 main_v264 (broadcastInDim S32768x2048 ![0, 1] bcast_S32768x1_S32768x2048_0_1 : Vec F S32768x1 .f32 → Vec F S32768x2048 .f32),
    unary main_v263 main_v265 (broadcastInDim S32768x2048 ![0, 1] bcast_S1x2048_S32768x2048_0_1 : Vec F S1x2048 .f32 → Vec F S32768x2048 .f32),
    binary main_v264 main_v265 main_v266 (addf : Vec F S32768x2048 .f32 → Vec F S32768x2048 .f32 → Vec F S32768x2048 .f32),
    nullary main_cst_89 (constant S_ .f32 0x40000000#32),
    unary main_cst_89 main_v267 (broadcastInDim S32768x3 ![] bcast_S_S32768x3 : Vec F S_ .f32 → Vec F S32768x3 .f32) ]

theorem pc13_sub : (pc13 : List (HloOp τ sig (Elt F))).Forall fun op => op.bufs ⊆ tcRefs τ sig :=
  ⟨binary_bufs_sub .., nullary_bufs_sub .., unary_bufs_sub .., binary_bufs_sub .., ternary_bufs_sub ..,
   unary_bufs_sub .., binary_bufs_sub .., unary_bufs_sub .., binary_bufs_sub .., binary_bufs_sub ..,
   binary_bufs_sub .., nullary_bufs_sub .., binary_bufs_sub .., binary_bufs_sub .., nullary_bufs_sub ..,
   binary_bufs_sub .., unary_bufs_sub .., unary_bufs_sub .., unary_bufs_sub .., unary_bufs_sub ..,
   binary_bufs_sub .., nullary_bufs_sub .., unary_bufs_sub ..⟩

theorem pc13_fresh : (pc13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev wr13 : List (Ref sig .tc) :=
  [main_v249, main_c_86, main_v250, main_v251, main_v252, main_v253, main_v254, main_v255, main_v256, main_v257,
   main_v258, main_cst_87, main_v259, main_v260, main_cst_88, main_v261, main_v262, main_v263, main_v264, main_v265,
   main_v266, main_cst_89, main_v267]

theorem hW13 : (pc13 : List (HloOp τ sig (Elt F))).Forall fun op => op.writes ⊆ (wr13.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide)⟩

set_option maxRecDepth 8192 in
set_option maxHeartbeats 4000000 in
theorem main_part4_eq (c : Dev nD) : main_part4 (F := F) c = seq (pc9 ++ (pc10)) := rfl

set_option maxRecDepth 8192 in
set_option maxHeartbeats 4000000 in
theorem main_part5_eq (c : Dev nD) : main_part5 (F := F) c = seq (pc11 ++ (pc12 ++ (pc13))) := rfl

end Cert.RefH

end
-- ==== Proof.RefH.OpsD.lean ====
/-
  Stretches 14 to 17 of the reference's operations, in program order, and the buffers each stretch writes.
-/
import proofs.«132617_j16140487098675_1_alg».proof.Proof.RefH.Base

noncomputable section

namespace Cert.RefH

open Cert.ReferenceIdeal Cert.ReferenceIdeal.Gen Idealize.ShloMosaic Idealize.ShloMosaic.TcCoe Idealize.SL.Sem Idealize.ShloMosaic.StableHlo

variable {F : FTy → Type} [FloatOps F]

abbrev pc14 : List (HloOp τ sig (Elt F)) :=
  [ binary main_v267 main_v257 main_v268 (mulf : Vec F S32768x3 .f32 → Vec F S32768x3 .f32 → Vec F S32768x3 .f32),
    unary main_arg9 main_v269 ((transpose S3x2048 [1, 0] · transposes_S2048x3_S3x2048_1_0) : Vec F S2048x3 .f32 → Vec F S3x2048 .f32),
    binary main_v268 main_v269 main_v270 ((fun l r => Host.dotGeneral dot_S32768x3_S3x2048_S32768x2048_1_0_0_1_n_n none l r) : Vec F S32768x3 .f32 → Vec F S3x2048 .f32 → Vec F S32768x2048 .f32),
    binary main_v266 main_v270 main_v271 (subf : Vec F S32768x2048 .f32 → Vec F S32768x2048 .f32 → Vec F S32768x2048 .f32),
    nullary main_cst_90 (constant S_ .f32 0x00000000#32),
    unary main_cst_90 main_v272 (broadcastInDim S32768x2048 ![] bcast_S_S32768x2048 : Vec F S_ .f32 → Vec F S32768x2048 .f32),
    binary main_v271 main_v272 main_v273 (maximumf : Vec F S32768x2048 .f32 → Vec F S32768x2048 .f32 → Vec F S32768x2048 .f32),
    nullary main_cst_91 (constant S_ .f32 0x7F800000#32),
    binary main_v273 main_cst_91 main_v274 ((fun x v => Host.reduce FloatOps.minimumf x v reducesTo_S32768x2048_S32768_d1 h_S_) : Vec F S32768x2048 .f32 → Vec F S_ .f32 → Vec F S32768 .f32),
    unary main_v274 main_v275 (broadcastInDim S32768x1 ![0] bcast_S32768_S32768x1_0 : Vec F S32768 .f32 → Vec F S32768x1 .f32),
    nullary main_cst_92 (constant S_ .f32 0x00000000#32),
    unary main_cst_92 main_v276 (broadcastInDim S32768x1 ![] bcast_S_S32768x1 : Vec F S_ .f32 → Vec F S32768x1 .f32),
    nullary main_c_93 (constantI S_ 32 0#32),
    unary main_c_93 main_v277 (broadcastInDim S32768 ![] bcast_S_S32768 : Vec F S_ .i32 → Vec F S32768 .i32),
    binary main_arg19 main_v277 main_v278 (cmpi .slt : Vec F S32768 .i32 → Vec F S32768 .i32 → Vec F S32768 .i1),
    nullary main_c_94 (constantI S_ 32 32768#32),
    unary main_c_94 main_v279 (broadcastInDim S32768 ![] bcast_S_S32768 : Vec F S_ .i32 → Vec F S32768 .i32),
    binary main_arg19 main_v279 main_v280 (addi : Vec F S32768 .i32 → Vec F S32768 .i32 → Vec F S32768 .i32),
    ternary main_v278 main_v280 main_arg19 main_v281 (select : Vec F S32768 .i1 → Vec F S32768 .i32 → Vec F S32768 .i32 → Vec F S32768 .i32),
    unary main_v281 main_v282 (broadcastInDim S32768x1 ![0] bcast_S32768_S32768x1_0 : Vec F S32768 .i32 → Vec F S32768x1 .i32),
    ternary main_v276 main_v282 main_v275 main_v283 ((fun x i u => Host.scatter scatter_S32768x1_S32768x1_S32768x1_1_0_0_1 (fun _ b => b) x i u) : Vec F S32768x1 .f32 → Vec F S32768x1 .i32 → Vec F S32768x1 .f32 → Vec F S32768x1 .f32),
    nullary main_c_95 (constantI S_ 32 0#32),
    unary main_c_95 main_v284 (broadcastInDim S262144 ![] bcast_S_S262144 : Vec F S_ .i32 → Vec F S262144 .i32),
    binary main_arg21 main_v284 main_v285 (cmpi .slt : Vec F S262144 .i32 → Vec F S262144 .i32 → Vec F S262144 .i1),
    nullary main_c_96 (constantI S_ 32 32768#32),
    unary main_c_96 main_v286 (broadcastInDim S262144 ![] bcast_S_S262144 : Vec F S_ .i32 → Vec F S262144 .i32),
    binary main_arg21 main_v286 main_v287 (addi : Vec F S262144 .i32 → Vec F S262144 .i32 → Vec F S262144 .i32),
    ternary main_v285 main_v287 main_arg21 main_v288 (select : Vec F S262144 .i1 → Vec F S262144 .i32 → Vec F S262144 .i32 → Vec F S262144 .i32) ]

theorem pc14_sub : (pc14 : List (HloOp τ sig (Elt F))).Forall fun op => op.bufs ⊆ tcRefs τ sig :=
  ⟨binary_bufs_sub .., unary_bufs_sub .., binary_bufs_sub .., binary_bufs_sub .., nullary_bufs_sub ..,
   unary_bufs_sub .., binary_bufs_sub .., nullary_bufs_sub .., binary_bufs_sub .., unary_bufs_sub ..,
   nullary_bufs_sub .., unary_bufs_sub .., nullary_bufs_sub .., unary_bufs_sub .., binary_bufs_sub ..,
   nullary_bufs_sub .., unary_bufs_sub .., binary_bufs_sub .., ternary_bufs_sub .., unary_bufs_sub ..,
   ternary_bufs_sub .., nullary_bufs_sub .., unary_bufs_sub .., binary_bufs_sub .., nullary_bufs_sub ..,
   unary_bufs_sub .., binary_bufs_sub .., ternary_bufs_sub ..⟩

theorem pc14_fresh : (pc14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl⟩

abbrev wr14 : List (Ref sig .tc) :=
  [main_v268, main_v269, main_v270, main_v271, main_cst_90, main_v272, main_v273, main_cst_91, main_v274, main_v275,
   main_cst_92, main_v276, main_c_93, main_v277, main_v278, main_c_94, main_v279, main_v280, main_v281, main_v282,
   main_v283, main_c_95, main_v284, main_v285, main_c_96, main_v286, main_v287, main_v288]

theorem hW14 : (pc14 : List (HloOp τ sig (Elt F))).Forall fun op => op.writes ⊆ (wr14.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide)⟩

abbrev pc15 : List (HloOp τ sig (Elt F)) :=
  [ unary main_v288 main_v289 (broadcastInDim S262144x1 ![0] bcast_S262144_S262144x1_0 : Vec F S262144 .i32 → Vec F S262144x1 .i32),
    binary main_arg7 main_v289 main_v290 ((fun x i => Host.gather gather_S32768x3_S262144x1_S262144x3_1_0_n_n_0_1_13 x i) : Vec F S32768x3 .f32 → Vec F S262144x1 .i32 → Vec F S262144x3 .f32),
    nullary main_c_97 (constantI S_ 32 0#32),
    unary main_c_97 main_v291 (broadcastInDim S262144 ![] bcast_S_S262144 : Vec F S_ .i32 → Vec F S262144 .i32),
    binary main_arg22 main_v291 main_v292 (cmpi .slt : Vec F S262144 .i32 → Vec F S262144 .i32 → Vec F S262144 .i1),
    nullary main_c_98 (constantI S_ 32 131072#32),
    unary main_c_98 main_v293 (broadcastInDim S262144 ![] bcast_S_S262144 : Vec F S_ .i32 → Vec F S262144 .i32),
    binary main_arg22 main_v293 main_v294 (addi : Vec F S262144 .i32 → Vec F S262144 .i32 → Vec F S262144 .i32),
    ternary main_v292 main_v294 main_arg22 main_v295 (select : Vec F S262144 .i1 → Vec F S262144 .i32 → Vec F S262144 .i32 → Vec F S262144 .i32),
    unary main_v295 main_v296 (broadcastInDim S262144x1 ![0] bcast_S262144_S262144x1_0 : Vec F S262144 .i32 → Vec F S262144x1 .i32),
    binary main_arg1 main_v296 main_v297 ((fun x i => Host.gather gather_S131072x3_S262144x1_S262144x3_1_0_n_n_0_1_13 x i) : Vec F S131072x3 .f32 → Vec F S262144x1 .i32 → Vec F S262144x3 .f32),
    binary main_v290 main_v297 main_v298 (subf : Vec F S262144x3 .f32 → Vec F S262144x3 .f32 → Vec F S262144x3 .f32),
    binary main_v298 main_v298 main_v299 (mulf : Vec F S262144x3 .f32 → Vec F S262144x3 .f32 → Vec F S262144x3 .f32),
    nullary main_cst_99 (constant S_ .f32 0x00000000#32),
    binary main_v299 main_cst_99 main_v300 ((fun x v => Host.reduceAdd x v reducesTo_S262144x3_S262144_d1 h_S_) : Vec F S262144x3 .f32 → Vec F S_ .f32 → Vec F S262144 .f32),
    nullary main_cst_100 (constant S_ .f32 0x00000000#32),
    unary main_cst_100 main_v301 (broadcastInDim S32768 ![] bcast_S_S32768 : Vec F S_ .f32 → Vec F S32768 .f32),
    unary main_arg21 main_v302 (broadcastInDim S262144x1 ![0] bcast_S262144_S262144x1_0 : Vec F S262144 .i32 → Vec F S262144x1 .i32),
    ternary main_v301 main_v302 main_v300 main_v303 ((fun x i u => Host.scatterAdd scatter_S32768_S262144x1_S262144_n_0_0_1 x i u) : Vec F S32768 .f32 → Vec F S262144x1 .i32 → Vec F S262144 .f32 → Vec F S32768 .f32),
    nullary main_cst_101 (constant S_ .f32 0x3F800000#32),
    unary main_cst_101 main_v304 (broadcastInDim S262144 ![] bcast_S_S262144 : Vec F S_ .f32 → Vec F S262144 .f32),
    nullary main_cst_102 (constant S_ .f32 0x00000000#32),
    unary main_cst_102 main_v305 (broadcastInDim S32768 ![] bcast_S_S32768 : Vec F S_ .f32 → Vec F S32768 .f32),
    unary main_arg21 main_v306 (broadcastInDim S262144x1 ![0] bcast_S262144_S262144x1_0 : Vec F S262144 .i32 → Vec F S262144x1 .i32),
    ternary main_v305 main_v306 main_v304 main_v307 ((fun x i u => Host.scatterAdd scatter_S32768_S262144x1_S262144_n_0_0_1 x i u) : Vec F S32768 .f32 → Vec F S262144x1 .i32 → Vec F S262144 .f32 → Vec F S32768 .f32),
    nullary main_cst_103 (constant S_ .f32 0x00000000#32),
    unary main_cst_103 main_v308 (broadcastInDim S32768 ![] bcast_S_S32768 : Vec F S_ .f32 → Vec F S32768 .f32),
    binary main_v307 main_v308 main_v309 (cmpf .ogt : Vec F S32768 .f32 → Vec F S32768 .f32 → Vec F S32768 .i1),
    nullary main_cst_104 (constant S_ .f32 0x3F800000#32),
    unary main_cst_104 main_v310 (broadcastInDim S32768 ![] bcast_S_S32768 : Vec F S_ .f32 → Vec F S32768 .f32),
    binary main_v307 main_v310 main_v311 (maximumf : Vec F S32768 .f32 → Vec F S32768 .f32 → Vec F S32768 .f32),
    binary main_v311 main_v311 main_v312 (mulf : Vec F S32768 .f32 → Vec F S32768 .f32 → Vec F S32768 .f32) ]

theorem pc15_sub : (pc15 : List (HloOp τ sig (Elt F))).Forall fun op => op.bufs ⊆ tcRefs τ sig :=
  ⟨unary_bufs_sub .., binary_bufs_sub .., nullary_bufs_sub .., unary_bufs_sub .., binary_bufs_sub ..,
   nullary_bufs_sub .., unary_bufs_sub .., binary_bufs_sub .., ternary_bufs_sub .., unary_bufs_sub ..,
   binary_bufs_sub .., binary_bufs_sub .., binary_bufs_sub .., nullary_bufs_sub .., binary_bufs_sub ..,
   nullary_bufs_sub .., unary_bufs_sub .., unary_bufs_sub .., ternary_bufs_sub .., nullary_bufs_sub ..,
   unary_bufs_sub .., nullary_bufs_sub .., unary_bufs_sub .., unary_bufs_sub .., ternary_bufs_sub ..,
   nullary_bufs_sub .., unary_bufs_sub .., binary_bufs_sub .., nullary_bufs_sub .., unary_bufs_sub ..,
   binary_bufs_sub .., binary_bufs_sub ..⟩

theorem pc15_fresh : (pc15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl⟩

abbrev wr15 : List (Ref sig .tc) :=
  [main_v289, main_v290, main_c_97, main_v291, main_v292, main_c_98, main_v293, main_v294, main_v295, main_v296,
   main_v297, main_v298, main_v299, main_cst_99, main_v300, main_cst_100, main_v301, main_v302, main_v303,
   main_cst_101, main_v304, main_cst_102, main_v305, main_v306, main_v307, main_cst_103, main_v308, main_v309,
   main_cst_104, main_v310, main_v311, main_v312]

theorem hW15 : (pc15 : List (HloOp τ sig (Elt F))).Forall fun op => op.writes ⊆ (wr15.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide)⟩

abbrev pc16 : List (HloOp τ sig (Elt F)) :=
  [ binary main_v303 main_v312 main_v313 (Host.divf : Vec F S32768 .f32 → Vec F S32768 .f32 → Vec F S32768 .f32),
    nullary main_cst_105 (constant S_ .f32 0x3B6BEDFA#32),
    TRef.unary (TRef.of (T := ⟨S_, .f32⟩) main_cst_105) (TRef.of (T := ⟨S_, .f32⟩) main_call8_v0) id,
    TRef.unary (TRef.of (T := ⟨S_, .f32⟩) main_call8_v0) (TRef.of (T := ⟨S32768, .f32⟩) main_call8_v1) (broadcastInDim S32768 ![] bcast_S_S32768),
    TRef.ternary (TRef.of (T := ⟨S32768, .i1⟩) main_v309) (TRef.of (T := ⟨S32768, .f32⟩) main_v313) (TRef.of (T := ⟨S32768, .f32⟩) main_call8_v1) (TRef.of (T := ⟨S32768, .f32⟩) main_v314) select,
    unary main_v314 main_v315 (broadcastInDim S32768x1 ![0] bcast_S32768_S32768x1_0 : Vec F S32768 .f32 → Vec F S32768x1 .f32),
    unary main_v199 main_v316 (Host.exp : Vec F S32768x1 .f32 → Vec F S32768x1 .f32),
    nullary main_cst_106 (constant S_ .f32 0x40000000#32),
    unary main_cst_106 main_v317 (broadcastInDim S32768x1 ![] bcast_S_S32768x1 : Vec F S_ .f32 → Vec F S32768x1 .f32),
    binary main_v317 main_v316 main_v318 (mulf : Vec F S32768x1 .f32 → Vec F S32768x1 .f32 → Vec F S32768x1 .f32),
    binary main_v208 main_v208 main_v319 (mulf : Vec F S32768x1 .f32 → Vec F S32768x1 .f32 → Vec F S32768x1 .f32),
    binary main_v318 main_v319 main_v320 (mulf : Vec F S32768x1 .f32 → Vec F S32768x1 .f32 → Vec F S32768x1 .f32),
    nullary main_cst_107 (constant S_ .f32 0x3089705F#32),
    unary main_cst_107 main_v321 (broadcastInDim S32768x1 ![] bcast_S_S32768x1 : Vec F S_ .f32 → Vec F S32768x1 .f32),
    binary main_v320 main_v321 main_v322 (addf : Vec F S32768x1 .f32 → Vec F S32768x1 .f32 → Vec F S32768x1 .f32),
    binary main_v283 main_v322 main_v323 (Host.divf : Vec F S32768x1 .f32 → Vec F S32768x1 .f32 → Vec F S32768x1 .f32),
    nullary main_cst_108 (constant S_ .f32 0x00000000#32),
    binary main_v323 main_cst_108 main_v324 ((fun x v => Host.reduceAdd x v reducesTo_S32768x1_S_d0_1 h_S_) : Vec F S32768x1 .f32 → Vec F S_ .f32 → Vec F S_ .f32),
    nullary main_cst_109 (constant S_ .f32 0x47000000#32),
    binary main_v324 main_cst_109 main_v325 (Host.divf : Vec F S_ .f32 → Vec F S_ .f32 → Vec F S_ .f32),
    binary main_v315 main_v322 main_v326 (Host.divf : Vec F S32768x1 .f32 → Vec F S32768x1 .f32 → Vec F S32768x1 .f32) ]

theorem pc16_sub : (pc16 : List (HloOp τ sig (Elt F))).Forall fun op => op.bufs ⊆ tcRefs τ sig :=
  ⟨binary_bufs_sub .., nullary_bufs_sub .., unary_bufs_sub .., unary_bufs_sub .., ternary_bufs_sub ..,
   unary_bufs_sub .., unary_bufs_sub .., nullary_bufs_sub .., unary_bufs_sub .., binary_bufs_sub ..,
   binary_bufs_sub .., binary_bufs_sub .., nullary_bufs_sub .., unary_bufs_sub .., binary_bufs_sub ..,
   binary_bufs_sub .., nullary_bufs_sub .., binary_bufs_sub .., nullary_bufs_sub .., binary_bufs_sub ..,
   binary_bufs_sub ..⟩

theorem pc16_fresh : (pc16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

abbrev wr16 : List (Ref sig .tc) :=
  [main_v313, main_cst_105, main_call8_v0, main_call8_v1, main_v314, main_v315, main_v316, main_cst_106, main_v317,
   main_v318, main_v319, main_v320, main_cst_107, main_v321, main_v322, main_v323, main_cst_108, main_v324,
   main_cst_109, main_v325, main_v326]

theorem hW16 : (pc16 : List (HloOp τ sig (Elt F))).Forall fun op => op.writes ⊆ (wr16.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide), wr (by decide)⟩

abbrev pc17 : List (HloOp τ sig (Elt F)) :=
  [ nullary main_cst_110 (constant S_ .f32 0x00000000#32),
    binary main_v326 main_cst_110 main_v327 ((fun x v => Host.reduceAdd x v reducesTo_S32768x1_S_d0_1 h_S_) : Vec F S32768x1 .f32 → Vec F S_ .f32 → Vec F S_ .f32),
    nullary main_cst_111 (constant S_ .f32 0x47000000#32),
    binary main_v327 main_cst_111 main_v328 (Host.divf : Vec F S_ .f32 → Vec F S_ .f32 → Vec F S_ .f32),
    nullary main_cst_112 (constant S_ .f32 0x3F000000#32),
    unary main_cst_112 main_v329 (broadcastInDim S32768x1 ![] bcast_S_S32768x1 : Vec F S_ .f32 → Vec F S32768x1 .f32),
    binary main_v329 main_v199 main_v330 (mulf : Vec F S32768x1 .f32 → Vec F S32768x1 .f32 → Vec F S32768x1 .f32),
    nullary main_cst_113 (constant S_ .f32 0x00000000#32),
    binary main_v330 main_cst_113 main_v331 ((fun x v => Host.reduceAdd x v reducesTo_S32768x1_S_d0_1 h_S_) : Vec F S32768x1 .f32 → Vec F S_ .f32 → Vec F S_ .f32),
    nullary main_cst_114 (constant S_ .f32 0x47000000#32),
    binary main_v331 main_cst_114 main_v332 (Host.divf : Vec F S_ .f32 → Vec F S_ .f32 → Vec F S_ .f32),
    nullary main_cst_115 (constant S_ .f32 0x3F800000#32),
    binary main_cst_115 main_v325 main_v333 (mulf : Vec F S_ .f32 → Vec F S_ .f32 → Vec F S_ .f32),
    nullary main_cst_116 (constant S_ .f32 0x3F800000#32),
    binary main_cst_116 main_v328 main_v334 (mulf : Vec F S_ .f32 → Vec F S_ .f32 → Vec F S_ .f32),
    binary main_v333 main_v334 main_v335 (addf : Vec F S_ .f32 → Vec F S_ .f32 → Vec F S_ .f32),
    binary main_v335 main_v332 main_v336 (addf : Vec F S_ .f32 → Vec F S_ .f32 → Vec F S_ .f32),
    nullary main_cst_117 (constant S_ .f32 0x3F800000#32),
    binary main_v336 main_cst_117 main_v337 (mulf : Vec F S_ .f32 → Vec F S_ .f32 → Vec F S_ .f32),
    binary main_v198 main_v337 main_v338 (addf : Vec F S_ .f32 → Vec F S_ .f32 → Vec F S_ .f32) ]

theorem pc17_sub : (pc17 : List (HloOp τ sig (Elt F))).Forall fun op => op.bufs ⊆ tcRefs τ sig :=
  ⟨nullary_bufs_sub .., binary_bufs_sub .., nullary_bufs_sub .., binary_bufs_sub .., nullary_bufs_sub ..,
   unary_bufs_sub .., binary_bufs_sub .., nullary_bufs_sub .., binary_bufs_sub .., nullary_bufs_sub ..,
   binary_bufs_sub .., nullary_bufs_sub .., binary_bufs_sub .., nullary_bufs_sub .., binary_bufs_sub ..,
   binary_bufs_sub .., binary_bufs_sub .., nullary_bufs_sub .., binary_bufs_sub .., binary_bufs_sub ..⟩

theorem pc17_fresh : (pc17 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

abbrev wr17 : List (Ref sig .tc) :=
  [main_cst_110, main_v327, main_cst_111, main_v328, main_cst_112, main_v329, main_v330, main_cst_113, main_v331,
   main_cst_114, main_v332, main_cst_115, main_v333, main_cst_116, main_v334, main_v335, main_v336, main_cst_117,
   main_v337, main_v338]

theorem hW17 : (pc17 : List (HloOp τ sig (Elt F))).Forall fun op => op.writes ⊆ (wr17.map (Proc.devRef (τ := τ) .tc)).toFinset :=
  ⟨wr (by decide), wr (by decide), wr (by decide), wr (by decide), wr (by decide), wr (by decide), wr (by decide),
   wr (by decide), wr (by decide), wr (by decide), wr (by decide), wr (by decide), wr (by decide), wr (by decide),
   wr (by decide), wr (by decide), wr (by decide), wr (by decide), wr (by decide), wr (by decide)⟩

set_option maxRecDepth 8192 in
set_option maxHeartbeats 4000000 in
theorem main_part6_eq (c : Dev nD) : main_part6 (F := F) c = seq (pc14 ++ (pc15)) := rfl

set_option maxRecDepth 8192 in
set_option maxHeartbeats 4000000 in
theorem main_part7_eq (c : Dev nD) : main_part7 (F := F) c = seq (pc16 ++ (pc17)) := rfl

end Cert.RefH

end
-- ==== Proof.RefH.Value.lean ====
/-
  The contents of the buffers after each stretch: a buffer that later stretches read holds its operation-by-operation
  value of the arguments; a buffer that no stretch writes holds what it held at the start.
-/
import proofs.«132617_j16140487098675_1_alg».proof.Proof.RefH.OpsA
import proofs.«132617_j16140487098675_1_alg».proof.Proof.RefH.OpsB
import proofs.«132617_j16140487098675_1_alg».proof.Proof.RefH.OpsC
import proofs.«132617_j16140487098675_1_alg».proof.Proof.RefH.OpsD
import proofs.«132617_j16140487098675_1_alg».proof.Proof.RefH.Vals

noncomputable section

namespace Cert.RefH

open Cert.ReferenceIdeal Cert.ReferenceIdeal.Gen Idealize.ShloMosaic Idealize.ShloMosaic.TcCoe Idealize.SL.Sem Idealize.ShloMosaic.StableHlo

variable {F : FTy → Type} [FloatOps F]

/-- Written by no stretch. -/
abbrev Kept (r : Ref sig .tc) : Prop :=
  r ∉ wr0 ∧ r ∉ wr1 ∧ r ∉ wr2 ∧ r ∉ wr3 ∧ r ∉ wr4 ∧ r ∉ wr5 ∧ r ∉ wr6 ∧ r ∉ wr7 ∧ r ∉ wr8 ∧ r ∉ wr9 ∧ r ∉ wr10 ∧ r ∉ wr11 ∧ r ∉ wr12 ∧ r ∉ wr13 ∧ r ∉ wr14 ∧ r ∉ wr15 ∧ r ∉ wr16 ∧ r ∉ wr17

theorem a0 : Kept main_arg0 := by decide
theorem a1 : Kept main_arg1 := by decide
theorem a2 : Kept main_arg2 := by decide
theorem a3 : Kept main_arg3 := by decide
theorem a4 : Kept main_arg4 := by decide
theorem a5 : Kept main_arg5 := by decide
theorem a6 : Kept main_arg6 := by decide
theorem a7 : Kept main_arg7 := by decide
theorem a8 : Kept main_arg8 := by decide
theorem a9 : Kept main_arg9 := by decide
theorem a10 : Kept main_arg10 := by decide
theorem a11 : Kept main_arg11 := by decide
theorem a12 : Kept main_arg12 := by decide
theorem a13 : Kept main_arg13 := by decide
theorem a14 : Kept main_arg14 := by decide
theorem a15 : Kept main_arg15 := by decide
theorem a16 : Kept main_arg16 := by decide
theorem a17 : Kept main_arg17 := by decide
theorem a18 : Kept main_arg18 := by decide
theorem a19 : Kept main_arg19 := by decide
theorem a20 : Kept main_arg20 := by decide
theorem a21 : Kept main_arg21 := by decide
theorem a22 : Kept main_arg22 := by decide

variable (V0 : Valuation τ sig (Elt F))

theorem keep0 (V : Valuation τ sig (Elt F)) {r : Ref sig .tc} (hr : r ∉ wr0) :
    after (pc0 (F := F)) V (Proc.devRef .tc r) = V (Proc.devRef .tc r) :=
  after_of_writes_sub _ V hW0 hr

def W1 : Valuation τ sig (Elt F) := after pc0 V0

theorem W1_arg {r : Ref sig .tc} (h : Kept r) :
    W1 V0 (Proc.devRef .tc r) = V0 (Proc.devRef .tc r) :=
  keep0 V0 h.1

theorem W1_main_v7 :
    W1 V0 (Proc.devRef .tc main_v7) = val_main_v7 (F := F) (V0 (Proc.devRef .tc main_arg12)) := by
  unfold W1 pc0
  after_results_simp
  try simp only [TRef.ofBuf, TRef.toBuf, cast_eq]
  rfl

theorem W1_main_v17 :
    W1 V0 (Proc.devRef .tc main_v17) = val_main_v17 (F := F) (V0 (Proc.devRef .tc main_arg1)) (V0 (Proc.devRef .tc main_arg11)) (V0 (Proc.devRef .tc main_arg12)) := by
  unfold W1 pc0
  after_results_simp
  try simp only [TRef.ofBuf, TRef.toBuf, cast_eq]
  rfl

theorem W1_main_v0 :
    W1 V0 (Proc.devRef .tc main_v0) = val_main_v0 (F := F) (V0 (Proc.devRef .tc main_arg0)) := by
  unfold W1 pc0
  after_results_simp
  try simp only [TRef.ofBuf, TRef.toBuf, cast_eq]
  rfl

theorem keep1 (V : Valuation τ sig (Elt F)) {r : Ref sig .tc} (hr : r ∉ wr1) :
    after (pc1 (F := F)) V (Proc.devRef .tc r) = V (Proc.devRef .tc r) :=
  after_of_writes_sub _ V hW1 hr

def W2 : Valuation τ sig (Elt F) := after pc1 (W1 V0)

theorem W2_arg {r : Ref sig .tc} (h : Kept r) :
    W2 V0 (Proc.devRef .tc r) = V0 (Proc.devRef .tc r) :=
  (keep1 _ h.2.1).trans (W1_arg V0 h)

theorem W2_main_v39 :
    W2 V0 (Proc.devRef .tc main_v39) = val_main_v39 (F := F) (V0 (Proc.devRef .tc main_arg0)) := by
  unfold W2 pc1
  after_results_simp
  try simp only [TRef.ofBuf, TRef.toBuf, cast_eq]
  rw [W1_main_v0 V0]
  rfl

theorem W2_main_v37 :
    W2 V0 (Proc.devRef .tc main_v37) = val_main_v37 (F := F) (V0 (Proc.devRef .tc main_arg2)) (V0 (Proc.devRef .tc main_arg11)) (V0 (Proc.devRef .tc main_arg12)) := by
  unfold W2 pc1
  after_results_simp
  try simp only [TRef.ofBuf, TRef.toBuf, cast_eq]
  rw [W1_arg V0 a2, W1_arg V0 a12, W1_arg V0 a11, W1_main_v7 V0]
  rfl

theorem W2_main_v0 :
    W2 V0 (Proc.devRef .tc main_v0) = val_main_v0 (F := F) (V0 (Proc.devRef .tc main_arg0)) :=
  (keep1 _ (by decide)).trans (W1_main_v0 V0)

theorem W2_main_v44 :
    W2 V0 (Proc.devRef .tc main_v44) = val_main_v44 (F := F) (V0 (Proc.devRef .tc main_arg0)) (V0 (Proc.devRef .tc main_arg1)) (V0 (Proc.devRef .tc main_arg11)) (V0 (Proc.devRef .tc main_arg12)) := by
  unfold W2 pc1
  after_results_simp
  try simp only [TRef.ofBuf, TRef.toBuf, cast_eq]
  rw [W1_main_v0 V0, W1_arg V0 a1, W1_main_v17 V0, W1_main_v7 V0]
  rfl

theorem keep2 (V : Valuation τ sig (Elt F)) {r : Ref sig .tc} (hr : r ∉ wr2) :
    after (pc2 (F := F)) V (Proc.devRef .tc r) = V (Proc.devRef .tc r) :=
  after_of_writes_sub _ V hW2 hr

def W3 : Valuation τ sig (Elt F) := after pc2 (W2 V0)

theorem W3_arg {r : Ref sig .tc} (h : Kept r) :
    W3 V0 (Proc.devRef .tc r) = V0 (Proc.devRef .tc r) :=
  (keep2 _ h.2.2.1).trans (W2_arg V0 h)

theorem W3_main_c_24 :
    W3 V0 (Proc.devRef .tc main_c_24) = val_main_c_24 (F := F) := by
  unfold W3 pc2
  after_results_simp
  try simp only [TRef.ofBuf, TRef.toBuf, cast_eq]
  rfl

theorem W3_main_v59 :
    W3 V0 (Proc.devRef .tc main_v59) = val_main_v59 (F := F) (V0 (Proc.devRef .tc main_arg3)) := by
  unfold W3 pc2
  after_results_simp
  try simp only [TRef.ofBuf, TRef.toBuf, cast_eq]
  rw [W2_arg V0 a3]
  rfl

theorem W3_main_v58 :
    W3 V0 (Proc.devRef .tc main_v58) = val_main_v58 (F := F) (V0 (Proc.devRef .tc main_arg0)) (V0 (Proc.devRef .tc main_arg1)) (V0 (Proc.devRef .tc main_arg2)) (V0 (Proc.devRef .tc main_arg11)) (V0 (Proc.devRef .tc main_arg12)) := by
  unfold W3 pc2
  after_results_simp
  try simp only [TRef.ofBuf, TRef.toBuf, cast_eq]
  rw [W2_main_v44 V0, W2_main_v39 V0, W2_main_v37 V0, W2_main_v0 V0]
  rfl

theorem keep3 (V : Valuation τ sig (Elt F)) {r : Ref sig .tc} (hr : r ∉ wr3) :
    after (pc3 (F := F)) V (Proc.devRef .tc r) = V (Proc.devRef .tc r) :=
  after_of_writes_sub _ V hW3 hr

def W4 : Valuation τ sig (Elt F) := after pc3 (W3 V0)

theorem W4_arg {r : Ref sig .tc} (h : Kept r) :
    W4 V0 (Proc.devRef .tc r) = V0 (Proc.devRef .tc r) :=
  (keep3 _ h.2.2.2.1).trans (W3_arg V0 h)

theorem W4_main_v84 :
    W4 V0 (Proc.devRef .tc main_v84) = val_main_v84 (F := F) (V0 (Proc.devRef .tc main_arg4)) (V0 (Proc.devRef .tc main_arg14)) (V0 (Proc.devRef .tc main_arg15)) := by
  unfold W4 pc3
  after_results_simp
  try simp only [TRef.ofBuf, TRef.toBuf, cast_eq]
  rw [W3_arg V0 a4, W3_arg V0 a15, W3_arg V0 a14]
  rfl

theorem W4_main_v85 :
    W4 V0 (Proc.devRef .tc main_v85) = val_main_v85 (F := F) := by
  unfold W4 pc3
  after_results_simp
  try simp only [TRef.ofBuf, TRef.toBuf, cast_eq]
  rfl

theorem W4_main_v83 :
    W4 V0 (Proc.devRef .tc main_v83) = val_main_v83 (F := F) (V0 (Proc.devRef .tc main_arg4)) (V0 (Proc.devRef .tc main_arg14)) (V0 (Proc.devRef .tc main_arg15)) := by
  unfold W4 pc3
  after_results_simp
  try simp only [TRef.ofBuf, TRef.toBuf, cast_eq]
  rw [W3_arg V0 a4, W3_arg V0 a15, W3_arg V0 a14]
  rfl

theorem W4_main_v68 :
    W4 V0 (Proc.devRef .tc main_v68) = val_main_v68 (F := F) (V0 (Proc.devRef .tc main_arg10)) (V0 (Proc.devRef .tc main_arg13)) := by
  unfold W4 pc3
  after_results_simp
  try simp only [TRef.ofBuf, TRef.toBuf, cast_eq]
  rw [W3_arg V0 a10, W3_arg V0 a13, W3_main_c_24 V0]
  rfl

theorem W4_main_v59 :
    W4 V0 (Proc.devRef .tc main_v59) = val_main_v59 (F := F) (V0 (Proc.devRef .tc main_arg3)) :=
  (keep3 _ (by decide)).trans (W3_main_v59 V0)

theorem W4_main_v58 :
    W4 V0 (Proc.devRef .tc main_v58) = val_main_v58 (F := F) (V0 (Proc.devRef .tc main_arg0)) (V0 (Proc.devRef .tc main_arg1)) (V0 (Proc.devRef .tc main_arg2)) (V0 (Proc.devRef .tc main_arg11)) (V0 (Proc.devRef .tc main_arg12)) :=
  (keep3 _ (by decide)).trans (W3_main_v58 V0)

theorem keep4 (V : Valuation τ sig (Elt F)) {r : Ref sig .tc} (hr : r ∉ wr4) :
    after (pc4 (F := F)) V (Proc.devRef .tc r) = V (Proc.devRef .tc r) :=
  after_of_writes_sub _ V hW4 hr

def W5 : Valuation τ sig (Elt F) := after pc4 (W4 V0)

theorem W5_arg {r : Ref sig .tc} (h : Kept r) :
    W5 V0 (Proc.devRef .tc r) = V0 (Proc.devRef .tc r) :=
  (keep4 _ h.2.2.2.2.1).trans (W4_arg V0 h)

theorem W5_main_v94 :
    W5 V0 (Proc.devRef .tc main_v94) = val_main_v94 (F := F) (V0 (Proc.devRef .tc main_arg14)) := by
  unfold W5 pc4
  after_results_simp
  try simp only [TRef.ofBuf, TRef.toBuf, cast_eq]
  rw [W4_arg V0 a14]
  rfl

theorem W5_main_v95 :
    W5 V0 (Proc.devRef .tc main_v95) = val_main_v95 (F := F) := by
  unfold W5 pc4
  after_results_simp
  try simp only [TRef.ofBuf, TRef.toBuf, cast_eq]
  rfl

theorem W5_main_v88 :
    W5 V0 (Proc.devRef .tc main_v88) = val_main_v88 (F := F) (V0 (Proc.devRef .tc main_arg4)) (V0 (Proc.devRef .tc main_arg14)) (V0 (Proc.devRef .tc main_arg15)) := by
  unfold W5 pc4
  after_results_simp
  try simp only [TRef.ofBuf, TRef.toBuf, cast_eq]
  rw [W4_main_v83 V0, W4_main_v84 V0, W4_main_v85 V0]
  rfl

theorem W5_main_v68 :
    W5 V0 (Proc.devRef .tc main_v68) = val_main_v68 (F := F) (V0 (Proc.devRef .tc main_arg10)) (V0 (Proc.devRef .tc main_arg13)) :=
  (keep4 _ (by decide)).trans (W4_main_v68 V0)

theorem W5_main_v59 :
    W5 V0 (Proc.devRef .tc main_v59) = val_main_v59 (F := F) (V0 (Proc.devRef .tc main_arg3)) :=
  (keep4 _ (by decide)).trans (W4_main_v59 V0)

theorem W5_main_v58 :
    W5 V0 (Proc.devRef .tc main_v58) = val_main_v58 (F := F) (V0 (Proc.devRef .tc main_arg0)) (V0 (Proc.devRef .tc main_arg1)) (V0 (Proc.devRef .tc main_arg2)) (V0 (Proc.devRef .tc main_arg11)) (V0 (Proc.devRef .tc main_arg12)) :=
  (keep4 _ (by decide)).trans (W4_main_v58 V0)

theorem keep5 (V : Valuation τ sig (Elt F)) {r : Ref sig .tc} (hr : r ∉ wr5) :
    after (pc5 (F := F)) V (Proc.devRef .tc r) = V (Proc.devRef .tc r) :=
  after_of_writes_sub _ V hW5 hr

def W6 : Valuation τ sig (Elt F) := after pc5 (W5 V0)

theorem W6_arg {r : Ref sig .tc} (h : Kept r) :
    W6 V0 (Proc.devRef .tc r) = V0 (Proc.devRef .tc r) :=
  (keep5 _ h.2.2.2.2.2.1).trans (W5_arg V0 h)

theorem W6_main_v117 :
    W6 V0 (Proc.devRef .tc main_v117) = val_main_v117 (F := F) (V0 (Proc.devRef .tc main_arg4)) (V0 (Proc.devRef .tc main_arg5)) (V0 (Proc.devRef .tc main_arg10)) (V0 (Proc.devRef .tc main_arg13)) (V0 (Proc.devRef .tc main_arg14)) (V0 (Proc.devRef .tc main_arg15)) := by
  unfold W6 pc5
  after_results_simp
  try simp only [TRef.ofBuf, TRef.toBuf, cast_eq]
  rw [W5_arg V0 a4, W5_arg V0 a14, W5_arg V0 a5, W5_main_v94 V0, W5_main_v95 V0, W5_main_v88 V0, W5_main_v68 V0]
  rfl

theorem W6_main_v59 :
    W6 V0 (Proc.devRef .tc main_v59) = val_main_v59 (F := F) (V0 (Proc.devRef .tc main_arg3)) :=
  (keep5 _ (by decide)).trans (W5_main_v59 V0)

theorem W6_main_v68 :
    W6 V0 (Proc.devRef .tc main_v68) = val_main_v68 (F := F) (V0 (Proc.devRef .tc main_arg10)) (V0 (Proc.devRef .tc main_arg13)) :=
  (keep5 _ (by decide)).trans (W5_main_v68 V0)

theorem W6_main_v58 :
    W6 V0 (Proc.devRef .tc main_v58) = val_main_v58 (F := F) (V0 (Proc.devRef .tc main_arg0)) (V0 (Proc.devRef .tc main_arg1)) (V0 (Proc.devRef .tc main_arg2)) (V0 (Proc.devRef .tc main_arg11)) (V0 (Proc.devRef .tc main_arg12)) :=
  (keep5 _ (by decide)).trans (W5_main_v58 V0)

theorem keep6 (V : Valuation τ sig (Elt F)) {r : Ref sig .tc} (hr : r ∉ wr6) :
    after (pc6 (F := F)) V (Proc.devRef .tc r) = V (Proc.devRef .tc r) :=
  after_of_writes_sub _ V hW6 hr

def W7 : Valuation τ sig (Elt F) := after pc6 (W6 V0)

theorem W7_arg {r : Ref sig .tc} (h : Kept r) :
    W7 V0 (Proc.devRef .tc r) = V0 (Proc.devRef .tc r) :=
  (keep6 _ h.2.2.2.2.2.2.1).trans (W6_arg V0 h)

theorem W7_main_v133 :
    W7 V0 (Proc.devRef .tc main_v133) = val_main_v133 (F := F) (V0 (Proc.devRef .tc main_arg4)) (V0 (Proc.devRef .tc main_arg5)) (V0 (Proc.devRef .tc main_arg9)) (V0 (Proc.devRef .tc main_arg10)) (V0 (Proc.devRef .tc main_arg13)) (V0 (Proc.devRef .tc main_arg14)) (V0 (Proc.devRef .tc main_arg15)) := by
  unfold W7 pc6
  after_results_simp
  try simp only [TRef.ofBuf, TRef.toBuf, cast_eq]
  rw [W6_main_v117 V0, W6_arg V0 a9]
  rfl

theorem W7_main_cst_43 :
    W7 V0 (Proc.devRef .tc main_cst_43) = val_main_cst_43 (F := F) := by
  unfold W7 pc6
  after_results_simp
  try simp only [TRef.ofBuf, TRef.toBuf, cast_eq]
  rfl

theorem W7_main_v59 :
    W7 V0 (Proc.devRef .tc main_v59) = val_main_v59 (F := F) (V0 (Proc.devRef .tc main_arg3)) :=
  (keep6 _ (by decide)).trans (W6_main_v59 V0)

theorem W7_main_v68 :
    W7 V0 (Proc.devRef .tc main_v68) = val_main_v68 (F := F) (V0 (Proc.devRef .tc main_arg10)) (V0 (Proc.devRef .tc main_arg13)) :=
  (keep6 _ (by decide)).trans (W6_main_v68 V0)

theorem W7_main_v58 :
    W7 V0 (Proc.devRef .tc main_v58) = val_main_v58 (F := F) (V0 (Proc.devRef .tc main_arg0)) (V0 (Proc.devRef .tc main_arg1)) (V0 (Proc.devRef .tc main_arg2)) (V0 (Proc.devRef .tc main_arg11)) (V0 (Proc.devRef .tc main_arg12)) :=
  (keep6 _ (by decide)).trans (W6_main_v58 V0)

theorem keep7 (V : Valuation τ sig (Elt F)) {r : Ref sig .tc} (hr : r ∉ wr7) :
    after (pc7 (F := F)) V (Proc.devRef .tc r) = V (Proc.devRef .tc r) :=
  after_of_writes_sub _ V hW7 hr

def W8 : Valuation τ sig (Elt F) := after pc7 (W7 V0)

theorem W8_arg {r : Ref sig .tc} (h : Kept r) :
    W8 V0 (Proc.devRef .tc r) = V0 (Proc.devRef .tc r) :=
  (keep7 _ h.2.2.2.2.2.2.2.1).trans (W7_arg V0 h)

theorem W8_main_v158 :
    W8 V0 (Proc.devRef .tc main_v158) = val_main_v158 (F := F) (V0 (Proc.devRef .tc main_arg1)) (V0 (Proc.devRef .tc main_arg4)) (V0 (Proc.devRef .tc main_arg16)) (V0 (Proc.devRef .tc main_arg17)) := by
  unfold W8 pc7
  after_results_simp
  try simp only [TRef.ofBuf, TRef.toBuf, cast_eq]
  rw [W7_arg V0 a4, W7_arg V0 a16, W7_arg V0 a1, W7_arg V0 a17]
  rfl

theorem W8_main_v59 :
    W8 V0 (Proc.devRef .tc main_v59) = val_main_v59 (F := F) (V0 (Proc.devRef .tc main_arg3)) :=
  (keep7 _ (by decide)).trans (W7_main_v59 V0)

theorem W8_main_v68 :
    W8 V0 (Proc.devRef .tc main_v68) = val_main_v68 (F := F) (V0 (Proc.devRef .tc main_arg10)) (V0 (Proc.devRef .tc main_arg13)) :=
  (keep7 _ (by decide)).trans (W7_main_v68 V0)

theorem W8_main_v143 :
    W8 V0 (Proc.devRef .tc main_v143) = val_main_v143 (F := F) (V0 (Proc.devRef .tc main_arg4)) (V0 (Proc.devRef .tc main_arg5)) (V0 (Proc.devRef .tc main_arg9)) (V0 (Proc.devRef .tc main_arg10)) (V0 (Proc.devRef .tc main_arg13)) (V0 (Proc.devRef .tc main_arg14)) (V0 (Proc.devRef .tc main_arg15)) := by
  unfold W8 pc7
  after_results_simp
  try simp only [TRef.ofBuf, TRef.toBuf, cast_eq]
  rw [W7_arg V0 a14, W7_main_v133 V0, W7_main_cst_43 V0]
  rfl

theorem W8_main_v58 :
    W8 V0 (Proc.devRef .tc main_v58) = val_main_v58 (F := F) (V0 (Proc.devRef .tc main_arg0)) (V0 (Proc.devRef .tc main_arg1)) (V0 (Proc.devRef .tc main_arg2)) (V0 (Proc.devRef .tc main_arg11)) (V0 (Proc.devRef .tc main_arg12)) :=
  (keep7 _ (by decide)).trans (W7_main_v58 V0)

theorem keep8 (V : Valuation τ sig (Elt F)) {r : Ref sig .tc} (hr : r ∉ wr8) :
    after (pc8 (F := F)) V (Proc.devRef .tc r) = V (Proc.devRef .tc r) :=
  after_of_writes_sub _ V hW8 hr

def W9 : Valuation τ sig (Elt F) := after pc8 (W8 V0)

theorem W9_arg {r : Ref sig .tc} (h : Kept r) :
    W9 V0 (Proc.devRef .tc r) = V0 (Proc.devRef .tc r) :=
  (keep8 _ h.2.2.2.2.2.2.2.2.1).trans (W8_arg V0 h)

theorem W9_main_v68 :
    W9 V0 (Proc.devRef .tc main_v68) = val_main_v68 (F := F) (V0 (Proc.devRef .tc main_arg10)) (V0 (Proc.devRef .tc main_arg13)) :=
  (keep8 _ (by decide)).trans (W8_main_v68 V0)

theorem W9_main_v178 :
    W9 V0 (Proc.devRef .tc main_v178) = val_main_v178 (F := F) (V0 (Proc.devRef .tc main_arg3)) := by
  unfold W9 pc8
  after_results_simp
  try simp only [TRef.ofBuf, TRef.toBuf, cast_eq]
  rw [W8_main_v59 V0]
  rfl

theorem W9_main_v143 :
    W9 V0 (Proc.devRef .tc main_v143) = val_main_v143 (F := F) (V0 (Proc.devRef .tc main_arg4)) (V0 (Proc.devRef .tc main_arg5)) (V0 (Proc.devRef .tc main_arg9)) (V0 (Proc.devRef .tc main_arg10)) (V0 (Proc.devRef .tc main_arg13)) (V0 (Proc.devRef .tc main_arg14)) (V0 (Proc.devRef .tc main_arg15)) :=
  (keep8 _ (by decide)).trans (W8_main_v143 V0)

theorem W9_main_v175 :
    W9 V0 (Proc.devRef .tc main_v175) = val_main_v175 (F := F) (V0 (Proc.devRef .tc main_arg1)) (V0 (Proc.devRef .tc main_arg4)) (V0 (Proc.devRef .tc main_arg16)) (V0 (Proc.devRef .tc main_arg17)) := by
  unfold W9 pc8
  after_results_simp
  try simp only [TRef.ofBuf, TRef.toBuf, cast_eq]
  rw [W8_arg V0 a16, W8_main_v158 V0]
  rfl

theorem W9_main_v59 :
    W9 V0 (Proc.devRef .tc main_v59) = val_main_v59 (F := F) (V0 (Proc.devRef .tc main_arg3)) :=
  (keep8 _ (by decide)).trans (W8_main_v59 V0)

theorem W9_main_v58 :
    W9 V0 (Proc.devRef .tc main_v58) = val_main_v58 (F := F) (V0 (Proc.devRef .tc main_arg0)) (V0 (Proc.devRef .tc main_arg1)) (V0 (Proc.devRef .tc main_arg2)) (V0 (Proc.devRef .tc main_arg11)) (V0 (Proc.devRef .tc main_arg12)) :=
  (keep8 _ (by decide)).trans (W8_main_v58 V0)

theorem keep9 (V : Valuation τ sig (Elt F)) {r : Ref sig .tc} (hr : r ∉ wr9) :
    after (pc9 (F := F)) V (Proc.devRef .tc r) = V (Proc.devRef .tc r) :=
  after_of_writes_sub _ V hW9 hr

def W10 : Valuation τ sig (Elt F) := after pc9 (W9 V0)

theorem W10_arg {r : Ref sig .tc} (h : Kept r) :
    W10 V0 (Proc.devRef .tc r) = V0 (Proc.devRef .tc r) :=
  (keep9 _ h.2.2.2.2.2.2.2.2.2.1).trans (W9_arg V0 h)

theorem W10_main_v198 :
    W10 V0 (Proc.devRef .tc main_v198) = val_main_v198 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  unfold W10 pc9
  after_results_simp
  try simp only [TRef.ofBuf, TRef.toBuf, cast_eq]
  rw [W9_main_v58 V0, W9_main_v143 V0, W9_main_v178 V0, W9_main_v68 V0, W9_main_v175 V0, W9_main_v59 V0]
  rfl

theorem keep10 (V : Valuation τ sig (Elt F)) {r : Ref sig .tc} (hr : r ∉ wr10) :
    after (pc10 (F := F)) V (Proc.devRef .tc r) = V (Proc.devRef .tc r) :=
  after_of_writes_sub _ V hW10 hr

def W11 : Valuation τ sig (Elt F) := after pc10 (W10 V0)

theorem W11_arg {r : Ref sig .tc} (h : Kept r) :
    W11 V0 (Proc.devRef .tc r) = V0 (Proc.devRef .tc r) :=
  (keep10 _ h.2.2.2.2.2.2.2.2.2.2.1).trans (W10_arg V0 h)

theorem W11_main_v218 :
    W11 V0 (Proc.devRef .tc main_v218) = val_main_v218 (F := F) := by
  unfold W11 pc10
  after_results_simp
  try simp only [TRef.ofBuf, TRef.toBuf, cast_eq]
  rfl

theorem W11_main_v217 :
    W11 V0 (Proc.devRef .tc main_v217) = val_main_v217 (F := F) (V0 (Proc.devRef .tc main_arg19)) := by
  unfold W11 pc10
  after_results_simp
  try simp only [TRef.ofBuf, TRef.toBuf, cast_eq]
  rw [W10_arg V0 a19]
  rfl

theorem W11_main_v215 :
    W11 V0 (Proc.devRef .tc main_v215) = val_main_v215 (F := F) (V0 (Proc.devRef .tc main_arg7)) (V0 (Proc.devRef .tc main_arg20)) := by
  unfold W11 pc10
  after_results_simp
  try simp only [TRef.ofBuf, TRef.toBuf, cast_eq]
  rw [W10_arg V0 a7, W10_arg V0 a20]
  rfl

theorem W11_main_v208 :
    W11 V0 (Proc.devRef .tc main_v208) = val_main_v208 (F := F) (V0 (Proc.devRef .tc main_arg10)) (V0 (Proc.devRef .tc main_arg18)) := by
  unfold W11 pc10
  after_results_simp
  try simp only [TRef.ofBuf, TRef.toBuf, cast_eq]
  rw [W10_arg V0 a10, W10_arg V0 a18]
  rfl

theorem W11_main_v199 :
    W11 V0 (Proc.devRef .tc main_v199) = val_main_v199 (F := F) (V0 (Proc.devRef .tc main_arg6)) := by
  unfold W11 pc10
  after_results_simp
  try simp only [TRef.ofBuf, TRef.toBuf, cast_eq]
  rw [W10_arg V0 a6]
  rfl

theorem W11_main_v198 :
    W11 V0 (Proc.devRef .tc main_v198) = val_main_v198 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (keep10 _ (by decide)).trans (W10_main_v198 V0)

theorem keep11 (V : Valuation τ sig (Elt F)) {r : Ref sig .tc} (hr : r ∉ wr11) :
    after (pc11 (F := F)) V (Proc.devRef .tc r) = V (Proc.devRef .tc r) :=
  after_of_writes_sub _ V hW11 hr

def W12 : Valuation τ sig (Elt F) := after pc11 (W11 V0)

theorem W12_arg {r : Ref sig .tc} (h : Kept r) :
    W12 V0 (Proc.devRef .tc r) = V0 (Proc.devRef .tc r) :=
  (keep11 _ h.2.2.2.2.2.2.2.2.2.2.2.1).trans (W11_arg V0 h)

theorem W12_main_v234 :
    W12 V0 (Proc.devRef .tc main_v234) = val_main_v234 (F := F) (V0 (Proc.devRef .tc main_arg19)) := by
  unfold W12 pc11
  after_results_simp
  try simp only [TRef.ofBuf, TRef.toBuf, cast_eq]
  rw [W11_arg V0 a19]
  rfl

theorem W12_main_v235 :
    W12 V0 (Proc.devRef .tc main_v235) = val_main_v235 (F := F) := by
  unfold W12 pc11
  after_results_simp
  try simp only [TRef.ofBuf, TRef.toBuf, cast_eq]
  rfl

theorem W12_main_v228 :
    W12 V0 (Proc.devRef .tc main_v228) = val_main_v228 (F := F) (V0 (Proc.devRef .tc main_arg7)) (V0 (Proc.devRef .tc main_arg19)) (V0 (Proc.devRef .tc main_arg20)) := by
  unfold W12 pc11
  after_results_simp
  try simp only [TRef.ofBuf, TRef.toBuf, cast_eq]
  rw [W11_main_v215 V0, W11_arg V0 a7, W11_main_v217 V0, W11_arg V0 a19, W11_main_v218 V0]
  rfl

theorem W12_main_v208 :
    W12 V0 (Proc.devRef .tc main_v208) = val_main_v208 (F := F) (V0 (Proc.devRef .tc main_arg10)) (V0 (Proc.devRef .tc main_arg18)) :=
  (keep11 _ (by decide)).trans (W11_main_v208 V0)

theorem W12_main_v199 :
    W12 V0 (Proc.devRef .tc main_v199) = val_main_v199 (F := F) (V0 (Proc.devRef .tc main_arg6)) :=
  (keep11 _ (by decide)).trans (W11_main_v199 V0)

theorem W12_main_v198 :
    W12 V0 (Proc.devRef .tc main_v198) = val_main_v198 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (keep11 _ (by decide)).trans (W11_main_v198 V0)

theorem keep12 (V : Valuation τ sig (Elt F)) {r : Ref sig .tc} (hr : r ∉ wr12) :
    after (pc12 (F := F)) V (Proc.devRef .tc r) = V (Proc.devRef .tc r) :=
  after_of_writes_sub _ V hW12 hr

def W13 : Valuation τ sig (Elt F) := after pc12 (W12 V0)

theorem W13_arg {r : Ref sig .tc} (h : Kept r) :
    W13 V0 (Proc.devRef .tc r) = V0 (Proc.devRef .tc r) :=
  (keep12 _ h.2.2.2.2.2.2.2.2.2.2.2.2.1).trans (W12_arg V0 h)

theorem W13_main_v248 :
    W13 V0 (Proc.devRef .tc main_v248) = val_main_v248 (F := F) := by
  unfold W13 pc12
  after_results_simp
  try simp only [TRef.ofBuf, TRef.toBuf, cast_eq]
  rfl

theorem W13_main_v208 :
    W13 V0 (Proc.devRef .tc main_v208) = val_main_v208 (F := F) (V0 (Proc.devRef .tc main_arg10)) (V0 (Proc.devRef .tc main_arg18)) :=
  (keep12 _ (by decide)).trans (W12_main_v208 V0)

theorem W13_main_v247 :
    W13 V0 (Proc.devRef .tc main_v247) = val_main_v247 (F := F) (V0 (Proc.devRef .tc main_arg7)) (V0 (Proc.devRef .tc main_arg8)) (V0 (Proc.devRef .tc main_arg19)) (V0 (Proc.devRef .tc main_arg20)) := by
  unfold W13 pc12
  after_results_simp
  try simp only [TRef.ofBuf, TRef.toBuf, cast_eq]
  rw [W12_arg V0 a8, W12_main_v234 V0, W12_main_v235 V0, W12_main_v228 V0]
  rfl

theorem W13_main_v245 :
    W13 V0 (Proc.devRef .tc main_v245) = val_main_v245 (F := F) (V0 (Proc.devRef .tc main_arg7)) (V0 (Proc.devRef .tc main_arg19)) := by
  unfold W13 pc12
  after_results_simp
  try simp only [TRef.ofBuf, TRef.toBuf, cast_eq]
  rw [W12_arg V0 a7, W12_arg V0 a19]
  rfl

theorem W13_main_v199 :
    W13 V0 (Proc.devRef .tc main_v199) = val_main_v199 (F := F) (V0 (Proc.devRef .tc main_arg6)) :=
  (keep12 _ (by decide)).trans (W12_main_v199 V0)

theorem W13_main_v198 :
    W13 V0 (Proc.devRef .tc main_v198) = val_main_v198 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (keep12 _ (by decide)).trans (W12_main_v198 V0)

theorem keep13 (V : Valuation τ sig (Elt F)) {r : Ref sig .tc} (hr : r ∉ wr13) :
    after (pc13 (F := F)) V (Proc.devRef .tc r) = V (Proc.devRef .tc r) :=
  after_of_writes_sub _ V hW13 hr

def W14 : Valuation τ sig (Elt F) := after pc13 (W13 V0)

theorem W14_arg {r : Ref sig .tc} (h : Kept r) :
    W14 V0 (Proc.devRef .tc r) = V0 (Proc.devRef .tc r) :=
  (keep13 _ h.2.2.2.2.2.2.2.2.2.2.2.2.2.1).trans (W13_arg V0 h)

theorem W14_main_v267 :
    W14 V0 (Proc.devRef .tc main_v267) = val_main_v267 (F := F) := by
  unfold W14 pc13
  after_results_simp
  try simp only [TRef.ofBuf, TRef.toBuf, cast_eq]
  rfl

theorem W14_main_v257 :
    W14 V0 (Proc.devRef .tc main_v257) = val_main_v257 (F := F) (V0 (Proc.devRef .tc main_arg7)) (V0 (Proc.devRef .tc main_arg8)) (V0 (Proc.devRef .tc main_arg10)) (V0 (Proc.devRef .tc main_arg18)) (V0 (Proc.devRef .tc main_arg19)) (V0 (Proc.devRef .tc main_arg20)) := by
  unfold W14 pc13
  after_results_simp
  try simp only [TRef.ofBuf, TRef.toBuf, cast_eq]
  rw [W13_main_v245 V0, W13_main_v247 V0, W13_main_v208 V0, W13_arg V0 a19, W13_main_v248 V0]
  rfl

theorem W14_main_v266 :
    W14 V0 (Proc.devRef .tc main_v266) = val_main_v266 (F := F) (V0 (Proc.devRef .tc main_arg7)) (V0 (Proc.devRef .tc main_arg8)) (V0 (Proc.devRef .tc main_arg9)) (V0 (Proc.devRef .tc main_arg10)) (V0 (Proc.devRef .tc main_arg18)) (V0 (Proc.devRef .tc main_arg19)) (V0 (Proc.devRef .tc main_arg20)) := by
  unfold W14 pc13
  after_results_simp
  try simp only [TRef.ofBuf, TRef.toBuf, cast_eq]
  rw [W13_main_v245 V0, W13_main_v247 V0, W13_main_v208 V0, W13_arg V0 a19, W13_main_v248 V0, W13_arg V0 a9]
  rfl

theorem W14_main_v199 :
    W14 V0 (Proc.devRef .tc main_v199) = val_main_v199 (F := F) (V0 (Proc.devRef .tc main_arg6)) :=
  (keep13 _ (by decide)).trans (W13_main_v199 V0)

theorem W14_main_v208 :
    W14 V0 (Proc.devRef .tc main_v208) = val_main_v208 (F := F) (V0 (Proc.devRef .tc main_arg10)) (V0 (Proc.devRef .tc main_arg18)) :=
  (keep13 _ (by decide)).trans (W13_main_v208 V0)

theorem W14_main_v198 :
    W14 V0 (Proc.devRef .tc main_v198) = val_main_v198 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (keep13 _ (by decide)).trans (W13_main_v198 V0)

theorem keep14 (V : Valuation τ sig (Elt F)) {r : Ref sig .tc} (hr : r ∉ wr14) :
    after (pc14 (F := F)) V (Proc.devRef .tc r) = V (Proc.devRef .tc r) :=
  after_of_writes_sub _ V hW14 hr

def W15 : Valuation τ sig (Elt F) := after pc14 (W14 V0)

theorem W15_arg {r : Ref sig .tc} (h : Kept r) :
    W15 V0 (Proc.devRef .tc r) = V0 (Proc.devRef .tc r) :=
  (keep14 _ h.2.2.2.2.2.2.2.2.2.2.2.2.2.2.1).trans (W14_arg V0 h)

theorem W15_main_v288 :
    W15 V0 (Proc.devRef .tc main_v288) = val_main_v288 (F := F) (V0 (Proc.devRef .tc main_arg21)) := by
  unfold W15 pc14
  after_results_simp
  try simp only [TRef.ofBuf, TRef.toBuf, cast_eq]
  rw [W14_arg V0 a21]
  rfl

theorem W15_main_v199 :
    W15 V0 (Proc.devRef .tc main_v199) = val_main_v199 (F := F) (V0 (Proc.devRef .tc main_arg6)) :=
  (keep14 _ (by decide)).trans (W14_main_v199 V0)

theorem W15_main_v208 :
    W15 V0 (Proc.devRef .tc main_v208) = val_main_v208 (F := F) (V0 (Proc.devRef .tc main_arg10)) (V0 (Proc.devRef .tc main_arg18)) :=
  (keep14 _ (by decide)).trans (W14_main_v208 V0)

theorem W15_main_v283 :
    W15 V0 (Proc.devRef .tc main_v283) = val_main_v283 (F := F) (V0 (Proc.devRef .tc main_arg7)) (V0 (Proc.devRef .tc main_arg8)) (V0 (Proc.devRef .tc main_arg9)) (V0 (Proc.devRef .tc main_arg10)) (V0 (Proc.devRef .tc main_arg18)) (V0 (Proc.devRef .tc main_arg19)) (V0 (Proc.devRef .tc main_arg20)) := by
  unfold W15 pc14
  after_results_simp
  try simp only [TRef.ofBuf, TRef.toBuf, cast_eq]
  rw [W14_arg V0 a19, W14_main_v266 V0, W14_main_v267 V0, W14_main_v257 V0, W14_arg V0 a9]
  rfl

theorem W15_main_v198 :
    W15 V0 (Proc.devRef .tc main_v198) = val_main_v198 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (keep14 _ (by decide)).trans (W14_main_v198 V0)

theorem keep15 (V : Valuation τ sig (Elt F)) {r : Ref sig .tc} (hr : r ∉ wr15) :
    after (pc15 (F := F)) V (Proc.devRef .tc r) = V (Proc.devRef .tc r) :=
  after_of_writes_sub _ V hW15 hr

def W16 : Valuation τ sig (Elt F) := after pc15 (W15 V0)

theorem W16_arg {r : Ref sig .tc} (h : Kept r) :
    W16 V0 (Proc.devRef .tc r) = V0 (Proc.devRef .tc r) :=
  (keep15 _ h.2.2.2.2.2.2.2.2.2.2.2.2.2.2.2.1).trans (W15_arg V0 h)

theorem W16_main_v303 :
    W16 V0 (Proc.devRef .tc main_v303) = val_main_v303 (F := F) (V0 (Proc.devRef .tc main_arg1)) (V0 (Proc.devRef .tc main_arg7)) (V0 (Proc.devRef .tc main_arg21)) (V0 (Proc.devRef .tc main_arg22)) := by
  unfold W16 pc15
  after_results_simp
  try simp only [TRef.ofBuf, TRef.toBuf, cast_eq]
  rw [W15_arg V0 a21, W15_arg V0 a7, W15_main_v288 V0, W15_arg V0 a1, W15_arg V0 a22]
  rfl

theorem W16_main_v312 :
    W16 V0 (Proc.devRef .tc main_v312) = val_main_v312 (F := F) (V0 (Proc.devRef .tc main_arg21)) := by
  unfold W16 pc15
  after_results_simp
  try simp only [TRef.ofBuf, TRef.toBuf, cast_eq]
  rw [W15_arg V0 a21]
  rfl

theorem W16_main_v309 :
    W16 V0 (Proc.devRef .tc main_v309) = val_main_v309 (F := F) (V0 (Proc.devRef .tc main_arg21)) := by
  unfold W16 pc15
  after_results_simp
  try simp only [TRef.ofBuf, TRef.toBuf, cast_eq]
  rw [W15_arg V0 a21]
  rfl

theorem W16_main_v199 :
    W16 V0 (Proc.devRef .tc main_v199) = val_main_v199 (F := F) (V0 (Proc.devRef .tc main_arg6)) :=
  (keep15 _ (by decide)).trans (W15_main_v199 V0)

theorem W16_main_v208 :
    W16 V0 (Proc.devRef .tc main_v208) = val_main_v208 (F := F) (V0 (Proc.devRef .tc main_arg10)) (V0 (Proc.devRef .tc main_arg18)) :=
  (keep15 _ (by decide)).trans (W15_main_v208 V0)

theorem W16_main_v283 :
    W16 V0 (Proc.devRef .tc main_v283) = val_main_v283 (F := F) (V0 (Proc.devRef .tc main_arg7)) (V0 (Proc.devRef .tc main_arg8)) (V0 (Proc.devRef .tc main_arg9)) (V0 (Proc.devRef .tc main_arg10)) (V0 (Proc.devRef .tc main_arg18)) (V0 (Proc.devRef .tc main_arg19)) (V0 (Proc.devRef .tc main_arg20)) :=
  (keep15 _ (by decide)).trans (W15_main_v283 V0)

theorem W16_main_v198 :
    W16 V0 (Proc.devRef .tc main_v198) = val_main_v198 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (keep15 _ (by decide)).trans (W15_main_v198 V0)

theorem keep16 (V : Valuation τ sig (Elt F)) {r : Ref sig .tc} (hr : r ∉ wr16) :
    after (pc16 (F := F)) V (Proc.devRef .tc r) = V (Proc.devRef .tc r) :=
  after_of_writes_sub _ V hW16 hr

def W17 : Valuation τ sig (Elt F) := after pc16 (W16 V0)

theorem W17_arg {r : Ref sig .tc} (h : Kept r) :
    W17 V0 (Proc.devRef .tc r) = V0 (Proc.devRef .tc r) :=
  (keep16 _ h.2.2.2.2.2.2.2.2.2.2.2.2.2.2.2.2.1).trans (W16_arg V0 h)

theorem W17_main_v326 :
    W17 V0 (Proc.devRef .tc main_v326) = val_main_v326 (F := F) (V0 (Proc.devRef .tc main_arg1)) (V0 (Proc.devRef .tc main_arg6)) (V0 (Proc.devRef .tc main_arg7)) (V0 (Proc.devRef .tc main_arg10)) (V0 (Proc.devRef .tc main_arg18)) (V0 (Proc.devRef .tc main_arg21)) (V0 (Proc.devRef .tc main_arg22)) := by
  unfold W17 pc16
  after_results_simp
  try simp only [TRef.ofBuf, TRef.toBuf, cast_eq]
  rw [W16_main_v309 V0, W16_main_v303 V0, W16_main_v312 V0, W16_main_v199 V0, W16_main_v208 V0]
  rfl

theorem W17_main_v199 :
    W17 V0 (Proc.devRef .tc main_v199) = val_main_v199 (F := F) (V0 (Proc.devRef .tc main_arg6)) :=
  (keep16 _ (by decide)).trans (W16_main_v199 V0)

theorem W17_main_v325 :
    W17 V0 (Proc.devRef .tc main_v325) = val_main_v325 (F := F) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg18)) (V0 (Proc.devRef .tc main_arg19)) (V0 (Proc.devRef .tc main_arg20)) := by
  unfold W17 pc16
  after_results_simp
  try simp only [TRef.ofBuf, TRef.toBuf, cast_eq]
  rw [W16_main_v283 V0, W16_main_v199 V0, W16_main_v208 V0]
  rfl

theorem W17_main_v198 :
    W17 V0 (Proc.devRef .tc main_v198) = val_main_v198 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) :=
  (keep16 _ (by decide)).trans (W16_main_v198 V0)

theorem keep17 (V : Valuation τ sig (Elt F)) {r : Ref sig .tc} (hr : r ∉ wr17) :
    after (pc17 (F := F)) V (Proc.devRef .tc r) = V (Proc.devRef .tc r) :=
  after_of_writes_sub _ V hW17 hr

def W18 : Valuation τ sig (Elt F) := after pc17 (W17 V0)

theorem W18_arg {r : Ref sig .tc} (h : Kept r) :
    W18 V0 (Proc.devRef .tc r) = V0 (Proc.devRef .tc r) :=
  (keep17 _ h.2.2.2.2.2.2.2.2.2.2.2.2.2.2.2.2.2).trans (W17_arg V0 h)

theorem W18_main_v338 :
    W18 V0 (Proc.devRef .tc main_v338) = val_main_v338 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) := by
  unfold W18 pc17
  after_results_simp
  try simp only [TRef.ofBuf, TRef.toBuf, cast_eq]
  rw [W17_main_v198 V0, W17_main_v325 V0, W17_main_v326 V0, W17_main_v199 V0]
  rfl

end Cert.RefH

end
-- ==== Proof.RefH.Run.lean ====
/-
  The reference's run. Its program is its operations in a row, so it runs to the end with the result buffer at its
  operation-by-operation value of the arguments and every argument, which no operation writes, as it was.
-/
import proofs.«132617_j16140487098675_1_alg».proof.Proof.RefH.Value
import Idealize.ShloMosaic.Lib.Pipeline.Frame

noncomputable section

namespace Cert.RefH

open Cert.ReferenceIdeal Cert.ReferenceIdeal.Gen Idealize.ShloMosaic Idealize.ShloMosaic.TcCoe Idealize.SL.Sem Idealize.ShloMosaic.StableHlo

variable {F : FTy → Type} [FloatOps F]

abbrev opsAll : List (HloOp τ sig (Elt F)) :=
  pc0 ++ (pc1 ++ (pc2 ++ (pc3 ++ (pc4 ++ (pc5 ++ (pc6 ++ (pc7 ++ (pc8 ++ (pc9 ++ (pc10 ++ (pc11 ++ (pc12 ++ (pc13 ++ (pc14 ++ (pc15 ++ (pc16 ++ (pc17)))))))))))))))))

theorem main_eq (c : Dev nD) : main (F := F) c = seq (opsAll (F := F)) := by
  unfold main
  simp only [main_part0_eq, main_part1_eq, main_part2_eq, main_part3_eq, main_part4_eq, main_part5_eq, main_part6_eq, main_part7_eq, opsAll, seq_append, bind_assoc]

theorem opsAll_sub : (opsAll : List (HloOp τ sig (Elt F))).Forall fun op => op.bufs ⊆ tcRefs τ sig :=
  fa pc0_sub (fa pc1_sub (fa pc2_sub (fa pc3_sub (fa pc4_sub (fa pc5_sub (fa pc6_sub (fa pc7_sub (fa pc8_sub (fa pc9_sub (fa pc10_sub (fa pc11_sub (fa pc12_sub (fa pc13_sub (fa pc14_sub (fa pc15_sub (fa pc16_sub (pc17_sub)))))))))))))))))

theorem opsAll_fresh : ∀ op ∈ (opsAll : List (HloOp τ sig (Elt F))), op.fresh = ∅ :=
  List.forall_iff_forall_mem.mp (fa pc0_fresh (fa pc1_fresh (fa pc2_fresh (fa pc3_fresh (fa pc4_fresh (fa pc5_fresh (fa pc6_fresh (fa pc7_fresh (fa pc8_fresh (fa pc9_fresh (fa pc10_fresh (fa pc11_fresh (fa pc12_fresh (fa pc13_fresh (fa pc14_fresh (fa pc15_fresh (fa pc16_fresh (pc17_fresh))))))))))))))))))

theorem scopedRefs_eq : (Finset.univ.filter fun b : Ref sig .tc => b.isScoped) = ∅ := by decide
theorem scopedSems_eq : (Finset.univ.filter fun sm : SemLoc sig => sm.isScoped .tc) = ∅ := by decide

/-- The contents after all the operations are the contents after the last stretch. -/
theorem after_all (V0 : Valuation τ sig (Elt F)) : after (opsAll (F := F)) V0 = W18 V0 := by
  simp only [opsAll, StableHlo.after_append]
  rfl

/-- A buffer that no stretch writes holds, after all the operations, what it held before. -/
theorem kept (V0 : Valuation τ sig (Elt F)) {r : Ref sig .tc} (h : Kept r) :
    after (opsAll (F := F)) V0 (Proc.devRef .tc r) = V0 (Proc.devRef .tc r) :=
  (congrFun (after_all V0) _).trans (W18_arg V0 h)

/-- The reference runs to the end: its result is the last operation's value of the arguments, and these are unchanged. -/
theorem ref_run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v338) = val_main_v338 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v338).trans ((congrFun (after_all _) _).trans (W18_main_v338 fun b => m (c, b))),
      (h c main_arg0).trans (kept _ a0),
      (h c main_arg1).trans (kept _ a1),
      (h c main_arg2).trans (kept _ a2),
      (h c main_arg3).trans (kept _ a3),
      (h c main_arg4).trans (kept _ a4),
      (h c main_arg5).trans (kept _ a5),
      (h c main_arg6).trans (kept _ a6),
      (h c main_arg7).trans (kept _ a7),
      (h c main_arg8).trans (kept _ a8),
      (h c main_arg9).trans (kept _ a9),
      (h c main_arg10).trans (kept _ a10),
      (h c main_arg11).trans (kept _ a11),
      (h c main_arg12).trans (kept _ a12),
      (h c main_arg13).trans (kept _ a13),
      (h c main_arg14).trans (kept _ a14),
      (h c main_arg15).trans (kept _ a15),
      (h c main_arg16).trans (kept _ a16),
      (h c main_arg17).trans (kept _ a17),
      (h c main_arg18).trans (kept _ a18),
      (h c main_arg19).trans (kept _ a19),
      (h c main_arg20).trans (kept _ a20),
      (h c main_arg21).trans (kept _ a21),
      (h c main_arg22).trans (kept _ a22)⟩)
    (run_seq scopedRefs_eq scopedSems_eq defs main (fun _ => opsAll) main_eq (fun _ => opsAll_sub) m ρ
      (fun _ => opsAll_fresh))

end Cert.RefH

end
-- ==== Proof.lean ====
/-
  Three losses, each the mean of a per-row term: one over the lidar rows, one for each radar over its rows and its
  nearest reference points. The kernel program computes them by five tiled kernel calls between array operations it
  shares with the reference. Over the extended reals a sum over all rows is the sum over the blocks of each block's sum,
  and 2·(p·g) = (2·p)·g termwise because 2 is a non-negative real; every other step is the same operation on both sides.
-/
import proofs.«132617_j16140487098675_1_alg».proof.Defs
import proofs.«132617_j16140487098675_1_alg».proof.Proof.KI.Frame
import proofs.«132617_j16140487098675_1_alg».proof.Proof.K.Frame
import proofs.«132617_j16140487098675_1_alg».proof.Proof.Val.Bridge
import proofs.«132617_j16140487098675_1_alg».proof.Proof.RefH.Run
import proofs.«132617_j16140487098675_1_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_main (F := Bits) m ρ

theorem frame_ki : Cert.frame_KernelIdeal := fun m ρ _ => Cert.KernelIdeal.Hand.frame_main (F := Ideal) m ρ

/-- The reference's run, with what it says of the result dropped. -/
theorem frame_ri : Cert.frame_ReferenceIdeal := fun m ρ _ =>
  (θ_run Cert.ReferenceIdeal.defs _ _).mono (fun _ h c => (h c).2) (Cert.RefH.ref_run_val (F := Ideal) m ρ)

/-- Both runs end; the kernel's result is the reference's result of the same arguments, and the memories agree on these. -/
theorem algebraic : Cert.algebraic_KernelIdeal_ReferenceIdeal := by
  intro m ρ m' ρ' _ hagree
  refine ⟨fun c => Cert.KernelIdeal.Hand.W23 m ρ c (Proc.devRef .tc Cert.KernelIdeal.main_v281),
    Cert.KernelIdeal.Hand.result_main (F := Ideal) m ρ, ?_⟩
  refine (θ_run Cert.ReferenceIdeal.defs _ _).mono (fun _ h c => ⟨(h c).1.trans ?_, (h c).2⟩)
    (Cert.RefH.ref_run_val (F := Ideal) m' ρ')
  obtain ⟨e0, e1, e2, e3, e4, e5, e6, e7, e8, e9, e10, e11, e12, e13, e14, e15, e16, e17, e18, e19, e20, e21, e22⟩ := hagree c
  rw [e0, e1, e2, e3, e4, e5, e6, e7, e8, e9, e10, e11, e12, e13, e14, e15, e16, e17, e18, e19, e20, e21, e22]
  exact (Cert.Val.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
